-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v104)) (v1 : (c : Dev Cert.KernelIdeal.nD) → Buf (Elt Ideal) ((c.tc : Thread Cert.KernelIdeal.nD Cert.KernelIdeal.τ).loc Cert.KernelIdeal.main_v158)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_v158) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v199) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S320000x128 : Shape := ⟨2, ![320000, 128]⟩
abbrev S2x160000 : Shape := ⟨2, ![2, 160000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S384x128 : Shape := ⟨2, ![384, 128]⟩
abbrev S128x256 : Shape := ⟨2, ![128, 256]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S320000x128 : S_.BroadcastsInDim S320000x128 (![] : Fin 0 → Fin S320000x128.rank)
  reducesTo_S320000x128_S_d0_1 : S320000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S128x256 : S_.BroadcastsInDim S128x256 (![] : Fin 0 → Fin S128x256.rank)
  reducesTo_S128x256_S_d0_1 : S128x256.ReducesTo [0, 1] S_
  reducesTo_S_S_d : S_.ReducesTo [] S_

variable [Facts]

def fn_part5 {F : FTy → Type} [FloatOps F] (main_arg19 : FVec F S_ .f32) (main_arg20 : FVec F S_ .f32) (main_v83 : IVec S_ 1) (main_v84 : FVec F S_ .f32) (main_cst_32 : FVec F S_ .f32) : IVec S_ 1 :=
  let main_v85 : IVec S_ 1 := cmpf .olt main_v84 main_cst_32
  let main_c_33 : IVec S_ 1 := constantI S_ 1 1#1
  let main_v86 : IVec S_ 1 := (fun x v => Host.reduce IntOp.andi x v reducesTo_S_S_d h_S_) main_v85 main_c_33
  let main_v87 : IVec S_ 1 := andi main_v83 main_v86
  let main_v88 : FVec F S_ .f32 := Host.absf main_arg19
  let main_cst_34 : FVec F S_ .f32 := constant S_ .f32 0x7F800000#32
  let main_v89 : IVec S_ 1 := cmpf .olt main_v88 main_cst_34
  let main_c_35 : IVec S_ 1 := constantI S_ 1 1#1
  let main_v90 : IVec S_ 1 := (fun x v => Host.reduce IntOp.andi x v reducesTo_S_S_d h_S_) main_v89 main_c_35
  let main_v91 : IVec S_ 1 := andi main_v87 main_v90
  let main_v92 : FVec F S_ .f32 := Host.absf main_arg20
  let main_cst_36 : FVec F S_ .f32 := constant S_ .f32 0x7F800000#32
  let main_v93 : IVec S_ 1 := cmpf .olt main_v92 main_cst_36
  let main_c_37 : IVec S_ 1 := constantI S_ 1 1#1
  let main_v94 : IVec S_ 1 := (fun x v => Host.reduce IntOp.andi x v reducesTo_S_S_d h_S_) main_v93 main_c_37
  let main_v95 : IVec S_ 1 := andi main_v91 main_v94
  main_v95

def fn_part4 {F : FTy → Type} [FloatOps F] (main_arg15 : FVec F S256x128 .f32) (main_arg16 : FVec F S128 .f32) (main_arg17 : FVec F S128 .f32) (main_arg18 : FVec F S_ .f32) (main_arg19 : FVec F S_ .f32) (main_arg20 : FVec F S_ .f32) (main_v63 : IVec S_ 1) (main_v67 : IVec S_ 1) : IVec S_ 1 :=
  let main_v68 : IVec S_ 1 := andi main_v63 main_v67
  let main_v69 : FVec F S256x128 .f32 := Host.absf main_arg15
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S_ .f32 := Host.absf main_arg18
  let main_cst_32 : FVec F S_ .f32 := constant S_ .f32 0x7F800000#32
  fn_part5 (F := F) main_arg19 main_arg20 main_v83 main_v84 main_cst_32

def fn_part3 {F : FTy → Type} [FloatOps F] (main_arg12 : FVec F S128x256 .f32) (main_arg13 : FVec F S256 .f32) (main_arg14 : FVec F S256 .f32) (main_arg15 : FVec F S256x128 .f32) (main_arg16 : FVec F S128 .f32) (main_arg17 : FVec F S128 .f32) (main_arg18 : FVec F S_ .f32) (main_arg19 : FVec F S_ .f32) (main_arg20 : FVec F S_ .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x256 .f32 := Host.absf main_arg12
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_arg16 main_arg17 main_arg18 main_arg19 main_arg20 main_v63 main_v67

def fn_part2 {F : FTy → Type} [FloatOps F] (main_arg8 : FVec F S128 .f32) (main_arg9 : FVec F S384x128 .f32) (main_arg10 : FVec F S128 .f32) (main_arg11 : FVec F S128 .f32) (main_arg12 : FVec F S128x256 .f32) (main_arg13 : FVec F S256 .f32) (main_arg14 : FVec F S256 .f32) (main_arg15 : FVec F S256x128 .f32) (main_arg16 : FVec F S128 .f32) (main_arg17 : FVec F S128 .f32) (main_arg18 : FVec F S_ .f32) (main_arg19 : FVec F S_ .f32) (main_arg20 : FVec F S_ .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S384x128 .f32 := Host.absf main_arg9
  let main_cst_14 : FVec F S_ .f32 := constant S_ .f32 0x7F800000#32
  let main_v40 : FVec F S384x128 .f32 := broadcastInDim S384x128 ![] bcast_S_S384x128 main_cst_14
  let main_v41 : IVec S384x128 1 := cmpf .olt main_v39 main_v40
  let main_c_15 : IVec S_ 1 := constantI S_ 1 1#1
  let main_v42 : IVec S_ 1 := (fun x v => Host.reduce IntOp.andi x v reducesTo_S384x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_v48 main_v49 main_v50

def fn_part1 {F : FTy → Type} [FloatOps F] (main_arg5 : FVec F S256 .f32) (main_arg6 : FVec F S256x128 .f32) (main_arg7 : FVec F S128 .f32) (main_arg8 : FVec F S128 .f32) (main_arg9 : FVec F S384x128 .f32) (main_arg10 : FVec F S128 .f32) (main_arg11 : FVec F S128 .f32) (main_arg12 : FVec F S128x256 .f32) (main_arg13 : FVec F S256 .f32) (main_arg14 : FVec F S256 .f32) (main_arg15 : FVec F S256x128 .f32) (main_arg16 : FVec F S128 .f32) (main_arg17 : FVec F S128 .f32) (main_arg18 : FVec F S_ .f32) (main_arg19 : FVec F S_ .f32) (main_arg20 : FVec F S_ .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S20000x128 .f32) (main_arg1 : FVec F S320000x128 .f32) (main_arg2 : IVec S2x160000 32) (main_arg3 : FVec F S256x256 .f32) (main_arg4 : FVec F S256 .f32) (main_arg5 : FVec F S256 .f32) (main_arg6 : FVec F S256x128 .f32) (main_arg7 : FVec F S128 .f32) (main_arg8 : FVec F S128 .f32) (main_arg9 : FVec F S384x128 .f32) (main_arg10 : FVec F S128 .f32) (main_arg11 : FVec F S128 .f32) (main_arg12 : FVec F S128x256 .f32) (main_arg13 : FVec F S256 .f32) (main_arg14 : FVec F S256 .f32) (main_arg15 : FVec F S256x128 .f32) (main_arg16 : FVec F S128 .f32) (main_arg17 : FVec F S128 .f32) (main_arg18 : FVec F S_ .f32) (main_arg19 : FVec F S_ .f32) (main_arg20 : FVec F S_ .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S320000x128 .f32 := Host.absf main_arg1
  let main_cst_0 : FVec F S_ .f32 := constant S_ .f32 0x7F800000#32
  let main_v5 : FVec F S320000x128 .f32 := broadcastInDim S320000x128 ![] bcast_S_S320000x128 main_cst_0
  let main_v6 : IVec S320000x128 1 := cmpf .olt main_v4 main_v5
  let main_c_1 : IVec S_ 1 := constantI S_ 1 1#1
  let main_v7 : IVec S_ 1 := (fun x v => Host.reduce IntOp.andi x v reducesTo_S320000x128_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S20000x128 : Shape := ⟨2, ![20000, 128]⟩
abbrev S320000x128 : Shape := ⟨2, ![320000, 128]⟩
abbrev S2x160000 : Shape := ⟨2, ![2, 160000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S384x128 : Shape := ⟨2, ![384, 128]⟩
abbrev S128x256 : Shape := ⟨2, ![128, 256]⟩
abbrev S_ : Shape := ⟨0, ![]⟩
abbrev S1x160000 : Shape := ⟨2, ![1, 160000]⟩
abbrev S160000 : Shape := ⟨1, ![160000]⟩
abbrev S160000x1 : Shape := ⟨2, ![160000, 1]⟩
abbrev S160000x128 : Shape := ⟨2, ![160000, 128]⟩
abbrev S160000x256 : Shape := ⟨2, ![160000, 256]⟩
abbrev S320000x256 : Shape := ⟨2, ![320000, 256]⟩
abbrev S160000x2x128 : Shape := ⟨3, ![160000, 2, 128]⟩
abbrev S160000x1x128 : Shape := ⟨3, ![160000, 1, 128]⟩
abbrev S320000x384 : Shape := ⟨2, ![320000, 384]⟩
abbrev S1x128 : Shape := ⟨2, ![1, 128]⟩
abbrev S4000x384 : Shape := ⟨2, ![4000, 384]⟩
abbrev S4000x128 : Shape := ⟨2, ![4000, 128]⟩
abbrev S320000 : Shape := ⟨1, ![320000]⟩
abbrev S320000x1 : Shape := ⟨2, ![320000, 1]⟩
abbrev S20000x256 : Shape := ⟨2, ![20000, 256]⟩
abbrev S1x256 : Shape := ⟨2, ![1, 256]⟩
abbrev S2000x128 : Shape := ⟨2, ![2000, 128]⟩
abbrev S2000x256 : Shape := ⟨2, ![2000, 256]⟩
abbrev S4000x256 : Shape := ⟨2, ![4000, 256]⟩

abbrev nBuf : Space → Nat
  | .hbm => 215
  | .vmem => 65
  | .smem => 0
  | _ => 0

abbrev hbmTy0_0 (i : Nat) : BufTy := match i % 128 with
  | 0 => ⟨S20000x128, .f32⟩
  | 1 => ⟨S320000x128, .f32⟩
  | 2 => ⟨S2x160000, .i32⟩
  | 3 => ⟨S256x256, .f32⟩
  | 4 => ⟨S256, .f32⟩
  | 5 => ⟨S256, .f32⟩
  | 6 => ⟨S256x128, .f32⟩
  | 7 => ⟨S128, .f32⟩
  | 8 => ⟨S128, .f32⟩
  | 9 => ⟨S384x128, .f32⟩
  | 10 => ⟨S128, .f32⟩
  | 11 => ⟨S128, .f32⟩
  | 12 => ⟨S128x256, .f32⟩
  | 13 => ⟨S256, .f32⟩
  | 14 => ⟨S256, .f32⟩
  | 15 => ⟨S256x128, .f32⟩
  | 16 => ⟨S128, .f32⟩
  | 17 => ⟨S128, .f32⟩
  | 18 => ⟨S_, .f32⟩
  | 19 => ⟨S_, .f32⟩
  | 20 => ⟨S_, .f32⟩
  | 21 => ⟨S1x160000, .i32⟩
  | 22 => ⟨S160000, .i32⟩
  | 23 => ⟨S1x160000, .i32⟩
  | 24 => ⟨S160000, .i32⟩
  | 25 => ⟨S_, .i32⟩
  | 26 => ⟨S160000, .i32⟩
  | 27 => ⟨S160000, .i1⟩
  | 28 => ⟨S_, .i32⟩
  | 29 => ⟨S160000, .i32⟩
  | 30 => ⟨S160000, .i32⟩
  | 31 => ⟨S160000, .i32⟩
  | 32 => ⟨S160000x1, .i32⟩
  | 33 => ⟨S160000x128, .f32⟩
  | 34 => ⟨S_, .i32⟩
  | 35 => ⟨S160000, .i32⟩
  | 36 => ⟨S160000, .i1⟩
  | 37 => ⟨S_, .i32⟩
  | 38 => ⟨S160000, .i32⟩
  | 39 => ⟨S160000, .i32⟩
  | 40 => ⟨S160000, .i32⟩
  | 41 => ⟨S160000x1, .i32⟩
  | 42 => ⟨S160000x128, .f32⟩
  | 43 => ⟨S160000x128, .f32⟩
  | 44 => ⟨S160000x256, .f32⟩
  | 45 => ⟨S160000x256, .f32⟩
  | 46 => ⟨S320000x256, .f32⟩
  | 47 => ⟨S160000x2x128, .f32⟩
  | 48 => ⟨S160000x1x128, .f32⟩
  | 49 => ⟨S160000x128, .f32⟩
  | 50 => ⟨S160000x1x128, .f32⟩
  | 51 => ⟨S160000x128, .f32⟩
  | 52 => ⟨S320000x128, .f32⟩
  | 53 => ⟨S320000x384, .f32⟩
  | 54 => ⟨S320000x128, .f32⟩
  | 55 => ⟨S1x128, .f32⟩
  | 56 => ⟨S1x128, .f32⟩
  | 57 => ⟨S128, .f32⟩
  | 58 => ⟨S_, .f32⟩
  | 59 => ⟨S128, .f32⟩
  | 60 => ⟨S128, .f32⟩
  | 61 => ⟨S128, .f32⟩
  | 62 => ⟨S_, .f32⟩
  | 63 => ⟨S128, .f32⟩
  | 64 => ⟨S128, .f32⟩
  | 65 => ⟨S128, .f32⟩
  | 66 => ⟨S128, .f32⟩
  | 67 => ⟨S_, .f32⟩
  | 68 => ⟨S128, .f32⟩
  | 69 => ⟨S128, .f32⟩
  | 70 => ⟨S128, .f32⟩
  | 71 => ⟨S128, .f32⟩
  | 72 => ⟨S1x128, .f32⟩
  | 73 => ⟨S128, .f32⟩
  | 74 => ⟨S128, .f32⟩
  | 75 => ⟨S128, .f32⟩
  | 76 => ⟨S1x128, .f32⟩
  | 77 => ⟨S320000x128, .f32⟩
  | 78 => ⟨S320000, .i32⟩
  | 79 => ⟨S160000x128, .f32⟩
  | 80 => ⟨S160000x128, .f32⟩
  | 81 => ⟨S160000x128, .f32⟩
  | 82 => ⟨S_, .f32⟩
  | 83 => ⟨S20000x128, .f32⟩
  | 84 => ⟨S320000x1, .i32⟩
  | 85 => ⟨S20000x128, .f32⟩
  | 86 => ⟨S320000x128, .f32⟩
  | 87 => ⟨S_, .f32⟩
  | 88 => ⟨S20000x128, .f32⟩
  | 89 => ⟨S320000x1, .i32⟩
  | 90 => ⟨S20000x128, .f32⟩
  | 91 => ⟨S_, .f32⟩
  | 92 => ⟨S_, .f32⟩
  | 93 => ⟨S20000x128, .f32⟩
  | 94 => ⟨S20000x128, .f32⟩
  | 95 => ⟨S_, .f32⟩
  | 96 => ⟨S_, .f32⟩
  | 97 => ⟨S20000x128, .f32⟩
  | 98 => ⟨S20000x128, .f32⟩
  | 99 => ⟨S20000x128, .f32⟩
  | 100 => ⟨S20000x128, .f32⟩
  | 101 => ⟨S20000x256, .f32⟩
  | 102 => ⟨S1x256, .f32⟩
  | 103 => ⟨S1x256, .f32⟩
  | 104 => ⟨S256, .f32⟩
  | 105 => ⟨S_, .f32⟩
  | 106 => ⟨S256, .f32⟩
  | 107 => ⟨S256, .f32⟩
  | 108 => ⟨S256, .f32⟩
  | 109 => ⟨S_, .f32⟩
  | 110 => ⟨S256, .f32⟩
  | 111 => ⟨S256, .f32⟩
  | 112 => ⟨S256, .f32⟩
  | 113 => ⟨S256, .f32⟩
  | 114 => ⟨S_, .f32⟩
  | 115 => ⟨S256, .f32⟩
  | 116 => ⟨S256, .f32⟩
  | 117 => ⟨S256, .f32⟩
  | 118 => ⟨S256, .f32⟩
  | 119 => ⟨S1x256, .f32⟩
  | 120 => ⟨S256, .f32⟩
  | 121 => ⟨S256, .f32⟩
  | 122 => ⟨S256, .f32⟩
  | 123 => ⟨S1x256, .f32⟩
  | 124 => ⟨S20000x256, .f32⟩
  | 125 => ⟨S20000x128, .f32⟩
  | 126 => ⟨S1x128, .f32⟩
  | 127 => ⟨S1x128, .f32⟩
  | _ => ⟨S20000x128, .f32⟩

abbrev hbmTy0_1 (i : Nat) : BufTy := match i % 128 with
  | 0 => ⟨S128, .f32⟩
  | 1 => ⟨S_, .f32⟩
  | 2 => ⟨S128, .f32⟩
  | 3 => ⟨S128, .f32⟩
  | 4 => ⟨S128, .f32⟩
  | 5 => ⟨S_, .f32⟩
  | 6 => ⟨S128, .f32⟩
  | 7 => ⟨S128, .f32⟩
  | 8 => ⟨S128, .f32⟩
  | 9 => ⟨S128, .f32⟩
  | 10 => ⟨S_, .f32⟩
  | 11 => ⟨S128, .f32⟩
  | 12 => ⟨S128, .f32⟩
  | 13 => ⟨S128, .f32⟩
  | 14 => ⟨S128, .f32⟩
  | 15 => ⟨S1x128, .f32⟩
  | 16 => ⟨S128, .f32⟩
  | 17 => ⟨S128, .f32⟩
  | 18 => ⟨S128, .f32⟩
  | 19 => ⟨S1x128, .f32⟩
  | 20 => ⟨S20000x128, .f32⟩
  | 21 => ⟨S160000x128, .f32⟩
  | 22 => ⟨S_, .f32⟩
  | 23 => ⟨S160000x128, .f32⟩
  | 24 => ⟨S160000x128, .f32⟩
  | 25 => ⟨S160000x256, .f32⟩
  | 26 => ⟨S160000x256, .f32⟩
  | 27 => ⟨S320000x256, .f32⟩
  | 28 => ⟨S_, .f32⟩
  | 29 => ⟨S_, .f32⟩
  | 30 => ⟨S320000x256, .f32⟩
  | 31 => ⟨S320000x256, .f32⟩
  | 32 => ⟨S320000x256, .f32⟩
  | 33 => ⟨S320000x256, .f32⟩
  | 34 => ⟨S1x256, .f32⟩
  | 35 => ⟨S1x256, .f32⟩
  | 36 => ⟨S256, .f32⟩
  | 37 => ⟨S_, .f32⟩
  | 38 => ⟨S256, .f32⟩
  | 39 => ⟨S256, .f32⟩
  | 40 => ⟨S256, .f32⟩
  | 41 => ⟨S_, .f32⟩
  | 42 => ⟨S256, .f32⟩
  | 43 => ⟨S256, .f32⟩
  | 44 => ⟨S256, .f32⟩
  | 45 => ⟨S256, .f32⟩
  | 46 => ⟨S_, .f32⟩
  | 47 => ⟨S256, .f32⟩
  | 48 => ⟨S256, .f32⟩
  | 49 => ⟨S256, .f32⟩
  | 50 => ⟨S256, .f32⟩
  | 51 => ⟨S1x256, .f32⟩
  | 52 => ⟨S256, .f32⟩
  | 53 => ⟨S256, .f32⟩
  | 54 => ⟨S256, .f32⟩
  | 55 => ⟨S1x256, .f32⟩
  | 56 => ⟨S320000x256, .f32⟩
  | 57 => ⟨S320000x128, .f32⟩
  | 58 => ⟨S1x128, .f32⟩
  | 59 => ⟨S1x128, .f32⟩
  | 60 => ⟨S128, .f32⟩
  | 61 => ⟨S_, .f32⟩
  | 62 => ⟨S128, .f32⟩
  | 63 => ⟨S128, .f32⟩
  | 64 => ⟨S128, .f32⟩
  | 65 => ⟨S_, .f32⟩
  | 66 => ⟨S128, .f32⟩
  | 67 => ⟨S128, .f32⟩
  | 68 => ⟨S128, .f32⟩
  | 69 => ⟨S128, .f32⟩
  | 70 => ⟨S_, .f32⟩
  | 71 => ⟨S128, .f32⟩
  | 72 => ⟨S128, .f32⟩
  | 73 => ⟨S128, .f32⟩
  | 74 => ⟨S128, .f32⟩
  | 75 => ⟨S1x128, .f32⟩
  | 76 => ⟨S128, .f32⟩
  | 77 => ⟨S128, .f32⟩
  | 78 => ⟨S128, .f32⟩
  | 79 => ⟨S1x128, .f32⟩
  | 80 => ⟨S320000x128, .f32⟩
  | 81 => ⟨S160000x128, .f32⟩
  | 82 => ⟨S160000x128, .f32⟩
  | 83 => ⟨S160000x1x128, .f32⟩
  | 84 => ⟨S160000x1x128, .f32⟩
  | 85 => ⟨S160000x2x128, .f32⟩
  | 86 => ⟨S320000x128, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | .local _ .vmem, ⟨0, _⟩ => ⟨S4000x384, .f32⟩
  | .local _ .vmem, ⟨1, _⟩ => ⟨S4000x384, .f32⟩
  | .local _ .vmem, ⟨2, _⟩ => ⟨S384x128, .f32⟩
  | .local _ .vmem, ⟨3, _⟩ => ⟨S4000x128, .f32⟩
  | .local _ .vmem, ⟨4, _⟩ => ⟨S4000x128, .f32⟩
  | .local _ .vmem, ⟨5, _⟩ => ⟨S1x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | .local _ .vmem, ⟨9, _⟩ => ⟨S1x128, .f32⟩
  | .local _ .vmem, ⟨10, _⟩ => ⟨S1x128, .f32⟩
  | .local _ .vmem, ⟨11, _⟩ => ⟨S4000x128, .f32⟩
  | .local _ .vmem, ⟨12, _⟩ => ⟨S4000x128, .f32⟩
  | .local _ .vmem, ⟨13, _⟩ => ⟨S2000x128, .f32⟩
  | .local _ .vmem, ⟨14, _⟩ => ⟨S2000x128, .f32⟩
  | .local _ .vmem, ⟨15, _⟩ => ⟨S128x256, .f32⟩
  | .local _ .vmem, ⟨16, _⟩ => ⟨S2000x256, .f32⟩
  | .local _ .vmem, ⟨17, _⟩ => ⟨S2000x256, .f32⟩
  | .local _ .vmem, ⟨18, _⟩ => ⟨S1x256, .f32⟩
  | .local _ .vmem, ⟨19, _⟩ => ⟨S1x256, .f32⟩
  | .local _ .vmem, ⟨20, _⟩ => ⟨S2000x256, .f32⟩
  | .local _ .vmem, ⟨21, _⟩ => ⟨S2000x256, .f32⟩
  | .local _ .vmem, ⟨22, _⟩ => ⟨S1x256, .f32⟩
  | .local _ .vmem, ⟨23, _⟩ => ⟨S1x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S256x128, .f32⟩
  | .local _ .vmem, ⟨29, _⟩ => ⟨S2000x128, .f32⟩
  | .local _ .vmem, ⟨30, _⟩ => ⟨S2000x128, .f32⟩
  | .local _ .vmem, ⟨31, _⟩ => ⟨S1x128, .f32⟩
  | .local _ .vmem, ⟨32, _⟩ => ⟨S1x128, .f32⟩
  | .local _ .vmem, ⟨33, _⟩ => ⟨S2000x128, .f32⟩
  | .local _ .vmem, ⟨34, _⟩ => ⟨S2000x128, .f32⟩
  | .local _ .vmem, ⟨35, _⟩ => ⟨S1x128, .f32⟩
  | .local _ .vmem, ⟨36, _⟩ => ⟨S1x128, .f32⟩
  | .local _ .vmem, ⟨37, _⟩ => ⟨S2000x128, .f32⟩
  | .local _ .vmem, ⟨38, _⟩ => ⟨S2000x128, .f32⟩
  | .local _ .vmem, ⟨39, _⟩ => ⟨S4000x256, .f32⟩
  | .local _ .vmem, ⟨40, _⟩ => ⟨S4000x256, .f32⟩
  | .local _ .vmem, ⟨41, _⟩ => ⟨S256x256, .f32⟩
  | .local _ .vmem, ⟨42, _⟩ => ⟨S4000x256, .f32⟩
  | .local _ .vmem, ⟨43, _⟩ => ⟨S4000x256, .f32⟩
  | .local _ .vmem, ⟨44, _⟩ => ⟨S1x256, .f32⟩
  | .local _ .vmem, ⟨45, _⟩ => ⟨S1x256, .f32⟩
  | .local _ .vmem, ⟨46, _⟩ => ⟨S4000x256, .f32⟩
  | .local _ .vmem, ⟨47, _⟩ => ⟨S4000x256, .f32⟩
  | .local _ .vmem, ⟨48, _⟩ => ⟨S1x256, .f32⟩
  | .local _ .vmem, ⟨49, _⟩ => ⟨S1x256, .f32⟩
  | .local _ .vmem, ⟨50, _⟩ => ⟨S4000x256, .f32⟩
  | .local _ .vmem, ⟨51, _⟩ => ⟨S4000x256, .f32⟩
  | .local _ .vmem, ⟨52, _⟩ => ⟨S4000x256, .f32⟩
  | .local _ .vmem, ⟨53, _⟩ => ⟨S4000x256, .f32⟩
  | .local _ .vmem, ⟨54, _⟩ => ⟨S256x128, .f32⟩
  | .local _ .vmem, ⟨55, _⟩ => ⟨S4000x128, .f32⟩
  | .local _ .vmem, ⟨56, _⟩ => ⟨S4000x128, .f32⟩
  | .local _ .vmem, ⟨57, _⟩ => ⟨S1x128, .f32⟩
  | .local _ .vmem, ⟨58, _⟩ => ⟨S1x128, .f32⟩
  | .local _ .vmem, ⟨59, _⟩ => ⟨S4000x128, .f32⟩
  | .local _ .vmem, ⟨60, _⟩ => ⟨S4000x128, .f32⟩
  | .local _ .vmem, ⟨61, _⟩ => ⟨S1x128, .f32⟩
  | .local _ .vmem, ⟨62, _⟩ => ⟨S1x128, .f32⟩
  | .local _ .vmem, ⟨63, _⟩ => ⟨S4000x128, .f32⟩
  | .local _ .vmem, ⟨64, _⟩ => ⟨S4000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_1 : Ref sig .tc := ⟨.hbm, 34, rfl⟩
abbrev main_v11 : Ref sig .tc := ⟨.hbm, 35, rfl⟩
abbrev main_v12 : Ref sig .tc := ⟨.hbm, 36, rfl⟩
abbrev main_c_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29_0 : Ref sig .tc := ⟨.hbm, 54, rfl⟩
abbrev main_v29_1 : Ref sig .tc := ⟨.hbm, 55, rfl⟩
abbrev main_v29_2 : Ref sig .tc := ⟨.hbm, 56, rfl⟩
abbrev main_v30 : Ref sig .tc := ⟨.hbm, 57, rfl⟩
abbrev main_cst : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_3 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_4 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_5 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_6 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_7 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_8 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67_0 : Ref sig .tc := ⟨.hbm, 101, rfl⟩
abbrev main_v67_1 : Ref sig .tc := ⟨.hbm, 102, rfl⟩
abbrev main_v67_2 : Ref sig .tc := ⟨.hbm, 103, rfl⟩
abbrev main_v68 : Ref sig .tc := ⟨.hbm, 104, rfl⟩
abbrev main_cst_9 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_10 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_11 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86_0 : Ref sig .tc := ⟨.hbm, 125, rfl⟩
abbrev main_v86_1 : Ref sig .tc := ⟨.hbm, 126, rfl⟩
abbrev main_v86_2 : Ref sig .tc := ⟨.hbm, 127, rfl⟩
abbrev main_v87 : Ref sig .tc := ⟨.hbm, 128, rfl⟩
abbrev main_cst_12 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_13 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_14 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_cst_15 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_16 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115_0 : Ref sig .tc := ⟨.hbm, 161, rfl⟩
abbrev main_v115_1 : Ref sig .tc := ⟨.hbm, 162, rfl⟩
abbrev main_v115_2 : Ref sig .tc := ⟨.hbm, 163, rfl⟩
abbrev main_v116 : Ref sig .tc := ⟨.hbm, 164, rfl⟩
abbrev main_cst_17 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_cst_18 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_cst_19 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134_0 : Ref sig .tc := ⟨.hbm, 185, rfl⟩
abbrev main_v134_1 : Ref sig .tc := ⟨.hbm, 186, rfl⟩
abbrev main_v134_2 : Ref sig .tc := ⟨.hbm, 187, rfl⟩
abbrev main_v135 : Ref sig .tc := ⟨.hbm, 188, rfl⟩
abbrev main_cst_20 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_cst_21 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_cst_22 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc4_stg3_0 : Ref sig .tc := ⟨.vmem, 31, rfl⟩
abbrev cc4_stg4_0 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg3_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg2_1 : Ref sig .tc := ⟨.vmem, 43, rfl⟩
abbrev cc6_stg3_0 : Ref sig .tc := ⟨.vmem, 44, rfl⟩
abbrev cc6_stg4_0 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg2_0 : Ref sig .tc := ⟨.vmem, 49, rfl⟩
abbrev cc7_stg3_0 : Ref sig .tc := ⟨.vmem, 50, rfl⟩
abbrev cc7_stg3_1 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg2_0 : Ref sig .tc := ⟨.vmem, 55, rfl⟩
abbrev cc8_stg2_1 : Ref sig .tc := ⟨.vmem, 56, rfl⟩
abbrev cc8_stg3_0 : Ref sig .tc := ⟨.vmem, 57, rfl⟩
abbrev cc8_stg4_0 : Ref sig .tc := ⟨.vmem, 58, rfl⟩
abbrev cc9_stg0_0 : Ref sig .tc := ⟨.vmem, 59, rfl⟩
abbrev cc9_stg0_1 : Ref sig .tc := ⟨.vmem, 60, rfl⟩
abbrev cc9_stg1_0 : Ref sig .tc := ⟨.vmem, 61, rfl⟩
abbrev cc9_stg2_0 : Ref sig .tc := ⟨.vmem, 62, rfl⟩
abbrev cc9_stg3_0 : Ref sig .tc := ⟨.vmem, 63, rfl⟩
abbrev cc9_stg3_1 : Ref sig .tc := ⟨.vmem, 64, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem4_0 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc4_sem3_0 : DmaSem sig := 31
abbrev cc4_sem4_0 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem3_1 : DmaSem sig := 38
abbrev cc6_sem0_0 : DmaSem sig := 39
abbrev cc6_sem0_1 : DmaSem sig := 40
abbrev cc6_sem1_0 : DmaSem sig := 41
abbrev cc6_sem2_0 : DmaSem sig := 42
abbrev cc6_sem2_1 : DmaSem sig := 43
abbrev cc6_sem3_0 : DmaSem sig := 44
abbrev cc6_sem4_0 : DmaSem sig := 45
abbrev cc7_sem0_0 : DmaSem sig := 46
abbrev cc7_sem0_1 : DmaSem sig := 47
abbrev cc7_sem1_0 : DmaSem sig := 48
abbrev cc7_sem2_0 : DmaSem sig := 49
abbrev cc7_sem3_0 : DmaSem sig := 50
abbrev cc7_sem3_1 : DmaSem sig := 51
abbrev cc8_sem0_0 : DmaSem sig := 52
abbrev cc8_sem0_1 : DmaSem sig := 53
abbrev cc8_sem1_0 : DmaSem sig := 54
abbrev cc8_sem2_0 : DmaSem sig := 55
abbrev cc8_sem2_1 : DmaSem sig := 56
abbrev cc8_sem3_0 : DmaSem sig := 57
abbrev cc8_sem4_0 : DmaSem sig := 58
abbrev cc9_sem0_0 : DmaSem sig := 59
abbrev cc9_sem0_1 : DmaSem sig := 60
abbrev cc9_sem1_0 : DmaSem sig := 61
abbrev cc9_sem2_0 : DmaSem sig := 62
abbrev cc9_sem3_0 : DmaSem sig := 63
abbrev cc9_sem3_1 : DmaSem sig := 64

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![80], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S4000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S4000x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev grid7 : Pipeline.Grid := ⟨1, ![80], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S4000x256 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![80], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S4000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S256x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S4000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev grid9 : Pipeline.Grid := ⟨1, ![80], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S4000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  concatenates_S160000x128_S160000x128_S160000x256_d1 : Shape.Concatenates [S160000x128, S160000x128] S160000x256 1
  concatenates_S160000x256_S160000x256_S320000x256_d0 : Shape.Concatenates [S160000x256, S160000x256] S320000x256 0
  shapeCasts_S320000x128_S160000x2x128 : S320000x128.ShapeCasts S160000x2x128
  slices_S160000x2x128_S160000x1x128_0_0_0 : S160000x2x128.Slices ![0, 0, 0] S160000x1x128
  shapeCasts_S160000x1x128_S160000x128 : S160000x1x128.ShapeCasts S160000x128
  slices_S160000x2x128_S160000x1x128_0_1_0 : S160000x2x128.Slices ![0, 1, 0] S160000x1x128
  concatenates_S160000x128_S160000x128_S320000x128_d0 : Shape.Concatenates [S160000x128, S160000x128] S320000x128 0
  concatenates_S320000x256_S320000x128_S320000x384_d1 : Shape.Concatenates [S320000x256, S320000x128] S320000x384 1
  inb_S1x128_S1x128_0_0 : ∀ a, (![0, 0] : Fin 2 → Nat) a + S1x128.size a ≤ S1x128.size a
  h_S1x128 : 0 < S1x128.numel
  inb_S4000x384_S4000x384_0_0 : ∀ a, (![0, 0] : Fin 2 → Nat) a + S4000x384.size a ≤ S4000x384.size a
  h_S4000x384 : 0 < S4000x384.numel
  shapeCasts_S4000x384_S4000x384 : S4000x384.ShapeCasts S4000x384
  bitsLt_bf16_f32 : FTy.bits .bf16 < FTy.bits .f32
  inb_S384x128_S384x128_0_0 : ∀ a, (![0, 0] : Fin 2 → Nat) a + S384x128.size a ≤ S384x128.size a
  h_S384x128 : 0 < S384x128.numel
  inb_S4000x128_S4000x128_0_0 : ∀ a, (![0, 0] : Fin 2 → Nat) a + S4000x128.size a ≤ S4000x128.size a
  h_S4000x128 : 0 < S4000x128.numel
  shapeCasts_S1x128_S1x128 : S1x128.ShapeCasts S1x128
  reduces_S4000x128_S128 : S4000x128.Reduces [0] S128
  shapeCasts_S128_S1x128 : S128.ShapeCasts S1x128
  shapeCasts_S1x128_S128 : S1x128.ShapeCasts S128
  bcast_S_S128 : S_.BroadcastsInDim S128 (![] : Fin 0 → Fin S128.rank)
  shapeCasts_S4000x128_S4000x128 : S4000x128.ShapeCasts S4000x128
  broadcasts_S1x128_S4000x128 : S1x128.Broadcasts S4000x128
  concatenates_S160000_S160000_S320000_d0 : Shape.Concatenates [S160000, S160000] S320000 0
  slices_S320000x128_S160000x128_0_0 : S320000x128.Slices ![0, 0] S160000x128
  slices_S320000x128_S160000x128_160000_0 : S320000x128.Slices ![160000, 0] S160000x128
  bcast_S_S20000x128 : S_.BroadcastsInDim S20000x128 (![] : Fin 0 → Fin S20000x128.rank)
  bcast_S320000_S320000x1_0 : S320000.BroadcastsInDim S320000x1 (![0] : Fin 1 → Fin S320000x1.rank)
  inb_S1x256_S1x256_0_0 : ∀ a, (![0, 0] : Fin 2 → Nat) a + S1x256.size a ≤ S1x256.size a
  h_S1x256 : 0 < S1x256.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  shapeCasts_S1x256_S1x256 : S1x256.ShapeCasts S1x256
  reduces_S2000x256_S256 : S2000x256.Reduces [0] S256
  shapeCasts_S256_S1x256 : S256.ShapeCasts S1x256
  shapeCasts_S1x256_S256 : S1x256.ShapeCasts S256
  bcast_S_S256 : S_.BroadcastsInDim S256 (![] : Fin 0 → Fin S256.rank)
  shapeCasts_S2000x256_S2000x256 : S2000x256.ShapeCasts S2000x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  reduces_S2000x128_S128 : S2000x128.Reduces [0] S128
  broadcasts_S1x128_S2000x128 : S1x128.Broadcasts S2000x128
  bcast_S_S160000x128 : S_.BroadcastsInDim S160000x128 (![] : Fin 0 → Fin S160000x128.rank)
  bcast_S_S320000x256 : S_.BroadcastsInDim S320000x256 (![] : Fin 0 → Fin S320000x256.rank)
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x256_S256x256_0_0 : ∀ a, (![0, 0] : Fin 2 → Nat) a + S256x256.size a ≤ S256x256.size a
  h_S256x256 : 0 < S256x256.numel
  reduces_S4000x256_S256 : S4000x256.Reduces [0] S256
  broadcasts_S1x256_S4000x256 : S1x256.Broadcasts S4000x256
  bcast_S160000x128_S160000x1x128_0_2 : S160000x128.BroadcastsInDim S160000x1x128 (![0, 2] : Fin 2 → Fin S160000x1x128.rank)
  concatenates_S160000x1x128_S160000x1x128_S160000x2x128_d1 : Shape.Concatenates [S160000x1x128, S160000x1x128] S160000x2x128 1
  shapeCasts_S160000x2x128_S320000x128 : S160000x2x128.ShapeCasts S320000x128
  gather_S20000x128_S160000x1_S160000x128_1_0_n_n_0_1_1128_wf : GatherDims.WF S20000x128 S160000x1 S160000x128 [1] [0] [] [0] [] 1 ![1, 128]
  dot_S4000x384_S384x128_S4000x128_1_0_0_1_n_n_wf : DotDims.WF S4000x384 S384x128 S4000x128 [1] [0] [0] [1] [] []
  scatter_S20000x128_S320000x1_S320000x128_1_0_0_1_wf : ScatterDims.WF S20000x128 S320000x1 S320000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  dot_S4000x256_S256x256_S4000x256_1_0_0_1_n_n_wf : DotDims.WF S4000x256 S256x256 S4000x256 [1] [0] [0] [1] [] []
  dot_S4000x256_S256x128_S4000x128_1_0_0_1_n_n_wf : DotDims.WF S4000x256 S256x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x384.size a ≤ S320000x384.size a
  hwx0_0 : ∀ i : grid0.Coords, EltTy.bits .f32 = 32 ∨ (Rect.block (s := S320000x384) S4000x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x128.size a ≤ S384x128.size a
  hwx0_1 : ∀ i : grid0.Coords, EltTy.bits .f32 = 32 ∨ (Rect.block (s := S384x128) S384x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S320000x128.size a
  hwx0_2 : ∀ i : grid0.Coords, EltTy.bits .f32 = 32 ∨ (Rect.block (s := S320000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S320000x128.size a
  hwx1_0 : ∀ i : grid1.Coords, EltTy.bits .f32 = 32 ∨ (Rect.block (s := S320000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S320000x128.size a
  hwx1_3 : ∀ i : grid1.Coords, EltTy.bits .f32 = 32 ∨ (Rect.block (s := S320000x128) S4000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S20000x128.size a
  hwx2_0 : ∀ i : grid2.Coords, EltTy.bits .f32 = 32 ∨ (Rect.block (s := S20000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S20000x256.size a
  hwx2_2 : ∀ i : grid2.Coords, EltTy.bits .f32 = 32 ∨ (Rect.block (s := S20000x256) S2000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .f32 = 32 ∨ (Rect.block (s := S20000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S20000x256.size a
  hwx3_3 : ∀ i : grid3.Coords, EltTy.bits .f32 = 32 ∨ (Rect.block (s := S20000x256) S2000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S20000x256.size a
  hwx4_0 : ∀ i : grid4.Coords, EltTy.bits .f32 = 32 ∨ (Rect.block (s := S20000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S20000x128.size a
  hwx4_2 : ∀ i : grid4.Coords, EltTy.bits .f32 = 32 ∨ (Rect.block (s := S20000x128) S2000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S20000x128.size a
  hwx5_0 : ∀ i : grid5.Coords, EltTy.bits .f32 = 32 ∨ (Rect.block (s := S20000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S20000x128.size a
  hwx5_3 : ∀ i : grid5.Coords, EltTy.bits .f32 = 32 ∨ (Rect.block (s := S20000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x256.size a ≤ S320000x256.size a
  hwx6_0 : ∀ i : grid6.Coords, EltTy.bits .f32 = 32 ∨ (Rect.block (s := S320000x256) S4000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .f32 = 32 ∨ (Rect.block (s := S256x256) S256x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x256.size a ≤ S320000x256.size a
  hwx6_2 : ∀ i : grid6.Coords, EltTy.bits .f32 = 32 ∨ (Rect.block (s := S320000x256) S4000x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x256.size a ≤ S320000x256.size a
  hwx7_0 : ∀ i : grid7.Coords, EltTy.bits .f32 = 32 ∨ (Rect.block (s := S320000x256) S4000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x256.size a ≤ S1x256.size a
  hwx7_1 : ∀ i : grid7.Coords, EltTy.bits .f32 = 32 ∨ (Rect.block (s := S1x256) S1x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S4000x256.size a ≤ S320000x256.size a
  hwx7_3 : ∀ i : grid7.Coords, EltTy.bits .f32 = 32 ∨ (Rect.block (s := S320000x256) S4000x256.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x256.size a ≤ S320000x256.size a
  hwx8_0 : ∀ i : grid8.Coords, EltTy.bits .f32 = 32 ∨ (Rect.block (s := S320000x256) S4000x256.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S256x128.size a ≤ S256x128.size a
  hwx8_1 : ∀ i : grid8.Coords, EltTy.bits .f32 = 32 ∨ (Rect.block (s := S256x128) S256x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S4000x128.size a ≤ S320000x128.size a
  hwx8_2 : ∀ i : grid8.Coords, EltTy.bits .f32 = 32 ∨ (Rect.block (s := S320000x128) S4000x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4000x128.size a ≤ S320000x128.size a
  hwx9_0 : ∀ i : grid9.Coords, EltTy.bits .f32 = 32 ∨ (Rect.block (s := S320000x128) S4000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S4000x128.size a ≤ S320000x128.size a
  hwx9_3 : ∀ i : grid9.Coords, EltTy.bits .f32 = 32 ∨ (Rect.block (s := S320000x128) S4000x128.size (cc9_transform_3 i) (hinb9_3 i)).WholeWords (EltTy.packing .f32)

variable [Facts₀]

def gather_S20000x128_S160000x1_S160000x128_1_0_n_n_0_1_1128 : GatherDims S20000x128 S160000x1 S160000x128 where
  offsetDims := [1]
  collapsedSliceDims := [0]
  operandBatchingDims := []
  startIndicesBatchingDims := []
  startIndexMap := [0]
  indexVectorDim := 1
  sliceSizes := ![1, 128]
  wf := gather_S20000x128_S160000x1_S160000x128_1_0_n_n_0_1_1128_wf
def dot_S4000x384_S384x128_S4000x128_1_0_0_1_n_n : DotDims S4000x384 S384x128 S4000x128 where
  lhsContracting := [1]
  rhsContracting := [0]
  lhsNonContracting := [0]
  rhsNonContracting := [1]
  lhsBatch := []
  rhsBatch := []
  wf := dot_S4000x384_S384x128_S4000x128_1_0_0_1_n_n_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf

abbrev win0_0 : Pipeline.Window sig grid0 :=
  Pipeline.Window.ofSpec (Memref.whole main_v28) S4000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29_0) S4000x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29_1) S1x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29_2) S1x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v29_0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v66) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg12) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67_0) S2000x256.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v67_1) S1x256.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67_2) S1x256.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v67_0) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v80) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v84) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v85) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v85) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg15) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v86_0) S2000x128.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v86_1) S1x128.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v86_2) S1x128.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v86_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v99) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v103) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v104) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v114) S4000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg3) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v115_0) S4000x256.size cc6_transform_2 reads6_2 true false 2 stage6_2 sem6_2
    hrank6 hreads6_2 hinb6_2 nbuf6_2 (Memref.isWhole_whole _) hwx6_2 hstage6_2

abbrev win6_3 : Pipeline.Window sig grid6 :=
  Pipeline.Window.ofSpec (Memref.whole main_v115_1) S1x256.size cc6_transform_3 reads6_3 true true 1 stage6_3 sem6_3
    hrank6 hreads6_3 hinb6_3 nbuf6_3 (Memref.isWhole_whole _) hwx6_3 hstage6_3

abbrev win6_4 : Pipeline.Window sig grid6 :=
  Pipeline.Window.ofSpec (Memref.whole main_v115_2) S1x256.size cc6_transform_4 reads6_4 true true 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v115_0) S4000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v128) S1x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v132) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v133) S4000x256.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v133) S4000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg6) S256x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v134_0) S4000x128.size cc8_transform_2 reads8_2 true false 2 stage8_2 sem8_2
    hrank8 hreads8_2 hinb8_2 nbuf8_2 (Memref.isWhole_whole _) hwx8_2 hstage8_2

abbrev win8_3 : Pipeline.Window sig grid8 :=
  Pipeline.Window.ofSpec (Memref.whole main_v134_1) S1x128.size cc8_transform_3 reads8_3 true true 1 stage8_3 sem8_3
    hrank8 hreads8_3 hinb8_3 nbuf8_3 (Memref.isWhole_whole _) hwx8_3 hstage8_3

abbrev win8_4 : Pipeline.Window sig grid8 :=
  Pipeline.Window.ofSpec (Memref.whole main_v134_2) S1x128.size cc8_transform_4 reads8_4 true true 1 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v134_0) S4000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v147) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v151) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v152) S4000x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S20000x128 : Shape := ⟨2, ![20000, 128]⟩
abbrev S320000x128 : Shape := ⟨2, ![320000, 128]⟩
abbrev S2x160000 : Shape := ⟨2, ![2, 160000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S384x128 : Shape := ⟨2, ![384, 128]⟩
abbrev S128x256 : Shape := ⟨2, ![128, 256]⟩
abbrev S_ : Shape := ⟨0, ![]⟩
abbrev S160000x2 : Shape := ⟨2, ![160000, 2]⟩
abbrev S320000 : Shape := ⟨1, ![320000]⟩
abbrev S160000 : Shape := ⟨1, ![160000]⟩
abbrev S320000x1 : Shape := ⟨2, ![320000, 1]⟩
abbrev S160000x128 : Shape := ⟨2, ![160000, 128]⟩
abbrev S320000x256 : Shape := ⟨2, ![320000, 256]⟩
abbrev S320000x384 : Shape := ⟨2, ![320000, 384]⟩
abbrev S1x128 : Shape := ⟨2, ![1, 128]⟩
abbrev S20000x256 : Shape := ⟨2, ![20000, 256]⟩
abbrev S1x256 : Shape := ⟨2, ![1, 256]⟩

abbrev nBuf : Space → Nat
  | .hbm => 273
  | .vmem => 0
  | .smem => 0
  | _ => 0

abbrev hbmTy0_0 (i : Nat) : BufTy := match i % 128 with
  | 0 => ⟨S20000x128, .f32⟩
  | 1 => ⟨S320000x128, .f32⟩
  | 2 => ⟨S2x160000, .i32⟩
  | 3 => ⟨S256x256, .f32⟩
  | 4 => ⟨S256, .f32⟩
  | 5 => ⟨S256, .f32⟩
  | 6 => ⟨S256x128, .f32⟩
  | 7 => ⟨S128, .f32⟩
  | 8 => ⟨S128, .f32⟩
  | 9 => ⟨S384x128, .f32⟩
  | 10 => ⟨S128, .f32⟩
  | 11 => ⟨S128, .f32⟩
  | 12 => ⟨S128x256, .f32⟩
  | 13 => ⟨S256, .f32⟩
  | 14 => ⟨S256, .f32⟩
  | 15 => ⟨S256x128, .f32⟩
  | 16 => ⟨S128, .f32⟩
  | 17 => ⟨S128, .f32⟩
  | 18 => ⟨S_, .f32⟩
  | 19 => ⟨S_, .f32⟩
  | 20 => ⟨S_, .f32⟩
  | 21 => ⟨S160000x2, .i32⟩
  | 22 => ⟨S320000, .i32⟩
  | 23 => ⟨S160000, .i32⟩
  | 24 => ⟨S160000x2, .i32⟩
  | 25 => ⟨S320000, .i32⟩
  | 26 => ⟨S_, .i32⟩
  | 27 => ⟨S320000, .i32⟩
  | 28 => ⟨S320000, .i1⟩
  | 29 => ⟨S_, .i32⟩
  | 30 => ⟨S320000, .i32⟩
  | 31 => ⟨S320000, .i32⟩
  | 32 => ⟨S320000, .i32⟩
  | 33 => ⟨S320000x1, .i32⟩
  | 34 => ⟨S320000x128, .f32⟩
  | 35 => ⟨S_, .f32⟩
  | 36 => ⟨S160000x128, .f32⟩
  | 37 => ⟨S320000x1, .i32⟩
  | 38 => ⟨S160000x128, .f32⟩
  | 39 => ⟨S_, .i32⟩
  | 40 => ⟨S320000, .i32⟩
  | 41 => ⟨S320000, .i1⟩
  | 42 => ⟨S_, .i32⟩
  | 43 => ⟨S320000, .i32⟩
  | 44 => ⟨S320000, .i32⟩
  | 45 => ⟨S320000, .i32⟩
  | 46 => ⟨S320000x1, .i32⟩
  | 47 => ⟨S320000x128, .f32⟩
  | 48 => ⟨S320000x256, .f32⟩
  | 49 => ⟨S320000x384, .f32⟩
  | 50 => ⟨S320000x128, .f32⟩
  | 51 => ⟨S_, .f32⟩
  | 52 => ⟨S128, .f32⟩
  | 53 => ⟨S_, .f32⟩
  | 54 => ⟨S128, .f32⟩
  | 55 => ⟨S128, .f32⟩
  | 56 => ⟨S1x128, .f32⟩
  | 57 => ⟨S320000x128, .f32⟩
  | 58 => ⟨S320000x128, .f32⟩
  | 59 => ⟨S320000x128, .f32⟩
  | 60 => ⟨S_, .f32⟩
  | 61 => ⟨S128, .f32⟩
  | 62 => ⟨S_, .f32⟩
  | 63 => ⟨S128, .f32⟩
  | 64 => ⟨S128, .f32⟩
  | 65 => ⟨S1x128, .f32⟩
  | 66 => ⟨S320000x128, .f32⟩
  | 67 => ⟨S320000x128, .f32⟩
  | 68 => ⟨S_, .f32⟩
  | 69 => ⟨S128, .f32⟩
  | 70 => ⟨S128, .f32⟩
  | 71 => ⟨S128, .f32⟩
  | 72 => ⟨S1x128, .f32⟩
  | 73 => ⟨S320000x128, .f32⟩
  | 74 => ⟨S320000x128, .f32⟩
  | 75 => ⟨S1x128, .f32⟩
  | 76 => ⟨S320000x128, .f32⟩
  | 77 => ⟨S320000x128, .f32⟩
  | 78 => ⟨S1x128, .f32⟩
  | 79 => ⟨S320000x128, .f32⟩
  | 80 => ⟨S320000x128, .f32⟩
  | 81 => ⟨S_, .f32⟩
  | 82 => ⟨S320000x128, .f32⟩
  | 83 => ⟨S320000x128, .f32⟩
  | 84 => ⟨S_, .f32⟩
  | 85 => ⟨S20000x128, .f32⟩
  | 86 => ⟨S320000x1, .i32⟩
  | 87 => ⟨S20000x128, .f32⟩
  | 88 => ⟨S_, .f32⟩
  | 89 => ⟨S160000x128, .f32⟩
  | 90 => ⟨S320000x1, .i32⟩
  | 91 => ⟨S160000x128, .f32⟩
  | 92 => ⟨S_, .i32⟩
  | 93 => ⟨S320000, .i32⟩
  | 94 => ⟨S320000, .i1⟩
  | 95 => ⟨S_, .i32⟩
  | 96 => ⟨S320000, .i32⟩
  | 97 => ⟨S320000, .i32⟩
  | 98 => ⟨S320000, .i32⟩
  | 99 => ⟨S320000x1, .i32⟩
  | 100 => ⟨S320000x128, .f32⟩
  | 101 => ⟨S_, .f32⟩
  | 102 => ⟨S20000x128, .f32⟩
  | 103 => ⟨S320000x1, .i32⟩
  | 104 => ⟨S20000x128, .f32⟩
  | 105 => ⟨S_, .f32⟩
  | 106 => ⟨S_, .f32⟩
  | 107 => ⟨S20000x128, .f32⟩
  | 108 => ⟨S20000x128, .f32⟩
  | 109 => ⟨S_, .f32⟩
  | 110 => ⟨S_, .f32⟩
  | 111 => ⟨S20000x128, .f32⟩
  | 112 => ⟨S20000x128, .f32⟩
  | 113 => ⟨S20000x128, .f32⟩
  | 114 => ⟨S20000x128, .f32⟩
  | 115 => ⟨S20000x256, .f32⟩
  | 116 => ⟨S_, .f32⟩
  | 117 => ⟨S256, .f32⟩
  | 118 => ⟨S_, .f32⟩
  | 119 => ⟨S256, .f32⟩
  | 120 => ⟨S256, .f32⟩
  | 121 => ⟨S1x256, .f32⟩
  | 122 => ⟨S20000x256, .f32⟩
  | 123 => ⟨S20000x256, .f32⟩
  | 124 => ⟨S20000x256, .f32⟩
  | 125 => ⟨S_, .f32⟩
  | 126 => ⟨S256, .f32⟩
  | 127 => ⟨S_, .f32⟩
  | _ => ⟨S20000x128, .f32⟩

abbrev hbmTy0_1 (i : Nat) : BufTy := match i % 128 with
  | 0 => ⟨S256, .f32⟩
  | 1 => ⟨S256, .f32⟩
  | 2 => ⟨S1x256, .f32⟩
  | 3 => ⟨S20000x256, .f32⟩
  | 4 => ⟨S20000x256, .f32⟩
  | 5 => ⟨S_, .f32⟩
  | 6 => ⟨S256, .f32⟩
  | 7 => ⟨S256, .f32⟩
  | 8 => ⟨S256, .f32⟩
  | 9 => ⟨S1x256, .f32⟩
  | 10 => ⟨S20000x256, .f32⟩
  | 11 => ⟨S20000x256, .f32⟩
  | 12 => ⟨S1x256, .f32⟩
  | 13 => ⟨S20000x256, .f32⟩
  | 14 => ⟨S20000x256, .f32⟩
  | 15 => ⟨S1x256, .f32⟩
  | 16 => ⟨S20000x256, .f32⟩
  | 17 => ⟨S20000x256, .f32⟩
  | 18 => ⟨S_, .f32⟩
  | 19 => ⟨S20000x256, .f32⟩
  | 20 => ⟨S20000x256, .f32⟩
  | 21 => ⟨S20000x128, .f32⟩
  | 22 => ⟨S_, .f32⟩
  | 23 => ⟨S128, .f32⟩
  | 24 => ⟨S_, .f32⟩
  | 25 => ⟨S128, .f32⟩
  | 26 => ⟨S128, .f32⟩
  | 27 => ⟨S1x128, .f32⟩
  | 28 => ⟨S20000x128, .f32⟩
  | 29 => ⟨S20000x128, .f32⟩
  | 30 => ⟨S20000x128, .f32⟩
  | 31 => ⟨S_, .f32⟩
  | 32 => ⟨S128, .f32⟩
  | 33 => ⟨S_, .f32⟩
  | 34 => ⟨S128, .f32⟩
  | 35 => ⟨S128, .f32⟩
  | 36 => ⟨S1x128, .f32⟩
  | 37 => ⟨S20000x128, .f32⟩
  | 38 => ⟨S20000x128, .f32⟩
  | 39 => ⟨S_, .f32⟩
  | 40 => ⟨S128, .f32⟩
  | 41 => ⟨S128, .f32⟩
  | 42 => ⟨S128, .f32⟩
  | 43 => ⟨S1x128, .f32⟩
  | 44 => ⟨S20000x128, .f32⟩
  | 45 => ⟨S20000x128, .f32⟩
  | 46 => ⟨S1x128, .f32⟩
  | 47 => ⟨S20000x128, .f32⟩
  | 48 => ⟨S20000x128, .f32⟩
  | 49 => ⟨S1x128, .f32⟩
  | 50 => ⟨S20000x128, .f32⟩
  | 51 => ⟨S20000x128, .f32⟩
  | 52 => ⟨S_, .f32⟩
  | 53 => ⟨S20000x128, .f32⟩
  | 54 => ⟨S20000x128, .f32⟩
  | 55 => ⟨S_, .f32⟩
  | 56 => ⟨S160000x128, .f32⟩
  | 57 => ⟨S320000x1, .i32⟩
  | 58 => ⟨S160000x128, .f32⟩
  | 59 => ⟨S_, .f32⟩
  | 60 => ⟨S160000x128, .f32⟩
  | 61 => ⟨S160000x128, .f32⟩
  | 62 => ⟨S_, .i32⟩
  | 63 => ⟨S320000, .i32⟩
  | 64 => ⟨S320000, .i1⟩
  | 65 => ⟨S_, .i32⟩
  | 66 => ⟨S320000, .i32⟩
  | 67 => ⟨S320000, .i32⟩
  | 68 => ⟨S320000, .i32⟩
  | 69 => ⟨S320000x1, .i32⟩
  | 70 => ⟨S320000x128, .f32⟩
  | 71 => ⟨S320000x256, .f32⟩
  | 72 => ⟨S_, .f32⟩
  | 73 => ⟨S_, .f32⟩
  | 74 => ⟨S320000x256, .f32⟩
  | 75 => ⟨S320000x256, .f32⟩
  | 76 => ⟨S320000x256, .f32⟩
  | 77 => ⟨S320000x256, .f32⟩
  | 78 => ⟨S_, .f32⟩
  | 79 => ⟨S256, .f32⟩
  | 80 => ⟨S_, .f32⟩
  | 81 => ⟨S256, .f32⟩
  | 82 => ⟨S256, .f32⟩
  | 83 => ⟨S1x256, .f32⟩
  | 84 => ⟨S320000x256, .f32⟩
  | 85 => ⟨S320000x256, .f32⟩
  | 86 => ⟨S320000x256, .f32⟩
  | 87 => ⟨S_, .f32⟩
  | 88 => ⟨S256, .f32⟩
  | 89 => ⟨S_, .f32⟩
  | 90 => ⟨S256, .f32⟩
  | 91 => ⟨S256, .f32⟩
  | 92 => ⟨S1x256, .f32⟩
  | 93 => ⟨S320000x256, .f32⟩
  | 94 => ⟨S320000x256, .f32⟩
  | 95 => ⟨S_, .f32⟩
  | 96 => ⟨S256, .f32⟩
  | 97 => ⟨S256, .f32⟩
  | 98 => ⟨S256, .f32⟩
  | 99 => ⟨S1x256, .f32⟩
  | 100 => ⟨S320000x256, .f32⟩
  | 101 => ⟨S320000x256, .f32⟩
  | 102 => ⟨S1x256, .f32⟩
  | 103 => ⟨S320000x256, .f32⟩
  | 104 => ⟨S320000x256, .f32⟩
  | 105 => ⟨S1x256, .f32⟩
  | 106 => ⟨S320000x256, .f32⟩
  | 107 => ⟨S320000x256, .f32⟩
  | 108 => ⟨S_, .f32⟩
  | 109 => ⟨S320000x256, .f32⟩
  | 110 => ⟨S320000x256, .f32⟩
  | 111 => ⟨S320000x128, .f32⟩
  | 112 => ⟨S_, .f32⟩
  | 113 => ⟨S128, .f32⟩
  | 114 => ⟨S_, .f32⟩
  | 115 => ⟨S128, .f32⟩
  | 116 => ⟨S128, .f32⟩
  | 117 => ⟨S1x128, .f32⟩
  | 118 => ⟨S320000x128, .f32⟩
  | 119 => ⟨S320000x128, .f32⟩
  | 120 => ⟨S320000x128, .f32⟩
  | 121 => ⟨S_, .f32⟩
  | 122 => ⟨S128, .f32⟩
  | 123 => ⟨S_, .f32⟩
  | 124 => ⟨S128, .f32⟩
  | 125 => ⟨S128, .f32⟩
  | 126 => ⟨S1x128, .f32⟩
  | 127 => ⟨S320000x128, .f32⟩
  | _ => ⟨S20000x128, .f32⟩

abbrev hbmTy0_2 (i : Nat) : BufTy := match i % 128 with
  | 0 => ⟨S320000x128, .f32⟩
  | 1 => ⟨S_, .f32⟩
  | 2 => ⟨S128, .f32⟩
  | 3 => ⟨S128, .f32⟩
  | 4 => ⟨S128, .f32⟩
  | 5 => ⟨S1x128, .f32⟩
  | 6 => ⟨S320000x128, .f32⟩
  | 7 => ⟨S320000x128, .f32⟩
  | 8 => ⟨S1x128, .f32⟩
  | 9 => ⟨S320000x128, .f32⟩
  | 10 => ⟨S320000x128, .f32⟩
  | 11 => ⟨S1x128, .f32⟩
  | 12 => ⟨S320000x128, .f32⟩
  | 13 => ⟨S320000x128, .f32⟩
  | 14 => ⟨S_, .f32⟩
  | 15 => ⟨S320000x128, .f32⟩
  | 16 => ⟨S320000x128, .f32⟩
  | _ => ⟨S20000x128, .f32⟩

abbrev hbmTy (i : Nat) : BufTy := match i / 128 with
  | 0 => hbmTy0_0 i
  | 1 => hbmTy0_1 i
  | 2 => hbmTy0_2 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_c : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_c_1 : Ref sig .tc := ⟨.hbm, 39, rfl⟩
abbrev main_v15 : Ref sig .tc := ⟨.hbm, 40, rfl⟩
abbrev main_v16 : Ref sig .tc := ⟨.hbm, 41, rfl⟩
abbrev main_c_2 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_3 : Ref sig .tc := ⟨.hbm, 51, rfl⟩
abbrev main_v25 : Ref sig .tc := ⟨.hbm, 52, rfl⟩
abbrev main_cst_4 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_5 : Ref sig .tc := ⟨.hbm, 60, rfl⟩
abbrev main_v32 : Ref sig .tc := ⟨.hbm, 61, rfl⟩
abbrev main_cst_6 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_7 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_call0_cst : Ref sig .tc := ⟨.hbm, 81, rfl⟩
abbrev main_call0_v0 : Ref sig .tc := ⟨.hbm, 82, rfl⟩
abbrev main_v50 : Ref sig .tc := ⟨.hbm, 83, rfl⟩
abbrev main_cst_8 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_9 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_c_10 : Ref sig .tc := ⟨.hbm, 92, rfl⟩
abbrev main_v57 : Ref sig .tc := ⟨.hbm, 93, rfl⟩
abbrev main_v58 : Ref sig .tc := ⟨.hbm, 94, rfl⟩
abbrev main_c_11 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_12 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_13 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_14 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_15 : Ref sig .tc := ⟨.hbm, 116, rfl⟩
abbrev main_v76 : Ref sig .tc := ⟨.hbm, 117, rfl⟩
abbrev main_cst_16 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_17 : Ref sig .tc := ⟨.hbm, 125, rfl⟩
abbrev main_v83 : Ref sig .tc := ⟨.hbm, 126, rfl⟩
abbrev main_cst_18 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_19 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_call1_cst : Ref sig .tc := ⟨.hbm, 146, rfl⟩
abbrev main_call1_v0 : Ref sig .tc := ⟨.hbm, 147, rfl⟩
abbrev main_v101 : Ref sig .tc := ⟨.hbm, 148, rfl⟩
abbrev main_v102 : Ref sig .tc := ⟨.hbm, 149, rfl⟩
abbrev main_cst_20 : Ref sig .tc := ⟨.hbm, 150, rfl⟩
abbrev main_v103 : Ref sig .tc := ⟨.hbm, 151, rfl⟩
abbrev main_cst_21 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_22 : Ref sig .tc := ⟨.hbm, 159, rfl⟩
abbrev main_v110 : Ref sig .tc := ⟨.hbm, 160, rfl⟩
abbrev main_cst_23 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_cst_24 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_call2_cst : Ref sig .tc := ⟨.hbm, 180, rfl⟩
abbrev main_call2_v0 : Ref sig .tc := ⟨.hbm, 181, rfl⟩
abbrev main_v128 : Ref sig .tc := ⟨.hbm, 182, rfl⟩
abbrev main_cst_25 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_cst_26 : Ref sig .tc := ⟨.hbm, 187, rfl⟩
abbrev main_v132 : Ref sig .tc := ⟨.hbm, 188, rfl⟩
abbrev main_v133 : Ref sig .tc := ⟨.hbm, 189, rfl⟩
abbrev main_c_27 : Ref sig .tc := ⟨.hbm, 190, rfl⟩
abbrev main_v134 : Ref sig .tc := ⟨.hbm, 191, rfl⟩
abbrev main_v135 : Ref sig .tc := ⟨.hbm, 192, rfl⟩
abbrev main_c_28 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_cst_29 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_cst_30 : Ref sig .tc := ⟨.hbm, 206, rfl⟩
abbrev main_v147 : Ref sig .tc := ⟨.hbm, 207, rfl⟩
abbrev main_cst_31 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_cst_32 : Ref sig .tc := ⟨.hbm, 215, rfl⟩
abbrev main_v154 : Ref sig .tc := ⟨.hbm, 216, rfl⟩
abbrev main_cst_33 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_cst_34 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_call3_cst : Ref sig .tc := ⟨.hbm, 236, rfl⟩
abbrev main_call3_v0 : Ref sig .tc := ⟨.hbm, 237, rfl⟩
abbrev main_v172 : Ref sig .tc := ⟨.hbm, 238, rfl⟩
abbrev main_v173 : Ref sig .tc := ⟨.hbm, 239, rfl⟩
abbrev main_cst_35 : Ref sig .tc := ⟨.hbm, 240, rfl⟩
abbrev main_v174 : Ref sig .tc := ⟨.hbm, 241, rfl⟩
abbrev main_cst_36 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_cst_37 : Ref sig .tc := ⟨.hbm, 249, rfl⟩
abbrev main_v181 : Ref sig .tc := ⟨.hbm, 250, rfl⟩
abbrev main_cst_38 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_cst_39 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_v192 : Ref sig .tc := ⟨.hbm, 263, rfl⟩
abbrev main_v193 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_call4_cst : Ref sig .tc := ⟨.hbm, 270, rfl⟩
abbrev main_call4_v0 : Ref sig .tc := ⟨.hbm, 271, rfl⟩
abbrev main_v199 : Ref sig .tc := ⟨.hbm, 272, rfl⟩

abbrev nD : Nat := 1
abbrev τ : Topo := Topo.v7x

variable {F : FTy → Type} [FloatOps F]

class Facts₀ : Prop where
  transposes_S2x160000_S160000x2_1_0 : S2x160000.Transposes [1, 0] S160000x2
  shapeCasts_S160000x2_S320000 : S160000x2.ShapeCasts S320000
  bcast_S160000_S160000x2_0 : S160000.BroadcastsInDim S160000x2 (![0] : Fin 1 → Fin S160000x2.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S160000x128 : S_.BroadcastsInDim S160000x128 (![] : Fin 0 → Fin S160000x128.rank)
  concatenates_S320000x128_S320000x128_S320000x256_d1 : Shape.Concatenates [S320000x128, S320000x128] S320000x256 1
  concatenates_S320000x256_S320000x128_S320000x384_d1 : Shape.Concatenates [S320000x256, S320000x128] S320000x384 1
  reducesTo_S320000x128_S128_d0 : S320000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  bcast_S_S320000x128 : S_.BroadcastsInDim S320000x128 (![] : Fin 0 → Fin S320000x128.rank)
  bcast_S_S20000x128 : S_.BroadcastsInDim S20000x128 (![] : Fin 0 → Fin S20000x128.rank)
  reducesTo_S20000x256_S256_d0 : S20000x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S20000x256 : S_.BroadcastsInDim S20000x256 (![] : Fin 0 → Fin S20000x256.rank)
  reducesTo_S20000x128_S128_d0 : S20000x128.ReducesTo [0] S128
  bcast_S1x128_S20000x128_0_1 : S1x128.BroadcastsInDim S20000x128 (![0, 1] : Fin 2 → Fin S20000x128.rank)
  bcast_S_S320000x256 : S_.BroadcastsInDim S320000x256 (![] : Fin 0 → Fin S320000x256.rank)
  reducesTo_S320000x256_S256_d0 : S320000x256.ReducesTo [0] S256
  bcast_S1x256_S320000x256_0_1 : S1x256.BroadcastsInDim S320000x256 (![0, 1] : Fin 2 → Fin S320000x256.rank)
  gather_S20000x128_S320000x1_S320000x128_1_0_n_n_0_1_1128_wf : GatherDims.WF S20000x128 S320000x1 S320000x128 [1] [0] [] [0] [] 1 ![1, 128]
  scatter_S160000x128_S320000x1_S320000x128_1_0_0_1_wf : ScatterDims.WF S160000x128 S320000x1 S320000x128 [1] [0] [0] 1
  gather_S160000x128_S320000x1_S320000x128_1_0_n_n_0_1_1128_wf : GatherDims.WF S160000x128 S320000x1 S320000x128 [1] [0] [] [0] [] 1 ![1, 128]
  dot_S320000x384_S384x128_S320000x128_1_0_0_1_n_n_wf : DotDims.WF S320000x384 S384x128 S320000x128 [1] [0] [0] [1] [] []
  scatter_S20000x128_S320000x1_S320000x128_1_0_0_1_wf : ScatterDims.WF S20000x128 S320000x1 S320000x128 [1] [0] [0] 1
  dot_S20000x128_S128x256_S20000x256_1_0_0_1_n_n_wf : DotDims.WF S20000x128 S128x256 S20000x256 [1] [0] [0] [1] [] []
  dot_S20000x256_S256x128_S20000x128_1_0_0_1_n_n_wf : DotDims.WF S20000x256 S256x128 S20000x128 [1] [0] [0] [1] [] []
  dot_S320000x256_S256x256_S320000x256_1_0_0_1_n_n_wf : DotDims.WF S320000x256 S256x256 S320000x256 [1] [0] [0] [1] [] []
  dot_S320000x256_S256x128_S320000x128_1_0_0_1_n_n_wf : DotDims.WF S320000x256 S256x128 S320000x128 [1] [0] [0] [1] [] []

variable [Facts₀]

def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def scatter_S160000x128_S320000x1_S320000x128_1_0_0_1 : ScatterDims S160000x128 S320000x1 S320000x128 where
  updateWindowDims := [1]
  insertedWindowDims := [0]
  scatterDimsToOperandDims := [0]
  indexVectorDim := 1
  wf := scatter_S160000x128_S320000x1_S320000x128_1_0_0_1_wf
def gather_S160000x128_S320000x1_S320000x128_1_0_n_n_0_1_1128 : GatherDims S160000x128 S320000x1 S320000x128 where
  offsetDims := [1]
  collapsedSliceDims := [0]
  operandBatchingDims := []
  startIndicesBatchingDims := []
  startIndexMap := [0]
  indexVectorDim := 1
  sliceSizes := ![1, 128]
  wf := gather_S160000x128_S320000x1_S320000x128_1_0_n_n_0_1_1128_wf
def dot_S320000x384_S384x128_S320000x128_1_0_0_1_n_n : DotDims S320000x384 S384x128 S320000x128 where
  lhsContracting := [1]
  rhsContracting := [0]
  lhsNonContracting := [0]
  rhsNonContracting := [1]
  lhsBatch := []
  rhsBatch := []
  wf := dot_S320000x384_S384x128_S320000x128_1_0_0_1_n_n_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def dot_S20000x128_S128x256_S20000x256_1_0_0_1_n_n : DotDims S20000x128 S128x256 S20000x256 where
  lhsContracting := [1]
  rhsContracting := [0]
  lhsNonContracting := [0]
  rhsNonContracting := [1]
  lhsBatch := []
  rhsBatch := []
  wf := dot_S20000x128_S128x256_S20000x256_1_0_0_1_n_n_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf
def dot_S320000x256_S256x128_S320000x128_1_0_0_1_n_n : DotDims S320000x256 S256x128 S320000x128 where
  lhsContracting := [1]
  rhsContracting := [0]
  lhsNonContracting := [0]
  rhsNonContracting := [1]
  lhsBatch := []
  rhsBatch := []
  wf := dot_S320000x256_S256x128_S320000x128_1_0_0_1_n_n_wf

class Facts : Prop extends Facts₀ where

variable [Facts]
-- ==== Proof.Spec.lean ====
import Idealize.ShloMosaic.PureOps.Ideal
import Idealize.ShloMosaic.Lib.ValueIdx

noncomputable section

namespace Cert.Spec

open Idealize.ShloMosaic Idealize.ShloMosaic.ValueIdx

def zero : EReal := Ideal.ofBits .f32 0x00000000#32
def one : EReal := Ideal.ofBits .f32 0x3F800000#32
def half : EReal := Ideal.ofBits .f32 0x3F000000#32
def eps : EReal := Ideal.ofBits .f32 0x3727C5AC#32

def cRows : EReal := Ideal.ofBits .f32 0x489C4000#32

def cNodes : EReal := Ideal.ofBits .f32 0x469C4000#32

section Block
variable {ι : Type} [Fintype ι] {K C : ℕ}

/-- Rows times a weight matrix. -/
def mm (x : ι → Fin K → EReal) (w : Fin K → Fin C → EReal) : ι → Fin C → EReal := fun p q => ∑ k, x p k * w k q

def colSum (y : ι → Fin C → EReal) : Fin C → EReal := fun q => ∑ p, y p q

def colSq (y : ι → Fin C → EReal) : Fin C → EReal := fun q => ∑ p, y p q * y p q

/-- Scale of the normalisation when it is computed from the column sum s and the column sum of squares ss over n rows. -/
def kScale (n : EReal) (s ss g : Fin C → EReal) : Fin C → EReal := fun q =>
  g q * Ideal.rsqrt ((Ideal.div (ss q) n - Ideal.div (s q) n * Ideal.div (s q) n) + eps)

/-- The matching shift, so that y · scale + shift is the normalised entry. -/
def kShift (n : EReal) (s ss g b : Fin C → EReal) : Fin C → EReal := fun q =>
  b q - Ideal.div (s q) n * kScale n s ss g q

def affRelu (y : ι → Fin C → EReal) (sc sh : Fin C → EReal) : ι → Fin C → EReal := fun p q =>
  max (y p q * sc q + sh q) zero

/-- Normalise, scale, shift and rectify, with the statistics taken as sums of y and of y². -/
def bnK (n : EReal) (y : ι → Fin C → EReal) (g b : Fin C → EReal) : ι → Fin C → EReal :=
  affRelu y (kScale n (colSum y) (colSq y) g) (kShift n (colSum y) (colSq y) g b)

def rMean (n : EReal) (y : ι → Fin C → EReal) : Fin C → EReal := fun q => Ideal.div (∑ p, y p q) n

def rVar (n : EReal) (y : ι → Fin C → EReal) : Fin C → EReal := fun q =>
  Ideal.div (∑ p, (y p q - rMean n y q) * (y p q - rMean n y q)) n

/-- The same with the entries centred first and the variance taken of the centred entries. -/
def bnR (n : EReal) (y : ι → Fin C → EReal) (g b : Fin C → EReal) : ι → Fin C → EReal := fun p q =>
  max ((((y p q - rMean n y q) * Ideal.rsqrt (rVar n y q + eps)) * g q) + b q) zero

inductive Form | k | r

def bn (f : Form) (n : EReal) (y : ι → Fin C → EReal) (g b : Fin C → EReal) : ι → Fin C → EReal :=
  match f with
  | .k => bnK n y g b
  | .r => bnR n y g b

end Block

/-- The argument arrays as functions of their coordinates. -/
structure Args where
  nr : Fin 20000 → Fin 128 → EReal
  er : Fin 320000 → Fin 128 → EReal
  ei : Fin 2 → Fin 160000 → BitVec 32
  lw1 : Fin 256 → Fin 256 → EReal
  lg1 : Fin 256 → EReal
  lb1 : Fin 256 → EReal
  lw2 : Fin 256 → Fin 128 → EReal
  lg2 : Fin 128 → EReal
  lb2 : Fin 128 → EReal
  w1 : Fin 384 → Fin 128 → EReal
  g1 : Fin 128 → EReal
  b1 : Fin 128 → EReal
  nw1 : Fin 128 → Fin 256 → EReal
  ng1 : Fin 256 → EReal
  nb1 : Fin 256 → EReal
  nw2 : Fin 256 → Fin 128 → EReal
  ng2 : Fin 128 → EReal
  nb2 : Fin 128 → EReal
  e11 : EReal
  e12 : EReal
  e2 : EReal

structure Args.Real (a : Args) : Prop where
  nr : ∀ p q, ∃ r : ℝ, a.nr p q = (r : EReal)
  er : ∀ p q, ∃ r : ℝ, a.er p q = (r : EReal)
  lw1 : ∀ p q, ∃ r : ℝ, a.lw1 p q = (r : EReal)
  lg1 : ∀ q, ∃ r : ℝ, a.lg1 q = (r : EReal)
  lb1 : ∀ q, ∃ r : ℝ, a.lb1 q = (r : EReal)
  lw2 : ∀ p q, ∃ r : ℝ, a.lw2 p q = (r : EReal)
  lg2 : ∀ q, ∃ r : ℝ, a.lg2 q = (r : EReal)
  lb2 : ∀ q, ∃ r : ℝ, a.lb2 q = (r : EReal)
  w1 : ∀ p q, ∃ r : ℝ, a.w1 p q = (r : EReal)
  g1 : ∀ q, ∃ r : ℝ, a.g1 q = (r : EReal)
  b1 : ∀ q, ∃ r : ℝ, a.b1 q = (r : EReal)
  nw1 : ∀ p q, ∃ r : ℝ, a.nw1 p q = (r : EReal)
  ng1 : ∀ q, ∃ r : ℝ, a.ng1 q = (r : EReal)
  nb1 : ∀ q, ∃ r : ℝ, a.nb1 q = (r : EReal)
  nw2 : ∀ p q, ∃ r : ℝ, a.nw2 p q = (r : EReal)
  ng2 : ∀ q, ∃ r : ℝ, a.ng2 q = (r : EReal)
  nb2 : ∀ q, ∃ r : ℝ, a.nb2 q = (r : EReal)
  e11 : ∃ r : ℝ, a.e11 = (r : EReal)
  e12 : ∃ r : ℝ, a.e12 = (r : EReal)
  e2 : ∃ r : ℝ, a.e2 = (r : EReal)

/-- A row of an edge-side array is named by (endpoint, edge). -/
abbrev Side := Fin 2 × Fin 160000

def nrm (n w : BitVec 32) : BitVec 32 := Scalar.select (IntOp.cmpi .slt w 0#32) (IntOp.addi w n) w

/-- The node an index word selects: a negative word wraps once, then the value is clamped to the table. -/
def gNode (w : BitVec 32) : Fin 20000 := ⟨min (nrm 20000#32 w).toInt.toNat 19999, by omega⟩

def hit (w : BitVec 32) (n : Fin 20000) : Prop := w.toInt = (n.val : Int)

instance (w : BitVec 32) (n : Fin 20000) : Decidable (hit w n) := by unfold hit; infer_instance

/-- edge_rep holds an edge's two rows next to each other. -/
def erRow (je : Side) : Fin 320000 := ⟨2 * je.2.val + je.1.val, by have := je.1.isLt; have := je.2.isLt; omega⟩

variable (a : Args)

def g (je : Side) (q : Fin 128) : EReal := a.nr (gNode (a.ei je.1 je.2)) q

def dom (e : Fin 160000) (q : Fin 128) : EReal := g a (0, e) q + g a (1, e) q

def la (je : Side) (q : Fin 256) : EReal :=
  if h : q.val < 128 then dom a je.2 ⟨q.val, h⟩ else g a je ⟨q.val - 128, by have := q.isLt; omega⟩

def x0 (je : Side) (q : Fin 384) : EReal :=
  if h : q.val < 256 then la a je ⟨q.val, h⟩ else a.er (erRow je) ⟨q.val - 256, by have := q.isLt; omega⟩

/-- A node's input: its own row, and the rows of H summed over the edge endpoints that name the node. -/
def nodeInOf (H : Side → Fin 128 → EReal) (n : Fin 20000) (q : Fin 128) : EReal :=
  ((one + a.e11) * a.nr n q + (one + a.e12) * (∑ je : Side, if hit (a.ei je.1 je.2) n then H je q else 0))
    + (∑ je : Side, if hit (a.ei je.1 je.2) n then (H (0, je.2) q + H (1, je.2) q) else 0)

def em (e : Fin 160000) (q : Fin 128) : EReal := (a.er (erRow (0, e)) q + a.er (erRow (1, e)) q) * half

def lm (je : Side) (q : Fin 256) : EReal :=
  if h : q.val < 128 then em a je.2 ⟨q.val, h⟩ else a.er (erRow je) ⟨q.val - 128, by have := q.isLt; omega⟩

def edgeIn (je : Side) (q : Fin 256) : EReal := (one + a.e2) * lm a je q + la a je q

variable (f : Form)

def h : Side → Fin 128 → EReal := bn f cRows (mm (x0 a) a.w1) a.g1 a.b1
def nodeIn : Fin 20000 → Fin 128 → EReal := nodeInOf a (h a f)
def nodeH : Fin 20000 → Fin 256 → EReal := bn f cNodes (mm (nodeIn a f) a.nw1) a.ng1 a.nb1

def nodeOut : Fin 20000 → Fin 128 → EReal := bn f cNodes (mm (nodeH a f) a.nw2) a.ng2 a.nb2
def edgeH : Side → Fin 256 → EReal := bn f cRows (mm (edgeIn a) a.lw1) a.lg1 a.lb1

def edgeOut : Side → Fin 128 → EReal := bn f cRows (mm (edgeH a f) a.lw2) a.lg2 a.lb2

def ofMat {α : Type} {A C : ℕ} (F : Fin A → Fin C → α) : (⟨2, ![A, C]⟩ : Shape).Idx → α :=
  fun i => F ⟨(i 0).val, (i 0).isLt⟩ ⟨(i 1).val, (i 1).isLt⟩

def ofVec {α : Type} {C : ℕ} (F : Fin C → α) : (⟨1, ![C]⟩ : Shape).Idx → α := fun i => F ⟨(i 0).val, (i 0).isLt⟩

def ofRow {α : Type} {C : ℕ} (F : Fin C → α) : (⟨2, ![1, C]⟩ : Shape).Idx → α := fun i => F ⟨(i 1).val, (i 1).isLt⟩

def ofScalar {α : Type} (x : α) : (⟨0, ![]⟩ : Shape).Idx → α := fun _ => x

/-- Row r as (endpoint, edge) when all first endpoints come before all second endpoints. -/
def kSide (r : Fin 320000) : Side := (⟨r.val / 160000, by have := r.isLt; omega⟩, ⟨r.val % 160000, Nat.mod_lt _ (by decide)⟩)

/-- Row r as (endpoint, edge) when an edge's two rows are adjacent. -/
def rSide (r : Fin 320000) : Side := (⟨r.val % 2, Nat.mod_lt _ (by decide)⟩, ⟨r.val / 2, by have := r.isLt; omega⟩)

def ofRowsK {C : ℕ} (F : Side → Fin C → EReal) : (⟨2, ![320000, C]⟩ : Shape).Idx → EReal :=
  ofMat fun r q => F (kSide r) q

def ofRowsR {C : ℕ} (F : Side → Fin C → EReal) : (⟨2, ![320000, C]⟩ : Shape).Idx → EReal :=
  ofMat fun r q => F (rSide r) q

end Cert.Spec

end
-- ==== Proof.KArgs.lean ====
import proofs.«160401_j10462540333326_1_alg».proof.KernelIdeal
import proofs.«160401_j10462540333326_1_alg».proof.Proof.Spec

noncomputable section

namespace Cert.KernelIdeal

open Idealize.ShloMosaic Idealize.ShloMosaic.ValueIdx Idealize.SL.Sem

def args (m : (ℓ : Loc nD τ sig) → Buf (Elt Ideal) ℓ) (c : Dev nD) : Cert.Spec.Args where
  nr := fun p q => m ((c.tc : Thread nD τ).loc main_arg0) (ix2 p q)
  er := fun p q => m ((c.tc : Thread nD τ).loc main_arg1) (ix2 p q)
  ei := fun p q => m ((c.tc : Thread nD τ).loc main_arg2) (ix2 p q)
  lw1 := fun p q => m ((c.tc : Thread nD τ).loc main_arg3) (ix2 p q)
  lg1 := fun q => m ((c.tc : Thread nD τ).loc main_arg4) (ix1 q)
  lb1 := fun q => m ((c.tc : Thread nD τ).loc main_arg5) (ix1 q)
  lw2 := fun p q => m ((c.tc : Thread nD τ).loc main_arg6) (ix2 p q)
  lg2 := fun q => m ((c.tc : Thread nD τ).loc main_arg7) (ix1 q)
  lb2 := fun q => m ((c.tc : Thread nD τ).loc main_arg8) (ix1 q)
  w1 := fun p q => m ((c.tc : Thread nD τ).loc main_arg9) (ix2 p q)
  g1 := fun q => m ((c.tc : Thread nD τ).loc main_arg10) (ix1 q)
  b1 := fun q => m ((c.tc : Thread nD τ).loc main_arg11) (ix1 q)
  nw1 := fun p q => m ((c.tc : Thread nD τ).loc main_arg12) (ix2 p q)
  ng1 := fun q => m ((c.tc : Thread nD τ).loc main_arg13) (ix1 q)
  nb1 := fun q => m ((c.tc : Thread nD τ).loc main_arg14) (ix1 q)
  nw2 := fun p q => m ((c.tc : Thread nD τ).loc main_arg15) (ix2 p q)
  ng2 := fun q => m ((c.tc : Thread nD τ).loc main_arg16) (ix1 q)
  nb2 := fun q => m ((c.tc : Thread nD τ).loc main_arg17) (ix1 q)
  e11 := m ((c.tc : Thread nD τ).loc main_arg18) ix0
  e12 := m ((c.tc : Thread nD τ).loc main_arg19) ix0
  e2 := m ((c.tc : Thread nD τ).loc main_arg20) ix0

end Cert.KernelIdeal

end
-- ==== Proof.SpecReindex.lean ====
import proofs.«160401_j10462540333326_1_alg».proof.Proof.Spec

noncomputable section

namespace Cert.Spec

def kSideEquiv : Fin 320000 ≃ Side where
  toFun := kSide
  invFun := fun je => ⟨je.1.val * 160000 + je.2.val, by have := je.1.isLt; have := je.2.isLt; omega⟩
  left_inv := by
    intro r
    apply Fin.ext
    show r.val / 160000 * 160000 + r.val % 160000 = r.val
    omega
  right_inv := by
    rintro ⟨j, e⟩
    have hj := j.isLt
    have he := e.isLt
    apply Prod.ext
    · apply Fin.ext
      show (j.val * 160000 + e.val) / 160000 = j.val
      omega
    · apply Fin.ext
      show (j.val * 160000 + e.val) % 160000 = e.val
      omega

def rSideEquiv : Fin 320000 ≃ Side where
  toFun := rSide
  invFun := erRow
  left_inv := by
    intro r
    apply Fin.ext
    show 2 * (r.val / 2) + r.val % 2 = r.val
    omega
  right_inv := by
    rintro ⟨j, e⟩
    have hj := j.isLt
    have he := e.isLt
    apply Prod.ext
    · apply Fin.ext
      show (2 * e.val + j.val) % 2 = j.val
      omega
    · apply Fin.ext
      show (2 * e.val + j.val) / 2 = e.val
      omega

theorem kSide_mk (j : Fin 2) (e : Fin 160000) (h : j.val * 160000 + e.val < 320000) :
    kSide ⟨j.val * 160000 + e.val, h⟩ = (j, e) := by
  have hj := j.isLt
  have he := e.isLt
  apply Prod.ext
  · apply Fin.ext
    show (j.val * 160000 + e.val) / 160000 = j.val
    omega
  · apply Fin.ext
    show (j.val * 160000 + e.val) % 160000 = e.val
    omega
theorem kSide_lo (e : Fin 160000) (h : e.val < 320000) : kSide ⟨e.val, h⟩ = (0, e) := by
  have he := e.isLt
  apply Prod.ext
  · apply Fin.ext
    show e.val / 160000 = 0
    omega
  · apply Fin.ext
    show e.val % 160000 = e.val
    omega

theorem kSide_hi (e : Fin 160000) (h : 160000 + e.val < 320000) : kSide ⟨160000 + e.val, h⟩ = (1, e) := by
  have he := e.isLt
  apply Prod.ext
  · apply Fin.ext
    show (160000 + e.val) / 160000 = 1
    omega
  · apply Fin.ext
    show (160000 + e.val) % 160000 = e.val
    omega

theorem sum_kSide {M : Type} [AddCommMonoid M] (F : Side → M) : ∑ r : Fin 320000, F (kSide r) = ∑ je : Side, F je :=
  Equiv.sum_comp kSideEquiv F
theorem sum_rSide {M : Type} [AddCommMonoid M] (F : Side → M) : ∑ r : Fin 320000, F (rSide r) = ∑ je : Side, F je :=
  Equiv.sum_comp rSideEquiv F

variable {K C : ℕ}

theorem colSum_kSide (Y : Side → Fin C → EReal) : colSum (fun r : Fin 320000 => Y (kSide r)) = colSum Y := by
  funext q
  exact sum_kSide (fun je => Y je q)
theorem colSq_kSide (Y : Side → Fin C → EReal) : colSq (fun r : Fin 320000 => Y (kSide r)) = colSq Y := by
  funext q
  exact sum_kSide (fun je => Y je q * Y je q)
theorem colSum_rSide (Y : Side → Fin C → EReal) : colSum (fun r : Fin 320000 => Y (rSide r)) = colSum Y := by
  funext q
  exact sum_rSide (fun je => Y je q)
theorem colSq_rSide (Y : Side → Fin C → EReal) : colSq (fun r : Fin 320000 => Y (rSide r)) = colSq Y := by
  funext q
  exact sum_rSide (fun je => Y je q * Y je q)

theorem rMean_kSide (n : EReal) (Y : Side → Fin C → EReal) : rMean n (fun r : Fin 320000 => Y (kSide r)) = rMean n Y := by
  funext q
  exact congrArg (fun s => Idealize.ShloMosaic.Ideal.div s n) (sum_kSide (fun je => Y je q))
theorem rMean_rSide (n : EReal) (Y : Side → Fin C → EReal) : rMean n (fun r : Fin 320000 => Y (rSide r)) = rMean n Y := by
  funext q
  exact congrArg (fun s => Idealize.ShloMosaic.Ideal.div s n) (sum_rSide (fun je => Y je q))
theorem rVar_kSide (n : EReal) (Y : Side → Fin C → EReal) : rVar n (fun r : Fin 320000 => Y (kSide r)) = rVar n Y := by
  funext q
  unfold rVar
  rw [rMean_kSide]
  exact congrArg (fun s => Idealize.ShloMosaic.Ideal.div s n) (sum_kSide (fun je => (Y je q - rMean n Y q) * (Y je q - rMean n Y q)))
theorem rVar_rSide (n : EReal) (Y : Side → Fin C → EReal) : rVar n (fun r : Fin 320000 => Y (rSide r)) = rVar n Y := by
  funext q
  unfold rVar
  rw [rMean_rSide]
  exact congrArg (fun s => Idealize.ShloMosaic.Ideal.div s n) (sum_rSide (fun je => (Y je q - rMean n Y q) * (Y je q - rMean n Y q)))

theorem bnK_kSide (n : EReal) (Y : Side → Fin C → EReal) (g b : Fin C → EReal) :
    bnK n (fun r : Fin 320000 => Y (kSide r)) g b = fun r => bnK n Y g b (kSide r) := by
  unfold bnK
  rw [colSum_kSide, colSq_kSide]
  rfl
theorem bnK_rSide (n : EReal) (Y : Side → Fin C → EReal) (g b : Fin C → EReal) :
    bnK n (fun r : Fin 320000 => Y (rSide r)) g b = fun r => bnK n Y g b (rSide r) := by
  unfold bnK
  rw [colSum_rSide, colSq_rSide]
  rfl
theorem bnR_kSide (n : EReal) (Y : Side → Fin C → EReal) (g b : Fin C → EReal) :
    bnR n (fun r : Fin 320000 => Y (kSide r)) g b = fun r => bnR n Y g b (kSide r) := by
  funext r q
  unfold bnR
  rw [rMean_kSide, rVar_kSide]
theorem bnR_rSide (n : EReal) (Y : Side → Fin C → EReal) (g b : Fin C → EReal) :
    bnR n (fun r : Fin 320000 => Y (rSide r)) g b = fun r => bnR n Y g b (rSide r) := by
  funext r q
  unfold bnR
  rw [rMean_rSide, rVar_rSide]

end Cert.Spec

end
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.LibRegion.lean ====
import proofs.«160401_j10462540333326_1_alg».proof.Proof.Spec

noncomputable section

namespace Cert.Lib.Region

open Idealize.ShloMosaic Idealize.ShloMosaic.ValueIdx
open Cert.Spec (ofMat ofRow ofVec ofScalar)

theorem hz2 : (![0, 0] : Fin 2 → Nat) = fun _ => 0 := funext fun a => by fin_cases a <;> rfl

theorem zeroWord : Ideal.ofBits .f32 0x00000000#32 = (0 : EReal) := by simp [Ideal.ofBits, Ideal.ieee]

/-- An entry of a matrix built from a function of row and column, at an index whose coordinates are known. -/
theorem ofMat_at {α : Type} {A C : ℕ} (G : Fin A → Fin C → α) (i : (⟨2, ![A, C]⟩ : Shape).Idx) (r : Fin A) (q : Fin C)
    (h0 : (i 0 : ℕ) = r.val) (h1 : (i 1 : ℕ) = q.val) : ofMat G i = G r q := by
  unfold Cert.Spec.ofMat
  congr 1
  · exact Fin.ext h0
  · exact Fin.ext h1

theorem ofRow_at {α : Type} {C : ℕ} (G : Fin C → α) (i : (⟨2, ![1, C]⟩ : Shape).Idx) (q : Fin C)
    (h1 : (i 1 : ℕ) = q.val) : ofRow G i = G q := by
  unfold Cert.Spec.ofRow
  congr 1
  exact Fin.ext h1

/-- An array is the one built from its own entries. -/
theorem eq_ofMat {α : Type} {A C : ℕ} (f : (⟨2, ![A, C]⟩ : Shape).Idx → α) : f = ofMat fun p q => f (ix2 p q) :=
  funext fun i => congrArg f (eq_ix2 i)
theorem eq_ofVec {α : Type} {C : ℕ} (f : (⟨1, ![C]⟩ : Shape).Idx → α) : f = ofVec fun q => f (ix1 q) :=
  funext fun i => congrArg f (eq_ix1 i)
theorem eq_ofScalar {α : Type} (f : (⟨0, ![]⟩ : Shape).Idx → α) : f = ofScalar (f ix0) :=
  funext fun i => congrArg f (eq_ix0 i)

end Cert.Lib.Region

end
-- ==== Proof.LibAxisSum.lean ====
/-
  The row sums and the column sums of a matrix, read at an entry (a general lemma: nothing here depends on a program).

  At the ideal values an add-reduction of an [A, K] matrix over its axis 1 holds at p the sum over k < K of the
  matrix at (p, k), and an add-reduction of a [K, C] matrix over its axis 0 holds at q the sum over k < K of the
  matrix at (k, q): the reduced index with the summed coordinate put back on its axis.
-/
import Idealize.ShloMosaic.Lib.ValueIdx
import Idealize.ShloMosaic.PureOps.Ideal.Laws

noncomputable section

open scoped BigOperators

namespace Cert.Lib.AxisSum

open Idealize.ShloMosaic Idealize.ShloMosaic.ValueIdx

/-- The sum along each row: the reduction over axis 1, at p, is the sum over the row's K entries. -/
theorem rowSum_apply {φ : FTy} {A K : Nat} (src : FVec Ideal ⟨2, ![A, K]⟩ φ) (acc : BitVec φ.bits)
    (h : (⟨2, ![A, K]⟩ : Shape).Reduces [1] ⟨1, ![A]⟩) (hφ : FKind.Formats φ) (hacc : acc = FKind.add.neutral φ hφ)
    (p : Fin A) :
    multiReduction .add [1] ⟨1, ![A]⟩ src acc h hφ hacc (ix1 p) = ∑ k : Fin K, (src (ix2 p k) : EReal) := by
  rw [Ideal.multiReduction_add_single]
  refine Finset.sum_congr rfl fun k _ => congrArg src ?_
  funext a
  match a with
  | ⟨0, _⟩ => rfl
  | ⟨1, _⟩ => rfl

/-- The sum down each column: the reduction over axis 0, at q, is the sum over the column's K entries. -/
theorem colSum_apply {φ : FTy} {K C : Nat} (src : FVec Ideal ⟨2, ![K, C]⟩ φ) (acc : BitVec φ.bits)
    (h : (⟨2, ![K, C]⟩ : Shape).Reduces [0] ⟨1, ![C]⟩) (hφ : FKind.Formats φ) (hacc : acc = FKind.add.neutral φ hφ)
    (q : Fin C) :
    multiReduction .add [0] ⟨1, ![C]⟩ src acc h hφ hacc (ix1 q) = ∑ k : Fin K, (src (ix2 k q) : EReal) := by
  rw [Ideal.multiReduction_add_single]
  refine Finset.sum_congr rfl fun k _ => congrArg src ?_
  funext a
  match a with
  | ⟨0, _⟩ => rfl
  | ⟨1, _⟩ => rfl

end Cert.Lib.AxisSum

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.LibBlockSum.lean ====
/-
  A sum over B·J consecutive naturals, block by block (a general lemma: nothing here depends on a program).
-/
import Mathlib.Algebra.BigOperators.Fin
import Mathlib.Algebra.BigOperators.Intervals

namespace BlockSum

/-- The sum of `f` over `0 … B·J − 1` is the sum over the `J` blocks of the `B` terms of each block. -/
theorem sum_blocks {β : Type*} [AddCommMonoid β] (B J : ℕ) (f : ℕ → β) :
    ∑ s ∈ Finset.range J, ∑ j : Fin B, f (B * s + j.val) = ∑ k : Fin (B * J), f k.val := by
  -- Both sides become sums over initial segments of ℕ; then one block is split off at a time.
  rw [Fin.sum_univ_eq_sum_range (fun k => f k) (B * J)]
  induction J with
  | zero => simp
  | succ J ih =>
    rw [Finset.sum_range_succ, ih, Nat.mul_succ, Finset.sum_range_add,
      Fin.sum_univ_eq_sum_range (fun j => f (B * J + j)) B]

end BlockSum
-- ==== Proof.LibStats.lean ====
import proofs.«160401_j10462540333326_1_alg».proof.Proof.LibAxisSum
import proofs.«160401_j10462540333326_1_alg».proof.Proof.LibLayout
import proofs.«160401_j10462540333326_1_alg».proof.Proof.LibBlockSum

noncomputable section

namespace Cert.Lib.Stats

open Idealize.ShloMosaic Idealize.ShloMosaic.ValueIdx

/-- A row family extended by zero past its last row, so that a row is named by a natural number. -/
def rowsN {R C : ℕ} (Y : Fin R → Fin C → EReal) (r : ℕ) (q : Fin C) : EReal := if h : r < R then Y ⟨r, h⟩ q else 0

theorem rowsN_of_lt {R C : ℕ} (Y : Fin R → Fin C → EReal) (r : ℕ) (q : Fin C) (h : r < R) :
    rowsN Y r q = Y ⟨r, h⟩ q := dif_pos h

/-- Summing N blocks of A rows each is summing over all R = A·N rows. -/
theorem total {A N R C : ℕ} (hR : A * N = R) (Y : Fin R → Fin C → EReal) (g : EReal → EReal) (q : Fin C) :
    ∑ s ∈ Finset.range N, ∑ p : Fin A, g (rowsN Y (A * s + p.val) q) = ∑ r : Fin R, g (Y r q) := by
  subst hR
  refine (BlockSum.sum_blocks A N (fun r => g (rowsN Y r q))).trans ?_
  exact Finset.sum_congr rfl fun r _ => by rw [rowsN_of_lt Y r.val q r.isLt]

/-- A one-row accumulator plus the column sums of an A-row matrix, at column q. -/
theorem upd_apply {A C : ℕ} (y : FVec Ideal ⟨2, ![A, C]⟩ .f32) (acc : Vec Ideal ⟨2, ![1, C]⟩ .f32)
    (h0 : (⟨2, ![1, C]⟩ : Shape).ShapeCasts ⟨2, ![1, C]⟩) (hr : (⟨2, ![A, C]⟩ : Shape).Reduces [0] ⟨1, ![C]⟩)
    (h1 : (⟨1, ![C]⟩ : Shape).ShapeCasts ⟨2, ![1, C]⟩) (z : Fin 1) (q : Fin C) :
    (addf (shapeCast ⟨2, ![1, C]⟩ acc h0)
        (shapeCast ⟨2, ![1, C]⟩ (multiReduction .add [0] ⟨1, ![C]⟩ y 0x00000000#32 hr (.inl rfl) rfl) h1) (ix2 z q) : EReal)
      = (acc (ix2 z q) : EReal) + ∑ p : Fin A, (y (ix2 p q) : EReal) := by
  refine (addf_apply _ _ (ix2 z q)).trans ?_
  refine congrArg₂ (· + ·) (congrFun (shapeCast_self acc _) (ix2 z q)) ?_
  refine (Cert.Lib.Layout.rowCast_apply _ _ z q).trans ?_
  exact Cert.Lib.AxisSum.colSum_apply (K := A) (C := C) _ _ _ _ _ q

end Cert.Lib.Stats

end
-- ==== Proof.RegMM0.lean ====
import proofs.«160401_j10462540333326_1_alg».proof.Proof.Gen.KernelIdeal.Frame
import proofs.«160401_j10462540333326_1_alg».proof.Proof.LibMatmul
import proofs.«160401_j10462540333326_1_alg».proof.Proof.LibRegion
import proofs.«160401_j10462540333326_1_alg».proof.Proof.LibStats

set_option maxRecDepth 16384

noncomputable section

namespace Cert.KernelIdeal.Gen

open Idealize.ShloMosaic Idealize.ShloMosaic.TcCoe Idealize.ShloMosaic.ValueIdx Idealize.SL.Sem Idealize.ShloMosaic.Tactic
open Idealize.ShloMosaic.Pipeline (Dat Cfg Window)
open Cert.Spec (ofMat ofRow mm colSum colSq)
open Cert.Lib.Region Cert.Lib.Stats

section Generic

variable {F : FTy → Type} [FloatOps F] (V : (c : Dev nD) → (b : Ref sig .tc) → Buf (Elt F) ((c : Thread nD τ).loc b)) (c : Dev nD)

/-- After the first point: the block product, and the two statistics started from zero. -/
theorem reg0_at_A (t : Fin cfg0.N) (h0 : t.val % 80 = 0) :
    outsAt0 V c t.val t.isLt = (k0_pay3 (iblk0 V c 0 t) (iblk0 V c 1 t), k0_pay4 (iblk0 V c 0 t) (iblk0 V c 1 t) k0_pay1,
      k0_pay5 (iblk0 V c 0 t) (iblk0 V c 1 t) k0_pay2) := by
  rw [outsAt0_A V c t h0]
  unfold out0_A_2 out0_A_3 out0_A_4
  rw [View.read_writes_eq_canon _ _ _ (cover0_A_2 _ _ _ _ _ _ _ _ _ _ _ _ _ _ _), View.read_writes_eq_canon _ _ _ (cover0_A_3 _ _ _ _ _ _ _ _ _ _ _ _ _ _ _),
    View.read_writes_eq_canon _ _ _ (cover0_A_4 _ _ _ _ _ _ _ _ _ _ _ _ _ _ _)]
  unfold kernelRun0_A
  dsimp only
  sl_unfold_words
  simp only [View.canon_unit_zero (S := S4000x128) hz2, View.canon_cons_unit_zero (S := S1x128) hz2, View.readAt_eq_ld, (hs0_0 t).read_unread, (hs0_1 t).read_unread,
    View.ld_unit_zero (S := S4000x384) hz2, View.ld_unit_zero (S := S384x128) hz2, View.readCov_unit_zero (S := S1x128) _ hz2]

/-- After a later point: the block product, and the two statistics continued from what the point before left. -/
theorem reg0_at_B (n : ℕ) (h : n + 1 < cfg0.N) (h0 : ¬(n + 1) % 80 = 0) :
    outsAt0 V c (n + 1) h = (k0_pay3 (iblk0 V c 0 ⟨n + 1, h⟩) (iblk0 V c 1 ⟨n + 1, h⟩),
      k0_pay4 (iblk0 V c 0 ⟨n + 1, h⟩) (iblk0 V c 1 ⟨n + 1, h⟩) (outsAt0 V c n (Nat.lt_of_succ_lt h)).2.1,
      k0_pay5 (iblk0 V c 0 ⟨n + 1, h⟩) (iblk0 V c 1 ⟨n + 1, h⟩) (outsAt0 V c n (Nat.lt_of_succ_lt h)).2.2) := by
  refine (outsAt0_B V c ⟨n + 1, h⟩ h0).trans ?_
  unfold out0_B_2 out0_B_3 out0_B_4
  rw [View.read_writes_eq_canon _ _ _ (cover0_B_2 _ _ _ _ _ _ _ _ _ _ _ _ _ _ _ _ _), View.read_writes_eq_canon _ _ _ (cover0_B_3 _ _ _ _ _ _ _ _ _ _ _ _ _ _ _ _ _),
    View.read_writes_eq_canon _ _ _ (cover0_B_4 _ _ _ _ _ _ _ _ _ _ _ _ _ _ _ _ _)]
  unfold kernelRun0_B
  dsimp only
  sl_unfold_words
  simp only [View.canon_unit_zero (S := S4000x128) hz2, View.canon_unit_zero (S := S1x128) hz2, View.readAt_eq_ld, (hs0_0 _).read_unread, (hs0_1 _).read_unread,
    (hs0_3 _).read_unread, (hs0_4 _).read_unread, View.ld_unit_zero (S := S4000x384) hz2, View.ld_unit_zero (S := S384x128) hz2, View.ld_unit_zero (S := S1x128) hz2]
  rfl

end Generic

/-- The block product at (p, q): the sum over k of x[p, k] · w[k, q]. -/
theorem reg0_pay3_apply (x : Vec Ideal S4000x384 .f32) (w : Vec Ideal S384x128 .f32) (p : Fin 4000) (q : Fin 128) :
    k0_pay3 x w (ix2 p q) = ∑ k : Fin 384, (x (ix2 p k) : EReal) * (w (ix2 k q) : EReal) := by
  unfold k0_pay3
  refine (Cert.Lib.Matmul.matmul_zero_apply (A := 4000) (K := 384) (C := 128) none _ _ p q).trans ?_
  simp only [shapeCast_self]
  rfl

/-- The block index of each window at point t: block row t for the row-block windows, the origin for the others. -/
theorem reg0_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ ∀ a : Fin 2, win0_3.index t a = 0 ∧ win0_4.index t a = 0 :=
  (by decide +kernel : ∀ t : Fin grid0.N, _)

theorem reg0_last : 80 - 1 < cfg0.N := by rw [show cfg0.N = 80 from N_0]; omega

theorem reg0_row (t : Fin cfg0.N) (p : Fin 4000) : 4000 * t.val + p.val < 320000 := by
  have := lt_of_lt_of_eq t.isLt (show cfg0.N = 80 from N_0); have := p.isLt; omega

/-- An index of the product array whose row lies in block n is in point n's block. -/
theorem reg0_mem_blk2 (n : ℕ) (hn : n < cfg0.N) (i : S320000x128.Idx) (h0 : 4000 * n ≤ (i 0).val) (h1 : (i 0).val < 4000 * n + 4000) :
    i ∈ ((cfg0.win 2).blk ⟨n, hn⟩).view.set := by
  obtain ⟨-, -, -, -, e0, e1, -⟩ := reg0_idx_facts ⟨n, hn⟩
  have hi : (i 1).val < 128 := (i 1).isLt
  show i ∈ ((View.whole (Pipeline.arrRef spec0 2)).slice (win0_2.rect ⟨n, hn⟩)).set
  rw [View.set_slice_whole, Rect.mem_set_unit]
  refine Fin.forall_fin_two.mpr ⟨?_, ?_⟩
  · show win0_2.index ⟨n, hn⟩ (0 : Fin 2) * 4000 ≤ (i 0).val ∧ (i 0).val < win0_2.index ⟨n, hn⟩ (0 : Fin 2) * 4000 + 4000
    rw [e0]; dsimp only; omega
  · show win0_2.index ⟨n, hn⟩ (1 : Fin 2) * 128 ≤ (i 1).val ∧ (i 1).val < win0_2.index ⟨n, hn⟩ (1 : Fin 2) * 128 + 128
    rw [e1]; omega

/-- Every index of a one-row statistics array is in the block of any point: the block is the whole array. -/
theorem reg0_mem_blk3 (t : Fin cfg0.N) (i : S1x128.Idx) : i ∈ ((cfg0.win 3).blk t).view.set := by
  obtain ⟨-, -, -, -, -, -, e⟩ := reg0_idx_facts t
  show i ∈ ((View.whole (Pipeline.arrRef spec0 3)).slice (win0_3.rect t)).set
  rw [View.set_slice_whole]
  exact View.mem_set_unit_zero (funext fun a => by rw [(e a).1, Nat.zero_mul]) _ i

theorem reg0_mem_blk4 (t : Fin cfg0.N) (i : S1x128.Idx) : i ∈ ((cfg0.win 4).blk t).view.set := by
  obtain ⟨-, -, -, -, -, -, e⟩ := reg0_idx_facts t
  show i ∈ ((View.whole (Pipeline.arrRef spec0 4)).slice (win0_4.rect t)).set
  rw [View.set_slice_whole]
  exact View.mem_set_unit_zero (funext fun a => by rw [(e a).2, Nat.zero_mul]) _ i

section AtIdeal

variable (V : (c : Dev nD) → (b : Ref sig .tc) → Buf (Elt Ideal) ((c : Thread nD τ).loc b)) (c : Dev nD)
  (X : Fin 320000 → Fin 384 → EReal) (Wt : Fin 384 → Fin 128 → EReal)
  (hX : V c (Pipeline.arrRef spec0 0) = ofMat X) (hW : V c (Pipeline.arrRef spec0 1) = ofMat Wt)
include hX hW

/-- The block product at point t, at (p, q), is the whole product at row 4000·t + p: the left block holds those rows, the right block the whole right array. -/
theorem reg0_blockProd (t : Fin cfg0.N) (p : Fin 4000) (q : Fin 128) :
    (k0_pay3 (iblk0 V c 0 t) (iblk0 V c 1 t) (ix2 p q) : EReal) = rowsN (mm X Wt) (4000 * t.val + p.val) q := by
  have hr := reg0_row t p
  obtain ⟨e0, e1, e2, e3, -⟩ := reg0_idx_facts t
  refine (reg0_pay3_apply _ _ p q).trans ?_
  rw [rowsN_of_lt _ _ _ hr]
  show _ = ∑ k : Fin 384, X ⟨4000 * t.val + p.val, hr⟩ k * Wt k q
  refine Finset.sum_congr rfl fun k _ => congrArg₂ (· * ·) ?_ ?_
  · unfold iblk0
    rw [View.read_apply]
    refine (cast_eq _ _).trans ((congrFun hX _).trans (ofMat_at X _ ⟨_, hr⟩ k ?_ ?_))
    · show win0_0.index t (0 : Fin 2) * 4000 + 1 * p.val = 4000 * t.val + p.val
      rw [e0]; omega
    · show win0_0.index t (1 : Fin 2) * 384 + 1 * k.val = k.val
      rw [e1]; omega
  · unfold iblk0
    rw [View.read_apply]
    refine (cast_eq _ _).trans ((congrFun hW _).trans (ofMat_at Wt _ k q ?_ ?_))
    · show win0_1.index t (0 : Fin 2) * 384 + 1 * k.val = k.val
      rw [e2]; omega
    · show win0_1.index t (1 : Fin 2) * 128 + 1 * q.val = q.val
      rw [e3]; omega

/-- After point n the product's block holds rows 4000·n … of the whole product, and the two statistics hold the column sums (of the entries, of their squares) over the rows of blocks 0 … n. -/
theorem reg0_inv : ∀ (n : ℕ) (h : n < cfg0.N),
      (∀ (p : Fin 4000) (q : Fin 128), ((outsAt0 V c n h).1 (ix2 p q) : EReal) = rowsN (mm X Wt) (4000 * n + p.val) q)
      ∧ (∀ (z : Fin 1) (q : Fin 128), ((outsAt0 V c n h).2.1 (ix2 z q) : EReal)
          = ∑ s ∈ Finset.range (n + 1), ∑ p : Fin 4000, rowsN (mm X Wt) (4000 * s + p.val) q)
      ∧ (∀ (z : Fin 1) (q : Fin 128), ((outsAt0 V c n h).2.2 (ix2 z q) : EReal)
          = ∑ s ∈ Finset.range (n + 1), ∑ p : Fin 4000, rowsN (mm X Wt) (4000 * s + p.val) q * rowsN (mm X Wt) (4000 * s + p.val) q)
  | 0, h => by
    have e : outsAt0 V c 0 h = _ := reg0_at_A V c ⟨0, h⟩ (Nat.zero_mod _)
    rw [e]
    dsimp only
    have hb := reg0_blockProd V c X Wt hX hW ⟨0, h⟩
    refine ⟨hb, fun z q => ?_, fun z q => ?_⟩
    · refine (upd_apply (k0_pay3 _ _) _ _ _ _ z q).trans ?_
      rw [show (k0_pay1 (F := Ideal) (ix2 z q) : EReal) = 0 from zeroWord, zero_add, Finset.sum_range_one]
      exact Finset.sum_congr rfl fun p _ => hb p q
    · refine (upd_apply (mulf (k0_pay3 _ _) (k0_pay3 _ _)) _ _ _ _ z q).trans ?_
      rw [show (k0_pay2 (F := Ideal) (ix2 z q) : EReal) = 0 from zeroWord, zero_add, Finset.sum_range_one]
      exact Finset.sum_congr rfl fun p _ => congrArg₂ (· * ·) (hb p q) (hb p q)
  | n + 1, h => by
    have hN : cfg0.N = 80 := N_0
    obtain ⟨-, ih3, ih4⟩ := reg0_inv n (Nat.lt_of_succ_lt h)
    rw [reg0_at_B V c n h (by omega)]
    dsimp only
    have hb := reg0_blockProd V c X Wt hX hW ⟨n + 1, h⟩
    refine ⟨hb, fun z q => ?_, fun z q => ?_⟩
    · refine (upd_apply (k0_pay3 _ _) _ _ _ _ z q).trans ?_
      rw [Finset.sum_range_succ _ (n + 1), ih3 z q]
      exact congrArg _ (Finset.sum_congr rfl fun p _ => hb p q)
    · refine (upd_apply (mulf (k0_pay3 _ _) (k0_pay3 _ _)) _ _ _ _ z q).trans ?_
      rw [Finset.sum_range_succ _ (n + 1), ih4 z q]
      exact congrArg _ (Finset.sum_congr rfl fun p _ => congrArg₂ (· * ·) (hb p q) (hb p q))

/-- Point t's block of the product is block t of the whole product. -/
theorem reg0_flushed2 (t : Fin cfg0.N) :
    (dat0 V c).flushed 2 t = ((cfg0.win 2).blk t).view.read (Elt Ideal) (ofMat (mm X Wt)) := by
  show (cfg0.win 2).cut (grid0.coords t) ((dat0 V c).after 2 t) = _
  rw [after0_2]
  obtain ⟨-, -, -, -, e0, e1, -⟩ := reg0_idx_facts t
  funext j
  obtain ⟨p, q, rfl⟩ : ∃ (p : Fin 4000) (q : Fin 128), j = ix2 p q := ⟨j 0, j 1, eq_ix2 j⟩
  have hr := reg0_row t p
  rw [View.read_apply]
  refine Eq.trans ?_ (cast_eq _ _).symm
  show ((outsAt0 V c t.val t.isLt).1 (ix2 p q) : EReal) = _
  rw [(reg0_inv V c X Wt hX hW t.val t.isLt).1 p q, rowsN_of_lt _ _ _ hr]
  refine (ofMat_at (mm X Wt) _ ⟨_, hr⟩ q ?_ ?_).symm
  · show win0_2.index t (0 : Fin 2) * 4000 + 1 * p.val = 4000 * t.val + p.val
    rw [e0]; omega
  · show win0_2.index t (1 : Fin 2) * 128 + 1 * q.val = q.val
    rw [e1]; omega

theorem reg0_final2 : (dat0 V c).arrAt 2 cfg0.N = ofMat (mm X Wt) :=
  (dat0 V c).arrAt_eq_of_cover 2 (ofMat (mm X Wt)) (fun t _ => reg0_flushed2 V c X Wt hX hW t) fun i => by
    have hi : (i 0).val < 320000 := (i 0).isLt
    have ht : (i 0).val / 4000 < cfg0.N := by rw [show cfg0.N = 80 from N_0]; omega
    exact ⟨⟨_, ht⟩, flush0_2 _, reg0_mem_blk2 _ ht i (by omega) (by omega)⟩

/-- At the last point the running column sums are the column sums over all rows. -/
theorem reg0_flushed3 (t : Fin cfg0.N) (hf : (cfg0.win 3).flush t = true) :
    (dat0 V c).flushed 3 t = ((cfg0.win 3).blk t).view.read (Elt Ideal) (ofRow (colSum (mm X Wt))) := by
  have hN : cfg0.N = 80 := N_0
  have hlast : t.val + 1 = 80 := by have := (flush0_3 t).mp hf; have := t.isLt; omega
  obtain ⟨-, -, -, -, -, -, e⟩ := reg0_idx_facts t
  show (cfg0.win 3).cut (grid0.coords t) ((dat0 V c).after 3 t) = _
  rw [after0_3]
  funext j
  obtain ⟨z, q, rfl⟩ : ∃ (z : Fin 1) (q : Fin 128), j = ix2 z q := ⟨j 0, j 1, eq_ix2 j⟩
  rw [View.read_apply]
  refine Eq.trans ?_ (cast_eq _ _).symm
  show ((outsAt0 V c t.val t.isLt).2.1 (ix2 z q) : EReal) = _
  rw [(reg0_inv V c X Wt hX hW t.val t.isLt).2.1 z q, hlast]
  refine Eq.trans ?_ (ofRow_at (colSum (mm X Wt)) _ q ?_).symm
  · exact total (A := 4000) (N := 80) (R := 320000) rfl (mm X Wt) (fun y => y) q
  · show win0_3.index t (1 : Fin 2) * 128 + 1 * q.val = q.val
    rw [(e 1).1]; omega

theorem reg0_flushed4 (t : Fin cfg0.N) (hf : (cfg0.win 4).flush t = true) :
    (dat0 V c).flushed 4 t = ((cfg0.win 4).blk t).view.read (Elt Ideal) (ofRow (colSq (mm X Wt))) := by
  have hN : cfg0.N = 80 := N_0
  have hlast : t.val + 1 = 80 := by have := (flush0_4 t).mp hf; have := t.isLt; omega
  obtain ⟨-, -, -, -, -, -, e⟩ := reg0_idx_facts t
  show (cfg0.win 4).cut (grid0.coords t) ((dat0 V c).after 4 t) = _
  rw [after0_4]
  funext j
  obtain ⟨z, q, rfl⟩ : ∃ (z : Fin 1) (q : Fin 128), j = ix2 z q := ⟨j 0, j 1, eq_ix2 j⟩
  rw [View.read_apply]
  refine Eq.trans ?_ (cast_eq _ _).symm
  show ((outsAt0 V c t.val t.isLt).2.2 (ix2 z q) : EReal) = _
  rw [(reg0_inv V c X Wt hX hW t.val t.isLt).2.2 z q, hlast]
  refine Eq.trans ?_ (ofRow_at (colSq (mm X Wt)) _ q ?_).symm
  · exact total (A := 4000) (N := 80) (R := 320000) rfl (mm X Wt) (fun y => y * y) q
  · show win0_4.index t (1 : Fin 2) * 128 + 1 * q.val = q.val
    rw [(e 1).2]; omega

end AtIdeal

/-- The product, its column sums and its column sums of squares. -/
theorem reg0_final (V : (c : Dev nD) → (b : Ref sig .tc) → Buf (Elt Ideal) ((c : Thread nD τ).loc b)) (c : Dev nD)
    (X : Fin 320000 → Fin 384 → EReal) (Wt : Fin 384 → Fin 128 → EReal)
    (hX : V c (Pipeline.arrRef spec0 0) = ofMat X) (hW : V c (Pipeline.arrRef spec0 1) = ofMat Wt) :
    (dat0 (F := Ideal) V c).arrAt 2 cfg0.N = ofMat (Cert.Spec.mm X Wt)
    ∧ (dat0 (F := Ideal) V c).arrAt 3 cfg0.N = ofRow (Cert.Spec.colSum (Cert.Spec.mm X Wt))
    ∧ (dat0 (F := Ideal) V c).arrAt 4 cfg0.N = ofRow (Cert.Spec.colSq (Cert.Spec.mm X Wt)) :=
  ⟨reg0_final2 V c X Wt hX hW,
    (dat0 V c).arrAt_eq_of_cover 3 _ (reg0_flushed3 V c X Wt hX hW) fun i => ⟨⟨80 - 1, reg0_last⟩, (flush0_3 _).mpr rfl, reg0_mem_blk3 _ i⟩,
    (dat0 V c).arrAt_eq_of_cover 4 _ (reg0_flushed4 V c X Wt hX hW) fun i => ⟨⟨80 - 1, reg0_last⟩, (flush0_4 _).mpr rfl, reg0_mem_blk4 _ i⟩⟩

end Cert.KernelIdeal.Gen

end
-- ==== Proof.LibAffine.lean ====
import proofs.«160401_j10462540333326_1_alg».proof.Proof.Spec
import Idealize.ShloMosaic.Lib.ValueLayout

namespace Cert.Lib.Affine

open Idealize.ShloMosaic Idealize.ShloMosaic.ValueIdx
open Cert.Spec (ofMat ofVec ofRow)

/-- A one-row matrix cast to a vector keeps each column's entry. -/
theorem castRow {C : ℕ} (v : Fin C → EReal) (h : (⟨2, ![1, C]⟩ : Shape).ShapeCasts ⟨1, ![C]⟩) :
    shapeCast ⟨1, ![C]⟩ (ofRow v) h = ofVec v := by
  funext i
  rw [eq_ix1 i]
  exact shapeCast_1a_a_apply (ofRow v) h _

/-- A vector cast to a one-row matrix keeps each entry at its column. -/
theorem castVec {C : ℕ} (x : (⟨1, ![C]⟩ : Shape).Idx → EReal) (h : (⟨1, ![C]⟩ : Shape).ShapeCasts ⟨2, ![1, C]⟩) :
    shapeCast ⟨2, ![1, C]⟩ x h = ofRow fun q => x (ix1 q) := by
  funext i
  rw [eq_ix2 i]
  exact shapeCast_a_1a_apply x h _ _

/-- Casting a vector to one row and back changes nothing. -/
theorem castBack {C : ℕ} (x : (⟨1, ![C]⟩ : Shape).Idx → EReal) (h : (⟨1, ![C]⟩ : Shape).ShapeCasts ⟨2, ![1, C]⟩)
    (h' : (⟨2, ![1, C]⟩ : Shape).ShapeCasts ⟨1, ![C]⟩) :
    shapeCast ⟨1, ![C]⟩ (shapeCast ⟨2, ![1, C]⟩ x h) h' = x := by
  rw [castVec, castRow]
  funext i
  rw [eq_ix1 i]
  rfl

/-- The scale, shift, rectify body read at (p, q): the two rows are broadcast down the block's rows. -/
theorem pay_apply {a b : ℕ} (x0 : FVec Ideal ⟨2, ![a, b]⟩ .f32) (x1 x2 : FVec Ideal ⟨2, ![1, b]⟩ .f32)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩) (p : Fin a) (q : Fin b) :
    (maximumf (addf (mulf (shapeCast _ x0 h0) (broadcastTo _ (shapeCast _ x1 h1) hb)) (broadcastTo _ (shapeCast _ x2 h1) hb))
        (broadcast _ (Scalar.ofBits .f32 0x00000000#32)) : FVec Ideal ⟨2, ![a, b]⟩ .f32) (ix2 p q)
      = max (x0 (ix2 p q) * x1 (ix2 (0 : Fin 1) q) + x2 (ix2 (0 : Fin 1) q)) Cert.Spec.zero := by
  rw [maximumf_apply, addf_apply, mulf_apply, broadcastTo_1b_ab_apply, broadcastTo_1b_ab_apply, shapeCast_self, shapeCast_self,
    shapeCast_self]
  rfl

/-- max(y · scale + shift, 0) at i, from entries read at indices whose row blocks agree and whose column blocks are 0. -/
theorem affRelu_at {A C : ℕ} (Y : Fin A → Fin C → EReal) (sc sh : Fin C → EReal)
    {X0 : (⟨2, ![A, C]⟩ : Shape).Idx → EReal} {X1 X2 : (⟨2, ![1, C]⟩ : Shape).Idx → EReal}
    (hY : X0 = ofMat Y) (hsc : X1 = ofRow sc) (hsh : X2 = ofRow sh)
    (i i0 : (⟨2, ![A, C]⟩ : Shape).Idx) (i1 i2 : (⟨2, ![1, C]⟩ : Shape).Idx) {k0 k k01 k1 k2 k3 B B' p q : ℕ}
    (e0 : k0 = k) (e01 : k01 = 0) (e1 : k1 = 0) (e2 : k2 = 0) (e3 : k3 = 0)
    (h00 : (i0 0).val = k0 * B + 1 * p) (h0 : (i 0).val = k * B + 1 * p)
    (h01 : (i0 1).val = k01 * B' + 1 * q) (h1 : (i1 1).val = k1 * B' + 1 * q) (h2 : (i2 1).val = k2 * B' + 1 * q)
    (h3 : (i 1).val = k3 * B' + 1 * q) :
    max (X0 i0 * X1 i1 + X2 i2) Cert.Spec.zero = ofMat (Cert.Spec.affRelu Y sc sh) i := by
  subst hY hsc hsh e0 e01 e1 e2 e3
  unfold ofMat ofRow Cert.Spec.affRelu
  simp only [h00, h0, h01, h1, h2, h3]

/-- Row r of a matrix cut into blocks of B rows lies in block r / B, at any column. -/
theorem mem_rowBlock {A C B : ℕ} (hB : 0 < B) (i : (⟨2, ![A, C]⟩ : Shape).Idx) (k : Fin 2 → ℕ)
    (h0 : k 0 = (i 0).val / B) (h1 : k 1 = 0) :
    ∀ a, k a * (![B, C] a) ≤ (i a).val ∧ (i a).val < k a * (![B, C] a) + ![B, C] a := by
  refine Fin.forall_fin_two.2 ⟨?_, ?_⟩
  · rw [h0]; exact ⟨Nat.div_mul_le_self _ _, Nat.lt_div_mul_add hB⟩
  · rw [h1, Nat.zero_mul, Nat.zero_add]; exact ⟨Nat.zero_le _, (i 1).isLt⟩

end Cert.Lib.Affine
-- ==== Proof.RegBN1.lean ====
import proofs.«160401_j10462540333326_1_alg».proof.Proof.Gen.KernelIdeal.Frame
import proofs.«160401_j10462540333326_1_alg».proof.Proof.LibRegion
import proofs.«160401_j10462540333326_1_alg».proof.Proof.LibAffine
import Idealize.ShloMosaic.Lib.Pipeline.Value

namespace Cert.KernelIdeal.Gen

open Idealize.ShloMosaic Idealize.ShloMosaic.TcCoe Idealize.ShloMosaic.ValueIdx Idealize.SL.Sem
open Cert.Spec (ofMat ofRow)
open Cert.Lib

/-- Windows 0 and 3 take the same block of rows at a point, block t, and every window takes the whole width. -/
theorem reg1_idx : ∀ t : Fin cfg1.N,
    win1_0.index t (0 : Fin 2) = win1_3.index t (0 : Fin 2) ∧ win1_0.index t (1 : Fin 2) = 0
    ∧ win1_1.index t (1 : Fin 2) = 0 ∧ win1_2.index t (1 : Fin 2) = 0
    ∧ win1_3.index t (0 : Fin 2) = t.val ∧ win1_3.index t (1 : Fin 2) = 0 :=
  (by decide +kernel : ∀ t : Fin grid1.N, _)

/-- Row r of the output lies in the block written back at point r / 4000. -/
theorem reg1_cover (i : S320000x128.Idx) :
    ∃ t : Fin cfg1.N, (cfg1.win 3).flush t = true ∧ i ∈ ((cfg1.win 3).blk t).view.set := by
  have hi : (i 0).val < 4000 * 80 := (i 0).isLt
  let t : Fin cfg1.N := ⟨(i 0).val / 4000, lt_of_lt_of_eq (Nat.div_lt_of_lt_mul hi) N_1.symm⟩
  obtain ⟨-, -, -, -, e30, e31⟩ := reg1_idx t
  refine ⟨t, flush1_3 t, ?_⟩
  show i ∈ ((View.whole (Pipeline.arrRef spec1 3)).slice (win1_3.rect t)).set
  rw [View.set_slice_whole, Rect.mem_set_unit]
  exact Affine.mem_rowBlock (B := 4000) (C := 128) (by decide) i _ e30 e31

/-- What point t writes back is its block of max(y · scale + shift, 0). -/
theorem reg1_flushed (V : (c : Dev nD) → (b : Ref sig .tc) → Buf (Elt Ideal) ((c : Thread nD τ).loc b)) (c : Dev nD)
    (Y : Fin 320000 → Fin 128 → EReal) (sc sh : Fin 128 → EReal)
    (hY : V c (Pipeline.arrRef spec1 0) = ofMat Y) (hsc : V c (Pipeline.arrRef spec1 1) = ofRow sc)
    (hsh : V c (Pipeline.arrRef spec1 2) = ofRow sh) (t : Fin cfg1.N) :
    (dat1 (F := Ideal) V c).flushed 3 t
      = ((cfg1.win 3).blk t).view.read (Elt Ideal) (ofMat (Cert.Spec.affRelu Y sc sh)) := by
  obtain ⟨e00, e01, e11, e21, -, e31⟩ := reg1_idx t
  show (cfg1.win 3).cut (grid1.coords t) ((dat1 V c).after 3 t) = _
  rw [after1_3]
  unfold out1_3
  rw [View.canon_unit_zero Region.hz2]
  simp only [View.ld_unit_zero (S := S4000x128) Region.hz2, View.ld_unit_zero (S := S1x128) Region.hz2]
  funext j
  obtain ⟨p, q, rfl⟩ : ∃ (p : Fin 4000) (q : Fin 128), j = ix2 p q := ⟨j 0, j 1, eq_ix2 j⟩
  exact (Affine.pay_apply _ _ _ _ _ _ p q).trans (Affine.affRelu_at Y sc sh hY hsc hsh _ _ _ _ e00 e01 e11 e21 e31
    (by rfl) (by rfl) (by rfl) (by rfl) (by rfl) (by rfl))

/-- The blocks written back cover the array, so it ends at max(y · scale + shift, 0). -/
theorem reg1_final (V : (c : Dev nD) → (b : Ref sig .tc) → Buf (Elt Ideal) ((c : Thread nD τ).loc b)) (c : Dev nD)
    (Y : Fin 320000 → Fin 128 → EReal) (sc sh : Fin 128 → EReal)
    (hY : V c (Pipeline.arrRef spec1 0) = ofMat Y) (hsc : V c (Pipeline.arrRef spec1 1) = ofRow sc)
    (hsh : V c (Pipeline.arrRef spec1 2) = ofRow sh) :
    (dat1 (F := Ideal) V c).arrAt 3 cfg1.N = ofMat (Cert.Spec.affRelu Y sc sh) :=
  (dat1 (F := Ideal) V c).arrAt_eq_of_cover 3 _ (fun t _ => reg1_flushed V c Y sc sh hY hsc hsh t) reg1_cover

end Cert.KernelIdeal.Gen
-- ==== Proof.RegMM2.lean ====
import proofs.«160401_j10462540333326_1_alg».proof.Proof.Gen.KernelIdeal.Frame
import proofs.«160401_j10462540333326_1_alg».proof.Proof.LibMatmul
import proofs.«160401_j10462540333326_1_alg».proof.Proof.LibRegion
import proofs.«160401_j10462540333326_1_alg».proof.Proof.LibStats

set_option maxRecDepth 16384

noncomputable section

namespace Cert.KernelIdeal.Gen

open Idealize.ShloMosaic Idealize.ShloMosaic.TcCoe Idealize.ShloMosaic.ValueIdx Idealize.SL.Sem Idealize.ShloMosaic.Tactic
open Idealize.ShloMosaic.Pipeline (Dat Cfg Window)
open Cert.Spec (ofMat ofRow mm colSum colSq)
open Cert.Lib.Region Cert.Lib.Stats

section Generic

variable {F : FTy → Type} [FloatOps F] (V : (c : Dev nD) → (b : Ref sig .tc) → Buf (Elt F) ((c : Thread nD τ).loc b)) (c : Dev nD)

/-- After the first point: the block product, and the two statistics started from zero. -/
theorem reg2_at_A (t : Fin cfg2.N) (h0 : t.val % 10 = 0) :
    outsAt2 V c t.val t.isLt = (k2_pay3 (iblk2 V c 0 t) (iblk2 V c 1 t), k2_pay4 (iblk2 V c 0 t) (iblk2 V c 1 t) k2_pay1,
      k2_pay5 (iblk2 V c 0 t) (iblk2 V c 1 t) k2_pay2) := by
  rw [outsAt2_A V c t h0]
  unfold out2_A_2 out2_A_3 out2_A_4
  rw [View.read_writes_eq_canon _ _ _ (cover2_A_2 _ _ _ _ _ _ _ _ _ _ _ _ _ _ _), View.read_writes_eq_canon _ _ _ (cover2_A_3 _ _ _ _ _ _ _ _ _ _ _ _ _ _ _),
    View.read_writes_eq_canon _ _ _ (cover2_A_4 _ _ _ _ _ _ _ _ _ _ _ _ _ _ _)]
  unfold kernelRun2_A
  dsimp only
  sl_unfold_words
  simp only [View.canon_unit_zero (S := S2000x256) hz2, View.canon_cons_unit_zero (S := S1x256) hz2, View.readAt_eq_ld, (hs2_0 t).read_unread, (hs2_1 t).read_unread,
    View.ld_unit_zero (S := S2000x128) hz2, View.ld_unit_zero (S := S128x256) hz2, View.readCov_unit_zero (S := S1x256) _ hz2]

/-- After a later point: the block product, and the two statistics continued from what the point before left. -/
theorem reg2_at_B (n : ℕ) (h : n + 1 < cfg2.N) (h0 : ¬(n + 1) % 10 = 0) :
    outsAt2 V c (n + 1) h = (k2_pay3 (iblk2 V c 0 ⟨n + 1, h⟩) (iblk2 V c 1 ⟨n + 1, h⟩),
      k2_pay4 (iblk2 V c 0 ⟨n + 1, h⟩) (iblk2 V c 1 ⟨n + 1, h⟩) (outsAt2 V c n (Nat.lt_of_succ_lt h)).2.1,
      k2_pay5 (iblk2 V c 0 ⟨n + 1, h⟩) (iblk2 V c 1 ⟨n + 1, h⟩) (outsAt2 V c n (Nat.lt_of_succ_lt h)).2.2) := by
  refine (outsAt2_B V c ⟨n + 1, h⟩ h0).trans ?_
  unfold out2_B_2 out2_B_3 out2_B_4
  rw [View.read_writes_eq_canon _ _ _ (cover2_B_2 _ _ _ _ _ _ _ _ _ _ _ _ _ _ _ _ _), View.read_writes_eq_canon _ _ _ (cover2_B_3 _ _ _ _ _ _ _ _ _ _ _ _ _ _ _ _ _),
    View.read_writes_eq_canon _ _ _ (cover2_B_4 _ _ _ _ _ _ _ _ _ _ _ _ _ _ _ _ _)]
  unfold kernelRun2_B
  dsimp only
  sl_unfold_words
  simp only [View.canon_unit_zero (S := S2000x256) hz2, View.canon_unit_zero (S := S1x256) hz2, View.readAt_eq_ld, (hs2_0 _).read_unread, (hs2_1 _).read_unread,
    (hs2_3 _).read_unread, (hs2_4 _).read_unread, View.ld_unit_zero (S := S2000x128) hz2, View.ld_unit_zero (S := S128x256) hz2, View.ld_unit_zero (S := S1x256) hz2]
  rfl

end Generic

/-- The block product at (p, q): the sum over k of x[p, k] · w[k, q]. -/
theorem reg2_pay3_apply (x : Vec Ideal S2000x128 .f32) (w : Vec Ideal S128x256 .f32) (p : Fin 2000) (q : Fin 256) :
    k2_pay3 x w (ix2 p q) = ∑ k : Fin 128, (x (ix2 p k) : EReal) * (w (ix2 k q) : EReal) := by
  unfold k2_pay3
  refine (Cert.Lib.Matmul.matmul_zero_apply (A := 2000) (K := 128) (C := 256) none _ _ p q).trans ?_
  simp only [shapeCast_self]
  rfl

/-- The block index of each window at point t: block row t for the row-block windows, the origin for the others. -/
theorem reg2_idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ ∀ a : Fin 2, win2_3.index t a = 0 ∧ win2_4.index t a = 0 :=
  (by decide +kernel : ∀ t : Fin grid2.N, _)

theorem reg2_last : 10 - 1 < cfg2.N := by rw [show cfg2.N = 10 from N_2]; omega

theorem reg2_row (t : Fin cfg2.N) (p : Fin 2000) : 2000 * t.val + p.val < 20000 := by
  have := lt_of_lt_of_eq t.isLt (show cfg2.N = 10 from N_2); have := p.isLt; omega

/-- An index of the product array whose row lies in block n is in point n's block. -/
theorem reg2_mem_blk2 (n : ℕ) (hn : n < cfg2.N) (i : S20000x256.Idx) (h0 : 2000 * n ≤ (i 0).val) (h1 : (i 0).val < 2000 * n + 2000) :
    i ∈ ((cfg2.win 2).blk ⟨n, hn⟩).view.set := by
  obtain ⟨-, -, -, -, e0, e1, -⟩ := reg2_idx_facts ⟨n, hn⟩
  have hi : (i 1).val < 256 := (i 1).isLt
  show i ∈ ((View.whole (Pipeline.arrRef spec2 2)).slice (win2_2.rect ⟨n, hn⟩)).set
  rw [View.set_slice_whole, Rect.mem_set_unit]
  refine Fin.forall_fin_two.mpr ⟨?_, ?_⟩
  · show win2_2.index ⟨n, hn⟩ (0 : Fin 2) * 2000 ≤ (i 0).val ∧ (i 0).val < win2_2.index ⟨n, hn⟩ (0 : Fin 2) * 2000 + 2000
    rw [e0]; dsimp only; omega
  · show win2_2.index ⟨n, hn⟩ (1 : Fin 2) * 256 ≤ (i 1).val ∧ (i 1).val < win2_2.index ⟨n, hn⟩ (1 : Fin 2) * 256 + 256
    rw [e1]; omega

/-- Every index of a one-row statistics array is in the block of any point: the block is the whole array. -/
theorem reg2_mem_blk3 (t : Fin cfg2.N) (i : S1x256.Idx) : i ∈ ((cfg2.win 3).blk t).view.set := by
  obtain ⟨-, -, -, -, -, -, e⟩ := reg2_idx_facts t
  show i ∈ ((View.whole (Pipeline.arrRef spec2 3)).slice (win2_3.rect t)).set
  rw [View.set_slice_whole]
  exact View.mem_set_unit_zero (funext fun a => by rw [(e a).1, Nat.zero_mul]) _ i

theorem reg2_mem_blk4 (t : Fin cfg2.N) (i : S1x256.Idx) : i ∈ ((cfg2.win 4).blk t).view.set := by
  obtain ⟨-, -, -, -, -, -, e⟩ := reg2_idx_facts t
  show i ∈ ((View.whole (Pipeline.arrRef spec2 4)).slice (win2_4.rect t)).set
  rw [View.set_slice_whole]
  exact View.mem_set_unit_zero (funext fun a => by rw [(e a).2, Nat.zero_mul]) _ i

section AtIdeal

variable (V : (c : Dev nD) → (b : Ref sig .tc) → Buf (Elt Ideal) ((c : Thread nD τ).loc b)) (c : Dev nD)
  (X : Fin 20000 → Fin 128 → EReal) (Wt : Fin 128 → Fin 256 → EReal)
  (hX : V c (Pipeline.arrRef spec2 0) = ofMat X) (hW : V c (Pipeline.arrRef spec2 1) = ofMat Wt)
include hX hW

/-- The block product at point t, at (p, q), is the whole product at row 2000·t + p: the left block holds those rows, the right block the whole right array. -/
theorem reg2_blockProd (t : Fin cfg2.N) (p : Fin 2000) (q : Fin 256) :
    (k2_pay3 (iblk2 V c 0 t) (iblk2 V c 1 t) (ix2 p q) : EReal) = rowsN (mm X Wt) (2000 * t.val + p.val) q := by
  have hr := reg2_row t p
  obtain ⟨e0, e1, e2, e3, -⟩ := reg2_idx_facts t
  refine (reg2_pay3_apply _ _ p q).trans ?_
  rw [rowsN_of_lt _ _ _ hr]
  show _ = ∑ k : Fin 128, X ⟨2000 * t.val + p.val, hr⟩ k * Wt k q
  refine Finset.sum_congr rfl fun k _ => congrArg₂ (· * ·) ?_ ?_
  · unfold iblk2
    rw [View.read_apply]
    refine (cast_eq _ _).trans ((congrFun hX _).trans (ofMat_at X _ ⟨_, hr⟩ k ?_ ?_))
    · show win2_0.index t (0 : Fin 2) * 2000 + 1 * p.val = 2000 * t.val + p.val
      rw [e0]; omega
    · show win2_0.index t (1 : Fin 2) * 128 + 1 * k.val = k.val
      rw [e1]; omega
  · unfold iblk2
    rw [View.read_apply]
    refine (cast_eq _ _).trans ((congrFun hW _).trans (ofMat_at Wt _ k q ?_ ?_))
    · show win2_1.index t (0 : Fin 2) * 128 + 1 * k.val = k.val
      rw [e2]; omega
    · show win2_1.index t (1 : Fin 2) * 256 + 1 * q.val = q.val
      rw [e3]; omega

/-- After point n the product's block holds rows 2000·n … of the whole product, and the two statistics hold the column sums (of the entries, of their squares) over the rows of blocks 0 … n. -/
theorem reg2_inv : ∀ (n : ℕ) (h : n < cfg2.N),
      (∀ (p : Fin 2000) (q : Fin 256), ((outsAt2 V c n h).1 (ix2 p q) : EReal) = rowsN (mm X Wt) (2000 * n + p.val) q)
      ∧ (∀ (z : Fin 1) (q : Fin 256), ((outsAt2 V c n h).2.1 (ix2 z q) : EReal)
          = ∑ s ∈ Finset.range (n + 1), ∑ p : Fin 2000, rowsN (mm X Wt) (2000 * s + p.val) q)
      ∧ (∀ (z : Fin 1) (q : Fin 256), ((outsAt2 V c n h).2.2 (ix2 z q) : EReal)
          = ∑ s ∈ Finset.range (n + 1), ∑ p : Fin 2000, rowsN (mm X Wt) (2000 * s + p.val) q * rowsN (mm X Wt) (2000 * s + p.val) q)
  | 0, h => by
    have e : outsAt2 V c 0 h = _ := reg2_at_A V c ⟨0, h⟩ (Nat.zero_mod _)
    rw [e]
    dsimp only
    have hb := reg2_blockProd V c X Wt hX hW ⟨0, h⟩
    refine ⟨hb, fun z q => ?_, fun z q => ?_⟩
    · refine (upd_apply (k2_pay3 _ _) _ _ _ _ z q).trans ?_
      rw [show (k2_pay1 (F := Ideal) (ix2 z q) : EReal) = 0 from zeroWord, zero_add, Finset.sum_range_one]
      exact Finset.sum_congr rfl fun p _ => hb p q
    · refine (upd_apply (mulf (k2_pay3 _ _) (k2_pay3 _ _)) _ _ _ _ z q).trans ?_
      rw [show (k2_pay2 (F := Ideal) (ix2 z q) : EReal) = 0 from zeroWord, zero_add, Finset.sum_range_one]
      exact Finset.sum_congr rfl fun p _ => congrArg₂ (· * ·) (hb p q) (hb p q)
  | n + 1, h => by
    have hN : cfg2.N = 10 := N_2
    obtain ⟨-, ih3, ih4⟩ := reg2_inv n (Nat.lt_of_succ_lt h)
    rw [reg2_at_B V c n h (by omega)]
    dsimp only
    have hb := reg2_blockProd V c X Wt hX hW ⟨n + 1, h⟩
    refine ⟨hb, fun z q => ?_, fun z q => ?_⟩
    · refine (upd_apply (k2_pay3 _ _) _ _ _ _ z q).trans ?_
      rw [Finset.sum_range_succ _ (n + 1), ih3 z q]
      exact congrArg _ (Finset.sum_congr rfl fun p _ => hb p q)
    · refine (upd_apply (mulf (k2_pay3 _ _) (k2_pay3 _ _)) _ _ _ _ z q).trans ?_
      rw [Finset.sum_range_succ _ (n + 1), ih4 z q]
      exact congrArg _ (Finset.sum_congr rfl fun p _ => congrArg₂ (· * ·) (hb p q) (hb p q))

/-- Point t's block of the product is block t of the whole product. -/
theorem reg2_flushed2 (t : Fin cfg2.N) :
    (dat2 V c).flushed 2 t = ((cfg2.win 2).blk t).view.read (Elt Ideal) (ofMat (mm X Wt)) := by
  show (cfg2.win 2).cut (grid2.coords t) ((dat2 V c).after 2 t) = _
  rw [after2_2]
  obtain ⟨-, -, -, -, e0, e1, -⟩ := reg2_idx_facts t
  funext j
  obtain ⟨p, q, rfl⟩ : ∃ (p : Fin 2000) (q : Fin 256), j = ix2 p q := ⟨j 0, j 1, eq_ix2 j⟩
  have hr := reg2_row t p
  rw [View.read_apply]
  refine Eq.trans ?_ (cast_eq _ _).symm
  show ((outsAt2 V c t.val t.isLt).1 (ix2 p q) : EReal) = _
  rw [(reg2_inv V c X Wt hX hW t.val t.isLt).1 p q, rowsN_of_lt _ _ _ hr]
  refine (ofMat_at (mm X Wt) _ ⟨_, hr⟩ q ?_ ?_).symm
  · show win2_2.index t (0 : Fin 2) * 2000 + 1 * p.val = 2000 * t.val + p.val
    rw [e0]; omega
  · show win2_2.index t (1 : Fin 2) * 256 + 1 * q.val = q.val
    rw [e1]; omega

theorem reg2_final2 : (dat2 V c).arrAt 2 cfg2.N = ofMat (mm X Wt) :=
  (dat2 V c).arrAt_eq_of_cover 2 (ofMat (mm X Wt)) (fun t _ => reg2_flushed2 V c X Wt hX hW t) fun i => by
    have hi : (i 0).val < 20000 := (i 0).isLt
    have ht : (i 0).val / 2000 < cfg2.N := by rw [show cfg2.N = 10 from N_2]; omega
    exact ⟨⟨_, ht⟩, flush2_2 _, reg2_mem_blk2 _ ht i (by omega) (by omega)⟩

/-- At the last point the running column sums are the column sums over all rows. -/
theorem reg2_flushed3 (t : Fin cfg2.N) (hf : (cfg2.win 3).flush t = true) :
    (dat2 V c).flushed 3 t = ((cfg2.win 3).blk t).view.read (Elt Ideal) (ofRow (colSum (mm X Wt))) := by
  have hN : cfg2.N = 10 := N_2
  have hlast : t.val + 1 = 10 := by have := (flush2_3 t).mp hf; have := t.isLt; omega
  obtain ⟨-, -, -, -, -, -, e⟩ := reg2_idx_facts t
  show (cfg2.win 3).cut (grid2.coords t) ((dat2 V c).after 3 t) = _
  rw [after2_3]
  funext j
  obtain ⟨z, q, rfl⟩ : ∃ (z : Fin 1) (q : Fin 256), j = ix2 z q := ⟨j 0, j 1, eq_ix2 j⟩
  rw [View.read_apply]
  refine Eq.trans ?_ (cast_eq _ _).symm
  show ((outsAt2 V c t.val t.isLt).2.1 (ix2 z q) : EReal) = _
  rw [(reg2_inv V c X Wt hX hW t.val t.isLt).2.1 z q, hlast]
  refine Eq.trans ?_ (ofRow_at (colSum (mm X Wt)) _ q ?_).symm
  · exact total (A := 2000) (N := 10) (R := 20000) rfl (mm X Wt) (fun y => y) q
  · show win2_3.index t (1 : Fin 2) * 256 + 1 * q.val = q.val
    rw [(e 1).1]; omega

theorem reg2_flushed4 (t : Fin cfg2.N) (hf : (cfg2.win 4).flush t = true) :
    (dat2 V c).flushed 4 t = ((cfg2.win 4).blk t).view.read (Elt Ideal) (ofRow (colSq (mm X Wt))) := by
  have hN : cfg2.N = 10 := N_2
  have hlast : t.val + 1 = 10 := by have := (flush2_4 t).mp hf; have := t.isLt; omega
  obtain ⟨-, -, -, -, -, -, e⟩ := reg2_idx_facts t
  show (cfg2.win 4).cut (grid2.coords t) ((dat2 V c).after 4 t) = _
  rw [after2_4]
  funext j
  obtain ⟨z, q, rfl⟩ : ∃ (z : Fin 1) (q : Fin 256), j = ix2 z q := ⟨j 0, j 1, eq_ix2 j⟩
  rw [View.read_apply]
  refine Eq.trans ?_ (cast_eq _ _).symm
  show ((outsAt2 V c t.val t.isLt).2.2 (ix2 z q) : EReal) = _
  rw [(reg2_inv V c X Wt hX hW t.val t.isLt).2.2 z q, hlast]
  refine Eq.trans ?_ (ofRow_at (colSq (mm X Wt)) _ q ?_).symm
  · exact total (A := 2000) (N := 10) (R := 20000) rfl (mm X Wt) (fun y => y * y) q
  · show win2_4.index t (1 : Fin 2) * 256 + 1 * q.val = q.val
    rw [(e 1).2]; omega

end AtIdeal

/-- The product, its column sums and its column sums of squares. -/
theorem reg2_final (V : (c : Dev nD) → (b : Ref sig .tc) → Buf (Elt Ideal) ((c : Thread nD τ).loc b)) (c : Dev nD)
    (X : Fin 20000 → Fin 128 → EReal) (Wt : Fin 128 → Fin 256 → EReal)
    (hX : V c (Pipeline.arrRef spec2 0) = ofMat X) (hW : V c (Pipeline.arrRef spec2 1) = ofMat Wt) :
    (dat2 (F := Ideal) V c).arrAt 2 cfg2.N = ofMat (Cert.Spec.mm X Wt)
    ∧ (dat2 (F := Ideal) V c).arrAt 3 cfg2.N = ofRow (Cert.Spec.colSum (Cert.Spec.mm X Wt))
    ∧ (dat2 (F := Ideal) V c).arrAt 4 cfg2.N = ofRow (Cert.Spec.colSq (Cert.Spec.mm X Wt)) :=
  ⟨reg2_final2 V c X Wt hX hW,
    (dat2 V c).arrAt_eq_of_cover 3 _ (reg2_flushed3 V c X Wt hX hW) fun i => ⟨⟨10 - 1, reg2_last⟩, (flush2_3 _).mpr rfl, reg2_mem_blk3 _ i⟩,
    (dat2 V c).arrAt_eq_of_cover 4 _ (reg2_flushed4 V c X Wt hX hW) fun i => ⟨⟨10 - 1, reg2_last⟩, (flush2_4 _).mpr rfl, reg2_mem_blk4 _ i⟩⟩

end Cert.KernelIdeal.Gen

end
-- ==== Proof.RegBN3.lean ====
import proofs.«160401_j10462540333326_1_alg».proof.Proof.Gen.KernelIdeal.Frame
import proofs.«160401_j10462540333326_1_alg».proof.Proof.LibRegion
import proofs.«160401_j10462540333326_1_alg».proof.Proof.LibAffine
import Idealize.ShloMosaic.Lib.Pipeline.Value

namespace Cert.KernelIdeal.Gen

open Idealize.ShloMosaic Idealize.ShloMosaic.TcCoe Idealize.ShloMosaic.ValueIdx Idealize.SL.Sem
open Cert.Spec (ofMat ofRow)
open Cert.Lib

/-- Windows 0 and 3 take the same block of rows at a point, block t, and every window takes the whole width. -/
theorem reg3_idx : ∀ t : Fin cfg3.N,
    win3_0.index t (0 : Fin 2) = win3_3.index t (0 : Fin 2) ∧ win3_0.index t (1 : Fin 2) = 0
    ∧ win3_1.index t (1 : Fin 2) = 0 ∧ win3_2.index t (1 : Fin 2) = 0
    ∧ win3_3.index t (0 : Fin 2) = t.val ∧ win3_3.index t (1 : Fin 2) = 0 :=
  (by decide +kernel : ∀ t : Fin grid3.N, _)

/-- Row r of the output lies in the block written back at point r / 2000. -/
theorem reg3_cover (i : S20000x256.Idx) :
    ∃ t : Fin cfg3.N, (cfg3.win 3).flush t = true ∧ i ∈ ((cfg3.win 3).blk t).view.set := by
  have hi : (i 0).val < 2000 * 10 := (i 0).isLt
  let t : Fin cfg3.N := ⟨(i 0).val / 2000, lt_of_lt_of_eq (Nat.div_lt_of_lt_mul hi) N_3.symm⟩
  obtain ⟨-, -, -, -, e30, e31⟩ := reg3_idx t
  refine ⟨t, flush3_3 t, ?_⟩
  show i ∈ ((View.whole (Pipeline.arrRef spec3 3)).slice (win3_3.rect t)).set
  rw [View.set_slice_whole, Rect.mem_set_unit]
  exact Affine.mem_rowBlock (B := 2000) (C := 256) (by decide) i _ e30 e31

/-- What point t writes back is its block of max(y · scale + shift, 0). -/
theorem reg3_flushed (V : (c : Dev nD) → (b : Ref sig .tc) → Buf (Elt Ideal) ((c : Thread nD τ).loc b)) (c : Dev nD)
    (Y : Fin 20000 → Fin 256 → EReal) (sc sh : Fin 256 → EReal)
    (hY : V c (Pipeline.arrRef spec3 0) = ofMat Y) (hsc : V c (Pipeline.arrRef spec3 1) = ofRow sc)
    (hsh : V c (Pipeline.arrRef spec3 2) = ofRow sh) (t : Fin cfg3.N) :
    (dat3 (F := Ideal) V c).flushed 3 t
      = ((cfg3.win 3).blk t).view.read (Elt Ideal) (ofMat (Cert.Spec.affRelu Y sc sh)) := by
  obtain ⟨e00, e01, e11, e21, -, e31⟩ := reg3_idx t
  show (cfg3.win 3).cut (grid3.coords t) ((dat3 V c).after 3 t) = _
  rw [after3_3]
  unfold out3_3
  rw [View.canon_unit_zero Region.hz2]
  simp only [View.ld_unit_zero (S := S2000x256) Region.hz2, View.ld_unit_zero (S := S1x256) Region.hz2]
  funext j
  obtain ⟨p, q, rfl⟩ : ∃ (p : Fin 2000) (q : Fin 256), j = ix2 p q := ⟨j 0, j 1, eq_ix2 j⟩
  exact (Affine.pay_apply _ _ _ _ _ _ p q).trans (Affine.affRelu_at Y sc sh hY hsc hsh _ _ _ _ e00 e01 e11 e21 e31
    (by rfl) (by rfl) (by rfl) (by rfl) (by rfl) (by rfl))

/-- The blocks written back cover the array, so it ends at max(y · scale + shift, 0). -/
theorem reg3_final (V : (c : Dev nD) → (b : Ref sig .tc) → Buf (Elt Ideal) ((c : Thread nD τ).loc b)) (c : Dev nD)
    (Y : Fin 20000 → Fin 256 → EReal) (sc sh : Fin 256 → EReal)
    (hY : V c (Pipeline.arrRef spec3 0) = ofMat Y) (hsc : V c (Pipeline.arrRef spec3 1) = ofRow sc)
    (hsh : V c (Pipeline.arrRef spec3 2) = ofRow sh) :
    (dat3 (F := Ideal) V c).arrAt 3 cfg3.N = ofMat (Cert.Spec.affRelu Y sc sh) :=
  (dat3 (F := Ideal) V c).arrAt_eq_of_cover 3 _ (fun t _ => reg3_flushed V c Y sc sh hY hsc hsh t) reg3_cover

end Cert.KernelIdeal.Gen
-- ==== Proof.RegMM4.lean ====
import proofs.«160401_j10462540333326_1_alg».proof.Proof.Gen.KernelIdeal.Frame
import proofs.«160401_j10462540333326_1_alg».proof.Proof.LibMatmul
import proofs.«160401_j10462540333326_1_alg».proof.Proof.LibRegion
import proofs.«160401_j10462540333326_1_alg».proof.Proof.LibStats

set_option maxRecDepth 16384

noncomputable section

namespace Cert.KernelIdeal.Gen

open Idealize.ShloMosaic Idealize.ShloMosaic.TcCoe Idealize.ShloMosaic.ValueIdx Idealize.SL.Sem Idealize.ShloMosaic.Tactic
open Idealize.ShloMosaic.Pipeline (Dat Cfg Window)
open Cert.Spec (ofMat ofRow mm colSum colSq)
open Cert.Lib.Region Cert.Lib.Stats

section Generic

variable {F : FTy → Type} [FloatOps F] (V : (c : Dev nD) → (b : Ref sig .tc) → Buf (Elt F) ((c : Thread nD τ).loc b)) (c : Dev nD)

/-- After the first point: the block product, and the two statistics started from zero. -/
theorem reg4_at_A (t : Fin cfg4.N) (h0 : t.val % 10 = 0) :
    outsAt4 V c t.val t.isLt = (k4_pay3 (iblk4 V c 0 t) (iblk4 V c 1 t), k4_pay4 (iblk4 V c 0 t) (iblk4 V c 1 t) k4_pay1,
      k4_pay5 (iblk4 V c 0 t) (iblk4 V c 1 t) k4_pay2) := by
  rw [outsAt4_A V c t h0]
  unfold out4_A_2 out4_A_3 out4_A_4
  rw [View.read_writes_eq_canon _ _ _ (cover4_A_2 _ _ _ _ _ _ _ _ _ _ _ _ _ _ _), View.read_writes_eq_canon _ _ _ (cover4_A_3 _ _ _ _ _ _ _ _ _ _ _ _ _ _ _),
    View.read_writes_eq_canon _ _ _ (cover4_A_4 _ _ _ _ _ _ _ _ _ _ _ _ _ _ _)]
  unfold kernelRun4_A
  dsimp only
  sl_unfold_words
  simp only [View.canon_unit_zero (S := S2000x128) hz2, View.canon_cons_unit_zero (S := S1x128) hz2, View.readAt_eq_ld, (hs4_0 t).read_unread, (hs4_1 t).read_unread,
    View.ld_unit_zero (S := S2000x256) hz2, View.ld_unit_zero (S := S256x128) hz2, View.readCov_unit_zero (S := S1x128) _ hz2]

/-- After a later point: the block product, and the two statistics continued from what the point before left. -/
theorem reg4_at_B (n : ℕ) (h : n + 1 < cfg4.N) (h0 : ¬(n + 1) % 10 = 0) :
    outsAt4 V c (n + 1) h = (k4_pay3 (iblk4 V c 0 ⟨n + 1, h⟩) (iblk4 V c 1 ⟨n + 1, h⟩),
      k4_pay4 (iblk4 V c 0 ⟨n + 1, h⟩) (iblk4 V c 1 ⟨n + 1, h⟩) (outsAt4 V c n (Nat.lt_of_succ_lt h)).2.1,
      k4_pay5 (iblk4 V c 0 ⟨n + 1, h⟩) (iblk4 V c 1 ⟨n + 1, h⟩) (outsAt4 V c n (Nat.lt_of_succ_lt h)).2.2) := by
  refine (outsAt4_B V c ⟨n + 1, h⟩ h0).trans ?_
  unfold out4_B_2 out4_B_3 out4_B_4
  rw [View.read_writes_eq_canon _ _ _ (cover4_B_2 _ _ _ _ _ _ _ _ _ _ _ _ _ _ _ _ _), View.read_writes_eq_canon _ _ _ (cover4_B_3 _ _ _ _ _ _ _ _ _ _ _ _ _ _ _ _ _),
    View.read_writes_eq_canon _ _ _ (cover4_B_4 _ _ _ _ _ _ _ _ _ _ _ _ _ _ _ _ _)]
  unfold kernelRun4_B
  dsimp only
  sl_unfold_words
  simp only [View.canon_unit_zero (S := S2000x128) hz2, View.canon_unit_zero (S := S1x128) hz2, View.readAt_eq_ld, (hs4_0 _).read_unread, (hs4_1 _).read_unread,
    (hs4_3 _).read_unread, (hs4_4 _).read_unread, View.ld_unit_zero (S := S2000x256) hz2, View.ld_unit_zero (S := S256x128) hz2, View.ld_unit_zero (S := S1x128) hz2]
  rfl

end Generic

/-- The block product at (p, q): the sum over k of x[p, k] · w[k, q]. -/
theorem reg4_pay3_apply (x : Vec Ideal S2000x256 .f32) (w : Vec Ideal S256x128 .f32) (p : Fin 2000) (q : Fin 128) :
    k4_pay3 x w (ix2 p q) = ∑ k : Fin 256, (x (ix2 p k) : EReal) * (w (ix2 k q) : EReal) := by
  unfold k4_pay3
  refine (Cert.Lib.Matmul.matmul_zero_apply (A := 2000) (K := 256) (C := 128) none _ _ p q).trans ?_
  simp only [shapeCast_self]
  rfl

/-- The block index of each window at point t: block row t for the row-block windows, the origin for the others. -/
theorem reg4_idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ ∀ a : Fin 2, win4_3.index t a = 0 ∧ win4_4.index t a = 0 :=
  (by decide +kernel : ∀ t : Fin grid4.N, _)

theorem reg4_last : 10 - 1 < cfg4.N := by rw [show cfg4.N = 10 from N_4]; omega

theorem reg4_row (t : Fin cfg4.N) (p : Fin 2000) : 2000 * t.val + p.val < 20000 := by
  have := lt_of_lt_of_eq t.isLt (show cfg4.N = 10 from N_4); have := p.isLt; omega

/-- An index of the product array whose row lies in block n is in point n's block. -/
theorem reg4_mem_blk2 (n : ℕ) (hn : n < cfg4.N) (i : S20000x128.Idx) (h0 : 2000 * n ≤ (i 0).val) (h1 : (i 0).val < 2000 * n + 2000) :
    i ∈ ((cfg4.win 2).blk ⟨n, hn⟩).view.set := by
  obtain ⟨-, -, -, -, e0, e1, -⟩ := reg4_idx_facts ⟨n, hn⟩
  have hi : (i 1).val < 128 := (i 1).isLt
  show i ∈ ((View.whole (Pipeline.arrRef spec4 2)).slice (win4_2.rect ⟨n, hn⟩)).set
  rw [View.set_slice_whole, Rect.mem_set_unit]
  refine Fin.forall_fin_two.mpr ⟨?_, ?_⟩
  · show win4_2.index ⟨n, hn⟩ (0 : Fin 2) * 2000 ≤ (i 0).val ∧ (i 0).val < win4_2.index ⟨n, hn⟩ (0 : Fin 2) * 2000 + 2000
    rw [e0]; dsimp only; omega
  · show win4_2.index ⟨n, hn⟩ (1 : Fin 2) * 128 ≤ (i 1).val ∧ (i 1).val < win4_2.index ⟨n, hn⟩ (1 : Fin 2) * 128 + 128
    rw [e1]; omega

/-- Every index of a one-row statistics array is in the block of any point: the block is the whole array. -/
theorem reg4_mem_blk3 (t : Fin cfg4.N) (i : S1x128.Idx) : i ∈ ((cfg4.win 3).blk t).view.set := by
  obtain ⟨-, -, -, -, -, -, e⟩ := reg4_idx_facts t
  show i ∈ ((View.whole (Pipeline.arrRef spec4 3)).slice (win4_3.rect t)).set
  rw [View.set_slice_whole]
  exact View.mem_set_unit_zero (funext fun a => by rw [(e a).1, Nat.zero_mul]) _ i

theorem reg4_mem_blk4 (t : Fin cfg4.N) (i : S1x128.Idx) : i ∈ ((cfg4.win 4).blk t).view.set := by
  obtain ⟨-, -, -, -, -, -, e⟩ := reg4_idx_facts t
  show i ∈ ((View.whole (Pipeline.arrRef spec4 4)).slice (win4_4.rect t)).set
  rw [View.set_slice_whole]
  exact View.mem_set_unit_zero (funext fun a => by rw [(e a).2, Nat.zero_mul]) _ i

section AtIdeal

variable (V : (c : Dev nD) → (b : Ref sig .tc) → Buf (Elt Ideal) ((c : Thread nD τ).loc b)) (c : Dev nD)
  (X : Fin 20000 → Fin 256 → EReal) (Wt : Fin 256 → Fin 128 → EReal)
  (hX : V c (Pipeline.arrRef spec4 0) = ofMat X) (hW : V c (Pipeline.arrRef spec4 1) = ofMat Wt)
include hX hW

/-- The block product at point t, at (p, q), is the whole product at row 2000·t + p: the left block holds those rows, the right block the whole right array. -/
theorem reg4_blockProd (t : Fin cfg4.N) (p : Fin 2000) (q : Fin 128) :
    (k4_pay3 (iblk4 V c 0 t) (iblk4 V c 1 t) (ix2 p q) : EReal) = rowsN (mm X Wt) (2000 * t.val + p.val) q := by
  have hr := reg4_row t p
  obtain ⟨e0, e1, e2, e3, -⟩ := reg4_idx_facts t
  refine (reg4_pay3_apply _ _ p q).trans ?_
  rw [rowsN_of_lt _ _ _ hr]
  show _ = ∑ k : Fin 256, X ⟨2000 * t.val + p.val, hr⟩ k * Wt k q
  refine Finset.sum_congr rfl fun k _ => congrArg₂ (· * ·) ?_ ?_
  · unfold iblk4
    rw [View.read_apply]
    refine (cast_eq _ _).trans ((congrFun hX _).trans (ofMat_at X _ ⟨_, hr⟩ k ?_ ?_))
    · show win4_0.index t (0 : Fin 2) * 2000 + 1 * p.val = 2000 * t.val + p.val
      rw [e0]; omega
    · show win4_0.index t (1 : Fin 2) * 256 + 1 * k.val = k.val
      rw [e1]; omega
  · unfold iblk4
    rw [View.read_apply]
    refine (cast_eq _ _).trans ((congrFun hW _).trans (ofMat_at Wt _ k q ?_ ?_))
    · show win4_1.index t (0 : Fin 2) * 256 + 1 * k.val = k.val
      rw [e2]; omega
    · show win4_1.index t (1 : Fin 2) * 128 + 1 * q.val = q.val
      rw [e3]; omega

/-- After point n the product's block holds rows 2000·n … of the whole product, and the two statistics hold the column sums (of the entries, of their squares) over the rows of blocks 0 … n. -/
theorem reg4_inv : ∀ (n : ℕ) (h : n < cfg4.N),
      (∀ (p : Fin 2000) (q : Fin 128), ((outsAt4 V c n h).1 (ix2 p q) : EReal) = rowsN (mm X Wt) (2000 * n + p.val) q)
      ∧ (∀ (z : Fin 1) (q : Fin 128), ((outsAt4 V c n h).2.1 (ix2 z q) : EReal)
          = ∑ s ∈ Finset.range (n + 1), ∑ p : Fin 2000, rowsN (mm X Wt) (2000 * s + p.val) q)
      ∧ (∀ (z : Fin 1) (q : Fin 128), ((outsAt4 V c n h).2.2 (ix2 z q) : EReal)
          = ∑ s ∈ Finset.range (n + 1), ∑ p : Fin 2000, rowsN (mm X Wt) (2000 * s + p.val) q * rowsN (mm X Wt) (2000 * s + p.val) q)
  | 0, h => by
    have e : outsAt4 V c 0 h = _ := reg4_at_A V c ⟨0, h⟩ (Nat.zero_mod _)
    rw [e]
    dsimp only
    have hb := reg4_blockProd V c X Wt hX hW ⟨0, h⟩
    refine ⟨hb, fun z q => ?_, fun z q => ?_⟩
    · refine (upd_apply (k4_pay3 _ _) _ _ _ _ z q).trans ?_
      rw [show (k4_pay1 (F := Ideal) (ix2 z q) : EReal) = 0 from zeroWord, zero_add, Finset.sum_range_one]
      exact Finset.sum_congr rfl fun p _ => hb p q
    · refine (upd_apply (mulf (k4_pay3 _ _) (k4_pay3 _ _)) _ _ _ _ z q).trans ?_
      rw [show (k4_pay2 (F := Ideal) (ix2 z q) : EReal) = 0 from zeroWord, zero_add, Finset.sum_range_one]
      exact Finset.sum_congr rfl fun p _ => congrArg₂ (· * ·) (hb p q) (hb p q)
  | n + 1, h => by
    have hN : cfg4.N = 10 := N_4
    obtain ⟨-, ih3, ih4⟩ := reg4_inv n (Nat.lt_of_succ_lt h)
    rw [reg4_at_B V c n h (by omega)]
    dsimp only
    have hb := reg4_blockProd V c X Wt hX hW ⟨n + 1, h⟩
    refine ⟨hb, fun z q => ?_, fun z q => ?_⟩
    · refine (upd_apply (k4_pay3 _ _) _ _ _ _ z q).trans ?_
      rw [Finset.sum_range_succ _ (n + 1), ih3 z q]
      exact congrArg _ (Finset.sum_congr rfl fun p _ => hb p q)
    · refine (upd_apply (mulf (k4_pay3 _ _) (k4_pay3 _ _)) _ _ _ _ z q).trans ?_
      rw [Finset.sum_range_succ _ (n + 1), ih4 z q]
      exact congrArg _ (Finset.sum_congr rfl fun p _ => congrArg₂ (· * ·) (hb p q) (hb p q))

/-- Point t's block of the product is block t of the whole product. -/
theorem reg4_flushed2 (t : Fin cfg4.N) :
    (dat4 V c).flushed 2 t = ((cfg4.win 2).blk t).view.read (Elt Ideal) (ofMat (mm X Wt)) := by
  show (cfg4.win 2).cut (grid4.coords t) ((dat4 V c).after 2 t) = _
  rw [after4_2]
  obtain ⟨-, -, -, -, e0, e1, -⟩ := reg4_idx_facts t
  funext j
  obtain ⟨p, q, rfl⟩ : ∃ (p : Fin 2000) (q : Fin 128), j = ix2 p q := ⟨j 0, j 1, eq_ix2 j⟩
  have hr := reg4_row t p
  rw [View.read_apply]
  refine Eq.trans ?_ (cast_eq _ _).symm
  show ((outsAt4 V c t.val t.isLt).1 (ix2 p q) : EReal) = _
  rw [(reg4_inv V c X Wt hX hW t.val t.isLt).1 p q, rowsN_of_lt _ _ _ hr]
  refine (ofMat_at (mm X Wt) _ ⟨_, hr⟩ q ?_ ?_).symm
  · show win4_2.index t (0 : Fin 2) * 2000 + 1 * p.val = 2000 * t.val + p.val
    rw [e0]; omega
  · show win4_2.index t (1 : Fin 2) * 128 + 1 * q.val = q.val
    rw [e1]; omega

theorem reg4_final2 : (dat4 V c).arrAt 2 cfg4.N = ofMat (mm X Wt) :=
  (dat4 V c).arrAt_eq_of_cover 2 (ofMat (mm X Wt)) (fun t _ => reg4_flushed2 V c X Wt hX hW t) fun i => by
    have hi : (i 0).val < 20000 := (i 0).isLt
    have ht : (i 0).val / 2000 < cfg4.N := by rw [show cfg4.N = 10 from N_4]; omega
    exact ⟨⟨_, ht⟩, flush4_2 _, reg4_mem_blk2 _ ht i (by omega) (by omega)⟩

/-- At the last point the running column sums are the column sums over all rows. -/
theorem reg4_flushed3 (t : Fin cfg4.N) (hf : (cfg4.win 3).flush t = true) :
    (dat4 V c).flushed 3 t = ((cfg4.win 3).blk t).view.read (Elt Ideal) (ofRow (colSum (mm X Wt))) := by
  have hN : cfg4.N = 10 := N_4
  have hlast : t.val + 1 = 10 := by have := (flush4_3 t).mp hf; have := t.isLt; omega
  obtain ⟨-, -, -, -, -, -, e⟩ := reg4_idx_facts t
  show (cfg4.win 3).cut (grid4.coords t) ((dat4 V c).after 3 t) = _
  rw [after4_3]
  funext j
  obtain ⟨z, q, rfl⟩ : ∃ (z : Fin 1) (q : Fin 128), j = ix2 z q := ⟨j 0, j 1, eq_ix2 j⟩
  rw [View.read_apply]
  refine Eq.trans ?_ (cast_eq _ _).symm
  show ((outsAt4 V c t.val t.isLt).2.1 (ix2 z q) : EReal) = _
  rw [(reg4_inv V c X Wt hX hW t.val t.isLt).2.1 z q, hlast]
  refine Eq.trans ?_ (ofRow_at (colSum (mm X Wt)) _ q ?_).symm
  · exact total (A := 2000) (N := 10) (R := 20000) rfl (mm X Wt) (fun y => y) q
  · show win4_3.index t (1 : Fin 2) * 128 + 1 * q.val = q.val
    rw [(e 1).1]; omega

theorem reg4_flushed4 (t : Fin cfg4.N) (hf : (cfg4.win 4).flush t = true) :
    (dat4 V c).flushed 4 t = ((cfg4.win 4).blk t).view.read (Elt Ideal) (ofRow (colSq (mm X Wt))) := by
  have hN : cfg4.N = 10 := N_4
  have hlast : t.val + 1 = 10 := by have := (flush4_4 t).mp hf; have := t.isLt; omega
  obtain ⟨-, -, -, -, -, -, e⟩ := reg4_idx_facts t
  show (cfg4.win 4).cut (grid4.coords t) ((dat4 V c).after 4 t) = _
  rw [after4_4]
  funext j
  obtain ⟨z, q, rfl⟩ : ∃ (z : Fin 1) (q : Fin 128), j = ix2 z q := ⟨j 0, j 1, eq_ix2 j⟩
  rw [View.read_apply]
  refine Eq.trans ?_ (cast_eq _ _).symm
  show ((outsAt4 V c t.val t.isLt).2.2 (ix2 z q) : EReal) = _
  rw [(reg4_inv V c X Wt hX hW t.val t.isLt).2.2 z q, hlast]
  refine Eq.trans ?_ (ofRow_at (colSq (mm X Wt)) _ q ?_).symm
  · exact total (A := 2000) (N := 10) (R := 20000) rfl (mm X Wt) (fun y => y * y) q
  · show win4_4.index t (1 : Fin 2) * 128 + 1 * q.val = q.val
    rw [(e 1).2]; omega

end AtIdeal

/-- The product, its column sums and its column sums of squares. -/
theorem reg4_final (V : (c : Dev nD) → (b : Ref sig .tc) → Buf (Elt Ideal) ((c : Thread nD τ).loc b)) (c : Dev nD)
    (X : Fin 20000 → Fin 256 → EReal) (Wt : Fin 256 → Fin 128 → EReal)
    (hX : V c (Pipeline.arrRef spec4 0) = ofMat X) (hW : V c (Pipeline.arrRef spec4 1) = ofMat Wt) :
    (dat4 (F := Ideal) V c).arrAt 2 cfg4.N = ofMat (Cert.Spec.mm X Wt)
    ∧ (dat4 (F := Ideal) V c).arrAt 3 cfg4.N = ofRow (Cert.Spec.colSum (Cert.Spec.mm X Wt))
    ∧ (dat4 (F := Ideal) V c).arrAt 4 cfg4.N = ofRow (Cert.Spec.colSq (Cert.Spec.mm X Wt)) :=
  ⟨reg4_final2 V c X Wt hX hW,
    (dat4 V c).arrAt_eq_of_cover 3 _ (reg4_flushed3 V c X Wt hX hW) fun i => ⟨⟨10 - 1, reg4_last⟩, (flush4_3 _).mpr rfl, reg4_mem_blk3 _ i⟩,
    (dat4 V c).arrAt_eq_of_cover 4 _ (reg4_flushed4 V c X Wt hX hW) fun i => ⟨⟨10 - 1, reg4_last⟩, (flush4_4 _).mpr rfl, reg4_mem_blk4 _ i⟩⟩

end Cert.KernelIdeal.Gen

end
-- ==== Proof.RegBN5.lean ====
import proofs.«160401_j10462540333326_1_alg».proof.Proof.Gen.KernelIdeal.Frame
import proofs.«160401_j10462540333326_1_alg».proof.Proof.LibRegion
import proofs.«160401_j10462540333326_1_alg».proof.Proof.LibAffine
import Idealize.ShloMosaic.Lib.Pipeline.Value

namespace Cert.KernelIdeal.Gen

open Idealize.ShloMosaic Idealize.ShloMosaic.TcCoe Idealize.ShloMosaic.ValueIdx Idealize.SL.Sem
open Cert.Spec (ofMat ofRow)
open Cert.Lib

/-- Windows 0 and 3 take the same block of rows at a point, block t, and every window takes the whole width. -/
theorem reg5_idx : ∀ t : Fin cfg5.N,
    win5_0.index t (0 : Fin 2) = win5_3.index t (0 : Fin 2) ∧ win5_0.index t (1 : Fin 2) = 0
    ∧ win5_1.index t (1 : Fin 2) = 0 ∧ win5_2.index t (1 : Fin 2) = 0
    ∧ win5_3.index t (0 : Fin 2) = t.val ∧ win5_3.index t (1 : Fin 2) = 0 :=
  (by decide +kernel : ∀ t : Fin grid5.N, _)

/-- Row r of the output lies in the block written back at point r / 2000. -/
theorem reg5_cover (i : S20000x128.Idx) :
    ∃ t : Fin cfg5.N, (cfg5.win 3).flush t = true ∧ i ∈ ((cfg5.win 3).blk t).view.set := by
  have hi : (i 0).val < 2000 * 10 := (i 0).isLt
  let t : Fin cfg5.N := ⟨(i 0).val / 2000, lt_of_lt_of_eq (Nat.div_lt_of_lt_mul hi) N_5.symm⟩
  obtain ⟨-, -, -, -, e30, e31⟩ := reg5_idx t
  refine ⟨t, flush5_3 t, ?_⟩
  show i ∈ ((View.whole (Pipeline.arrRef spec5 3)).slice (win5_3.rect t)).set
  rw [View.set_slice_whole, Rect.mem_set_unit]
  exact Affine.mem_rowBlock (B := 2000) (C := 128) (by decide) i _ e30 e31

/-- What point t writes back is its block of max(y · scale + shift, 0). -/
theorem reg5_flushed (V : (c : Dev nD) → (b : Ref sig .tc) → Buf (Elt Ideal) ((c : Thread nD τ).loc b)) (c : Dev nD)
    (Y : Fin 20000 → Fin 128 → EReal) (sc sh : Fin 128 → EReal)
    (hY : V c (Pipeline.arrRef spec5 0) = ofMat Y) (hsc : V c (Pipeline.arrRef spec5 1) = ofRow sc)
    (hsh : V c (Pipeline.arrRef spec5 2) = ofRow sh) (t : Fin cfg5.N) :
    (dat5 (F := Ideal) V c).flushed 3 t
      = ((cfg5.win 3).blk t).view.read (Elt Ideal) (ofMat (Cert.Spec.affRelu Y sc sh)) := by
  obtain ⟨e00, e01, e11, e21, -, e31⟩ := reg5_idx t
  show (cfg5.win 3).cut (grid5.coords t) ((dat5 V c).after 3 t) = _
  rw [after5_3]
  unfold out5_3
  rw [View.canon_unit_zero Region.hz2]
  simp only [View.ld_unit_zero (S := S2000x128) Region.hz2, View.ld_unit_zero (S := S1x128) Region.hz2]
  funext j
  obtain ⟨p, q, rfl⟩ : ∃ (p : Fin 2000) (q : Fin 128), j = ix2 p q := ⟨j 0, j 1, eq_ix2 j⟩
  exact (Affine.pay_apply _ _ _ _ _ _ p q).trans (Affine.affRelu_at Y sc sh hY hsc hsh _ _ _ _ e00 e01 e11 e21 e31
    (by rfl) (by rfl) (by rfl) (by rfl) (by rfl) (by rfl))

/-- The blocks written back cover the array, so it ends at max(y · scale + shift, 0). -/
theorem reg5_final (V : (c : Dev nD) → (b : Ref sig .tc) → Buf (Elt Ideal) ((c : Thread nD τ).loc b)) (c : Dev nD)
    (Y : Fin 20000 → Fin 128 → EReal) (sc sh : Fin 128 → EReal)
    (hY : V c (Pipeline.arrRef spec5 0) = ofMat Y) (hsc : V c (Pipeline.arrRef spec5 1) = ofRow sc)
    (hsh : V c (Pipeline.arrRef spec5 2) = ofRow sh) :
    (dat5 (F := Ideal) V c).arrAt 3 cfg5.N = ofMat (Cert.Spec.affRelu Y sc sh) :=
  (dat5 (F := Ideal) V c).arrAt_eq_of_cover 3 _ (fun t _ => reg5_flushed V c Y sc sh hY hsc hsh t) reg5_cover

end Cert.KernelIdeal.Gen
-- ==== Proof.RegMM6.lean ====
import proofs.«160401_j10462540333326_1_alg».proof.Proof.Gen.KernelIdeal.Frame
import proofs.«160401_j10462540333326_1_alg».proof.Proof.LibMatmul
import proofs.«160401_j10462540333326_1_alg».proof.Proof.LibRegion
import proofs.«160401_j10462540333326_1_alg».proof.Proof.LibStats

set_option maxRecDepth 16384

noncomputable section

namespace Cert.KernelIdeal.Gen

open Idealize.ShloMosaic Idealize.ShloMosaic.TcCoe Idealize.ShloMosaic.ValueIdx Idealize.SL.Sem Idealize.ShloMosaic.Tactic
open Idealize.ShloMosaic.Pipeline (Dat Cfg Window)
open Cert.Spec (ofMat ofRow mm colSum colSq)
open Cert.Lib.Region Cert.Lib.Stats

section Generic

variable {F : FTy → Type} [FloatOps F] (V : (c : Dev nD) → (b : Ref sig .tc) → Buf (Elt F) ((c : Thread nD τ).loc b)) (c : Dev nD)

/-- After the first point: the block product, and the two statistics started from zero. -/
theorem reg6_at_A (t : Fin cfg6.N) (h0 : t.val % 80 = 0) :
    outsAt6 V c t.val t.isLt = (k6_pay3 (iblk6 V c 0 t) (iblk6 V c 1 t), k6_pay4 (iblk6 V c 0 t) (iblk6 V c 1 t) k6_pay1,
      k6_pay5 (iblk6 V c 0 t) (iblk6 V c 1 t) k6_pay2) := by
  rw [outsAt6_A V c t h0]
  unfold out6_A_2 out6_A_3 out6_A_4
  rw [View.read_writes_eq_canon _ _ _ (cover6_A_2 _ _ _ _ _ _ _ _ _ _ _ _ _ _ _), View.read_writes_eq_canon _ _ _ (cover6_A_3 _ _ _ _ _ _ _ _ _ _ _ _ _ _ _),
    View.read_writes_eq_canon _ _ _ (cover6_A_4 _ _ _ _ _ _ _ _ _ _ _ _ _ _ _)]
  unfold kernelRun6_A
  dsimp only
  sl_unfold_words
  simp only [View.canon_unit_zero (S := S4000x256) hz2, View.canon_cons_unit_zero (S := S1x256) hz2, View.readAt_eq_ld, (hs6_0 t).read_unread, (hs6_1 t).read_unread,
    View.ld_unit_zero (S := S4000x256) hz2, View.ld_unit_zero (S := S256x256) hz2, View.readCov_unit_zero (S := S1x256) _ hz2]

/-- After a later point: the block product, and the two statistics continued from what the point before left. -/
theorem reg6_at_B (n : ℕ) (h : n + 1 < cfg6.N) (h0 : ¬(n + 1) % 80 = 0) :
    outsAt6 V c (n + 1) h = (k6_pay3 (iblk6 V c 0 ⟨n + 1, h⟩) (iblk6 V c 1 ⟨n + 1, h⟩),
      k6_pay4 (iblk6 V c 0 ⟨n + 1, h⟩) (iblk6 V c 1 ⟨n + 1, h⟩) (outsAt6 V c n (Nat.lt_of_succ_lt h)).2.1,
      k6_pay5 (iblk6 V c 0 ⟨n + 1, h⟩) (iblk6 V c 1 ⟨n + 1, h⟩) (outsAt6 V c n (Nat.lt_of_succ_lt h)).2.2) := by
  refine (outsAt6_B V c ⟨n + 1, h⟩ h0).trans ?_
  unfold out6_B_2 out6_B_3 out6_B_4
  rw [View.read_writes_eq_canon _ _ _ (cover6_B_2 _ _ _ _ _ _ _ _ _ _ _ _ _ _ _ _ _), View.read_writes_eq_canon _ _ _ (cover6_B_3 _ _ _ _ _ _ _ _ _ _ _ _ _ _ _ _ _),
    View.read_writes_eq_canon _ _ _ (cover6_B_4 _ _ _ _ _ _ _ _ _ _ _ _ _ _ _ _ _)]
  unfold kernelRun6_B
  dsimp only
  sl_unfold_words
  simp only [View.canon_unit_zero (S := S4000x256) hz2, View.canon_unit_zero (S := S1x256) hz2, View.readAt_eq_ld, (hs6_0 _).read_unread, (hs6_1 _).read_unread,
    (hs6_3 _).read_unread, (hs6_4 _).read_unread, View.ld_unit_zero (S := S4000x256) hz2, View.ld_unit_zero (S := S256x256) hz2, View.ld_unit_zero (S := S1x256) hz2]
  rfl

end Generic

/-- The block product at (p, q): the sum over k of x[p, k] · w[k, q]. -/
theorem reg6_pay3_apply (x : Vec Ideal S4000x256 .f32) (w : Vec Ideal S256x256 .f32) (p : Fin 4000) (q : Fin 256) :
    k6_pay3 x w (ix2 p q) = ∑ k : Fin 256, (x (ix2 p k) : EReal) * (w (ix2 k q) : EReal) := by
  unfold k6_pay3
  refine (Cert.Lib.Matmul.matmul_zero_apply (A := 4000) (K := 256) (C := 256) none _ _ p q).trans ?_
  simp only [shapeCast_self]
  rfl

/-- The block index of each window at point t: block row t for the row-block windows, the origin for the others. -/
theorem reg6_idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ ∀ a : Fin 2, win6_3.index t a = 0 ∧ win6_4.index t a = 0 :=
  (by decide +kernel : ∀ t : Fin grid6.N, _)

theorem reg6_last : 80 - 1 < cfg6.N := by rw [show cfg6.N = 80 from N_6]; omega

theorem reg6_row (t : Fin cfg6.N) (p : Fin 4000) : 4000 * t.val + p.val < 320000 := by
  have := lt_of_lt_of_eq t.isLt (show cfg6.N = 80 from N_6); have := p.isLt; omega

/-- An index of the product array whose row lies in block n is in point n's block. -/
theorem reg6_mem_blk2 (n : ℕ) (hn : n < cfg6.N) (i : S320000x256.Idx) (h0 : 4000 * n ≤ (i 0).val) (h1 : (i 0).val < 4000 * n + 4000) :
    i ∈ ((cfg6.win 2).blk ⟨n, hn⟩).view.set := by
  obtain ⟨-, -, -, -, e0, e1, -⟩ := reg6_idx_facts ⟨n, hn⟩
  have hi : (i 1).val < 256 := (i 1).isLt
  show i ∈ ((View.whole (Pipeline.arrRef spec6 2)).slice (win6_2.rect ⟨n, hn⟩)).set
  rw [View.set_slice_whole, Rect.mem_set_unit]
  refine Fin.forall_fin_two.mpr ⟨?_, ?_⟩
  · show win6_2.index ⟨n, hn⟩ (0 : Fin 2) * 4000 ≤ (i 0).val ∧ (i 0).val < win6_2.index ⟨n, hn⟩ (0 : Fin 2) * 4000 + 4000
    rw [e0]; dsimp only; omega
  · show win6_2.index ⟨n, hn⟩ (1 : Fin 2) * 256 ≤ (i 1).val ∧ (i 1).val < win6_2.index ⟨n, hn⟩ (1 : Fin 2) * 256 + 256
    rw [e1]; omega

/-- Every index of a one-row statistics array is in the block of any point: the block is the whole array. -/
theorem reg6_mem_blk3 (t : Fin cfg6.N) (i : S1x256.Idx) : i ∈ ((cfg6.win 3).blk t).view.set := by
  obtain ⟨-, -, -, -, -, -, e⟩ := reg6_idx_facts t
  show i ∈ ((View.whole (Pipeline.arrRef spec6 3)).slice (win6_3.rect t)).set
  rw [View.set_slice_whole]
  exact View.mem_set_unit_zero (funext fun a => by rw [(e a).1, Nat.zero_mul]) _ i

theorem reg6_mem_blk4 (t : Fin cfg6.N) (i : S1x256.Idx) : i ∈ ((cfg6.win 4).blk t).view.set := by
  obtain ⟨-, -, -, -, -, -, e⟩ := reg6_idx_facts t
  show i ∈ ((View.whole (Pipeline.arrRef spec6 4)).slice (win6_4.rect t)).set
  rw [View.set_slice_whole]
  exact View.mem_set_unit_zero (funext fun a => by rw [(e a).2, Nat.zero_mul]) _ i

section AtIdeal

variable (V : (c : Dev nD) → (b : Ref sig .tc) → Buf (Elt Ideal) ((c : Thread nD τ).loc b)) (c : Dev nD)
  (X : Fin 320000 → Fin 256 → EReal) (Wt : Fin 256 → Fin 256 → EReal)
  (hX : V c (Pipeline.arrRef spec6 0) = ofMat X) (hW : V c (Pipeline.arrRef spec6 1) = ofMat Wt)
include hX hW

/-- The block product at point t, at (p, q), is the whole product at row 4000·t + p: the left block holds those rows, the right block the whole right array. -/
theorem reg6_blockProd (t : Fin cfg6.N) (p : Fin 4000) (q : Fin 256) :
    (k6_pay3 (iblk6 V c 0 t) (iblk6 V c 1 t) (ix2 p q) : EReal) = rowsN (mm X Wt) (4000 * t.val + p.val) q := by
  have hr := reg6_row t p
  obtain ⟨e0, e1, e2, e3, -⟩ := reg6_idx_facts t
  refine (reg6_pay3_apply _ _ p q).trans ?_
  rw [rowsN_of_lt _ _ _ hr]
  show _ = ∑ k : Fin 256, X ⟨4000 * t.val + p.val, hr⟩ k * Wt k q
  refine Finset.sum_congr rfl fun k _ => congrArg₂ (· * ·) ?_ ?_
  · unfold iblk6
    rw [View.read_apply]
    refine (cast_eq _ _).trans ((congrFun hX _).trans (ofMat_at X _ ⟨_, hr⟩ k ?_ ?_))
    · show win6_0.index t (0 : Fin 2) * 4000 + 1 * p.val = 4000 * t.val + p.val
      rw [e0]; omega
    · show win6_0.index t (1 : Fin 2) * 256 + 1 * k.val = k.val
      rw [e1]; omega
  · unfold iblk6
    rw [View.read_apply]
    refine (cast_eq _ _).trans ((congrFun hW _).trans (ofMat_at Wt _ k q ?_ ?_))
    · show win6_1.index t (0 : Fin 2) * 256 + 1 * k.val = k.val
      rw [e2]; omega
    · show win6_1.index t (1 : Fin 2) * 256 + 1 * q.val = q.val
      rw [e3]; omega

/-- After point n the product's block holds rows 4000·n … of the whole product, and the two statistics hold the column sums (of the entries, of their squares) over the rows of blocks 0 … n. -/
theorem reg6_inv : ∀ (n : ℕ) (h : n < cfg6.N),
      (∀ (p : Fin 4000) (q : Fin 256), ((outsAt6 V c n h).1 (ix2 p q) : EReal) = rowsN (mm X Wt) (4000 * n + p.val) q)
      ∧ (∀ (z : Fin 1) (q : Fin 256), ((outsAt6 V c n h).2.1 (ix2 z q) : EReal)
          = ∑ s ∈ Finset.range (n + 1), ∑ p : Fin 4000, rowsN (mm X Wt) (4000 * s + p.val) q)
      ∧ (∀ (z : Fin 1) (q : Fin 256), ((outsAt6 V c n h).2.2 (ix2 z q) : EReal)
          = ∑ s ∈ Finset.range (n + 1), ∑ p : Fin 4000, rowsN (mm X Wt) (4000 * s + p.val) q * rowsN (mm X Wt) (4000 * s + p.val) q)
  | 0, h => by
    have e : outsAt6 V c 0 h = _ := reg6_at_A V c ⟨0, h⟩ (Nat.zero_mod _)
    rw [e]
    dsimp only
    have hb := reg6_blockProd V c X Wt hX hW ⟨0, h⟩
    refine ⟨hb, fun z q => ?_, fun z q => ?_⟩
    · refine (upd_apply (k6_pay3 _ _) _ _ _ _ z q).trans ?_
      rw [show (k6_pay1 (F := Ideal) (ix2 z q) : EReal) = 0 from zeroWord, zero_add, Finset.sum_range_one]
      exact Finset.sum_congr rfl fun p _ => hb p q
    · refine (upd_apply (mulf (k6_pay3 _ _) (k6_pay3 _ _)) _ _ _ _ z q).trans ?_
      rw [show (k6_pay2 (F := Ideal) (ix2 z q) : EReal) = 0 from zeroWord, zero_add, Finset.sum_range_one]
      exact Finset.sum_congr rfl fun p _ => congrArg₂ (· * ·) (hb p q) (hb p q)
  | n + 1, h => by
    have hN : cfg6.N = 80 := N_6
    obtain ⟨-, ih3, ih4⟩ := reg6_inv n (Nat.lt_of_succ_lt h)
    rw [reg6_at_B V c n h (by omega)]
    dsimp only
    have hb := reg6_blockProd V c X Wt hX hW ⟨n + 1, h⟩
    refine ⟨hb, fun z q => ?_, fun z q => ?_⟩
    · refine (upd_apply (k6_pay3 _ _) _ _ _ _ z q).trans ?_
      rw [Finset.sum_range_succ _ (n + 1), ih3 z q]
      exact congrArg _ (Finset.sum_congr rfl fun p _ => hb p q)
    · refine (upd_apply (mulf (k6_pay3 _ _) (k6_pay3 _ _)) _ _ _ _ z q).trans ?_
      rw [Finset.sum_range_succ _ (n + 1), ih4 z q]
      exact congrArg _ (Finset.sum_congr rfl fun p _ => congrArg₂ (· * ·) (hb p q) (hb p q))

/-- Point t's block of the product is block t of the whole product. -/
theorem reg6_flushed2 (t : Fin cfg6.N) :
    (dat6 V c).flushed 2 t = ((cfg6.win 2).blk t).view.read (Elt Ideal) (ofMat (mm X Wt)) := by
  show (cfg6.win 2).cut (grid6.coords t) ((dat6 V c).after 2 t) = _
  rw [after6_2]
  obtain ⟨-, -, -, -, e0, e1, -⟩ := reg6_idx_facts t
  funext j
  obtain ⟨p, q, rfl⟩ : ∃ (p : Fin 4000) (q : Fin 256), j = ix2 p q := ⟨j 0, j 1, eq_ix2 j⟩
  have hr := reg6_row t p
  rw [View.read_apply]
  refine Eq.trans ?_ (cast_eq _ _).symm
  show ((outsAt6 V c t.val t.isLt).1 (ix2 p q) : EReal) = _
  rw [(reg6_inv V c X Wt hX hW t.val t.isLt).1 p q, rowsN_of_lt _ _ _ hr]
  refine (ofMat_at (mm X Wt) _ ⟨_, hr⟩ q ?_ ?_).symm
  · show win6_2.index t (0 : Fin 2) * 4000 + 1 * p.val = 4000 * t.val + p.val
    rw [e0]; omega
  · show win6_2.index t (1 : Fin 2) * 256 + 1 * q.val = q.val
    rw [e1]; omega

theorem reg6_final2 : (dat6 V c).arrAt 2 cfg6.N = ofMat (mm X Wt) :=
  (dat6 V c).arrAt_eq_of_cover 2 (ofMat (mm X Wt)) (fun t _ => reg6_flushed2 V c X Wt hX hW t) fun i => by
    have hi : (i 0).val < 320000 := (i 0).isLt
    have ht : (i 0).val / 4000 < cfg6.N := by rw [show cfg6.N = 80 from N_6]; omega
    exact ⟨⟨_, ht⟩, flush6_2 _, reg6_mem_blk2 _ ht i (by omega) (by omega)⟩

/-- At the last point the running column sums are the column sums over all rows. -/
theorem reg6_flushed3 (t : Fin cfg6.N) (hf : (cfg6.win 3).flush t = true) :
    (dat6 V c).flushed 3 t = ((cfg6.win 3).blk t).view.read (Elt Ideal) (ofRow (colSum (mm X Wt))) := by
  have hN : cfg6.N = 80 := N_6
  have hlast : t.val + 1 = 80 := by have := (flush6_3 t).mp hf; have := t.isLt; omega
  obtain ⟨-, -, -, -, -, -, e⟩ := reg6_idx_facts t
  show (cfg6.win 3).cut (grid6.coords t) ((dat6 V c).after 3 t) = _
  rw [after6_3]
  funext j
  obtain ⟨z, q, rfl⟩ : ∃ (z : Fin 1) (q : Fin 256), j = ix2 z q := ⟨j 0, j 1, eq_ix2 j⟩
  rw [View.read_apply]
  refine Eq.trans ?_ (cast_eq _ _).symm
  show ((outsAt6 V c t.val t.isLt).2.1 (ix2 z q) : EReal) = _
  rw [(reg6_inv V c X Wt hX hW t.val t.isLt).2.1 z q, hlast]
  refine Eq.trans ?_ (ofRow_at (colSum (mm X Wt)) _ q ?_).symm
  · exact total (A := 4000) (N := 80) (R := 320000) rfl (mm X Wt) (fun y => y) q
  · show win6_3.index t (1 : Fin 2) * 256 + 1 * q.val = q.val
    rw [(e 1).1]; omega

theorem reg6_flushed4 (t : Fin cfg6.N) (hf : (cfg6.win 4).flush t = true) :
    (dat6 V c).flushed 4 t = ((cfg6.win 4).blk t).view.read (Elt Ideal) (ofRow (colSq (mm X Wt))) := by
  have hN : cfg6.N = 80 := N_6
  have hlast : t.val + 1 = 80 := by have := (flush6_4 t).mp hf; have := t.isLt; omega
  obtain ⟨-, -, -, -, -, -, e⟩ := reg6_idx_facts t
  show (cfg6.win 4).cut (grid6.coords t) ((dat6 V c).after 4 t) = _
  rw [after6_4]
  funext j
  obtain ⟨z, q, rfl⟩ : ∃ (z : Fin 1) (q : Fin 256), j = ix2 z q := ⟨j 0, j 1, eq_ix2 j⟩
  rw [View.read_apply]
  refine Eq.trans ?_ (cast_eq _ _).symm
  show ((outsAt6 V c t.val t.isLt).2.2 (ix2 z q) : EReal) = _
  rw [(reg6_inv V c X Wt hX hW t.val t.isLt).2.2 z q, hlast]
  refine Eq.trans ?_ (ofRow_at (colSq (mm X Wt)) _ q ?_).symm
  · exact total (A := 4000) (N := 80) (R := 320000) rfl (mm X Wt) (fun y => y * y) q
  · show win6_4.index t (1 : Fin 2) * 256 + 1 * q.val = q.val
    rw [(e 1).2]; omega

end AtIdeal

/-- The product, its column sums and its column sums of squares. -/
theorem reg6_final (V : (c : Dev nD) → (b : Ref sig .tc) → Buf (Elt Ideal) ((c : Thread nD τ).loc b)) (c : Dev nD)
    (X : Fin 320000 → Fin 256 → EReal) (Wt : Fin 256 → Fin 256 → EReal)
    (hX : V c (Pipeline.arrRef spec6 0) = ofMat X) (hW : V c (Pipeline.arrRef spec6 1) = ofMat Wt) :
    (dat6 (F := Ideal) V c).arrAt 2 cfg6.N = ofMat (Cert.Spec.mm X Wt)
    ∧ (dat6 (F := Ideal) V c).arrAt 3 cfg6.N = ofRow (Cert.Spec.colSum (Cert.Spec.mm X Wt))
    ∧ (dat6 (F := Ideal) V c).arrAt 4 cfg6.N = ofRow (Cert.Spec.colSq (Cert.Spec.mm X Wt)) :=
  ⟨reg6_final2 V c X Wt hX hW,
    (dat6 V c).arrAt_eq_of_cover 3 _ (reg6_flushed3 V c X Wt hX hW) fun i => ⟨⟨80 - 1, reg6_last⟩, (flush6_3 _).mpr rfl, reg6_mem_blk3 _ i⟩,
    (dat6 V c).arrAt_eq_of_cover 4 _ (reg6_flushed4 V c X Wt hX hW) fun i => ⟨⟨80 - 1, reg6_last⟩, (flush6_4 _).mpr rfl, reg6_mem_blk4 _ i⟩⟩

end Cert.KernelIdeal.Gen

end
-- ==== Proof.RegBN7.lean ====
import proofs.«160401_j10462540333326_1_alg».proof.Proof.Gen.KernelIdeal.Frame
import proofs.«160401_j10462540333326_1_alg».proof.Proof.LibRegion
import proofs.«160401_j10462540333326_1_alg».proof.Proof.LibAffine
import Idealize.ShloMosaic.Lib.Pipeline.Value

namespace Cert.KernelIdeal.Gen

open Idealize.ShloMosaic Idealize.ShloMosaic.TcCoe Idealize.ShloMosaic.ValueIdx Idealize.SL.Sem
open Cert.Spec (ofMat ofRow)
open Cert.Lib

/-- Windows 0 and 3 take the same block of rows at a point, block t, and every window takes the whole width. -/
theorem reg7_idx : ∀ t : Fin cfg7.N,
    win7_0.index t (0 : Fin 2) = win7_3.index t (0 : Fin 2) ∧ win7_0.index t (1 : Fin 2) = 0
    ∧ win7_1.index t (1 : Fin 2) = 0 ∧ win7_2.index t (1 : Fin 2) = 0
    ∧ win7_3.index t (0 : Fin 2) = t.val ∧ win7_3.index t (1 : Fin 2) = 0 :=
  (by decide +kernel : ∀ t : Fin grid7.N, _)

/-- Row r of the output lies in the block written back at point r / 4000. -/
theorem reg7_cover (i : S320000x256.Idx) :
    ∃ t : Fin cfg7.N, (cfg7.win 3).flush t = true ∧ i ∈ ((cfg7.win 3).blk t).view.set := by
  have hi : (i 0).val < 4000 * 80 := (i 0).isLt
  let t : Fin cfg7.N := ⟨(i 0).val / 4000, lt_of_lt_of_eq (Nat.div_lt_of_lt_mul hi) N_7.symm⟩
  obtain ⟨-, -, -, -, e30, e31⟩ := reg7_idx t
  refine ⟨t, flush7_3 t, ?_⟩
  show i ∈ ((View.whole (Pipeline.arrRef spec7 3)).slice (win7_3.rect t)).set
  rw [View.set_slice_whole, Rect.mem_set_unit]
  exact Affine.mem_rowBlock (B := 4000) (C := 256) (by decide) i _ e30 e31

/-- What point t writes back is its block of max(y · scale + shift, 0). -/
theorem reg7_flushed (V : (c : Dev nD) → (b : Ref sig .tc) → Buf (Elt Ideal) ((c : Thread nD τ).loc b)) (c : Dev nD)
    (Y : Fin 320000 → Fin 256 → EReal) (sc sh : Fin 256 → EReal)
    (hY : V c (Pipeline.arrRef spec7 0) = ofMat Y) (hsc : V c (Pipeline.arrRef spec7 1) = ofRow sc)
    (hsh : V c (Pipeline.arrRef spec7 2) = ofRow sh) (t : Fin cfg7.N) :
    (dat7 (F := Ideal) V c).flushed 3 t
      = ((cfg7.win 3).blk t).view.read (Elt Ideal) (ofMat (Cert.Spec.affRelu Y sc sh)) := by
  obtain ⟨e00, e01, e11, e21, -, e31⟩ := reg7_idx t
  show (cfg7.win 3).cut (grid7.coords t) ((dat7 V c).after 3 t) = _
  rw [after7_3]
  unfold out7_3
  rw [View.canon_unit_zero Region.hz2]
  simp only [View.ld_unit_zero (S := S4000x256) Region.hz2, View.ld_unit_zero (S := S1x256) Region.hz2]
  funext j
  obtain ⟨p, q, rfl⟩ : ∃ (p : Fin 4000) (q : Fin 256), j = ix2 p q := ⟨j 0, j 1, eq_ix2 j⟩
  exact (Affine.pay_apply _ _ _ _ _ _ p q).trans (Affine.affRelu_at Y sc sh hY hsc hsh _ _ _ _ e00 e01 e11 e21 e31
    (by rfl) (by rfl) (by rfl) (by rfl) (by rfl) (by rfl))

/-- The blocks written back cover the array, so it ends at max(y · scale + shift, 0). -/
theorem reg7_final (V : (c : Dev nD) → (b : Ref sig .tc) → Buf (Elt Ideal) ((c : Thread nD τ).loc b)) (c : Dev nD)
    (Y : Fin 320000 → Fin 256 → EReal) (sc sh : Fin 256 → EReal)
    (hY : V c (Pipeline.arrRef spec7 0) = ofMat Y) (hsc : V c (Pipeline.arrRef spec7 1) = ofRow sc)
    (hsh : V c (Pipeline.arrRef spec7 2) = ofRow sh) :
    (dat7 (F := Ideal) V c).arrAt 3 cfg7.N = ofMat (Cert.Spec.affRelu Y sc sh) :=
  (dat7 (F := Ideal) V c).arrAt_eq_of_cover 3 _ (fun t _ => reg7_flushed V c Y sc sh hY hsc hsh t) reg7_cover

end Cert.KernelIdeal.Gen
-- ==== Proof.RegMM8.lean ====
import proofs.«160401_j10462540333326_1_alg».proof.Proof.Gen.KernelIdeal.Frame
import proofs.«160401_j10462540333326_1_alg».proof.Proof.LibMatmul
import proofs.«160401_j10462540333326_1_alg».proof.Proof.LibRegion
import proofs.«160401_j10462540333326_1_alg».proof.Proof.LibStats

set_option maxRecDepth 16384

noncomputable section

namespace Cert.KernelIdeal.Gen

open Idealize.ShloMosaic Idealize.ShloMosaic.TcCoe Idealize.ShloMosaic.ValueIdx Idealize.SL.Sem Idealize.ShloMosaic.Tactic
open Idealize.ShloMosaic.Pipeline (Dat Cfg Window)
open Cert.Spec (ofMat ofRow mm colSum colSq)
open Cert.Lib.Region Cert.Lib.Stats

section Generic

variable {F : FTy → Type} [FloatOps F] (V : (c : Dev nD) → (b : Ref sig .tc) → Buf (Elt F) ((c : Thread nD τ).loc b)) (c : Dev nD)

/-- After the first point: the block product, and the two statistics started from zero. -/
theorem reg8_at_A (t : Fin cfg8.N) (h0 : t.val % 80 = 0) :
    outsAt8 V c t.val t.isLt = (k8_pay3 (iblk8 V c 0 t) (iblk8 V c 1 t), k8_pay4 (iblk8 V c 0 t) (iblk8 V c 1 t) k8_pay1,
      k8_pay5 (iblk8 V c 0 t) (iblk8 V c 1 t) k8_pay2) := by
  rw [outsAt8_A V c t h0]
  unfold out8_A_2 out8_A_3 out8_A_4
  rw [View.read_writes_eq_canon _ _ _ (cover8_A_2 _ _ _ _ _ _ _ _ _ _ _ _ _ _ _), View.read_writes_eq_canon _ _ _ (cover8_A_3 _ _ _ _ _ _ _ _ _ _ _ _ _ _ _),
    View.read_writes_eq_canon _ _ _ (cover8_A_4 _ _ _ _ _ _ _ _ _ _ _ _ _ _ _)]
  unfold kernelRun8_A
  dsimp only
  sl_unfold_words
  simp only [View.canon_unit_zero (S := S4000x128) hz2, View.canon_cons_unit_zero (S := S1x128) hz2, View.readAt_eq_ld, (hs8_0 t).read_unread, (hs8_1 t).read_unread,
    View.ld_unit_zero (S := S4000x256) hz2, View.ld_unit_zero (S := S256x128) hz2, View.readCov_unit_zero (S := S1x128) _ hz2]

/-- After a later point: the block product, and the two statistics continued from what the point before left. -/
theorem reg8_at_B (n : ℕ) (h : n + 1 < cfg8.N) (h0 : ¬(n + 1) % 80 = 0) :
    outsAt8 V c (n + 1) h = (k8_pay3 (iblk8 V c 0 ⟨n + 1, h⟩) (iblk8 V c 1 ⟨n + 1, h⟩),
      k8_pay4 (iblk8 V c 0 ⟨n + 1, h⟩) (iblk8 V c 1 ⟨n + 1, h⟩) (outsAt8 V c n (Nat.lt_of_succ_lt h)).2.1,
      k8_pay5 (iblk8 V c 0 ⟨n + 1, h⟩) (iblk8 V c 1 ⟨n + 1, h⟩) (outsAt8 V c n (Nat.lt_of_succ_lt h)).2.2) := by
  refine (outsAt8_B V c ⟨n + 1, h⟩ h0).trans ?_
  unfold out8_B_2 out8_B_3 out8_B_4
  rw [View.read_writes_eq_canon _ _ _ (cover8_B_2 _ _ _ _ _ _ _ _ _ _ _ _ _ _ _ _ _), View.read_writes_eq_canon _ _ _ (cover8_B_3 _ _ _ _ _ _ _ _ _ _ _ _ _ _ _ _ _),
    View.read_writes_eq_canon _ _ _ (cover8_B_4 _ _ _ _ _ _ _ _ _ _ _ _ _ _ _ _ _)]
  unfold kernelRun8_B
  dsimp only
  sl_unfold_words
  simp only [View.canon_unit_zero (S := S4000x128) hz2, View.canon_unit_zero (S := S1x128) hz2, View.readAt_eq_ld, (hs8_0 _).read_unread, (hs8_1 _).read_unread,
    (hs8_3 _).read_unread, (hs8_4 _).read_unread, View.ld_unit_zero (S := S4000x256) hz2, View.ld_unit_zero (S := S256x128) hz2, View.ld_unit_zero (S := S1x128) hz2]
  rfl

end Generic

/-- The block product at (p, q): the sum over k of x[p, k] · w[k, q]. -/
theorem reg8_pay3_apply (x : Vec Ideal S4000x256 .f32) (w : Vec Ideal S256x128 .f32) (p : Fin 4000) (q : Fin 128) :
    k8_pay3 x w (ix2 p q) = ∑ k : Fin 256, (x (ix2 p k) : EReal) * (w (ix2 k q) : EReal) := by
  unfold k8_pay3
  refine (Cert.Lib.Matmul.matmul_zero_apply (A := 4000) (K := 256) (C := 128) none _ _ p q).trans ?_
  simp only [shapeCast_self]
  rfl

/-- The block index of each window at point t: block row t for the row-block windows, the origin for the others. -/
theorem reg8_idx_facts : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0
    ∧ ∀ a : Fin 2, win8_3.index t a = 0 ∧ win8_4.index t a = 0 :=
  (by decide +kernel : ∀ t : Fin grid8.N, _)

theorem reg8_last : 80 - 1 < cfg8.N := by rw [show cfg8.N = 80 from N_8]; omega

theorem reg8_row (t : Fin cfg8.N) (p : Fin 4000) : 4000 * t.val + p.val < 320000 := by
  have := lt_of_lt_of_eq t.isLt (show cfg8.N = 80 from N_8); have := p.isLt; omega

/-- An index of the product array whose row lies in block n is in point n's block. -/
theorem reg8_mem_blk2 (n : ℕ) (hn : n < cfg8.N) (i : S320000x128.Idx) (h0 : 4000 * n ≤ (i 0).val) (h1 : (i 0).val < 4000 * n + 4000) :
    i ∈ ((cfg8.win 2).blk ⟨n, hn⟩).view.set := by
  obtain ⟨-, -, -, -, e0, e1, -⟩ := reg8_idx_facts ⟨n, hn⟩
  have hi : (i 1).val < 128 := (i 1).isLt
  show i ∈ ((View.whole (Pipeline.arrRef spec8 2)).slice (win8_2.rect ⟨n, hn⟩)).set
  rw [View.set_slice_whole, Rect.mem_set_unit]
  refine Fin.forall_fin_two.mpr ⟨?_, ?_⟩
  · show win8_2.index ⟨n, hn⟩ (0 : Fin 2) * 4000 ≤ (i 0).val ∧ (i 0).val < win8_2.index ⟨n, hn⟩ (0 : Fin 2) * 4000 + 4000
    rw [e0]; dsimp only; omega
  · show win8_2.index ⟨n, hn⟩ (1 : Fin 2) * 128 ≤ (i 1).val ∧ (i 1).val < win8_2.index ⟨n, hn⟩ (1 : Fin 2) * 128 + 128
    rw [e1]; omega

/-- Every index of a one-row statistics array is in the block of any point: the block is the whole array. -/
theorem reg8_mem_blk3 (t : Fin cfg8.N) (i : S1x128.Idx) : i ∈ ((cfg8.win 3).blk t).view.set := by
  obtain ⟨-, -, -, -, -, -, e⟩ := reg8_idx_facts t
  show i ∈ ((View.whole (Pipeline.arrRef spec8 3)).slice (win8_3.rect t)).set
  rw [View.set_slice_whole]
  exact View.mem_set_unit_zero (funext fun a => by rw [(e a).1, Nat.zero_mul]) _ i

theorem reg8_mem_blk4 (t : Fin cfg8.N) (i : S1x128.Idx) : i ∈ ((cfg8.win 4).blk t).view.set := by
  obtain ⟨-, -, -, -, -, -, e⟩ := reg8_idx_facts t
  show i ∈ ((View.whole (Pipeline.arrRef spec8 4)).slice (win8_4.rect t)).set
  rw [View.set_slice_whole]
  exact View.mem_set_unit_zero (funext fun a => by rw [(e a).2, Nat.zero_mul]) _ i

section AtIdeal

variable (V : (c : Dev nD) → (b : Ref sig .tc) → Buf (Elt Ideal) ((c : Thread nD τ).loc b)) (c : Dev nD)
  (X : Fin 320000 → Fin 256 → EReal) (Wt : Fin 256 → Fin 128 → EReal)
  (hX : V c (Pipeline.arrRef spec8 0) = ofMat X) (hW : V c (Pipeline.arrRef spec8 1) = ofMat Wt)
include hX hW

/-- The block product at point t, at (p, q), is the whole product at row 4000·t + p: the left block holds those rows, the right block the whole right array. -/
theorem reg8_blockProd (t : Fin cfg8.N) (p : Fin 4000) (q : Fin 128) :
    (k8_pay3 (iblk8 V c 0 t) (iblk8 V c 1 t) (ix2 p q) : EReal) = rowsN (mm X Wt) (4000 * t.val + p.val) q := by
  have hr := reg8_row t p
  obtain ⟨e0, e1, e2, e3, -⟩ := reg8_idx_facts t
  refine (reg8_pay3_apply _ _ p q).trans ?_
  rw [rowsN_of_lt _ _ _ hr]
  show _ = ∑ k : Fin 256, X ⟨4000 * t.val + p.val, hr⟩ k * Wt k q
  refine Finset.sum_congr rfl fun k _ => congrArg₂ (· * ·) ?_ ?_
  · unfold iblk8
    rw [View.read_apply]
    refine (cast_eq _ _).trans ((congrFun hX _).trans (ofMat_at X _ ⟨_, hr⟩ k ?_ ?_))
    · show win8_0.index t (0 : Fin 2) * 4000 + 1 * p.val = 4000 * t.val + p.val
      rw [e0]; omega
    · show win8_0.index t (1 : Fin 2) * 256 + 1 * k.val = k.val
      rw [e1]; omega
  · unfold iblk8
    rw [View.read_apply]
    refine (cast_eq _ _).trans ((congrFun hW _).trans (ofMat_at Wt _ k q ?_ ?_))
    · show win8_1.index t (0 : Fin 2) * 256 + 1 * k.val = k.val
      rw [e2]; omega
    · show win8_1.index t (1 : Fin 2) * 128 + 1 * q.val = q.val
      rw [e3]; omega

/-- After point n the product's block holds rows 4000·n … of the whole product, and the two statistics hold the column sums (of the entries, of their squares) over the rows of blocks 0 … n. -/
theorem reg8_inv : ∀ (n : ℕ) (h : n < cfg8.N),
      (∀ (p : Fin 4000) (q : Fin 128), ((outsAt8 V c n h).1 (ix2 p q) : EReal) = rowsN (mm X Wt) (4000 * n + p.val) q)
      ∧ (∀ (z : Fin 1) (q : Fin 128), ((outsAt8 V c n h).2.1 (ix2 z q) : EReal)
          = ∑ s ∈ Finset.range (n + 1), ∑ p : Fin 4000, rowsN (mm X Wt) (4000 * s + p.val) q)
      ∧ (∀ (z : Fin 1) (q : Fin 128), ((outsAt8 V c n h).2.2 (ix2 z q) : EReal)
          = ∑ s ∈ Finset.range (n + 1), ∑ p : Fin 4000, rowsN (mm X Wt) (4000 * s + p.val) q * rowsN (mm X Wt) (4000 * s + p.val) q)
  | 0, h => by
    have e : outsAt8 V c 0 h = _ := reg8_at_A V c ⟨0, h⟩ (Nat.zero_mod _)
    rw [e]
    dsimp only
    have hb := reg8_blockProd V c X Wt hX hW ⟨0, h⟩
    refine ⟨hb, fun z q => ?_, fun z q => ?_⟩
    · refine (upd_apply (k8_pay3 _ _) _ _ _ _ z q).trans ?_
      rw [show (k8_pay1 (F := Ideal) (ix2 z q) : EReal) = 0 from zeroWord, zero_add, Finset.sum_range_one]
      exact Finset.sum_congr rfl fun p _ => hb p q
    · refine (upd_apply (mulf (k8_pay3 _ _) (k8_pay3 _ _)) _ _ _ _ z q).trans ?_
      rw [show (k8_pay2 (F := Ideal) (ix2 z q) : EReal) = 0 from zeroWord, zero_add, Finset.sum_range_one]
      exact Finset.sum_congr rfl fun p _ => congrArg₂ (· * ·) (hb p q) (hb p q)
  | n + 1, h => by
    have hN : cfg8.N = 80 := N_8
    obtain ⟨-, ih3, ih4⟩ := reg8_inv n (Nat.lt_of_succ_lt h)
    rw [reg8_at_B V c n h (by omega)]
    dsimp only
    have hb := reg8_blockProd V c X Wt hX hW ⟨n + 1, h⟩
    refine ⟨hb, fun z q => ?_, fun z q => ?_⟩
    · refine (upd_apply (k8_pay3 _ _) _ _ _ _ z q).trans ?_
      rw [Finset.sum_range_succ _ (n + 1), ih3 z q]
      exact congrArg _ (Finset.sum_congr rfl fun p _ => hb p q)
    · refine (upd_apply (mulf (k8_pay3 _ _) (k8_pay3 _ _)) _ _ _ _ z q).trans ?_
      rw [Finset.sum_range_succ _ (n + 1), ih4 z q]
      exact congrArg _ (Finset.sum_congr rfl fun p _ => congrArg₂ (· * ·) (hb p q) (hb p q))

/-- Point t's block of the product is block t of the whole product. -/
theorem reg8_flushed2 (t : Fin cfg8.N) :
    (dat8 V c).flushed 2 t = ((cfg8.win 2).blk t).view.read (Elt Ideal) (ofMat (mm X Wt)) := by
  show (cfg8.win 2).cut (grid8.coords t) ((dat8 V c).after 2 t) = _
  rw [after8_2]
  obtain ⟨-, -, -, -, e0, e1, -⟩ := reg8_idx_facts t
  funext j
  obtain ⟨p, q, rfl⟩ : ∃ (p : Fin 4000) (q : Fin 128), j = ix2 p q := ⟨j 0, j 1, eq_ix2 j⟩
  have hr := reg8_row t p
  rw [View.read_apply]
  refine Eq.trans ?_ (cast_eq _ _).symm
  show ((outsAt8 V c t.val t.isLt).1 (ix2 p q) : EReal) = _
  rw [(reg8_inv V c X Wt hX hW t.val t.isLt).1 p q, rowsN_of_lt _ _ _ hr]
  refine (ofMat_at (mm X Wt) _ ⟨_, hr⟩ q ?_ ?_).symm
  · show win8_2.index t (0 : Fin 2) * 4000 + 1 * p.val = 4000 * t.val + p.val
    rw [e0]; omega
  · show win8_2.index t (1 : Fin 2) * 128 + 1 * q.val = q.val
    rw [e1]; omega

theorem reg8_final2 : (dat8 V c).arrAt 2 cfg8.N = ofMat (mm X Wt) :=
  (dat8 V c).arrAt_eq_of_cover 2 (ofMat (mm X Wt)) (fun t _ => reg8_flushed2 V c X Wt hX hW t) fun i => by
    have hi : (i 0).val < 320000 := (i 0).isLt
    have ht : (i 0).val / 4000 < cfg8.N := by rw [show cfg8.N = 80 from N_8]; omega
    exact ⟨⟨_, ht⟩, flush8_2 _, reg8_mem_blk2 _ ht i (by omega) (by omega)⟩

/-- At the last point the running column sums are the column sums over all rows. -/
theorem reg8_flushed3 (t : Fin cfg8.N) (hf : (cfg8.win 3).flush t = true) :
    (dat8 V c).flushed 3 t = ((cfg8.win 3).blk t).view.read (Elt Ideal) (ofRow (colSum (mm X Wt))) := by
  have hN : cfg8.N = 80 := N_8
  have hlast : t.val + 1 = 80 := by have := (flush8_3 t).mp hf; have := t.isLt; omega
  obtain ⟨-, -, -, -, -, -, e⟩ := reg8_idx_facts t
  show (cfg8.win 3).cut (grid8.coords t) ((dat8 V c).after 3 t) = _
  rw [after8_3]
  funext j
  obtain ⟨z, q, rfl⟩ : ∃ (z : Fin 1) (q : Fin 128), j = ix2 z q := ⟨j 0, j 1, eq_ix2 j⟩
  rw [View.read_apply]
  refine Eq.trans ?_ (cast_eq _ _).symm
  show ((outsAt8 V c t.val t.isLt).2.1 (ix2 z q) : EReal) = _
  rw [(reg8_inv V c X Wt hX hW t.val t.isLt).2.1 z q, hlast]
  refine Eq.trans ?_ (ofRow_at (colSum (mm X Wt)) _ q ?_).symm
  · exact total (A := 4000) (N := 80) (R := 320000) rfl (mm X Wt) (fun y => y) q
  · show win8_3.index t (1 : Fin 2) * 128 + 1 * q.val = q.val
    rw [(e 1).1]; omega

theorem reg8_flushed4 (t : Fin cfg8.N) (hf : (cfg8.win 4).flush t = true) :
    (dat8 V c).flushed 4 t = ((cfg8.win 4).blk t).view.read (Elt Ideal) (ofRow (colSq (mm X Wt))) := by
  have hN : cfg8.N = 80 := N_8
  have hlast : t.val + 1 = 80 := by have := (flush8_4 t).mp hf; have := t.isLt; omega
  obtain ⟨-, -, -, -, -, -, e⟩ := reg8_idx_facts t
  show (cfg8.win 4).cut (grid8.coords t) ((dat8 V c).after 4 t) = _
  rw [after8_4]
  funext j
  obtain ⟨z, q, rfl⟩ : ∃ (z : Fin 1) (q : Fin 128), j = ix2 z q := ⟨j 0, j 1, eq_ix2 j⟩
  rw [View.read_apply]
  refine Eq.trans ?_ (cast_eq _ _).symm
  show ((outsAt8 V c t.val t.isLt).2.2 (ix2 z q) : EReal) = _
  rw [(reg8_inv V c X Wt hX hW t.val t.isLt).2.2 z q, hlast]
  refine Eq.trans ?_ (ofRow_at (colSq (mm X Wt)) _ q ?_).symm
  · exact total (A := 4000) (N := 80) (R := 320000) rfl (mm X Wt) (fun y => y * y) q
  · show win8_4.index t (1 : Fin 2) * 128 + 1 * q.val = q.val
    rw [(e 1).2]; omega

end AtIdeal

/-- The product, its column sums and its column sums of squares. -/
theorem reg8_final (V : (c : Dev nD) → (b : Ref sig .tc) → Buf (Elt Ideal) ((c : Thread nD τ).loc b)) (c : Dev nD)
    (X : Fin 320000 → Fin 256 → EReal) (Wt : Fin 256 → Fin 128 → EReal)
    (hX : V c (Pipeline.arrRef spec8 0) = ofMat X) (hW : V c (Pipeline.arrRef spec8 1) = ofMat Wt) :
    (dat8 (F := Ideal) V c).arrAt 2 cfg8.N = ofMat (Cert.Spec.mm X Wt)
    ∧ (dat8 (F := Ideal) V c).arrAt 3 cfg8.N = ofRow (Cert.Spec.colSum (Cert.Spec.mm X Wt))
    ∧ (dat8 (F := Ideal) V c).arrAt 4 cfg8.N = ofRow (Cert.Spec.colSq (Cert.Spec.mm X Wt)) :=
  ⟨reg8_final2 V c X Wt hX hW,
    (dat8 V c).arrAt_eq_of_cover 3 _ (reg8_flushed3 V c X Wt hX hW) fun i => ⟨⟨80 - 1, reg8_last⟩, (flush8_3 _).mpr rfl, reg8_mem_blk3 _ i⟩,
    (dat8 V c).arrAt_eq_of_cover 4 _ (reg8_flushed4 V c X Wt hX hW) fun i => ⟨⟨80 - 1, reg8_last⟩, (flush8_4 _).mpr rfl, reg8_mem_blk4 _ i⟩⟩

end Cert.KernelIdeal.Gen

end
-- ==== Proof.RegBN9.lean ====
import proofs.«160401_j10462540333326_1_alg».proof.Proof.Gen.KernelIdeal.Frame
import proofs.«160401_j10462540333326_1_alg».proof.Proof.LibRegion
import proofs.«160401_j10462540333326_1_alg».proof.Proof.LibAffine
import Idealize.ShloMosaic.Lib.Pipeline.Value

namespace Cert.KernelIdeal.Gen

open Idealize.ShloMosaic Idealize.ShloMosaic.TcCoe Idealize.ShloMosaic.ValueIdx Idealize.SL.Sem
open Cert.Spec (ofMat ofRow)
open Cert.Lib

/-- Windows 0 and 3 take the same block of rows at a point, block t, and every window takes the whole width. -/
theorem reg9_idx : ∀ t : Fin cfg9.N,
    win9_0.index t (0 : Fin 2) = win9_3.index t (0 : Fin 2) ∧ win9_0.index t (1 : Fin 2) = 0
    ∧ win9_1.index t (1 : Fin 2) = 0 ∧ win9_2.index t (1 : Fin 2) = 0
    ∧ win9_3.index t (0 : Fin 2) = t.val ∧ win9_3.index t (1 : Fin 2) = 0 :=
  (by decide +kernel : ∀ t : Fin grid9.N, _)

/-- Row r of the output lies in the block written back at point r / 4000. -/
theorem reg9_cover (i : S320000x128.Idx) :
    ∃ t : Fin cfg9.N, (cfg9.win 3).flush t = true ∧ i ∈ ((cfg9.win 3).blk t).view.set := by
  have hi : (i 0).val < 4000 * 80 := (i 0).isLt
  let t : Fin cfg9.N := ⟨(i 0).val / 4000, lt_of_lt_of_eq (Nat.div_lt_of_lt_mul hi) N_9.symm⟩
  obtain ⟨-, -, -, -, e30, e31⟩ := reg9_idx t
  refine ⟨t, flush9_3 t, ?_⟩
  show i ∈ ((View.whole (Pipeline.arrRef spec9 3)).slice (win9_3.rect t)).set
  rw [View.set_slice_whole, Rect.mem_set_unit]
  exact Affine.mem_rowBlock (B := 4000) (C := 128) (by decide) i _ e30 e31

/-- What point t writes back is its block of max(y · scale + shift, 0). -/
theorem reg9_flushed (V : (c : Dev nD) → (b : Ref sig .tc) → Buf (Elt Ideal) ((c : Thread nD τ).loc b)) (c : Dev nD)
    (Y : Fin 320000 → Fin 128 → EReal) (sc sh : Fin 128 → EReal)
    (hY : V c (Pipeline.arrRef spec9 0) = ofMat Y) (hsc : V c (Pipeline.arrRef spec9 1) = ofRow sc)
    (hsh : V c (Pipeline.arrRef spec9 2) = ofRow sh) (t : Fin cfg9.N) :
    (dat9 (F := Ideal) V c).flushed 3 t
      = ((cfg9.win 3).blk t).view.read (Elt Ideal) (ofMat (Cert.Spec.affRelu Y sc sh)) := by
  obtain ⟨e00, e01, e11, e21, -, e31⟩ := reg9_idx t
  show (cfg9.win 3).cut (grid9.coords t) ((dat9 V c).after 3 t) = _
  rw [after9_3]
  unfold out9_3
  rw [View.canon_unit_zero Region.hz2]
  simp only [View.ld_unit_zero (S := S4000x128) Region.hz2, View.ld_unit_zero (S := S1x128) Region.hz2]
  funext j
  obtain ⟨p, q, rfl⟩ : ∃ (p : Fin 4000) (q : Fin 128), j = ix2 p q := ⟨j 0, j 1, eq_ix2 j⟩
  exact (Affine.pay_apply _ _ _ _ _ _ p q).trans (Affine.affRelu_at Y sc sh hY hsc hsh _ _ _ _ e00 e01 e11 e21 e31
    (by rfl) (by rfl) (by rfl) (by rfl) (by rfl) (by rfl))

/-- The blocks written back cover the array, so it ends at max(y · scale + shift, 0). -/
theorem reg9_final (V : (c : Dev nD) → (b : Ref sig .tc) → Buf (Elt Ideal) ((c : Thread nD τ).loc b)) (c : Dev nD)
    (Y : Fin 320000 → Fin 128 → EReal) (sc sh : Fin 128 → EReal)
    (hY : V c (Pipeline.arrRef spec9 0) = ofMat Y) (hsc : V c (Pipeline.arrRef spec9 1) = ofRow sc)
    (hsh : V c (Pipeline.arrRef spec9 2) = ofRow sh) :
    (dat9 (F := Ideal) V c).arrAt 3 cfg9.N = ofMat (Cert.Spec.affRelu Y sc sh) :=
  (dat9 (F := Ideal) V c).arrAt_eq_of_cover 3 _ (fun t _ => reg9_flushed V c Y sc sh hY hsc hsh t) reg9_cover

end Cert.KernelIdeal.Gen
-- ==== Proof.LibRowGatherScatter.lean ====
import Idealize.ShloMosaic.Lib.ValueIdx
import Idealize.ShloMosaic.PureOps.Ideal.Laws

noncomputable section

namespace Cert.Lib.RowPass

open Idealize.ShloMosaic Idealize.ShloMosaic.ValueIdx

section Generic

abbrev scD (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

variable {N E W w : Nat} (wf : ScatterDims.WF ⟨2, ![N, W]⟩ ⟨2, ![E, 1]⟩ ⟨2, ![E, W]⟩ [1] [0] [0] 1)

theorem sc_start0 (idx : IVec ⟨2, ![E, 1]⟩ w) (e : Fin E) (q : Fin W) :
    (scD N E W wf).start (ix2 e q) idx 0 = (idx (ix2 e 0)).toInt := by
  unfold ScatterDims.start
  rw [dif_pos (show (0 : Fin 2) ∈ (scD N E W wf).scatterDimsToOperandDims from List.mem_singleton.mpr rfl)]
  congr 2
  funext b
  match b with
  | ⟨0, _⟩ => rfl
  | ⟨1, _⟩ => rfl

theorem sc_start1 (idx : IVec ⟨2, ![E, 1]⟩ w) (e : Fin E) (q : Fin W) :
    (scD N E W wf).start (ix2 e q) idx 1 = 0 := by
  unfold ScatterDims.start
  rw [dif_neg (show (1 : Fin 2) ∉ ([0] : List (Fin 2)) by decide)]

theorem sc_window0 (e : Fin E) (q : Fin W) : (scD N E W wf).window (ix2 e q) 0 = 0 := by
  unfold ScatterDims.window
  have h : (0 : Fin 2) ∉ (scD N E W wf).sKept :=
    (by decide : (0 : Fin 2) ∉ (List.finRange 2).filter (fun a => a ∉ ([0] : List (Fin 2))))
  rw [dif_neg h]

theorem sc_window1 (e : Fin E) (q : Fin W) : (scD N E W wf).window (ix2 e q) 1 = q.val := by
  unfold ScatterDims.window
  have h : (1 : Fin 2) ∈ (scD N E W wf).sKept :=
    (by decide : (1 : Fin 2) ∈ (List.finRange 2).filter (fun a => a ∉ ([0] : List (Fin 2))))
  rw [dif_pos h]
  rfl

theorem fin2_cases (a : Fin 2) : a = 0 ∨ a = 1 := by
  revert a; decide

theorem sc_result_iff (idx : IVec ⟨2, ![E, 1]⟩ w) (e : Fin E) (q q' : Fin W) (n : Fin N) :
    (scD N E W wf).resultIdx? (ix2 e q) idx = some (ix2 n q')
      ↔ (idx (ix2 e 0)).toInt = (n.val : Int) ∧ q = q' := by
  have hq := q.isLt
  have hn := n.isLt
  unfold ScatterDims.resultIdx?
  split
  · rename_i h
    have h0 := h 0
    rw [sc_start0, sc_window0] at h0
    constructor
    · intro hs
      have hs' := Option.some.inj hs
      have e0 := congrArg (fun f => (f 0).val) hs'
      have e1 := congrArg (fun f => (f 1).val) hs'
      simp only [sc_start0, sc_start1, sc_window0, sc_window1] at e0 e1
      refine ⟨?_, Fin.ext ?_⟩
      · change _ = n.val at e0
        omega
      · change _ = q'.val at e1
        omega
    · rintro ⟨ht, rfl⟩
      congr 1
      funext a
      refine Fin.ext ?_
      rcases fin2_cases a with rfl | rfl
      · show ((scD N E W wf).start (ix2 e q) idx 0 + ((scD N E W wf).window (ix2 e q) 0 : Int)).toNat = n.val
        rw [sc_start0, sc_window0, ht]; omega
      · show ((scD N E W wf).start (ix2 e q) idx 1 + ((scD N E W wf).window (ix2 e q) 1 : Int)).toNat = q.val
        rw [sc_start1, sc_window1]; omega
  · rename_i h
    constructor
    · intro hs; exact absurd hs (by simp)
    · rintro ⟨ht, rfl⟩
      exfalso; apply h
      intro a
      rcases fin2_cases a with rfl | rfl
      · rw [sc_start0, sc_window0, ht]
        show (0 : Int) ≤ (n.val : Int) + ((0 : Nat) : Int) ∧ (n.val : Int) + ((0 : Nat) : Int) < (N : Int)
        omega
      · rw [sc_start1, sc_window1]
        show (0 : Int) ≤ 0 + (q.val : Int) ∧ 0 + (q.val : Int) < (W : Int)
        omega

theorem sc_apply (x : (⟨2, ![N, W]⟩ : Shape).Idx → EReal) (idx : IVec ⟨2, ![E, 1]⟩ w)
    (upd : (⟨2, ![E, W]⟩ : Shape).Idx → EReal) (n : Fin N) (q : Fin W) :
    Ideal.hostScatterAdd (scD N E W wf) x idx upd (ix2 n q)
      = x (ix2 n q) + ∑ e : Fin E, if (idx (ix2 e 0)).toInt = (n.val : Int) then upd (ix2 e q) else 0 := by
  show x (ix2 n q) + ∑ j ∈ Finset.univ.filter (fun j => (scD N E W wf).resultIdx? j idx = some (ix2 n q)), upd j = _
  congr 1
  rw [Finset.sum_filter, sum_idx2]
  refine Finset.sum_congr rfl fun e _ => ?_
  rw [Finset.sum_congr rfl fun q' _ => if_congr (sc_result_iff wf idx e q' q n) rfl rfl]
  by_cases ht : (idx (ix2 e 0)).toInt = (n.val : Int)
  · simp [ht]
  · simp [ht]

abbrev gaD (N E W : Nat) (wfg : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wfg

variable (wfg : GatherDims.WF ⟨2, ![N, W]⟩ ⟨2, ![E, 1]⟩ ⟨2, ![E, W]⟩ [1] [0] [] [0] [] 1 ![1, W])

theorem ga_start0 (idx : IVec ⟨2, ![E, 1]⟩ w) (e : Fin E) (q : Fin W) :
    (gaD N E W wfg).start (ix2 e q) idx 0 = min (idx (ix2 e 0)).toInt.toNat (N - 1) := by
  unfold GatherDims.start
  rw [dif_pos (show (0 : Fin 2) ∈ (gaD N E W wfg).startIndexMap from List.mem_singleton.mpr rfl)]
  have hsi : (gaD N E W wfg).siIdx (ix2 e q) ⟨List.idxOf (0 : Fin 2) (gaD N E W wfg).startIndexMap,
      List.idxOf_lt_length_iff.2 (List.mem_singleton.mpr rfl)⟩ = ix2 e 0 := by
    funext b
    match b with
    | ⟨0, _⟩ => rfl
    | ⟨1, _⟩ => rfl
  rw [hsi]
  rfl

theorem ga_start1 (idx : IVec ⟨2, ![E, 1]⟩ w) (e : Fin E) (q : Fin W) :
    (gaD N E W wfg).start (ix2 e q) idx 1 = 0 := by
  unfold GatherDims.start
  rw [dif_neg (show (1 : Fin 2) ∉ ([0] : List (Fin 2)) by decide)]

theorem ga_off0 (e : Fin E) (q : Fin W) : (gaD N E W wfg).offCoord (ix2 e q) 0 = 0 := by
  unfold GatherDims.offCoord
  have h : (0 : Fin 2) ∉ (gaD N E W wfg).sKept :=
    (by decide : (0 : Fin 2) ∉ (List.finRange 2).filter (fun a => a ∉ ([0] ++ [] : List (Fin 2))))
  rw [dif_neg h]

theorem ga_off1 (e : Fin E) (q : Fin W) : (gaD N E W wfg).offCoord (ix2 e q) 1 = q.val := by
  unfold GatherDims.offCoord
  have h : (1 : Fin 2) ∈ (gaD N E W wfg).sKept :=
    (by decide : (1 : Fin 2) ∈ (List.finRange 2).filter (fun a => a ∉ ([0] ++ [] : List (Fin 2))))
  rw [dif_pos h]
  rfl

theorem ga_apply {α : Type} (hN : 0 < N) (H : (⟨2, ![N, W]⟩ : Shape).Idx → α) (idx : IVec ⟨2, ![E, 1]⟩ w)
    (e : Fin E) (q : Fin W) :
    Host.gather (gaD N E W wfg) H idx (ix2 e q)
      = H (ix2 ⟨min (idx (ix2 e 0)).toInt.toNat (N - 1), by omega⟩ q) := by
  unfold Host.gather
  congr 1
  funext a
  refine Fin.ext ?_
  rcases fin2_cases a with rfl | rfl
  · show (gaD N E W wfg).start (ix2 e q) idx 0 + (gaD N E W wfg).batchCoord (ix2 e q) 0
      + (gaD N E W wfg).offCoord (ix2 e q) 0 = min (idx (ix2 e 0)).toInt.toNat (N - 1)
    rw [ga_start0, ga_off0, GatherDims.batchCoord_eq_zero _ _ _ List.not_mem_nil, Nat.add_zero]
  · show (gaD N E W wfg).start (ix2 e q) idx 1 + (gaD N E W wfg).batchCoord (ix2 e q) 1
      + (gaD N E W wfg).offCoord (ix2 e q) 1 = q.val
    rw [ga_start1, ga_off1, GatherDims.batchCoord_eq_zero _ _ _ List.not_mem_nil]
    omega

end Generic

end Cert.Lib.RowPass

end
-- ==== Proof.KHost0.lean ====
import proofs.«160401_j10462540333326_1_alg».proof.Proof.Gen.KernelIdeal.Launch
import proofs.«160401_j10462540333326_1_alg».proof.Proof.Spec
import proofs.«160401_j10462540333326_1_alg».proof.Proof.SpecReindex
import proofs.«160401_j10462540333326_1_alg».proof.Proof.LibRowGatherScatter
import Idealize.ShloMosaic.Lib.StableHlo.Run
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat Cfg Window)
open Cert.Spec (ofMat ofVec ofRow ofScalar ofRowsK ofRowsR Side)

namespace Host0

section Pure
variable {α : Type}

theorem row_apply {A B : Nat} (x : (⟨2, ![A, B]⟩ : Shape).Idx → α) (o : Nat) (ho : o < A)
    (h : (⟨2, ![A, B]⟩ : Shape).Slices ![o, 0] ⟨2, ![1, B]⟩) (h' : (⟨2, ![1, B]⟩ : Shape).ShapeCasts ⟨1, ![B]⟩) (p : Fin B) :
    shapeCast ⟨1, ![B]⟩ (extractStridedSlice ⟨2, ![1, B]⟩ ![o, 0] x h) h' (ix1 p) = x (ix2 ⟨o, ho⟩ p) := by
  refine (shapeCast_apply _ h' (ix1 p) (ix2 0 p) ?_).trans ?_
  · rw [Shape.rowMajor_val_two, Shape.rowMajor_val_one]
    show 0 * B + p.val = p.val
    omega
  · refine extractStridedSlice_apply _ x h (ix2 0 p) (ix2 ⟨o, ho⟩ p) fun a => ?_
    match a with
    | ⟨0, _⟩ => rfl
    | ⟨1, _⟩ => show p.val = 0 + p.val; omega

theorem pairRow_apply {A C N : Nat} (x : (⟨2, ![N, C]⟩ : Shape).Idx → α) (o : Nat) (ho : o < 2)
    (h1 : (⟨2, ![N, C]⟩ : Shape).ShapeCasts ⟨3, ![A, 2, C]⟩)
    (h2 : (⟨3, ![A, 2, C]⟩ : Shape).Slices ![0, o, 0] ⟨3, ![A, 1, C]⟩)
    (h3 : (⟨3, ![A, 1, C]⟩ : Shape).ShapeCasts ⟨2, ![A, C]⟩) (e : Fin A) (q : Fin C) (r : Fin N)
    (hr : r.val = e.val * 2 + o) :
    shapeCast ⟨2, ![A, C]⟩ (extractStridedSlice ⟨3, ![A, 1, C]⟩ ![0, o, 0] (shapeCast ⟨3, ![A, 2, C]⟩ x h1) h2) h3 (ix2 e q)
      = x (ix2 r q) := by
  refine (shapeCast_apply _ h3 (ix2 e q) (ix3 e 0 q) ?_).trans ?_
  · rw [Shape.rowMajor_val_three, Shape.rowMajor_val_two]
    show (e.val * 1 + 0) * C + q.val = e.val * C + q.val
    rw [Nat.mul_one, Nat.add_zero]
  · refine (extractStridedSlice_apply _ _ h2 (ix3 e 0 q) (ix3 e ⟨o, ho⟩ q) fun a => ?_).trans ?_
    · match a with
      | ⟨0, _⟩ => show e.val = 0 + e.val; omega
      | ⟨1, _⟩ => rfl
      | ⟨2, _⟩ => show q.val = 0 + q.val; omega
    · refine shapeCast_apply x h1 (ix3 e ⟨o, ho⟩ q) (ix2 r q) ?_
      rw [Shape.rowMajor_val_three, Shape.rowMajor_val_two]
      show r.val * C + q.val = (e.val * 2 + o) * C + q.val
      rw [hr]

theorem catCols_apply {R C1 C2 C : Nat} (x1 : (⟨2, ![R, C1]⟩ : Shape).Idx → α) (x2 : (⟨2, ![R, C2]⟩ : Shape).Idx → α)
    (h : Shape.Concatenates [⟨2, ![R, C1]⟩, ⟨2, ![R, C2]⟩] ⟨2, ![R, C]⟩ 1) (hC : C = C1 + C2) (r : Fin R) (q : Fin C) :
    concatenate ⟨2, ![R, C]⟩ 1 [⟨⟨2, ![R, C1]⟩, x1⟩, ⟨⟨2, ![R, C2]⟩, x2⟩] h (ix2 r q)
      = if hq : q.val < C1 then x1 (ix2 r ⟨q.val, hq⟩) else x2 (ix2 r ⟨q.val - C1, by have := q.isLt; omega⟩) := by
  by_cases hq : q.val < C1
  · rw [dif_pos hq]
    refine concatenate_pair_apply_left 1 x1 x2 h (ix2 r q) rfl (ix2 r ⟨q.val, hq⟩) fun b => ?_
    match b with
    | ⟨0, _⟩ => rfl
    | ⟨1, _⟩ => rfl
  · rw [dif_neg hq]
    refine concatenate_pair_apply_right 1 x1 x2 h (ix2 r q) rfl rfl (ix2 r ⟨q.val - C1, by have := q.isLt; omega⟩) (fun b hb => ?_) ?_
    · match b with
      | ⟨0, _⟩ => rfl
      | ⟨1, _⟩ => exact absurd rfl hb
    · show q.val - C1 + C1 = q.val
      omega

theorem catRows_apply {R1 R2 R C : Nat} (x1 : (⟨2, ![R1, C]⟩ : Shape).Idx → α) (x2 : (⟨2, ![R2, C]⟩ : Shape).Idx → α)
    (h : Shape.Concatenates [⟨2, ![R1, C]⟩, ⟨2, ![R2, C]⟩] ⟨2, ![R, C]⟩ 0) (hR : R = R1 + R2) (r : Fin R) (q : Fin C) :
    concatenate ⟨2, ![R, C]⟩ 0 [⟨⟨2, ![R1, C]⟩, x1⟩, ⟨⟨2, ![R2, C]⟩, x2⟩] h (ix2 r q)
      = if hr : r.val < R1 then x1 (ix2 ⟨r.val, hr⟩ q) else x2 (ix2 ⟨r.val - R1, by have := r.isLt; omega⟩ q) := by
  by_cases hr : r.val < R1
  · rw [dif_pos hr]
    refine concatenate_pair_apply_left 0 x1 x2 h (ix2 r q) rfl (ix2 ⟨r.val, hr⟩ q) fun b => ?_
    match b with
    | ⟨0, _⟩ => rfl
    | ⟨1, _⟩ => rfl
  · rw [dif_neg hr]
    refine concatenate_pair_apply_right 0 x1 x2 h (ix2 r q) rfl rfl (ix2 ⟨r.val - R1, by have := r.isLt; omega⟩ q) (fun b hb => ?_) ?_
    · match b with
      | ⟨0, _⟩ => exact absurd rfl hb
      | ⟨1, _⟩ => rfl
    · show r.val - R1 + R1 = r.val
      omega

end Pure

section Gather
variable {α : Type}

def nrmCol (w : IVec S160000 32) : IVec S160000x1 32 :=
  broadcastInDim S160000x1 ![0] bcast_S160000_S160000x1_0
    (select (cmpi .slt w (broadcastInDim S160000 ![] bcast_S_S160000 (constantI S_ 32 0#32)))
      (addi w (broadcastInDim S160000 ![] bcast_S_S160000 (constantI S_ 32 20000#32))) w)

theorem nrmCol_apply (w : IVec S160000 32) (e : Fin 160000) :
    nrmCol w (ix2 e 0) = Cert.Spec.nrm 20000#32 (w (ix1 e)) := by
  unfold nrmCol
  refine (broadcastInDim_apply _ _ _ (ix2 e 0) (ix1 e) fun a => ?_).trans rfl
  match a with
  | ⟨0, _⟩ => rfl

theorem gRow_apply (x : S20000x128.Idx → α) (idx : IVec S160000x1 32) (e : Fin 160000) (q : Fin 128) :
    Host.gather gather_S20000x128_S160000x1_S160000x128_1_0_n_n_0_1_1128 x idx (ix2 e q)
      = x (ix2 ⟨min (idx (ix2 e 0)).toInt.toNat 19999, by omega⟩ q) :=
  Cert.Lib.RowPass.ga_apply gather_S20000x128_S160000x1_S160000x128_1_0_n_n_0_1_1128_wf (by decide) x idx e q

theorem gth_apply (x : S20000x128.Idx → α) (w : IVec S160000 32) (e : Fin 160000) (q : Fin 128) :
    Host.gather gather_S20000x128_S160000x1_S160000x128_1_0_n_n_0_1_1128 x (nrmCol w) (ix2 e q)
      = x (ix2 (Cert.Spec.gNode (w (ix1 e))) q) := by
  rw [gRow_apply]
  refine congrArg x (congrArg (fun n => ix2 n q) (Fin.ext ?_))
  show min (nrmCol w (ix2 e 0)).toInt.toNat 19999 = min (Cert.Spec.nrm 20000#32 (w (ix1 e))).toInt.toNat 19999
  rw [nrmCol_apply]

end Gather

section Terms

def gth (nr : S20000x128.Idx → EReal) (w : IVec S160000 32) : S160000x128.Idx → EReal :=
  Host.gather gather_S20000x128_S160000x1_S160000x128_1_0_n_n_0_1_1128 nr (nrmCol w)

def laK (nr : S20000x128.Idx → EReal) (u v : IVec S160000 32) : S320000x256.Idx → EReal :=
  concatenate S320000x256 0
    [⟨S160000x256, concatenate S160000x256 1
        [⟨S160000x128, (addf (gth nr u) (gth nr v) : FVec Ideal S160000x128 .f32)⟩, ⟨S160000x128, gth nr u⟩]
        concatenates_S160000x128_S160000x128_S160000x256_d1⟩,
     ⟨S160000x256, concatenate S160000x256 1
        [⟨S160000x128, (addf (gth nr u) (gth nr v) : FVec Ideal S160000x128 .f32)⟩, ⟨S160000x128, gth nr v⟩]
        concatenates_S160000x128_S160000x128_S160000x256_d1⟩]
    concatenates_S160000x256_S160000x256_S320000x256_d0

def erK0 (er : S320000x128.Idx → EReal) : S160000x128.Idx → EReal :=
  shapeCast S160000x128
    (extractStridedSlice S160000x1x128 ![0, 0, 0] (shapeCast S160000x2x128 er shapeCasts_S320000x128_S160000x2x128)
      slices_S160000x2x128_S160000x1x128_0_0_0) shapeCasts_S160000x1x128_S160000x128

def erK1 (er : S320000x128.Idx → EReal) : S160000x128.Idx → EReal :=
  shapeCast S160000x128
    (extractStridedSlice S160000x1x128 ![0, 1, 0] (shapeCast S160000x2x128 er shapeCasts_S320000x128_S160000x2x128)
      slices_S160000x2x128_S160000x1x128_0_1_0) shapeCasts_S160000x1x128_S160000x128

def x0K (la : S320000x256.Idx → EReal) (er : S320000x128.Idx → EReal) : S320000x384.Idx → EReal :=
  concatenate S320000x384 1
    [⟨S320000x256, la⟩,
     ⟨S320000x128, concatenate S320000x128 0 [⟨S160000x128, erK0 er⟩, ⟨S160000x128, erK1 er⟩]
        concatenates_S160000x128_S160000x128_S320000x128_d0⟩]
    concatenates_S320000x256_S320000x128_S320000x384_d1

/-- A row in the upper half is a second endpoint's row. -/
theorem kSide_upper (r : Fin 320000) (hr : ¬r.val < 160000) :
    Cert.Spec.kSide r = (1, ⟨r.val - 160000, by have := r.isLt; omega⟩) := by
  have hr' : 160000 + (r.val - 160000) < 320000 := by have := r.isLt; omega
  rw [← Cert.Spec.kSide_hi ⟨r.val - 160000, by have := r.isLt; omega⟩ hr']
  exact congrArg Cert.Spec.kSide (Fin.ext (by show r.val = 160000 + (r.val - 160000); omega))

variable (a : Cert.Spec.Args)

theorem gth_entry (w : IVec S160000 32) (j : Fin 2) (hw : ∀ e, w (ix1 e) = a.ei j e) (e : Fin 160000) (q : Fin 128) :
    gth (ofMat a.nr) w (ix2 e q) = Cert.Spec.g a (j, e) q := by
  unfold gth
  rw [gth_apply, hw]
  rfl

theorem erK0_entry (e : Fin 160000) (q : Fin 128) :
    erK0 (ofMat a.er) (ix2 e q) = a.er (Cert.Spec.erRow (0, e)) q := by
  unfold erK0
  exact pairRow_apply (ofMat a.er) 0 (by decide) _ _ _ e q (Cert.Spec.erRow (0, e))
    (by show 2 * e.val + 0 = e.val * 2 + 0; omega)

theorem erK1_entry (e : Fin 160000) (q : Fin 128) :
    erK1 (ofMat a.er) (ix2 e q) = a.er (Cert.Spec.erRow (1, e)) q := by
  unfold erK1
  exact pairRow_apply (ofMat a.er) 1 (by decide) _ _ _ e q (Cert.Spec.erRow (1, e))
    (by show 2 * e.val + 1 = e.val * 2 + 1; omega)

theorem laK_entry (u v : IVec S160000 32) (hu : ∀ e, u (ix1 e) = a.ei 0 e) (hv : ∀ e, v (ix1 e) = a.ei 1 e)
    (r : Fin 320000) (q : Fin 256) :
    laK (ofMat a.nr) u v (ix2 r q) = Cert.Spec.la a (Cert.Spec.kSide r) q := by
  unfold laK
  rw [catRows_apply _ _ concatenates_S160000x256_S160000x256_S320000x256_d0 rfl]
  by_cases hr : r.val < 160000
  · rw [dif_pos hr, catCols_apply _ _ concatenates_S160000x128_S160000x128_S160000x256_d1 rfl, show Cert.Spec.kSide r = (0, ⟨r.val, hr⟩) from Cert.Spec.kSide_lo ⟨r.val, hr⟩ r.isLt]
    unfold Cert.Spec.la
    by_cases hq : q.val < 128
    · rw [dif_pos hq, dif_pos hq]
      show gth (ofMat a.nr) u (ix2 ⟨r.val, hr⟩ ⟨q.val, hq⟩) + gth (ofMat a.nr) v (ix2 ⟨r.val, hr⟩ ⟨q.val, hq⟩) = _
      rw [gth_entry a u 0 hu, gth_entry a v 1 hv]
      rfl
    · rw [dif_neg hq, dif_neg hq]
      exact gth_entry a u 0 hu _ _
  · rw [dif_neg hr, catCols_apply _ _ concatenates_S160000x128_S160000x128_S160000x256_d1 rfl, kSide_upper r hr]
    unfold Cert.Spec.la
    by_cases hq : q.val < 128
    · rw [dif_pos hq, dif_pos hq]
      show gth (ofMat a.nr) u (ix2 ⟨r.val - 160000, _⟩ ⟨q.val, hq⟩) + gth (ofMat a.nr) v (ix2 ⟨r.val - 160000, _⟩ ⟨q.val, hq⟩) = _
      rw [gth_entry a u 0 hu, gth_entry a v 1 hv]
      rfl
    · rw [dif_neg hq, dif_neg hq]
      exact gth_entry a v 1 hv _ _

theorem x0K_entry (la : S320000x256.Idx → EReal) (hla : ∀ r q, la (ix2 r q) = Cert.Spec.la a (Cert.Spec.kSide r) q)
    (r : Fin 320000) (q : Fin 384) :
    x0K la (ofMat a.er) (ix2 r q) = Cert.Spec.x0 a (Cert.Spec.kSide r) q := by
  unfold x0K Cert.Spec.x0
  rw [catCols_apply _ _ concatenates_S320000x256_S320000x128_S320000x384_d1 rfl]
  by_cases hq : q.val < 256
  · rw [dif_pos hq, dif_pos hq]
    exact hla r ⟨q.val, hq⟩
  · rw [dif_neg hq, dif_neg hq, catRows_apply _ _ concatenates_S160000x128_S160000x128_S320000x128_d0 rfl]
    by_cases hr : r.val < 160000
    · rw [dif_pos hr, show Cert.Spec.kSide r = (0, ⟨r.val, hr⟩) from Cert.Spec.kSide_lo ⟨r.val, hr⟩ r.isLt]
      exact erK0_entry a _ _
    · rw [dif_neg hr, kSide_upper r hr]
      exact erK1_entry a _ _

end Terms

section Stages

theorem after_take_drop (n : Nat) (l : List (HloOp τ sig (Elt Ideal))) (W : Valuation τ sig (Elt Ideal)) :
    StableHlo.after l W = StableHlo.after (l.drop n) (StableHlo.after (l.take n) W) := by
  induction n generalizing l W with
  | zero => rfl
  | succ n ih =>
    cases l with
    | nil => rfl
    | cons op l => exact ih l _

abbrev opsA : List (HloOp τ sig (Elt Ideal)) := (hostOps0 (F := Ideal)).take 4

abbrev opsB : List (HloOp τ sig (Elt Ideal)) := ((hostOps0 (F := Ideal)).take 26).drop 4

abbrev opsC : List (HloOp τ sig (Elt Ideal)) := (hostOps0 (F := Ideal)).drop 26

variable (W : Valuation τ sig (Elt Ideal))

theorem after_split :
    StableHlo.after (hostOps0 (F := Ideal)) W = StableHlo.after opsC (StableHlo.after opsB (StableHlo.after opsA W)) := by
  rw [after_take_drop 26 hostOps0 W, after_take_drop 4 (hostOps0.take 26) W]
  rfl

theorem A_v1 : StableHlo.after opsA W (Proc.devRef .tc main_v1)
    = shapeCast S160000 (extractStridedSlice S1x160000 ![0, 0] (W (Proc.devRef .tc main_arg2)) slices_S2x160000_S1x160000_0_0)
        shapeCasts_S1x160000_S160000 := by
  dsimp only [opsA, hostOps0, List.take]
  after_results
  rfl
theorem A_v3 : StableHlo.after opsA W (Proc.devRef .tc main_v3)
    = shapeCast S160000 (extractStridedSlice S1x160000 ![1, 0] (W (Proc.devRef .tc main_arg2)) slices_S2x160000_S1x160000_1_0)
        shapeCasts_S1x160000_S160000 := by
  dsimp only [opsA, hostOps0, List.take]
  after_results
  rfl
theorem A_arg0 : StableHlo.after opsA W (Proc.devRef .tc main_arg0) = W (Proc.devRef .tc main_arg0) := by
  dsimp only [opsA, hostOps0, List.take]
  after_results
theorem A_arg1 : StableHlo.after opsA W (Proc.devRef .tc main_arg1) = W (Proc.devRef .tc main_arg1) := by
  dsimp only [opsA, hostOps0, List.take]
  after_results

set_option maxHeartbeats 1600000 in
theorem B_v21 : StableHlo.after opsB W (Proc.devRef .tc main_v21)
    = laK (W (Proc.devRef .tc main_arg0)) (W (Proc.devRef .tc main_v1)) (W (Proc.devRef .tc main_v3)) := by
  dsimp only [opsB, hostOps0, List.take, List.drop]
  after_results_simp
  open StableHlo in
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide))
  rfl
theorem B_v1 : StableHlo.after opsB W (Proc.devRef .tc main_v1) = W (Proc.devRef .tc main_v1) := by
  dsimp only [opsB, hostOps0, List.take, List.drop]
  after_results
theorem B_v3 : StableHlo.after opsB W (Proc.devRef .tc main_v3) = W (Proc.devRef .tc main_v3) := by
  dsimp only [opsB, hostOps0, List.take, List.drop]
  after_results
theorem B_arg1 : StableHlo.after opsB W (Proc.devRef .tc main_arg1) = W (Proc.devRef .tc main_arg1) := by
  dsimp only [opsB, hostOps0, List.take, List.drop]
  after_results

theorem C_v28 : StableHlo.after opsC W (Proc.devRef .tc main_v28)
    = x0K (W (Proc.devRef .tc main_v21)) (W (Proc.devRef .tc main_arg1)) := by
  dsimp only [opsC, hostOps0, List.drop]
  after_results
  rfl
theorem C_v24 : StableHlo.after opsC W (Proc.devRef .tc main_v24) = erK0 (W (Proc.devRef .tc main_arg1)) := by
  dsimp only [opsC, hostOps0, List.drop]
  after_results
  rfl
theorem C_v26 : StableHlo.after opsC W (Proc.devRef .tc main_v26) = erK1 (W (Proc.devRef .tc main_arg1)) := by
  dsimp only [opsC, hostOps0, List.drop]
  after_results
  rfl
theorem C_v21 : StableHlo.after opsC W (Proc.devRef .tc main_v21) = W (Proc.devRef .tc main_v21) := by
  dsimp only [opsC, hostOps0, List.drop]
  after_results
theorem C_v1 : StableHlo.after opsC W (Proc.devRef .tc main_v1) = W (Proc.devRef .tc main_v1) := by
  dsimp only [opsC, hostOps0, List.drop]
  after_results
theorem C_v3 : StableHlo.after opsC W (Proc.devRef .tc main_v3) = W (Proc.devRef .tc main_v3) := by
  dsimp only [opsC, hostOps0, List.drop]
  after_results

end Stages

end Host0

open Host0

theorem host0 (Wp : Valuation τ sig (Elt Ideal)) (a : Cert.Spec.Args)
    (h0 : Wp (Proc.devRef .tc main_arg0) = ofMat a.nr) (h1 : Wp (Proc.devRef .tc main_arg1) = ofMat a.er)
    (h2 : Wp (Proc.devRef .tc main_arg2) = ofMat a.ei) :
    StableHlo.after (hostOps0 (F := Ideal)) Wp (Proc.devRef .tc main_v28) = ofRowsK (Cert.Spec.x0 a)
    ∧ StableHlo.after (hostOps0 (F := Ideal)) Wp (Proc.devRef .tc main_v21) = ofRowsK (Cert.Spec.la a)
    ∧ StableHlo.after (hostOps0 (F := Ideal)) Wp (Proc.devRef .tc main_v24) = ofMat (fun (e : Fin 160000) q => a.er (Cert.Spec.erRow (0, e)) q)
    ∧ StableHlo.after (hostOps0 (F := Ideal)) Wp (Proc.devRef .tc main_v26) = ofMat (fun (e : Fin 160000) q => a.er (Cert.Spec.erRow (1, e)) q)
    ∧ StableHlo.after (hostOps0 (F := Ideal)) Wp (Proc.devRef .tc main_v1) = ofVec (a.ei 0)
    ∧ StableHlo.after (hostOps0 (F := Ideal)) Wp (Proc.devRef .tc main_v3) = ofVec (a.ei 1) := by

  have hu : ∀ e : Fin 160000, StableHlo.after opsA Wp (Proc.devRef .tc main_v1) (ix1 e) = a.ei 0 e := by
    intro e
    rw [A_v1, h2]
    exact row_apply (ofMat a.ei) 0 (by decide) _ _ e
  have hv : ∀ e : Fin 160000, StableHlo.after opsA Wp (Proc.devRef .tc main_v3) (ix1 e) = a.ei 1 e := by
    intro e
    rw [A_v3, h2]
    exact row_apply (ofMat a.ei) 1 (by decide) _ _ e

  have hla : ∀ (r : Fin 320000) (q : Fin 256),
      StableHlo.after opsB (StableHlo.after opsA Wp) (Proc.devRef .tc main_v21) (ix2 r q)
        = Cert.Spec.la a (Cert.Spec.kSide r) q := by
    intro r q
    rw [B_v21, A_arg0, h0]
    exact laK_entry a _ _ hu hv r q
  refine ⟨?_, ?_, ?_, ?_, ?_, ?_⟩
  · rw [after_split, C_v28, B_arg1, A_arg1, h1]
    funext i
    obtain ⟨r, q, rfl⟩ : ∃ (r : Fin 320000) (q : Fin 384), i = ix2 r q := ⟨i 0, i 1, eq_ix2 i⟩
    exact x0K_entry a _ hla r q
  · rw [after_split, C_v21]
    funext i
    obtain ⟨r, q, rfl⟩ : ∃ (r : Fin 320000) (q : Fin 256), i = ix2 r q := ⟨i 0, i 1, eq_ix2 i⟩
    exact hla r q
  · rw [after_split, C_v24, B_arg1, A_arg1, h1]
    funext i
    obtain ⟨e, q, rfl⟩ : ∃ (e : Fin 160000) (q : Fin 128), i = ix2 e q := ⟨i 0, i 1, eq_ix2 i⟩
    exact erK0_entry a e q
  · rw [after_split, C_v26, B_arg1, A_arg1, h1]
    funext i
    obtain ⟨e, q, rfl⟩ : ∃ (e : Fin 160000) (q : Fin 128), i = ix2 e q := ⟨i 0, i 1, eq_ix2 i⟩
    exact erK1_entry a e q
  · rw [after_split, C_v1, B_v1]
    funext i
    obtain ⟨p, rfl⟩ : ∃ p : Fin 160000, i = ix1 p := ⟨i 0, eq_ix1 i⟩
    exact hu p
  · rw [after_split, C_v3, B_v3]
    funext i
    obtain ⟨p, rfl⟩ : ∃ p : Fin 160000, i = ix1 p := ⟨i 0, eq_ix1 i⟩
    exact hv p

end Cert.KernelIdeal.Gen

end
-- ==== Proof.KHost1.lean ====
import proofs.«160401_j10462540333326_1_alg».proof.Proof.Gen.KernelIdeal.Launch
import proofs.«160401_j10462540333326_1_alg».proof.Proof.LibAffine
import Idealize.ShloMosaic.Lib.StableHlo.Run

namespace Cert.KernelIdeal.Gen

open Idealize.ShloMosaic Idealize.SL.Sem
open Cert.Spec (ofVec ofRow)
open Cert.Lib.Affine

/-- Every operation acts column by column, so once the casts are read both sides are one expression in the entries. -/
theorem host1 (Wp : Valuation τ sig (Elt Ideal)) (s ss g b : Fin 128 → EReal)
    (hs : Wp (Proc.devRef .tc main_v29_1) = ofRow s) (hss : Wp (Proc.devRef .tc main_v29_2) = ofRow ss)
    (hg : Wp (Proc.devRef .tc main_arg10) = ofVec g) (hb : Wp (Proc.devRef .tc main_arg11) = ofVec b) :
    StableHlo.after (hostOps1 (F := Ideal)) Wp (Proc.devRef .tc main_v42) = ofRow (Cert.Spec.kScale Cert.Spec.cRows s ss g)
    ∧ StableHlo.after (hostOps1 (F := Ideal)) Wp (Proc.devRef .tc main_v46) = ofRow (Cert.Spec.kShift Cert.Spec.cRows s ss g b) := by
  constructor <;> after_results_simp
  · rw [hs, hss, hg]
    rw (config := { transparency := .default }) [castRow, castRow]
    exact (castVec _ _).trans rfl
  · rw [hs, hss, hg, hb]
    rw (config := { transparency := .default }) [castBack, castRow, castRow]
    exact (castVec _ _).trans rfl

end Cert.KernelIdeal.Gen
-- ==== Proof.KHost2.lean ====
import proofs.«160401_j10462540333326_1_alg».proof.Proof.Gen.KernelIdeal.Launch
import proofs.«160401_j10462540333326_1_alg».proof.Proof.Spec
import proofs.«160401_j10462540333326_1_alg».proof.Proof.SpecReindex
import proofs.«160401_j10462540333326_1_alg».proof.Proof.LibRowGatherScatter
import Idealize.ShloMosaic.Lib.Pipeline.Value
import Idealize.ShloMosaic.PureOps.Ideal.Laws

set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat Cfg Window)
open Cert.Spec (ofMat ofVec ofRow ofScalar ofRowsK ofRowsR Side)

theorem kSide_of_lt (r : Fin 320000) (h : r.val < 160000) : Cert.Spec.kSide r = (0, ⟨r.val, h⟩) := by
  apply Prod.ext
  · apply Fin.ext
    show r.val / 160000 = 0
    omega
  · apply Fin.ext
    show r.val % 160000 = r.val
    omega

theorem kSide_of_ge (r : Fin 320000) (h : ¬ r.val < 160000) :
    Cert.Spec.kSide r = (1, ⟨r.val - 160000, by have := r.isLt; omega⟩) := by
  have := r.isLt
  apply Prod.ext
  · apply Fin.ext
    show r.val / 160000 = 1
    omega
  · apply Fin.ext
    show r.val % 160000 = r.val - 160000
    omega

theorem atoms_apply (ei : Fin 2 → Fin 160000 → BitVec 32) (r : Fin 320000) :
    concatenate S320000 0 [⟨S160000, ofVec (ei 0)⟩, ⟨S160000, ofVec (ei 1)⟩] concatenates_S160000_S160000_S320000_d0 (ix1 r)
      = ei (Cert.Spec.kSide r).1 (Cert.Spec.kSide r).2 := by
  by_cases h : r.val < 160000
  · rw [kSide_of_lt r h]
    exact concatenate_pair_apply_left (t := S320000) (s₁ := S160000) (s₂ := S160000) 0 (ofVec (ei 0)) (ofVec (ei 1))
      concatenates_S160000_S160000_S320000_d0 (ix1 r) rfl (ix1 ⟨r.val, h⟩) (fun b => by match b with | ⟨0, _⟩ => rfl)
  · rw [kSide_of_ge r h]
    have := r.isLt
    exact concatenate_pair_apply_right (t := S320000) (s₁ := S160000) (s₂ := S160000) 0 (ofVec (ei 0)) (ofVec (ei 1))
      concatenates_S160000_S160000_S320000_d0 (ix1 r) rfl rfl (ix1 ⟨r.val - 160000, by omega⟩)
      (fun b hb => by match b with | ⟨0, _⟩ => exact absurd rfl hb)
      (by show r.val - 160000 + 160000 = r.val; omega)

theorem col_apply {α : Type} (v : S320000.Idx → α) (r : Fin 320000) (z : Fin 1) :
    broadcastInDim S320000x1 ![0] bcast_S320000_S320000x1_0 v (ix2 r z) = v (ix1 r) := by
  refine broadcastInDim_apply (![0] : Fin 1 → Fin 2) bcast_S320000_S320000x1_0 v (ix2 r z) (ix1 r) ?_
  intro d
  match d with
  | ⟨0, _⟩ => rfl

theorem splat_apply {α : Type} (x : S_.Idx → α) (n : Fin 20000) (q : Fin 128) :
    broadcastInDim S20000x128 ![] bcast_S_S20000x128 x (ix2 n q) = x ix0 :=
  broadcastInDim_apply (![] : Fin 0 → Fin 2) bcast_S_S20000x128 x (ix2 n q) ix0 fun a => a.elim0

theorem ds_apply (H : Side → Fin 128 → EReal) (e : Fin 160000) (q : Fin 128) :
    addf (F := Ideal) (φ := .f32) (extractStridedSlice S160000x128 ![0, 0] (ofRowsK H) slices_S320000x128_S160000x128_0_0)
      (extractStridedSlice S160000x128 ![160000, 0] (ofRowsK H) slices_S320000x128_S160000x128_160000_0) (ix2 e q)
      = H (0, e) q + H (1, e) q := by
  have he := e.isLt
  have h0 : Cert.Spec.kSide ⟨0 + e.val, by omega⟩ = (0, e) := by
    apply Prod.ext
    · apply Fin.ext
      show (0 + e.val) / 160000 = 0
      omega
    · apply Fin.ext
      show (0 + e.val) % 160000 = e.val
      omega
  have h1 : Cert.Spec.kSide ⟨160000 + e.val, by omega⟩ = (1, e) := Cert.Spec.kSide_hi e (by omega)
  show H (Cert.Spec.kSide ⟨0 + e.val, _⟩) ⟨0 + q.val, _⟩ + H (Cert.Spec.kSide ⟨160000 + e.val, _⟩) ⟨0 + q.val, _⟩ = _
  rw [h0, h1]
  congr 2 <;> exact Fin.ext (Nat.zero_add _)

theorem dsds_apply {α : Type} (D : S160000x128.Idx → α) (r : Fin 320000) (q : Fin 128) :
    concatenate S320000x128 0 [⟨S160000x128, D⟩, ⟨S160000x128, D⟩] concatenates_S160000x128_S160000x128_S320000x128_d0 (ix2 r q)
      = D (ix2 (Cert.Spec.kSide r).2 q) := by
  by_cases h : r.val < 160000
  · rw [kSide_of_lt r h]
    exact concatenate_pair_apply_left (t := S320000x128) (s₁ := S160000x128) (s₂ := S160000x128) 0 D D
      concatenates_S160000x128_S160000x128_S320000x128_d0 (ix2 r q) rfl (ix2 ⟨r.val, h⟩ q)
      (fun b => by match b with | ⟨0, _⟩ => rfl | ⟨1, _⟩ => rfl)
  · rw [kSide_of_ge r h]
    have := r.isLt
    exact concatenate_pair_apply_right (t := S320000x128) (s₁ := S160000x128) (s₂ := S160000x128) 0 D D
      concatenates_S160000x128_S160000x128_S320000x128_d0 (ix2 r q) rfl rfl (ix2 ⟨r.val - 160000, by omega⟩ q)
      (fun b hb => by match b with | ⟨0, _⟩ => exact absurd rfl hb | ⟨1, _⟩ => rfl)
      (by show r.val - 160000 + 160000 = r.val; omega)

theorem scat_apply (x : S20000x128.Idx → EReal) (idx : S320000x1.Idx → BitVec 32) (upd : S320000x128.Idx → EReal)
    (n : Fin 20000) (q : Fin 128) :
    Host.scatterAdd (F := Ideal) (φ := .f32) scatter_S20000x128_S320000x1_S320000x128_1_0_0_1 x idx upd (ix2 n q)
      = x (ix2 n q) + ∑ r : Fin 320000, if (idx (ix2 r 0)).toInt = (n.val : Int) then upd (ix2 r q) else 0 :=
  Cert.Lib.RowPass.sc_apply scatter_S20000x128_S320000x1_S320000x128_1_0_0_1_wf x idx upd n q

theorem lvl_apply (ei : Fin 2 → Fin 160000 → BitVec 32) (U : S320000x128.Idx → EReal) (n : Fin 20000) (q : Fin 128) :
    Host.scatterAdd (F := Ideal) (φ := .f32) scatter_S20000x128_S320000x1_S320000x128_1_0_0_1
        (broadcastInDim S20000x128 ![] bcast_S_S20000x128 (constant (F := Ideal) S_ .f32 0x00000000#32))
        (broadcastInDim S320000x1 ![0] bcast_S320000_S320000x1_0
          (concatenate S320000 0 [⟨S160000, ofVec (ei 0)⟩, ⟨S160000, ofVec (ei 1)⟩] concatenates_S160000_S160000_S320000_d0))
        U (ix2 n q)
      = ∑ r : Fin 320000, if Cert.Spec.hit (ei (Cert.Spec.kSide r).1 (Cert.Spec.kSide r).2) n then U (ix2 r q) else 0 := by
  rw [scat_apply, splat_apply]
  show Ideal.ofBits .f32 0x00000000#32 + _ = _
  rw [Ideal.ofBits_zero_f32, zero_add]
  refine Finset.sum_congr rfl fun r _ => ?_
  rw [col_apply, atoms_apply]
  rfl

theorem combine_apply (c1 c2 : S_.Idx → EReal) (X L D : S20000x128.Idx → EReal) (n : Fin 20000) (q : Fin 128) :
    addf (F := Ideal) (φ := .f32)
        (addf (F := Ideal) (φ := .f32) (mulf (F := Ideal) (φ := .f32) (broadcastInDim S20000x128 ![] bcast_S_S20000x128 c1) X)
          (mulf (F := Ideal) (φ := .f32) (broadcastInDim S20000x128 ![] bcast_S_S20000x128 c2) L)) D (ix2 n q)
      = (c1 ix0 * X (ix2 n q) + c2 ix0 * L (ix2 n q)) + D (ix2 n q) := by
  show (broadcastInDim S20000x128 ![] bcast_S_S20000x128 c1 (ix2 n q) * X (ix2 n q)
      + broadcastInDim S20000x128 ![] bcast_S_S20000x128 c2 (ix2 n q) * L (ix2 n q)) + D (ix2 n q) = _
  rw [splat_apply, splat_apply]

set_option maxHeartbeats 1600000 in
theorem host2 (Wp : Valuation τ sig (Elt Ideal)) (a : Cert.Spec.Args) (H : Side → Fin 128 → EReal)
    (hH : Wp (Proc.devRef .tc main_v47) = ofRowsK H) (hu : Wp (Proc.devRef .tc main_v1) = ofVec (a.ei 0))
    (hv : Wp (Proc.devRef .tc main_v3) = ofVec (a.ei 1)) (h0 : Wp (Proc.devRef .tc main_arg0) = ofMat a.nr)
    (h18 : Wp (Proc.devRef .tc main_arg18) = ofScalar a.e11) (h19 : Wp (Proc.devRef .tc main_arg19) = ofScalar a.e12) :
    StableHlo.after (hostOps2 (F := Ideal)) Wp (Proc.devRef .tc main_v66) = ofMat (Cert.Spec.nodeInOf a H) := by
  show StableHlo.after hostOps2 Wp (Proc.devRef .tc main_v66) = _
  after_results_simp
  repeat (first
    | rw [StableHlo.nullary_result] | rw [StableHlo.unary_result] | rw [StableHlo.binary_result] | rw [StableHlo.ternary_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide))
  rw [hH, hu, hv, h0, h18, h19]
  funext i
  obtain ⟨n, q, rfl⟩ : ∃ (n : Fin 20000) (q : Fin 128), i = ix2 n q := ⟨i 0, i 1, eq_ix2 i⟩
  refine (combine_apply _ _ _ _ _ n q).trans ?_
  rw [lvl_apply, lvl_apply]
  have e1 : ∀ r : Fin 320000, ofRowsK H (ix2 r q) = H (Cert.Spec.kSide r) q := fun _ => rfl
  simp only [e1, dsds_apply, ds_apply]
  rw [Cert.Spec.sum_kSide (fun je : Side => if Cert.Spec.hit (a.ei je.1 je.2) n then H je q else 0),
    Cert.Spec.sum_kSide (fun je : Side =>
      if Cert.Spec.hit (a.ei je.1 je.2) n then (H (0, je.2) q + H (1, je.2) q) else 0)]
  rfl

end Cert.KernelIdeal.Gen

end
-- ==== Proof.KHost3.lean ====
import proofs.«160401_j10462540333326_1_alg».proof.Proof.Gen.KernelIdeal.Launch
import proofs.«160401_j10462540333326_1_alg».proof.Proof.LibAffine
import Idealize.ShloMosaic.Lib.StableHlo.Run

namespace Cert.KernelIdeal.Gen

open Idealize.ShloMosaic Idealize.SL.Sem
open Cert.Spec (ofVec ofRow)
open Cert.Lib.Affine

/-- Every operation acts column by column, so once the casts are read both sides are one expression in the entries. -/
theorem host3 (Wp : Valuation τ sig (Elt Ideal)) (s ss g b : Fin 256 → EReal)
    (hs : Wp (Proc.devRef .tc main_v67_1) = ofRow s) (hss : Wp (Proc.devRef .tc main_v67_2) = ofRow ss)
    (hg : Wp (Proc.devRef .tc main_arg13) = ofVec g) (hb : Wp (Proc.devRef .tc main_arg14) = ofVec b) :
    StableHlo.after (hostOps3 (F := Ideal)) Wp (Proc.devRef .tc main_v80) = ofRow (Cert.Spec.kScale Cert.Spec.cNodes s ss g)
    ∧ StableHlo.after (hostOps3 (F := Ideal)) Wp (Proc.devRef .tc main_v84) = ofRow (Cert.Spec.kShift Cert.Spec.cNodes s ss g b) := by
  constructor <;> after_results_simp
  · rw [hs, hss, hg]
    rw (config := { transparency := .default }) [castRow, castRow]
    exact (castVec _ _).trans rfl
  · rw [hs, hss, hg, hb]
    rw (config := { transparency := .default }) [castBack, castRow, castRow]
    exact (castVec _ _).trans rfl

end Cert.KernelIdeal.Gen
-- ==== Proof.KHost5.lean ====
import proofs.«160401_j10462540333326_1_alg».proof.Proof.Gen.KernelIdeal.Launch
import proofs.«160401_j10462540333326_1_alg».proof.Proof.LibAffine
import Idealize.ShloMosaic.Lib.StableHlo.Run

namespace Cert.KernelIdeal.Gen

open Idealize.ShloMosaic Idealize.SL.Sem
open Cert.Spec (ofVec ofRow)
open Cert.Lib.Affine

/-- Every operation acts column by column, so once the casts are read both sides are one expression in the entries. -/
theorem host5 (Wp : Valuation τ sig (Elt Ideal)) (s ss g b : Fin 128 → EReal)
    (hs : Wp (Proc.devRef .tc main_v86_1) = ofRow s) (hss : Wp (Proc.devRef .tc main_v86_2) = ofRow ss)
    (hg : Wp (Proc.devRef .tc main_arg16) = ofVec g) (hb : Wp (Proc.devRef .tc main_arg17) = ofVec b) :
    StableHlo.after (hostOps5 (F := Ideal)) Wp (Proc.devRef .tc main_v99) = ofRow (Cert.Spec.kScale Cert.Spec.cNodes s ss g)
    ∧ StableHlo.after (hostOps5 (F := Ideal)) Wp (Proc.devRef .tc main_v103) = ofRow (Cert.Spec.kShift Cert.Spec.cNodes s ss g b) := by
  constructor <;> after_results_simp
  · rw [hs, hss, hg]
    rw (config := { transparency := .default }) [castRow, castRow]
    exact (castVec _ _).trans rfl
  · rw [hs, hss, hg, hb]
    rw (config := { transparency := .default }) [castBack, castRow, castRow]
    exact (castVec _ _).trans rfl

end Cert.KernelIdeal.Gen
-- ==== Proof.KHost6.lean ====
import proofs.«160401_j10462540333326_1_alg».proof.Proof.Gen.KernelIdeal.Launch
import proofs.«160401_j10462540333326_1_alg».proof.Proof.Spec
import Idealize.ShloMosaic.Lib.StableHlo.Run
import Idealize.ShloMosaic.Lib.Pipeline.Value

set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat Cfg Window)
open Cert.Spec (ofMat ofVec ofRow ofScalar ofRowsK ofRowsR Side)

section Cat
variable {α : Type}

theorem host6_catCols_apply (m w : S160000x128.Idx → α) (e : Fin 160000) (q : Fin 256) :
    concatenate S160000x256 1 [⟨S160000x128, m⟩, ⟨S160000x128, w⟩] concatenates_S160000x128_S160000x128_S160000x256_d1 (ix2 e q)
      = if h : q.val < 128 then m (ix2 e ⟨q.val, h⟩) else w (ix2 e ⟨q.val - 128, by have := q.isLt; omega⟩) := by
  by_cases h : q.val < 128
  · rw [dif_pos h]
    refine concatenate_pair_apply_left (1 : Fin 2) m w concatenates_S160000x128_S160000x128_S160000x256_d1 (ix2 e q) rfl
      (ix2 e (⟨q.val, h⟩ : Fin 128)) fun b => ?_
    match b with
    | ⟨0, _⟩ => rfl
    | ⟨1, _⟩ => rfl
  · rw [dif_neg h]
    have hq := q.isLt
    refine concatenate_pair_apply_right (1 : Fin 2) m w concatenates_S160000x128_S160000x128_S160000x256_d1 (ix2 e q) rfl rfl
      (ix2 e (⟨q.val - 128, by omega⟩ : Fin 128)) (fun b hb => ?_) ?_
    · match b, hb with
      | ⟨0, _⟩, _ => rfl
      | ⟨1, _⟩, hb => exact absurd rfl hb
    · show q.val - 128 + 128 = q.val
      omega

theorem host6_catRows_apply (A B : S160000x256.Idx → α) (r : Fin 320000) (q : Fin 256) :
    concatenate S320000x256 0 [⟨S160000x256, A⟩, ⟨S160000x256, B⟩] concatenates_S160000x256_S160000x256_S320000x256_d0 (ix2 r q)
      = if h : r.val < 160000 then A (ix2 ⟨r.val, h⟩ q) else B (ix2 ⟨r.val - 160000, by have := r.isLt; omega⟩ q) := by
  by_cases h : r.val < 160000
  · rw [dif_pos h]
    refine concatenate_pair_apply_left (0 : Fin 2) A B concatenates_S160000x256_S160000x256_S320000x256_d0 (ix2 r q) rfl
      (ix2 (⟨r.val, h⟩ : Fin 160000) q) fun b => ?_
    match b with
    | ⟨0, _⟩ => rfl
    | ⟨1, _⟩ => rfl
  · rw [dif_neg h]
    have hr := r.isLt
    refine concatenate_pair_apply_right (0 : Fin 2) A B concatenates_S160000x256_S160000x256_S320000x256_d0 (ix2 r q) rfl rfl
      (ix2 (⟨r.val - 160000, by omega⟩ : Fin 160000) q) (fun b hb => ?_) ?_
    · match b, hb with
      | ⟨0, _⟩, hb => exact absurd rfl hb
      | ⟨1, _⟩, _ => rfl
    · show r.val - 160000 + 160000 = r.val
      omega

end Cat

theorem host6 (Wp : Valuation τ sig (Elt Ideal)) (a : Cert.Spec.Args)
    (hu : Wp (Proc.devRef .tc main_v24) = ofMat (fun (e : Fin 160000) q => a.er (Cert.Spec.erRow (0, e)) q))
    (hv : Wp (Proc.devRef .tc main_v26) = ofMat (fun (e : Fin 160000) q => a.er (Cert.Spec.erRow (1, e)) q))
    (hla : Wp (Proc.devRef .tc main_v21) = ofRowsK (Cert.Spec.la a)) (h20 : Wp (Proc.devRef .tc main_arg20) = ofScalar a.e2) :
    StableHlo.after (hostOps6 (F := Ideal)) Wp (Proc.devRef .tc main_v114) = ofRowsK (Cert.Spec.edgeIn a) := by
  show StableHlo.after hostOps6 Wp (Proc.devRef .tc main_v114) = _
  after_results
  rw [hla, h20]
  funext i
  obtain ⟨r, q, rfl⟩ : ∃ (r : Fin 320000) (q : Fin 256), i = ix2 r q := ⟨i 0, i 1, eq_ix2 i⟩

  refine (congrArg (fun t => (Cert.Spec.one + a.e2) * t + Cert.Spec.la a (Cert.Spec.kSide r) q)
    (?_ : _ = Cert.Spec.lm a (Cert.Spec.kSide r) q) : _ = _)
  have hR := r.isLt
  have hQ := q.isLt
  refine (host6_catRows_apply _ _ r q).trans ?_
  by_cases hr : r.val < 160000
  ·
    rw [dif_pos hr]
    have hs : Cert.Spec.kSide r = (0, ⟨r.val, hr⟩) :=
      Prod.ext (Fin.ext (show r.val / 160000 = 0 by omega)) (Fin.ext (show r.val % 160000 = r.val by omega))
    rw [hs]
    refine (host6_catCols_apply _ _ _ q).trans ?_
    unfold Cert.Spec.lm
    by_cases hq : q.val < 128
    · rw [dif_pos hq, dif_pos hq, hu, hv]
      rfl
    · rw [dif_neg hq, dif_neg hq, hu]
      rfl
  ·
    rw [dif_neg hr]
    have hs : Cert.Spec.kSide r = (1, ⟨r.val - 160000, by omega⟩) :=
      Prod.ext (Fin.ext (show r.val / 160000 = 1 by omega)) (Fin.ext (show r.val % 160000 = r.val - 160000 by omega))
    rw [hs]
    refine (host6_catCols_apply _ _ _ q).trans ?_
    unfold Cert.Spec.lm
    by_cases hq : q.val < 128
    · rw [dif_pos hq, dif_pos hq, hu, hv]
      rfl
    · rw [dif_neg hq, dif_neg hq, hv]
      rfl

end Cert.KernelIdeal.Gen

end
-- ==== Proof.KHost7.lean ====
import proofs.«160401_j10462540333326_1_alg».proof.Proof.Gen.KernelIdeal.Launch
import proofs.«160401_j10462540333326_1_alg».proof.Proof.LibAffine
import Idealize.ShloMosaic.Lib.StableHlo.Run

namespace Cert.KernelIdeal.Gen

open Idealize.ShloMosaic Idealize.SL.Sem
open Cert.Spec (ofVec ofRow)
open Cert.Lib.Affine

/-- Every operation acts column by column, so once the casts are read both sides are one expression in the entries. -/
theorem host7 (Wp : Valuation τ sig (Elt Ideal)) (s ss g b : Fin 256 → EReal)
    (hs : Wp (Proc.devRef .tc main_v115_1) = ofRow s) (hss : Wp (Proc.devRef .tc main_v115_2) = ofRow ss)
    (hg : Wp (Proc.devRef .tc main_arg4) = ofVec g) (hb : Wp (Proc.devRef .tc main_arg5) = ofVec b) :
    StableHlo.after (hostOps7 (F := Ideal)) Wp (Proc.devRef .tc main_v128) = ofRow (Cert.Spec.kScale Cert.Spec.cRows s ss g)
    ∧ StableHlo.after (hostOps7 (F := Ideal)) Wp (Proc.devRef .tc main_v132) = ofRow (Cert.Spec.kShift Cert.Spec.cRows s ss g b) := by
  constructor <;> after_results_simp
  · rw [hs, hss, hg]
    rw (config := { transparency := .default }) [castRow, castRow]
    exact (castVec _ _).trans rfl
  · rw [hs, hss, hg, hb]
    rw (config := { transparency := .default }) [castBack, castRow, castRow]
    exact (castVec _ _).trans rfl

end Cert.KernelIdeal.Gen
-- ==== Proof.KHost9.lean ====
import proofs.«160401_j10462540333326_1_alg».proof.Proof.Gen.KernelIdeal.Launch
import proofs.«160401_j10462540333326_1_alg».proof.Proof.LibAffine
import Idealize.ShloMosaic.Lib.StableHlo.Run

namespace Cert.KernelIdeal.Gen

open Idealize.ShloMosaic Idealize.SL.Sem
open Cert.Spec (ofVec ofRow)
open Cert.Lib.Affine

/-- Every operation acts column by column, so once the casts are read both sides are one expression in the entries. -/
theorem host9 (Wp : Valuation τ sig (Elt Ideal)) (s ss g b : Fin 128 → EReal)
    (hs : Wp (Proc.devRef .tc main_v134_1) = ofRow s) (hss : Wp (Proc.devRef .tc main_v134_2) = ofRow ss)
    (hg : Wp (Proc.devRef .tc main_arg7) = ofVec g) (hb : Wp (Proc.devRef .tc main_arg8) = ofVec b) :
    StableHlo.after (hostOps9 (F := Ideal)) Wp (Proc.devRef .tc main_v147) = ofRow (Cert.Spec.kScale Cert.Spec.cRows s ss g)
    ∧ StableHlo.after (hostOps9 (F := Ideal)) Wp (Proc.devRef .tc main_v151) = ofRow (Cert.Spec.kShift Cert.Spec.cRows s ss g b) := by
  constructor <;> after_results_simp
  · rw [hs, hss, hg]
    rw (config := { transparency := .default }) [castRow, castRow]
    exact (castVec _ _).trans rfl
  · rw [hs, hss, hg, hb]
    rw (config := { transparency := .default }) [castBack, castRow, castRow]
    exact (castVec _ _).trans rfl

end Cert.KernelIdeal.Gen
-- ==== Proof.KHost10.lean ====
import proofs.«160401_j10462540333326_1_alg».proof.Proof.Gen.KernelIdeal.Launch
import proofs.«160401_j10462540333326_1_alg».proof.Proof.Spec
import proofs.«160401_j10462540333326_1_alg».proof.Proof.SpecReindex
import Idealize.ShloMosaic.Lib.StableHlo.Run
import Idealize.ShloMosaic.Lib.Pipeline.Value
import Idealize.ShloMosaic.Lib.ValueLayout

set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat Cfg Window)
open Cert.Spec (ofMat ofVec ofRow ofScalar ofRowsK ofRowsR Side)

section Interleave
variable {α : Type}

theorem host10_unitMid_apply (y : S160000x128.Idx → α) (i : Fin 160000) (u : Fin 1) (q : Fin 128) :
    broadcastInDim S160000x1x128 ![0, 2] bcast_S160000x128_S160000x1x128_0_2 y (ix3 i u q) = y (ix2 i q) := by
  refine broadcastInDim_apply _ _ y (ix3 i u q) (ix2 i q) fun a => ?_
  match a with
  | ⟨0, _⟩ => rfl
  | ⟨1, _⟩ => rfl

theorem host10_interleave_apply (x : S320000x128.Idx → α) (r : Fin 320000) (q : Fin 128) (k : Fin 320000)
    (hk : k.val = (r.val % 2) * 160000 + r.val / 2) :
    shapeCast S320000x128
      (concatenate S160000x2x128 1
        [⟨S160000x1x128, broadcastInDim S160000x1x128 ![0, 2] bcast_S160000x128_S160000x1x128_0_2
            (extractStridedSlice S160000x128 ![0, 0] x slices_S320000x128_S160000x128_0_0)⟩,
          ⟨S160000x1x128, broadcastInDim S160000x1x128 ![0, 2] bcast_S160000x128_S160000x1x128_0_2
            (extractStridedSlice S160000x128 ![160000, 0] x slices_S320000x128_S160000x128_160000_0)⟩]
        concatenates_S160000x1x128_S160000x1x128_S160000x2x128_d1)
      shapeCasts_S160000x2x128_S320000x128 (ix2 r q) = x (ix2 k q) := by
  have hr := r.isLt
  have h2 : r.val % 2 < 2 := Nat.mod_lt _ (by decide)
  have hd : r.val / 2 < 160000 := by omega

  refine (shapeCast_apply _ shapeCasts_S160000x2x128_S320000x128 (ix2 r q)
    (ix3 (⟨r.val / 2, hd⟩ : Fin 160000) (⟨r.val % 2, h2⟩ : Fin 2) q) ?_).trans ?_
  · rw [Shape.rowMajor_val_three, Shape.rowMajor_val_two]
    show (r.val / 2 * 2 + r.val % 2) * 128 + q.val = r.val * 128 + q.val
    omega
  · rcases Nat.lt_or_ge (r.val % 2) 1 with h0 | h1
    ·
      have e0 : r.val % 2 = 0 := by omega
      refine (concatenate_pair_apply_left (1 : Fin 3) _ _ concatenates_S160000x1x128_S160000x1x128_S160000x2x128_d1
        (ix3 (⟨r.val / 2, hd⟩ : Fin 160000) (⟨r.val % 2, h2⟩ : Fin 2) q) rfl
        (ix3 (⟨r.val / 2, hd⟩ : Fin 160000) (0 : Fin 1) q) ?_).trans ?_
      · intro b
        match b with
        | ⟨0, _⟩ => rfl
        | ⟨1, _⟩ => exact e0.symm
        | ⟨2, _⟩ => rfl
      · refine (host10_unitMid_apply _ _ _ _).trans ?_
        exact slice2_axis0_apply 0 x slices_S320000x128_S160000x128_0_0 _ _ k (by show k.val = 0 + r.val / 2; omega)
    ·
      have e1 : r.val % 2 = 1 := by omega
      refine (concatenate_pair_apply_right (1 : Fin 3) _ _ concatenates_S160000x1x128_S160000x1x128_S160000x2x128_d1
        (ix3 (⟨r.val / 2, hd⟩ : Fin 160000) (⟨r.val % 2, h2⟩ : Fin 2) q) rfl rfl
        (ix3 (⟨r.val / 2, hd⟩ : Fin 160000) (0 : Fin 1) q) ?_ ?_).trans ?_
      · intro b hb
        match b, hb with
        | ⟨0, _⟩, _ => rfl
        | ⟨1, _⟩, hb => exact absurd rfl hb
        | ⟨2, _⟩, _ => rfl
      · show 0 + 1 = r.val % 2
        omega
      · refine (host10_unitMid_apply _ _ _ _).trans ?_
        exact slice2_axis0_apply 160000 x slices_S320000x128_S160000x128_160000_0 _ _ k (by show k.val = 160000 + r.val / 2; omega)

end Interleave

theorem host10 (Wp : Valuation τ sig (Elt Ideal)) (G : Side → Fin 128 → EReal) (hG : Wp (Proc.devRef .tc main_v152) = ofRowsK G) :
    StableHlo.after (hostOps10 (F := Ideal)) Wp (Proc.devRef .tc main_v158) = ofRowsR G := by
  show StableHlo.after hostOps10 Wp (Proc.devRef .tc main_v158) = _
  after_results
  rw [hG]
  funext i
  obtain ⟨r, q, rfl⟩ : ∃ (r : Fin 320000) (q : Fin 128), i = ix2 r q := ⟨i 0, i 1, eq_ix2 i⟩
  have hr := r.isLt
  have hk : (r.val % 2) * 160000 + r.val / 2 < 320000 := by omega
  refine (host10_interleave_apply (ofRowsK G) r q ⟨(r.val % 2) * 160000 + r.val / 2, hk⟩ rfl).trans ?_

  show G (Cert.Spec.kSide ⟨(r.val % 2) * 160000 + r.val / 2, hk⟩) q = G (Cert.Spec.rSide r) q
  exact congrArg (fun je => G je q) (Cert.Spec.kSide_mk ⟨r.val % 2, Nat.mod_lt _ (by decide)⟩ ⟨r.val / 2, by omega⟩ hk)

end Cert.KernelIdeal.Gen

end
-- ==== Proof.KFold.lean ====
import proofs.«160401_j10462540333326_1_alg».proof.Proof.Gen.KernelIdeal.Frame
import proofs.«160401_j10462540333326_1_alg».proof.Proof.Spec
import proofs.«160401_j10462540333326_1_alg».proof.Proof.KArgs
import proofs.«160401_j10462540333326_1_alg».proof.Proof.SpecReindex
import proofs.«160401_j10462540333326_1_alg».proof.Proof.RegMM0
import proofs.«160401_j10462540333326_1_alg».proof.Proof.RegBN1
import proofs.«160401_j10462540333326_1_alg».proof.Proof.RegMM2
import proofs.«160401_j10462540333326_1_alg».proof.Proof.RegBN3
import proofs.«160401_j10462540333326_1_alg».proof.Proof.RegMM4
import proofs.«160401_j10462540333326_1_alg».proof.Proof.RegBN5
import proofs.«160401_j10462540333326_1_alg».proof.Proof.RegMM6
import proofs.«160401_j10462540333326_1_alg».proof.Proof.RegBN7
import proofs.«160401_j10462540333326_1_alg».proof.Proof.RegMM8
import proofs.«160401_j10462540333326_1_alg».proof.Proof.RegBN9
import proofs.«160401_j10462540333326_1_alg».proof.Proof.KHost0
import proofs.«160401_j10462540333326_1_alg».proof.Proof.KHost1
import proofs.«160401_j10462540333326_1_alg».proof.Proof.KHost2
import proofs.«160401_j10462540333326_1_alg».proof.Proof.KHost3
import proofs.«160401_j10462540333326_1_alg».proof.Proof.KHost5
import proofs.«160401_j10462540333326_1_alg».proof.Proof.KHost6
import proofs.«160401_j10462540333326_1_alg».proof.Proof.KHost7
import proofs.«160401_j10462540333326_1_alg».proof.Proof.KHost9
import proofs.«160401_j10462540333326_1_alg».proof.Proof.KHost10
import proofs.«160401_j10462540333326_1_alg».proof.Proof.LibRegion
import Idealize.ShloMosaic.Lib.StableHlo.Run
set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat Cfg Window)
open Cert.Spec (ofMat ofVec ofRow ofScalar ofRowsK ofRowsR Side mm x0 la erRow h nodeIn nodeH nodeOut edgeIn edgeH edgeOut colSum_kSide colSq_kSide)

/-- A host stretch writes only its own results (the program is in single-assignment form), so any other buffer keeps its contents across it. -/
noncomputable def wH0 : List (Ref sig .tc) :=
  [main_v0, main_v1, main_v2, main_v3, main_c, main_v4, main_v5, main_c_0, main_v6, main_v7, main_v8,
    main_v9, main_v10, main_c_1, main_v11, main_v12, main_c_2, main_v13, main_v14, main_v15, main_v16,
    main_v17, main_v18, main_v19, main_v20, main_v21, main_v22, main_v23, main_v24, main_v25, main_v26,
    main_v27, main_v28 ]
theorem keepH0 (V : Valuation τ sig (Elt Ideal)) {r : Ref sig .tc} (hr : r ∉ wH0) :
    StableHlo.after (hostOps0 (F := Ideal)) V (Proc.devRef .tc r) = V (Proc.devRef .tc r) :=
  StableHlo.after_of_writes_sub _ V (by
    simp only [hostOps0, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hr
noncomputable def wH1 : List (Ref sig .tc) :=
  [main_v30, main_cst, main_v31, main_v32, main_v33, main_cst_3, main_v34, main_v35, main_v36, main_v37,
    main_cst_4, main_v38, main_v39, main_v40, main_v41, main_v42, main_v43, main_v44, main_v45, main_v46 ]
theorem keepH1 (V : Valuation τ sig (Elt Ideal)) {r : Ref sig .tc} (hr : r ∉ wH1) :
    StableHlo.after (hostOps1 (F := Ideal)) V (Proc.devRef .tc r) = V (Proc.devRef .tc r) :=
  StableHlo.after_of_writes_sub _ V (by
    simp only [hostOps1, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hr
noncomputable def wH2 : List (Ref sig .tc) :=
  [main_v48, main_v49, main_v50, main_v51, main_cst_5, main_v52, main_v53, main_v54, main_v55, main_cst_6,
    main_v56, main_v57, main_v58, main_cst_7, main_v59, main_v60, main_v61, main_cst_8, main_v62, main_v63,
    main_v64, main_v65, main_v66 ]
theorem keepH2 (V : Valuation τ sig (Elt Ideal)) {r : Ref sig .tc} (hr : r ∉ wH2) :
    StableHlo.after (hostOps2 (F := Ideal)) V (Proc.devRef .tc r) = V (Proc.devRef .tc r) :=
  StableHlo.after_of_writes_sub _ V (by
    simp only [hostOps2, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hr
noncomputable def wH3 : List (Ref sig .tc) :=
  [main_v68, main_cst_9, main_v69, main_v70, main_v71, main_cst_10, main_v72, main_v73, main_v74, main_v75,
    main_cst_11, main_v76, main_v77, main_v78, main_v79, main_v80, main_v81, main_v82, main_v83, main_v84 ]
theorem keepH3 (V : Valuation τ sig (Elt Ideal)) {r : Ref sig .tc} (hr : r ∉ wH3) :
    StableHlo.after (hostOps3 (F := Ideal)) V (Proc.devRef .tc r) = V (Proc.devRef .tc r) :=
  StableHlo.after_of_writes_sub _ V (by
    simp only [hostOps3, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hr
noncomputable def wH5 : List (Ref sig .tc) :=
  [main_v87, main_cst_12, main_v88, main_v89, main_v90, main_cst_13, main_v91, main_v92, main_v93, main_v94,
    main_cst_14, main_v95, main_v96, main_v97, main_v98, main_v99, main_v100, main_v101, main_v102, main_v103 ]
theorem keepH5 (V : Valuation τ sig (Elt Ideal)) {r : Ref sig .tc} (hr : r ∉ wH5) :
    StableHlo.after (hostOps5 (F := Ideal)) V (Proc.devRef .tc r) = V (Proc.devRef .tc r) :=
  StableHlo.after_of_writes_sub _ V (by
    simp only [hostOps5, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hr
noncomputable def wH6 : List (Ref sig .tc) :=
  [main_v105, main_cst_15, main_v106, main_v107, main_v108, main_v109, main_v110, main_cst_16, main_v111,
    main_v112, main_v113, main_v114 ]
theorem keepH6 (V : Valuation τ sig (Elt Ideal)) {r : Ref sig .tc} (hr : r ∉ wH6) :
    StableHlo.after (hostOps6 (F := Ideal)) V (Proc.devRef .tc r) = V (Proc.devRef .tc r) :=
  StableHlo.after_of_writes_sub _ V (by
    simp only [hostOps6, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hr
noncomputable def wH7 : List (Ref sig .tc) :=
  [main_v116, main_cst_17, main_v117, main_v118, main_v119, main_cst_18, main_v120, main_v121, main_v122,
    main_v123, main_cst_19, main_v124, main_v125, main_v126, main_v127, main_v128, main_v129, main_v130,
    main_v131, main_v132 ]
theorem keepH7 (V : Valuation τ sig (Elt Ideal)) {r : Ref sig .tc} (hr : r ∉ wH7) :
    StableHlo.after (hostOps7 (F := Ideal)) V (Proc.devRef .tc r) = V (Proc.devRef .tc r) :=
  StableHlo.after_of_writes_sub _ V (by
    simp only [hostOps7, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hr
noncomputable def wH9 : List (Ref sig .tc) :=
  [main_v135, main_cst_20, main_v136, main_v137, main_v138, main_cst_21, main_v139, main_v140, main_v141,
    main_v142, main_cst_22, main_v143, main_v144, main_v145, main_v146, main_v147, main_v148, main_v149,
    main_v150, main_v151 ]
theorem keepH9 (V : Valuation τ sig (Elt Ideal)) {r : Ref sig .tc} (hr : r ∉ wH9) :
    StableHlo.after (hostOps9 (F := Ideal)) V (Proc.devRef .tc r) = V (Proc.devRef .tc r) :=
  StableHlo.after_of_writes_sub _ V (by
    simp only [hostOps9, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hr
noncomputable def wH10 : List (Ref sig .tc) :=
  [main_v153, main_v154, main_v155, main_v156, main_v157, main_v158 ]
theorem keepH10 (V : Valuation τ sig (Elt Ideal)) {r : Ref sig .tc} (hr : r ∉ wH10) :
    StableHlo.after (hostOps10 (F := Ideal)) V (Proc.devRef .tc r) = V (Proc.devRef .tc r) :=
  StableHlo.after_of_writes_sub _ V (by
    simp only [hostOps10, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hr

variable (m : (ℓ : Loc nD τ sig) → Buf (Elt Ideal) ℓ) (ρ : Dev nD → PrngReg) (c : Dev nD)

theorem W0_arg0 : W0 m ρ c (Proc.devRef .tc main_arg0) = ofMat (args m c).nr := Cert.Lib.Region.eq_ofMat _
theorem W0_arg1 : W0 m ρ c (Proc.devRef .tc main_arg1) = ofMat (args m c).er := Cert.Lib.Region.eq_ofMat _
theorem W0_arg2 : W0 m ρ c (Proc.devRef .tc main_arg2) = ofMat (args m c).ei := Cert.Lib.Region.eq_ofMat _

/-- The arguments after the first host stretch, which writes none of them. -/
theorem W1_arg0 : W1 m ρ c (Proc.devRef .tc main_arg0) = ofMat (args m c).nr := (keepH0 _ (by decide)).trans (Cert.Lib.Region.eq_ofMat _)
theorem W1_arg3 : W1 m ρ c (Proc.devRef .tc main_arg3) = ofMat (args m c).lw1 := (keepH0 _ (by decide)).trans (Cert.Lib.Region.eq_ofMat _)
theorem W1_arg4 : W1 m ρ c (Proc.devRef .tc main_arg4) = ofVec (args m c).lg1 := (keepH0 _ (by decide)).trans (Cert.Lib.Region.eq_ofVec _)
theorem W1_arg5 : W1 m ρ c (Proc.devRef .tc main_arg5) = ofVec (args m c).lb1 := (keepH0 _ (by decide)).trans (Cert.Lib.Region.eq_ofVec _)
theorem W1_arg6 : W1 m ρ c (Proc.devRef .tc main_arg6) = ofMat (args m c).lw2 := (keepH0 _ (by decide)).trans (Cert.Lib.Region.eq_ofMat _)
theorem W1_arg7 : W1 m ρ c (Proc.devRef .tc main_arg7) = ofVec (args m c).lg2 := (keepH0 _ (by decide)).trans (Cert.Lib.Region.eq_ofVec _)
theorem W1_arg8 : W1 m ρ c (Proc.devRef .tc main_arg8) = ofVec (args m c).lb2 := (keepH0 _ (by decide)).trans (Cert.Lib.Region.eq_ofVec _)
theorem W1_arg9 : W1 m ρ c (Proc.devRef .tc main_arg9) = ofMat (args m c).w1 := (keepH0 _ (by decide)).trans (Cert.Lib.Region.eq_ofMat _)
theorem W1_arg10 : W1 m ρ c (Proc.devRef .tc main_arg10) = ofVec (args m c).g1 := (keepH0 _ (by decide)).trans (Cert.Lib.Region.eq_ofVec _)
theorem W1_arg11 : W1 m ρ c (Proc.devRef .tc main_arg11) = ofVec (args m c).b1 := (keepH0 _ (by decide)).trans (Cert.Lib.Region.eq_ofVec _)
theorem W1_arg12 : W1 m ρ c (Proc.devRef .tc main_arg12) = ofMat (args m c).nw1 := (keepH0 _ (by decide)).trans (Cert.Lib.Region.eq_ofMat _)
theorem W1_arg13 : W1 m ρ c (Proc.devRef .tc main_arg13) = ofVec (args m c).ng1 := (keepH0 _ (by decide)).trans (Cert.Lib.Region.eq_ofVec _)
theorem W1_arg14 : W1 m ρ c (Proc.devRef .tc main_arg14) = ofVec (args m c).nb1 := (keepH0 _ (by decide)).trans (Cert.Lib.Region.eq_ofVec _)
theorem W1_arg15 : W1 m ρ c (Proc.devRef .tc main_arg15) = ofMat (args m c).nw2 := (keepH0 _ (by decide)).trans (Cert.Lib.Region.eq_ofMat _)
theorem W1_arg16 : W1 m ρ c (Proc.devRef .tc main_arg16) = ofVec (args m c).ng2 := (keepH0 _ (by decide)).trans (Cert.Lib.Region.eq_ofVec _)
theorem W1_arg17 : W1 m ρ c (Proc.devRef .tc main_arg17) = ofVec (args m c).nb2 := (keepH0 _ (by decide)).trans (Cert.Lib.Region.eq_ofVec _)
theorem W1_arg18 : W1 m ρ c (Proc.devRef .tc main_arg18) = ofScalar (args m c).e11 := (keepH0 _ (by decide)).trans (Cert.Lib.Region.eq_ofScalar _)
theorem W1_arg19 : W1 m ρ c (Proc.devRef .tc main_arg19) = ofScalar (args m c).e12 := (keepH0 _ (by decide)).trans (Cert.Lib.Region.eq_ofScalar _)
theorem W1_arg20 : W1 m ρ c (Proc.devRef .tc main_arg20) = ofScalar (args m c).e2 := (keepH0 _ (by decide)).trans (Cert.Lib.Region.eq_ofScalar _)

/-- No segment between boundary 1 and boundary k writes b: a region sets only its own arrays, a host stretch only its results. -/
abbrev F2 (b : Ref sig .tc) : Prop := ∀ w, Pipeline.arrRef spec0 w ≠ b
abbrev F3 (b : Ref sig .tc) : Prop := F2 b ∧ b ∉ wH1
abbrev F4 (b : Ref sig .tc) : Prop := F3 b ∧ ∀ w, Pipeline.arrRef spec1 w ≠ b
abbrev F5 (b : Ref sig .tc) : Prop := F4 b ∧ b ∉ wH2
abbrev F6 (b : Ref sig .tc) : Prop := F5 b ∧ ∀ w, Pipeline.arrRef spec2 w ≠ b
abbrev F7 (b : Ref sig .tc) : Prop := F6 b ∧ b ∉ wH3
abbrev F8 (b : Ref sig .tc) : Prop := F7 b ∧ ∀ w, Pipeline.arrRef spec3 w ≠ b
abbrev F9 (b : Ref sig .tc) : Prop := F8 b ∧ ∀ w, Pipeline.arrRef spec4 w ≠ b
abbrev F10 (b : Ref sig .tc) : Prop := F9 b ∧ b ∉ wH5
abbrev F11 (b : Ref sig .tc) : Prop := F10 b ∧ ∀ w, Pipeline.arrRef spec5 w ≠ b
abbrev F12 (b : Ref sig .tc) : Prop := F11 b ∧ b ∉ wH6
abbrev F13 (b : Ref sig .tc) : Prop := F12 b ∧ ∀ w, Pipeline.arrRef spec6 w ≠ b
abbrev F14 (b : Ref sig .tc) : Prop := F13 b ∧ b ∉ wH7
abbrev F15 (b : Ref sig .tc) : Prop := F14 b ∧ ∀ w, Pipeline.arrRef spec7 w ≠ b
abbrev F16 (b : Ref sig .tc) : Prop := F15 b ∧ ∀ w, Pipeline.arrRef spec8 w ≠ b

theorem keep2 (b : Ref sig .tc) (h : F2 b) : W2 m ρ c (Proc.devRef .tc b) = W1 m ρ c (Proc.devRef .tc b) := W2_of_ne m ρ c b h
theorem keep3 (b : Ref sig .tc) (h : F3 b) : W3 m ρ c (Proc.devRef .tc b) = W1 m ρ c (Proc.devRef .tc b) :=
  (keepH1 _ h.2).trans (keep2 m ρ c b h.1)
theorem keep4 (b : Ref sig .tc) (h : F4 b) : W4 m ρ c (Proc.devRef .tc b) = W1 m ρ c (Proc.devRef .tc b) :=
  (W4_of_ne m ρ c b h.2).trans (keep3 m ρ c b h.1)
theorem keep5 (b : Ref sig .tc) (h : F5 b) : W5 m ρ c (Proc.devRef .tc b) = W1 m ρ c (Proc.devRef .tc b) :=
  (keepH2 _ h.2).trans (keep4 m ρ c b h.1)
theorem keep6 (b : Ref sig .tc) (h : F6 b) : W6 m ρ c (Proc.devRef .tc b) = W1 m ρ c (Proc.devRef .tc b) :=
  (W6_of_ne m ρ c b h.2).trans (keep5 m ρ c b h.1)
theorem keep7 (b : Ref sig .tc) (h : F7 b) : W7 m ρ c (Proc.devRef .tc b) = W1 m ρ c (Proc.devRef .tc b) :=
  (keepH3 _ h.2).trans (keep6 m ρ c b h.1)
theorem keep8 (b : Ref sig .tc) (h : F8 b) : W8 m ρ c (Proc.devRef .tc b) = W1 m ρ c (Proc.devRef .tc b) :=
  (W8_of_ne m ρ c b h.2).trans (keep7 m ρ c b h.1)
theorem keep9 (b : Ref sig .tc) (h : F9 b) : W9 m ρ c (Proc.devRef .tc b) = W1 m ρ c (Proc.devRef .tc b) :=
  (W9_of_ne m ρ c b h.2).trans (keep8 m ρ c b h.1)
theorem keep10 (b : Ref sig .tc) (h : F10 b) : W10 m ρ c (Proc.devRef .tc b) = W1 m ρ c (Proc.devRef .tc b) :=
  (keepH5 _ h.2).trans (keep9 m ρ c b h.1)
theorem keep11 (b : Ref sig .tc) (h : F11 b) : W11 m ρ c (Proc.devRef .tc b) = W1 m ρ c (Proc.devRef .tc b) :=
  (W11_of_ne m ρ c b h.2).trans (keep10 m ρ c b h.1)
theorem keep12 (b : Ref sig .tc) (h : F12 b) : W12 m ρ c (Proc.devRef .tc b) = W1 m ρ c (Proc.devRef .tc b) :=
  (keepH6 _ h.2).trans (keep11 m ρ c b h.1)
theorem keep13 (b : Ref sig .tc) (h : F13 b) : W13 m ρ c (Proc.devRef .tc b) = W1 m ρ c (Proc.devRef .tc b) :=
  (W13_of_ne m ρ c b h.2).trans (keep12 m ρ c b h.1)
theorem keep14 (b : Ref sig .tc) (h : F14 b) : W14 m ρ c (Proc.devRef .tc b) = W1 m ρ c (Proc.devRef .tc b) :=
  (keepH7 _ h.2).trans (keep13 m ρ c b h.1)
theorem keep15 (b : Ref sig .tc) (h : F15 b) : W15 m ρ c (Proc.devRef .tc b) = W1 m ρ c (Proc.devRef .tc b) :=
  (W15_of_ne m ρ c b h.2).trans (keep14 m ρ c b h.1)
theorem keep16 (b : Ref sig .tc) (h : F16 b) : W16 m ρ c (Proc.devRef .tc b) = W1 m ρ c (Proc.devRef .tc b) :=
  (W16_of_ne m ρ c b h.2).trans (keep15 m ρ c b h.1)

/-- What the first host stretch leaves. -/
abbrev at1 := host0 (W0 m ρ c) (args m c) (W0_arg0 m ρ c) (W0_arg1 m ρ c) (W0_arg2 m ρ c)

/-- Each block: the region's product and column statistics, the folded scale and shift, then the normalising region. -/
theorem W4_v47 : W4 m ρ c (Proc.devRef .tc main_v47) = ofRowsK (h (args m c) .k) := by
  obtain ⟨p, s, ss⟩ := reg0_final (V1 m ρ) c _ _ (at1 m ρ c).1 (W1_arg9 m ρ c)
  obtain ⟨sc, sh⟩ := host1 (W2 m ρ c) _ _ _ _ ((W2_arr m ρ c 3).trans (s.trans (congrArg ofRow (colSum_kSide (mm (x0 (args m c)) (args m c).w1))))) ((W2_arr m ρ c 4).trans (ss.trans (congrArg ofRow (colSq_kSide (mm (x0 (args m c)) (args m c).w1)))))
    ((keep2 m ρ c main_arg10 (by decide)).trans (W1_arg10 m ρ c)) ((keep2 m ρ c main_arg11 (by decide)).trans (W1_arg11 m ρ c))
  exact (W4_arr m ρ c 3).trans (reg1_final (V3 m ρ) c _ _ _
    ((keepH1 (W2 m ρ c) (by decide) : W3 m ρ c (Proc.devRef .tc main_v29_0) = W2 m ρ c (Proc.devRef .tc main_v29_0)).trans ((W2_arr m ρ c 2).trans p)) sc sh)

theorem W5_v66 : W5 m ρ c (Proc.devRef .tc main_v66) = ofMat (nodeIn (args m c) .k) :=
  host2 (W4 m ρ c) (args m c) (h (args m c) .k) (W4_v47 m ρ c) ((keep4 m ρ c main_v1 (by decide)).trans (at1 m ρ c).2.2.2.2.1)
    ((keep4 m ρ c main_v3 (by decide)).trans (at1 m ρ c).2.2.2.2.2) ((keep4 m ρ c main_arg0 (by decide)).trans (W1_arg0 m ρ c)) ((keep4 m ρ c main_arg18 (by decide)).trans (W1_arg18 m ρ c)) ((keep4 m ρ c main_arg19 (by decide)).trans (W1_arg19 m ρ c))

theorem W8_v85 : W8 m ρ c (Proc.devRef .tc main_v85) = ofMat (nodeH (args m c) .k) := by
  obtain ⟨p, s, ss⟩ := reg2_final (V5 m ρ) c _ _ (W5_v66 m ρ c) ((keep5 m ρ c main_arg12 (by decide)).trans (W1_arg12 m ρ c))
  obtain ⟨sc, sh⟩ := host3 (W6 m ρ c) _ _ _ _ ((W6_arr m ρ c 3).trans s) ((W6_arr m ρ c 4).trans ss)
    ((keep6 m ρ c main_arg13 (by decide)).trans (W1_arg13 m ρ c)) ((keep6 m ρ c main_arg14 (by decide)).trans (W1_arg14 m ρ c))
  exact (W8_arr m ρ c 3).trans (reg3_final (V7 m ρ) c _ _ _
    ((keepH3 (W6 m ρ c) (by decide) : W7 m ρ c (Proc.devRef .tc main_v67_0) = W6 m ρ c (Proc.devRef .tc main_v67_0)).trans ((W6_arr m ρ c 2).trans p)) sc sh)

theorem W11_v104 : W11 m ρ c (Proc.devRef .tc main_v104) = ofMat (nodeOut (args m c) .k) := by
  obtain ⟨p, s, ss⟩ := reg4_final (V8 m ρ) c _ _ (W8_v85 m ρ c) ((keep8 m ρ c main_arg15 (by decide)).trans (W1_arg15 m ρ c))
  obtain ⟨sc, sh⟩ := host5 (W9 m ρ c) _ _ _ _ ((W9_arr m ρ c 3).trans s) ((W9_arr m ρ c 4).trans ss)
    ((keep9 m ρ c main_arg16 (by decide)).trans (W1_arg16 m ρ c)) ((keep9 m ρ c main_arg17 (by decide)).trans (W1_arg17 m ρ c))
  exact (W11_arr m ρ c 3).trans (reg5_final (V10 m ρ) c _ _ _
    ((keepH5 (W9 m ρ c) (by decide) : W10 m ρ c (Proc.devRef .tc main_v86_0) = W9 m ρ c (Proc.devRef .tc main_v86_0)).trans ((W9_arr m ρ c 2).trans p)) sc sh)

theorem W12_v114 : W12 m ρ c (Proc.devRef .tc main_v114) = ofRowsK (edgeIn (args m c)) :=
  host6 (W11 m ρ c) (args m c) ((keep11 m ρ c main_v24 (by decide)).trans (at1 m ρ c).2.2.1)
    ((keep11 m ρ c main_v26 (by decide)).trans (at1 m ρ c).2.2.2.1) ((keep11 m ρ c main_v21 (by decide)).trans (at1 m ρ c).2.1) ((keep11 m ρ c main_arg20 (by decide)).trans (W1_arg20 m ρ c))

theorem W15_v133 : W15 m ρ c (Proc.devRef .tc main_v133) = ofRowsK (edgeH (args m c) .k) := by
  obtain ⟨p, s, ss⟩ := reg6_final (V12 m ρ) c _ _ (W12_v114 m ρ c) ((keep12 m ρ c main_arg3 (by decide)).trans (W1_arg3 m ρ c))
  obtain ⟨sc, sh⟩ := host7 (W13 m ρ c) _ _ _ _ ((W13_arr m ρ c 3).trans (s.trans (congrArg ofRow (colSum_kSide (mm (edgeIn (args m c)) (args m c).lw1))))) ((W13_arr m ρ c 4).trans (ss.trans (congrArg ofRow (colSq_kSide (mm (edgeIn (args m c)) (args m c).lw1)))))
    ((keep13 m ρ c main_arg4 (by decide)).trans (W1_arg4 m ρ c)) ((keep13 m ρ c main_arg5 (by decide)).trans (W1_arg5 m ρ c))
  exact (W15_arr m ρ c 3).trans (reg7_final (V14 m ρ) c _ _ _
    ((keepH7 (W13 m ρ c) (by decide) : W14 m ρ c (Proc.devRef .tc main_v115_0) = W13 m ρ c (Proc.devRef .tc main_v115_0)).trans ((W13_arr m ρ c 2).trans p)) sc sh)

theorem W18_v152 : W18 m ρ c (Proc.devRef .tc main_v152) = ofRowsK (edgeOut (args m c) .k) := by
  obtain ⟨p, s, ss⟩ := reg8_final (V15 m ρ) c _ _ (W15_v133 m ρ c) ((keep15 m ρ c main_arg6 (by decide)).trans (W1_arg6 m ρ c))
  obtain ⟨sc, sh⟩ := host9 (W16 m ρ c) _ _ _ _ ((W16_arr m ρ c 3).trans (s.trans (congrArg ofRow (colSum_kSide (mm (edgeH (args m c) .k) (args m c).lw2))))) ((W16_arr m ρ c 4).trans (ss.trans (congrArg ofRow (colSq_kSide (mm (edgeH (args m c) .k) (args m c).lw2)))))
    ((keep16 m ρ c main_arg7 (by decide)).trans (W1_arg7 m ρ c)) ((keep16 m ρ c main_arg8 (by decide)).trans (W1_arg8 m ρ c))
  exact (W18_arr m ρ c 3).trans (reg9_final (V17 m ρ) c _ _ _
    ((keepH9 (W16 m ρ c) (by decide) : W17 m ρ c (Proc.devRef .tc main_v134_0) = W16 m ρ c (Proc.devRef .tc main_v134_0)).trans ((W16_arr m ρ c 2).trans p)) sc sh)

/-- The node-side result: no segment after the one that makes it writes it. -/
theorem W19_v104 : W19 (F := Ideal) m ρ c (Proc.devRef .tc main_v104) = ofMat (nodeOut (Cert.KernelIdeal.args m c) .k) :=
  calc W19 m ρ c (Proc.devRef .tc main_v104)
    _ = W18 m ρ c (Proc.devRef .tc main_v104) := keepH10 _ (by decide)
    _ = W17 m ρ c (Proc.devRef .tc main_v104) := W18_of_ne m ρ c main_v104 (by decide)
    _ = W16 m ρ c (Proc.devRef .tc main_v104) := keepH9 _ (by decide)
    _ = W15 m ρ c (Proc.devRef .tc main_v104) := W16_of_ne m ρ c main_v104 (by decide)
    _ = W14 m ρ c (Proc.devRef .tc main_v104) := W15_of_ne m ρ c main_v104 (by decide)
    _ = W13 m ρ c (Proc.devRef .tc main_v104) := keepH7 _ (by decide)
    _ = W12 m ρ c (Proc.devRef .tc main_v104) := W13_of_ne m ρ c main_v104 (by decide)
    _ = W11 m ρ c (Proc.devRef .tc main_v104) := keepH6 _ (by decide)
    _ = ofMat (nodeOut (args m c) .k) := W11_v104 m ρ c

/-- The edge-side result, rows interleaved. -/
theorem W19_v158 : W19 (F := Ideal) m ρ c (Proc.devRef .tc main_v158) = ofRowsR (edgeOut (Cert.KernelIdeal.args m c) .k) :=
  host10 (W18 m ρ c) (edgeOut (args m c) .k) (W18_v152 m ρ c)

end Cert.KernelIdeal.Gen

end
-- ==== Proof.RunP.lean ====
import proofs.«160401_j10462540333326_1_alg».proof.Proof.Gen.ReferenceIdeal
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- The reference's 252 operations in order, in eight consecutive pieces (each ends where one block's output is written; a called function's operations stand in its call's place). -/
abbrev opsC0 : List (HloOp τ sig (Elt F)) :=
  [ unary main_arg2 main_v0 ((transpose S160000x2 [1, 0] · transposes_S2x160000_S160000x2_1_0) : (⟨S2x160000, .i32⟩ : BufTy).Contents (Elt F) → (⟨S160000x2, .i32⟩ : BufTy).Contents (Elt F)),
    reshape main_v0 main_v1 rfl shapeCasts_S160000x2_S320000,
    nullary main_v2 (iotaInDim S160000 32 0),
    unary main_v2 main_v3 (broadcastInDim S160000x2 ![0] bcast_S160000_S160000x2_0 : (⟨S160000, .i32⟩ : BufTy).Contents (Elt F) → (⟨S160000x2, .i32⟩ : BufTy).Contents (Elt F)),
    reshape main_v3 main_v4 rfl shapeCasts_S160000x2_S320000,
    nullary main_c (constantI S_ 32 0#32),
    unary main_c main_v5 (broadcastInDim S320000 ![] bcast_S_S320000 : (⟨S_, .i32⟩ : BufTy).Contents (Elt F) → (⟨S320000, .i32⟩ : BufTy).Contents (Elt F)),
    binary main_v1 main_v5 main_v6 (cmpi .slt : (⟨S320000, .i32⟩ : BufTy).Contents (Elt F) → (⟨S320000, .i32⟩ : BufTy).Contents (Elt F) → (⟨S320000, .i1⟩ : BufTy).Contents (Elt F)),
    nullary main_c_0 (constantI S_ 32 20000#32),
    unary main_c_0 main_v7 (broadcastInDim S320000 ![] bcast_S_S320000 : (⟨S_, .i32⟩ : BufTy).Contents (Elt F) → (⟨S320000, .i32⟩ : BufTy).Contents (Elt F)),
    binary main_v1 main_v7 main_v8 (addi : (⟨S320000, .i32⟩ : BufTy).Contents (Elt F) → (⟨S320000, .i32⟩ : BufTy).Contents (Elt F) → (⟨S320000, .i32⟩ : BufTy).Contents (Elt F)),
    ternary main_v6 main_v8 main_v1 main_v9 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v9 main_v10 (broadcastInDim S320000x1 ![0] bcast_S320000_S320000x1_0 : (⟨S320000, .i32⟩ : BufTy).Contents (Elt F) → (⟨S320000x1, .i32⟩ : BufTy).Contents (Elt F)),
    binary main_arg0 main_v10 main_v11 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)),
    nullary main_cst (constant S_ .f32 0x00000000#32),
    unary main_cst main_v12 (broadcastInDim S160000x128 ![] bcast_S_S160000x128 : (⟨S_, .f32⟩ : BufTy).Contents (Elt F) → (⟨S160000x128, .f32⟩ : BufTy).Contents (Elt F)),
    unary main_v4 main_v13 (broadcastInDim S320000x1 ![0] bcast_S320000_S320000x1_0 : (⟨S320000, .i32⟩ : BufTy).Contents (Elt F) → (⟨S320000x1, .i32⟩ : BufTy).Contents (Elt F)),
    ternary main_v12 main_v13 main_v11 main_v14 ((fun x i u => Host.scatterAdd scatter_S160000x128_S320000x1_S320000x128_1_0_0_1 x i u) : (⟨S160000x128, .f32⟩ : BufTy).Contents (Elt F) → (⟨S320000x1, .i32⟩ : BufTy).Contents (Elt F) → (⟨S320000x128, .f32⟩ : BufTy).Contents (Elt F) → (⟨S160000x128, .f32⟩ : BufTy).Contents (Elt F)),
    nullary main_c_1 (constantI S_ 32 0#32),
    unary main_c_1 main_v15 (broadcastInDim S320000 ![] bcast_S_S320000 : (⟨S_, .i32⟩ : BufTy).Contents (Elt F) → (⟨S320000, .i32⟩ : BufTy).Contents (Elt F)),
    binary main_v4 main_v15 main_v16 (cmpi .slt : (⟨S320000, .i32⟩ : BufTy).Contents (Elt F) → (⟨S320000, .i32⟩ : BufTy).Contents (Elt F) → (⟨S320000, .i1⟩ : BufTy).Contents (Elt F)),
    nullary main_c_2 (constantI S_ 32 160000#32),
    unary main_c_2 main_v17 (broadcastInDim S320000 ![] bcast_S_S320000 : (⟨S_, .i32⟩ : BufTy).Contents (Elt F) → (⟨S320000, .i32⟩ : BufTy).Contents (Elt F)),
    binary main_v4 main_v17 main_v18 (addi : (⟨S320000, .i32⟩ : BufTy).Contents (Elt F) → (⟨S320000, .i32⟩ : BufTy).Contents (Elt F) → (⟨S320000, .i32⟩ : BufTy).Contents (Elt F)),
    ternary main_v16 main_v18 main_v4 main_v19 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v19 main_v20 (broadcastInDim S320000x1 ![0] bcast_S320000_S320000x1_0 : (⟨S320000, .i32⟩ : BufTy).Contents (Elt F) → (⟨S320000x1, .i32⟩ : BufTy).Contents (Elt F)),
    binary main_v14 main_v20 main_v21 ((fun x i => Host.gather gather_S160000x128_S320000x1_S320000x128_1_0_n_n_0_1_1128 x i) : (⟨S160000x128, .f32⟩ : BufTy).Contents (Elt F) → (⟨S320000x1, .i32⟩ : BufTy).Contents (Elt F) → (⟨S320000x128, .f32⟩ : BufTy).Contents (Elt F)),
    binary main_v21 main_v11 main_v22 ((fun a b => concatenate S320000x256 1 [⟨S320000x128, a⟩, ⟨S320000x128, b⟩] concatenates_S320000x128_S320000x128_S320000x256_d1) : (⟨S320000x128, .f32⟩ : BufTy).Contents (Elt F) → (⟨S320000x128, .f32⟩ : BufTy).Contents (Elt F) → (⟨S320000x256, .f32⟩ : BufTy).Contents (Elt F)),
    binary main_v22 main_arg1 main_v23 ((fun a b => concatenate S320000x384 1 [⟨S320000x256, a⟩, ⟨S320000x128, b⟩] concatenates_S320000x256_S320000x128_S320000x384_d1) : (⟨S320000x256, .f32⟩ : BufTy).Contents (Elt F) → (⟨S320000x128, .f32⟩ : BufTy).Contents (Elt F) → (⟨S320000x384, .f32⟩ : BufTy).Contents (Elt F)) ]

abbrev opsC1 : List (HloOp τ sig (Elt F)) :=
  [ binary main_v23 main_arg9 main_v24 ((fun l r => Host.dotGeneral dot_S320000x384_S384x128_S320000x128_1_0_0_1_n_n none l r) : (⟨S320000x384, .f32⟩ : BufTy).Contents (Elt F) → (⟨S384x128, .f32⟩ : BufTy).Contents (Elt F) → (⟨S320000x128, .f32⟩ : BufTy).Contents (Elt F)),
    nullary main_cst_3 (constant S_ .f32 0x00000000#32),
    binary main_v24 main_cst_3 main_v25 ((fun x v => Host.reduceAdd x v reducesTo_S320000x128_S128_d0 h_S_) : (⟨S320000x128, .f32⟩ : BufTy).Contents (Elt F) → (⟨S_, .f32⟩ : BufTy).Contents (Elt F) → (⟨S128, .f32⟩ : BufTy).Contents (Elt F)),
    nullary main_cst_4 (constant S_ .f32 0x489C4000#32),
    unary main_cst_4 main_v26 (broadcastInDim S128 ![] bcast_S_S128 : (⟨S_, .f32⟩ : BufTy).Contents (Elt F) → (⟨S128, .f32⟩ : BufTy).Contents (Elt F)),
    binary main_v25 main_v26 main_v27 (Host.divf : (⟨S128, .f32⟩ : BufTy).Contents (Elt F) → (⟨S128, .f32⟩ : BufTy).Contents (Elt F) → (⟨S128, .f32⟩ : BufTy).Contents (Elt F)),
    unary main_v27 main_v28 (broadcastInDim S1x128 ![1] bcast_S128_S1x128_1 : (⟨S128, .f32⟩ : BufTy).Contents (Elt F) → (⟨S1x128, .f32⟩ : BufTy).Contents (Elt F)),
    unary main_v28 main_v29 (broadcastInDim S320000x128 ![0, 1] bcast_S1x128_S320000x128_0_1 : (⟨S1x128, .f32⟩ : BufTy).Contents (Elt F) → (⟨S320000x128, .f32⟩ : BufTy).Contents (Elt F)),
    binary main_v24 main_v29 main_v30 (subf : (⟨S320000x128, .f32⟩ : BufTy).Contents (Elt F) → (⟨S320000x128, .f32⟩ : BufTy).Contents (Elt F) → (⟨S320000x128, .f32⟩ : BufTy).Contents (Elt F)),
    binary main_v30 main_v30 main_v31 (mulf : (⟨S320000x128, .f32⟩ : BufTy).Contents (Elt F) → (⟨S320000x128, .f32⟩ : BufTy).Contents (Elt F) → (⟨S320000x128, .f32⟩ : BufTy).Contents (Elt F)),
    nullary main_cst_5 (constant S_ .f32 0x00000000#32),
    binary main_v31 main_cst_5 main_v32 ((fun x v => Host.reduceAdd x v reducesTo_S320000x128_S128_d0 h_S_) : (⟨S320000x128, .f32⟩ : BufTy).Contents (Elt F) → (⟨S_, .f32⟩ : BufTy).Contents (Elt F) → (⟨S128, .f32⟩ : BufTy).Contents (Elt F)),
    nullary main_cst_6 (constant S_ .f32 0x489C4000#32),
    unary main_cst_6 main_v33 (broadcastInDim S128 ![] bcast_S_S128 : (⟨S_, .f32⟩ : BufTy).Contents (Elt F) → (⟨S128, .f32⟩ : BufTy).Contents (Elt F)),
    binary main_v32 main_v33 main_v34 (Host.divf : (⟨S128, .f32⟩ : BufTy).Contents (Elt F) → (⟨S128, .f32⟩ : BufTy).Contents (Elt F) → (⟨S128, .f32⟩ : BufTy).Contents (Elt F)),
    unary main_v27 main_v35 (broadcastInDim S1x128 ![1] bcast_S128_S1x128_1 : (⟨S128, .f32⟩ : BufTy).Contents (Elt F) → (⟨S1x128, .f32⟩ : BufTy).Contents (Elt F)),
    unary main_v35 main_v36 (broadcastInDim S320000x128 ![0, 1] bcast_S1x128_S320000x128_0_1 : (⟨S1x128, .f32⟩ : BufTy).Contents (Elt F) → (⟨S320000x128, .f32⟩ : BufTy).Contents (Elt F)),
    binary main_v24 main_v36 main_v37 (subf : (⟨S320000x128, .f32⟩ : BufTy).Contents (Elt F) → (⟨S320000x128, .f32⟩ : BufTy).Contents (Elt F) → (⟨S320000x128, .f32⟩ : BufTy).Contents (Elt F)),
    nullary main_cst_7 (constant S_ .f32 0x3727C5AC#32),
    unary main_cst_7 main_v38 (broadcastInDim S128 ![] bcast_S_S128 : (⟨S_, .f32⟩ : BufTy).Contents (Elt F) → (⟨S128, .f32⟩ : BufTy).Contents (Elt F)),
    binary main_v34 main_v38 main_v39 (addf : (⟨S128, .f32⟩ : BufTy).Contents (Elt F) → (⟨S128, .f32⟩ : BufTy).Contents (Elt F) → (⟨S128, .f32⟩ : BufTy).Contents (Elt F)),
    unary main_v39 main_v40 (Host.rsqrt : (⟨S128, .f32⟩ : BufTy).Contents (Elt F) → (⟨S128, .f32⟩ : BufTy).Contents (Elt F)),
    unary main_v40 main_v41 (broadcastInDim S1x128 ![1] bcast_S128_S1x128_1 : (⟨S128, .f32⟩ : BufTy).Contents (Elt F) → (⟨S1x128, .f32⟩ : BufTy).Contents (Elt F)),
    unary main_v41 main_v42 (broadcastInDim S320000x128 ![0, 1] bcast_S1x128_S320000x128_0_1 : (⟨S1x128, .f32⟩ : BufTy).Contents (Elt F) → (⟨S320000x128, .f32⟩ : BufTy).Contents (Elt F)),
    binary main_v37 main_v42 main_v43 (mulf : (⟨S320000x128, .f32⟩ : BufTy).Contents (Elt F) → (⟨S320000x128, .f32⟩ : BufTy).Contents (Elt F) → (⟨S320000x128, .f32⟩ : BufTy).Contents (Elt F)),
    unary main_arg10 main_v44 (broadcastInDim S1x128 ![1] bcast_S128_S1x128_1 : (⟨S128, .f32⟩ : BufTy).Contents (Elt F) → (⟨S1x128, .f32⟩ : BufTy).Contents (Elt F)),
    unary main_v44 main_v45 (broadcastInDim S320000x128 ![0, 1] bcast_S1x128_S320000x128_0_1 : (⟨S1x128, .f32⟩ : BufTy).Contents (Elt F) → (⟨S320000x128, .f32⟩ : BufTy).Contents (Elt F)),
    binary main_v43 main_v45 main_v46 (mulf : (⟨S320000x128, .f32⟩ : BufTy).Contents (Elt F) → (⟨S320000x128, .f32⟩ : BufTy).Contents (Elt F) → (⟨S320000x128, .f32⟩ : BufTy).Contents (Elt F)),
    unary main_arg11 main_v47 (broadcastInDim S1x128 ![1] bcast_S128_S1x128_1 : (⟨S128, .f32⟩ : BufTy).Contents (Elt F) → (⟨S1x128, .f32⟩ : BufTy).Contents (Elt F)),
    unary main_v47 main_v48 (broadcastInDim S320000x128 ![0, 1] bcast_S1x128_S320000x128_0_1 : (⟨S1x128, .f32⟩ : BufTy).Contents (Elt F) → (⟨S320000x128, .f32⟩ : BufTy).Contents (Elt F)),
    binary main_v46 main_v48 main_v49 (addf : (⟨S320000x128, .f32⟩ : BufTy).Contents (Elt F) → (⟨S320000x128, .f32⟩ : BufTy).Contents (Elt F) → (⟨S320000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S320000x128, .f32⟩) main_call0_v0) (broadcastInDim S320000x128 ![] bcast_S_S320000x128),
    TRef.binary (TRef.of (T := ⟨S320000x128, .f32⟩) main_v49) (TRef.of (T := ⟨S320000x128, .f32⟩) main_call0_v0) (TRef.of (T := ⟨S320000x128, .f32⟩) main_v50) maximumf ]

abbrev opsC2 : List (HloOp τ sig (Elt F)) :=
  [ nullary main_cst_8 (constant S_ .f32 0x00000000#32),
    unary main_cst_8 main_v51 (broadcastInDim S20000x128 ![] bcast_S_S20000x128 : (⟨S_, .f32⟩ : BufTy).Contents (Elt F) → (⟨S20000x128, .f32⟩ : BufTy).Contents (Elt F)),
    unary main_v1 main_v52 (broadcastInDim S320000x1 ![0] bcast_S320000_S320000x1_0 : (⟨S320000, .i32⟩ : BufTy).Contents (Elt F) → (⟨S320000x1, .i32⟩ : BufTy).Contents (Elt F)),
    ternary main_v51 main_v52 main_v50 main_v53 ((fun x i u => Host.scatterAdd scatter_S20000x128_S320000x1_S320000x128_1_0_0_1 x i u) : (⟨S20000x128, .f32⟩ : BufTy).Contents (Elt F) → (⟨S320000x1, .i32⟩ : BufTy).Contents (Elt F) → (⟨S320000x128, .f32⟩ : BufTy).Contents (Elt F) → (⟨S20000x128, .f32⟩ : BufTy).Contents (Elt F)),
    nullary main_cst_9 (constant S_ .f32 0x00000000#32),
    unary main_cst_9 main_v54 (broadcastInDim S160000x128 ![] bcast_S_S160000x128 : (⟨S_, .f32⟩ : BufTy).Contents (Elt F) → (⟨S160000x128, .f32⟩ : BufTy).Contents (Elt F)),
    unary main_v4 main_v55 (broadcastInDim S320000x1 ![0] bcast_S320000_S320000x1_0 : (⟨S320000, .i32⟩ : BufTy).Contents (Elt F) → (⟨S320000x1, .i32⟩ : BufTy).Contents (Elt F)),
    ternary main_v54 main_v55 main_v50 main_v56 ((fun x i u => Host.scatterAdd scatter_S160000x128_S320000x1_S320000x128_1_0_0_1 x i u) : (⟨S160000x128, .f32⟩ : BufTy).Contents (Elt F) → (⟨S320000x1, .i32⟩ : BufTy).Contents (Elt F) → (⟨S320000x128, .f32⟩ : BufTy).Contents (Elt F) → (⟨S160000x128, .f32⟩ : BufTy).Contents (Elt F)),
    nullary main_c_10 (constantI S_ 32 0#32),
    unary main_c_10 main_v57 (broadcastInDim S320000 ![] bcast_S_S320000 : (⟨S_, .i32⟩ : BufTy).Contents (Elt F) → (⟨S320000, .i32⟩ : BufTy).Contents (Elt F)),
    binary main_v4 main_v57 main_v58 (cmpi .slt : (⟨S320000, .i32⟩ : BufTy).Contents (Elt F) → (⟨S320000, .i32⟩ : BufTy).Contents (Elt F) → (⟨S320000, .i1⟩ : BufTy).Contents (Elt F)),
    nullary main_c_11 (constantI S_ 32 160000#32),
    unary main_c_11 main_v59 (broadcastInDim S320000 ![] bcast_S_S320000 : (⟨S_, .i32⟩ : BufTy).Contents (Elt F) → (⟨S320000, .i32⟩ : BufTy).Contents (Elt F)),
    binary main_v4 main_v59 main_v60 (addi : (⟨S320000, .i32⟩ : BufTy).Contents (Elt F) → (⟨S320000, .i32⟩ : BufTy).Contents (Elt F) → (⟨S320000, .i32⟩ : BufTy).Contents (Elt F)),
    ternary main_v58 main_v60 main_v4 main_v61 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v61 main_v62 (broadcastInDim S320000x1 ![0] bcast_S320000_S320000x1_0 : (⟨S320000, .i32⟩ : BufTy).Contents (Elt F) → (⟨S320000x1, .i32⟩ : BufTy).Contents (Elt F)),
    binary main_v56 main_v62 main_v63 ((fun x i => Host.gather gather_S160000x128_S320000x1_S320000x128_1_0_n_n_0_1_1128 x i) : (⟨S160000x128, .f32⟩ : BufTy).Contents (Elt F) → (⟨S320000x1, .i32⟩ : BufTy).Contents (Elt F) → (⟨S320000x128, .f32⟩ : BufTy).Contents (Elt F)),
    nullary main_cst_12 (constant S_ .f32 0x00000000#32),
    unary main_cst_12 main_v64 (broadcastInDim S20000x128 ![] bcast_S_S20000x128 : (⟨S_, .f32⟩ : BufTy).Contents (Elt F) → (⟨S20000x128, .f32⟩ : BufTy).Contents (Elt F)),
    unary main_v1 main_v65 (broadcastInDim S320000x1 ![0] bcast_S320000_S320000x1_0 : (⟨S320000, .i32⟩ : BufTy).Contents (Elt F) → (⟨S320000x1, .i32⟩ : BufTy).Contents (Elt F)),
    ternary main_v64 main_v65 main_v63 main_v66 ((fun x i u => Host.scatterAdd scatter_S20000x128_S320000x1_S320000x128_1_0_0_1 x i u) : (⟨S20000x128, .f32⟩ : BufTy).Contents (Elt F) → (⟨S320000x1, .i32⟩ : BufTy).Contents (Elt F) → (⟨S320000x128, .f32⟩ : BufTy).Contents (Elt F) → (⟨S20000x128, .f32⟩ : BufTy).Contents (Elt F)),
    nullary main_cst_13 (constant S_ .f32 0x3F800000#32),
    binary main_cst_13 main_arg18 main_v67 (addf : (⟨S_, .f32⟩ : BufTy).Contents (Elt F) → (⟨S_, .f32⟩ : BufTy).Contents (Elt F) → (⟨S_, .f32⟩ : BufTy).Contents (Elt F)),
    unary main_v67 main_v68 (broadcastInDim S20000x128 ![] bcast_S_S20000x128 : (⟨S_, .f32⟩ : BufTy).Contents (Elt F) → (⟨S20000x128, .f32⟩ : BufTy).Contents (Elt F)),
    binary main_v68 main_arg0 main_v69 (mulf : (⟨S20000x128, .f32⟩ : BufTy).Contents (Elt F) → (⟨S20000x128, .f32⟩ : BufTy).Contents (Elt F) → (⟨S20000x128, .f32⟩ : BufTy).Contents (Elt F)),
    nullary main_cst_14 (constant S_ .f32 0x3F800000#32),
    binary main_cst_14 main_arg19 main_v70 (addf : (⟨S_, .f32⟩ : BufTy).Contents (Elt F) → (⟨S_, .f32⟩ : BufTy).Contents (Elt F) → (⟨S_, .f32⟩ : BufTy).Contents (Elt F)),
    unary main_v70 main_v71 (broadcastInDim S20000x128 ![] bcast_S_S20000x128 : (⟨S_, .f32⟩ : BufTy).Contents (Elt F) → (⟨S20000x128, .f32⟩ : BufTy).Contents (Elt F)),
    binary main_v71 main_v53 main_v72 (mulf : (⟨S20000x128, .f32⟩ : BufTy).Contents (Elt F) → (⟨S20000x128, .f32⟩ : BufTy).Contents (Elt F) → (⟨S20000x128, .f32⟩ : BufTy).Contents (Elt F)),
    binary main_v69 main_v72 main_v73 (addf : (⟨S20000x128, .f32⟩ : BufTy).Contents (Elt F) → (⟨S20000x128, .f32⟩ : BufTy).Contents (Elt F) → (⟨S20000x128, .f32⟩ : BufTy).Contents (Elt F)),
    binary main_v73 main_v66 main_v74 (addf : (⟨S20000x128, .f32⟩ : BufTy).Contents (Elt F) → (⟨S20000x128, .f32⟩ : BufTy).Contents (Elt F) → (⟨S20000x128, .f32⟩ : BufTy).Contents (Elt F)) ]

abbrev opsC3 : List (HloOp τ sig (Elt F)) :=
  [ binary main_v74 main_arg12 main_v75 ((fun l r => Host.dotGeneral dot_S20000x128_S128x256_S20000x256_1_0_0_1_n_n none l r) : (⟨S20000x128, .f32⟩ : BufTy).Contents (Elt F) → (⟨S128x256, .f32⟩ : BufTy).Contents (Elt F) → (⟨S20000x256, .f32⟩ : BufTy).Contents (Elt F)),
    nullary main_cst_15 (constant S_ .f32 0x00000000#32),
    binary main_v75 main_cst_15 main_v76 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    nullary main_cst_16 (constant S_ .f32 0x469C4000#32),
    unary main_cst_16 main_v77 (broadcastInDim S256 ![] bcast_S_S256 : (⟨S_, .f32⟩ : BufTy).Contents (Elt F) → (⟨S256, .f32⟩ : BufTy).Contents (Elt F)),
    binary main_v76 main_v77 main_v78 (Host.divf : (⟨S256, .f32⟩ : BufTy).Contents (Elt F) → (⟨S256, .f32⟩ : BufTy).Contents (Elt F) → (⟨S256, .f32⟩ : BufTy).Contents (Elt F)),
    unary main_v78 main_v79 (broadcastInDim S1x256 ![1] bcast_S256_S1x256_1 : (⟨S256, .f32⟩ : BufTy).Contents (Elt F) → (⟨S1x256, .f32⟩ : BufTy).Contents (Elt F)),
    unary main_v79 main_v80 (broadcastInDim S20000x256 ![0, 1] bcast_S1x256_S20000x256_0_1 : (⟨S1x256, .f32⟩ : BufTy).Contents (Elt F) → (⟨S20000x256, .f32⟩ : BufTy).Contents (Elt F)),
    binary main_v75 main_v80 main_v81 (subf : (⟨S20000x256, .f32⟩ : BufTy).Contents (Elt F) → (⟨S20000x256, .f32⟩ : BufTy).Contents (Elt F) → (⟨S20000x256, .f32⟩ : BufTy).Contents (Elt F)),
    binary main_v81 main_v81 main_v82 (mulf : (⟨S20000x256, .f32⟩ : BufTy).Contents (Elt F) → (⟨S20000x256, .f32⟩ : BufTy).Contents (Elt F) → (⟨S20000x256, .f32⟩ : BufTy).Contents (Elt F)),
    nullary main_cst_17 (constant S_ .f32 0x00000000#32),
    binary main_v82 main_cst_17 main_v83 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    nullary main_cst_18 (constant S_ .f32 0x469C4000#32),
    unary main_cst_18 main_v84 (broadcastInDim S256 ![] bcast_S_S256 : (⟨S_, .f32⟩ : BufTy).Contents (Elt F) → (⟨S256, .f32⟩ : BufTy).Contents (Elt F)),
    binary main_v83 main_v84 main_v85 (Host.divf : (⟨S256, .f32⟩ : BufTy).Contents (Elt F) → (⟨S256, .f32⟩ : BufTy).Contents (Elt F) → (⟨S256, .f32⟩ : BufTy).Contents (Elt F)),
    unary main_v78 main_v86 (broadcastInDim S1x256 ![1] bcast_S256_S1x256_1 : (⟨S256, .f32⟩ : BufTy).Contents (Elt F) → (⟨S1x256, .f32⟩ : BufTy).Contents (Elt F)),
    unary main_v86 main_v87 (broadcastInDim S20000x256 ![0, 1] bcast_S1x256_S20000x256_0_1 : (⟨S1x256, .f32⟩ : BufTy).Contents (Elt F) → (⟨S20000x256, .f32⟩ : BufTy).Contents (Elt F)),
    binary main_v75 main_v87 main_v88 (subf : (⟨S20000x256, .f32⟩ : BufTy).Contents (Elt F) → (⟨S20000x256, .f32⟩ : BufTy).Contents (Elt F) → (⟨S20000x256, .f32⟩ : BufTy).Contents (Elt F)),
    nullary main_cst_19 (constant S_ .f32 0x3727C5AC#32),
    unary main_cst_19 main_v89 (broadcastInDim S256 ![] bcast_S_S256 : (⟨S_, .f32⟩ : BufTy).Contents (Elt F) → (⟨S256, .f32⟩ : BufTy).Contents (Elt F)),
    binary main_v85 main_v89 main_v90 (addf : (⟨S256, .f32⟩ : BufTy).Contents (Elt F) → (⟨S256, .f32⟩ : BufTy).Contents (Elt F) → (⟨S256, .f32⟩ : BufTy).Contents (Elt F)),
    unary main_v90 main_v91 (Host.rsqrt : (⟨S256, .f32⟩ : BufTy).Contents (Elt F) → (⟨S256, .f32⟩ : BufTy).Contents (Elt F)),
    unary main_v91 main_v92 (broadcastInDim S1x256 ![1] bcast_S256_S1x256_1 : (⟨S256, .f32⟩ : BufTy).Contents (Elt F) → (⟨S1x256, .f32⟩ : BufTy).Contents (Elt F)),
    unary main_v92 main_v93 (broadcastInDim S20000x256 ![0, 1] bcast_S1x256_S20000x256_0_1 : (⟨S1x256, .f32⟩ : BufTy).Contents (Elt F) → (⟨S20000x256, .f32⟩ : BufTy).Contents (Elt F)),
    binary main_v88 main_v93 main_v94 (mulf : (⟨S20000x256, .f32⟩ : BufTy).Contents (Elt F) → (⟨S20000x256, .f32⟩ : BufTy).Contents (Elt F) → (⟨S20000x256, .f32⟩ : BufTy).Contents (Elt F)),
    unary main_arg13 main_v95 (broadcastInDim S1x256 ![1] bcast_S256_S1x256_1 : (⟨S256, .f32⟩ : BufTy).Contents (Elt F) → (⟨S1x256, .f32⟩ : BufTy).Contents (Elt F)),
    unary main_v95 main_v96 (broadcastInDim S20000x256 ![0, 1] bcast_S1x256_S20000x256_0_1 : (⟨S1x256, .f32⟩ : BufTy).Contents (Elt F) → (⟨S20000x256, .f32⟩ : BufTy).Contents (Elt F)),
    binary main_v94 main_v96 main_v97 (mulf : (⟨S20000x256, .f32⟩ : BufTy).Contents (Elt F) → (⟨S20000x256, .f32⟩ : BufTy).Contents (Elt F) → (⟨S20000x256, .f32⟩ : BufTy).Contents (Elt F)),
    unary main_arg14 main_v98 (broadcastInDim S1x256 ![1] bcast_S256_S1x256_1 : (⟨S256, .f32⟩ : BufTy).Contents (Elt F) → (⟨S1x256, .f32⟩ : BufTy).Contents (Elt F)),
    unary main_v98 main_v99 (broadcastInDim S20000x256 ![0, 1] bcast_S1x256_S20000x256_0_1 : (⟨S1x256, .f32⟩ : BufTy).Contents (Elt F) → (⟨S20000x256, .f32⟩ : BufTy).Contents (Elt F)),
    binary main_v97 main_v99 main_v100 (addf : (⟨S20000x256, .f32⟩ : BufTy).Contents (Elt F) → (⟨S20000x256, .f32⟩ : BufTy).Contents (Elt F) → (⟨S20000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S20000x256, .f32⟩) main_call1_v0) (broadcastInDim S20000x256 ![] bcast_S_S20000x256),
    TRef.binary (TRef.of (T := ⟨S20000x256, .f32⟩) main_v100) (TRef.of (T := ⟨S20000x256, .f32⟩) main_call1_v0) (TRef.of (T := ⟨S20000x256, .f32⟩) main_v101) maximumf ]

abbrev opsC4 : List (HloOp τ sig (Elt F)) :=
  [ binary main_v101 main_arg15 main_v102 ((fun l r => Host.dotGeneral dot_S20000x256_S256x128_S20000x128_1_0_0_1_n_n none l r) : (⟨S20000x256, .f32⟩ : BufTy).Contents (Elt F) → (⟨S256x128, .f32⟩ : BufTy).Contents (Elt F) → (⟨S20000x128, .f32⟩ : BufTy).Contents (Elt F)),
    nullary main_cst_20 (constant S_ .f32 0x00000000#32),
    binary main_v102 main_cst_20 main_v103 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    nullary main_cst_21 (constant S_ .f32 0x469C4000#32),
    unary main_cst_21 main_v104 (broadcastInDim S128 ![] bcast_S_S128 : (⟨S_, .f32⟩ : BufTy).Contents (Elt F) → (⟨S128, .f32⟩ : BufTy).Contents (Elt F)),
    binary main_v103 main_v104 main_v105 (Host.divf : (⟨S128, .f32⟩ : BufTy).Contents (Elt F) → (⟨S128, .f32⟩ : BufTy).Contents (Elt F) → (⟨S128, .f32⟩ : BufTy).Contents (Elt F)),
    unary main_v105 main_v106 (broadcastInDim S1x128 ![1] bcast_S128_S1x128_1 : (⟨S128, .f32⟩ : BufTy).Contents (Elt F) → (⟨S1x128, .f32⟩ : BufTy).Contents (Elt F)),
    unary main_v106 main_v107 (broadcastInDim S20000x128 ![0, 1] bcast_S1x128_S20000x128_0_1 : (⟨S1x128, .f32⟩ : BufTy).Contents (Elt F) → (⟨S20000x128, .f32⟩ : BufTy).Contents (Elt F)),
    binary main_v102 main_v107 main_v108 (subf : (⟨S20000x128, .f32⟩ : BufTy).Contents (Elt F) → (⟨S20000x128, .f32⟩ : BufTy).Contents (Elt F) → (⟨S20000x128, .f32⟩ : BufTy).Contents (Elt F)),
    binary main_v108 main_v108 main_v109 (mulf : (⟨S20000x128, .f32⟩ : BufTy).Contents (Elt F) → (⟨S20000x128, .f32⟩ : BufTy).Contents (Elt F) → (⟨S20000x128, .f32⟩ : BufTy).Contents (Elt F)),
    nullary main_cst_22 (constant S_ .f32 0x00000000#32),
    binary main_v109 main_cst_22 main_v110 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    nullary main_cst_23 (constant S_ .f32 0x469C4000#32),
    unary main_cst_23 main_v111 (broadcastInDim S128 ![] bcast_S_S128 : (⟨S_, .f32⟩ : BufTy).Contents (Elt F) → (⟨S128, .f32⟩ : BufTy).Contents (Elt F)),
    binary main_v110 main_v111 main_v112 (Host.divf : (⟨S128, .f32⟩ : BufTy).Contents (Elt F) → (⟨S128, .f32⟩ : BufTy).Contents (Elt F) → (⟨S128, .f32⟩ : BufTy).Contents (Elt F)),
    unary main_v105 main_v113 (broadcastInDim S1x128 ![1] bcast_S128_S1x128_1 : (⟨S128, .f32⟩ : BufTy).Contents (Elt F) → (⟨S1x128, .f32⟩ : BufTy).Contents (Elt F)),
    unary main_v113 main_v114 (broadcastInDim S20000x128 ![0, 1] bcast_S1x128_S20000x128_0_1 : (⟨S1x128, .f32⟩ : BufTy).Contents (Elt F) → (⟨S20000x128, .f32⟩ : BufTy).Contents (Elt F)),
    binary main_v102 main_v114 main_v115 (subf : (⟨S20000x128, .f32⟩ : BufTy).Contents (Elt F) → (⟨S20000x128, .f32⟩ : BufTy).Contents (Elt F) → (⟨S20000x128, .f32⟩ : BufTy).Contents (Elt F)),
    nullary main_cst_24 (constant S_ .f32 0x3727C5AC#32),
    unary main_cst_24 main_v116 (broadcastInDim S128 ![] bcast_S_S128 : (⟨S_, .f32⟩ : BufTy).Contents (Elt F) → (⟨S128, .f32⟩ : BufTy).Contents (Elt F)),
    binary main_v112 main_v116 main_v117 (addf : (⟨S128, .f32⟩ : BufTy).Contents (Elt F) → (⟨S128, .f32⟩ : BufTy).Contents (Elt F) → (⟨S128, .f32⟩ : BufTy).Contents (Elt F)),
    unary main_v117 main_v118 (Host.rsqrt : (⟨S128, .f32⟩ : BufTy).Contents (Elt F) → (⟨S128, .f32⟩ : BufTy).Contents (Elt F)),
    unary main_v118 main_v119 (broadcastInDim S1x128 ![1] bcast_S128_S1x128_1 : (⟨S128, .f32⟩ : BufTy).Contents (Elt F) → (⟨S1x128, .f32⟩ : BufTy).Contents (Elt F)),
    unary main_v119 main_v120 (broadcastInDim S20000x128 ![0, 1] bcast_S1x128_S20000x128_0_1 : (⟨S1x128, .f32⟩ : BufTy).Contents (Elt F) → (⟨S20000x128, .f32⟩ : BufTy).Contents (Elt F)),
    binary main_v115 main_v120 main_v121 (mulf : (⟨S20000x128, .f32⟩ : BufTy).Contents (Elt F) → (⟨S20000x128, .f32⟩ : BufTy).Contents (Elt F) → (⟨S20000x128, .f32⟩ : BufTy).Contents (Elt F)),
    unary main_arg16 main_v122 (broadcastInDim S1x128 ![1] bcast_S128_S1x128_1 : (⟨S128, .f32⟩ : BufTy).Contents (Elt F) → (⟨S1x128, .f32⟩ : BufTy).Contents (Elt F)),
    unary main_v122 main_v123 (broadcastInDim S20000x128 ![0, 1] bcast_S1x128_S20000x128_0_1 : (⟨S1x128, .f32⟩ : BufTy).Contents (Elt F) → (⟨S20000x128, .f32⟩ : BufTy).Contents (Elt F)),
    binary main_v121 main_v123 main_v124 (mulf : (⟨S20000x128, .f32⟩ : BufTy).Contents (Elt F) → (⟨S20000x128, .f32⟩ : BufTy).Contents (Elt F) → (⟨S20000x128, .f32⟩ : BufTy).Contents (Elt F)),
    unary main_arg17 main_v125 (broadcastInDim S1x128 ![1] bcast_S128_S1x128_1 : (⟨S128, .f32⟩ : BufTy).Contents (Elt F) → (⟨S1x128, .f32⟩ : BufTy).Contents (Elt F)),
    unary main_v125 main_v126 (broadcastInDim S20000x128 ![0, 1] bcast_S1x128_S20000x128_0_1 : (⟨S1x128, .f32⟩ : BufTy).Contents (Elt F) → (⟨S20000x128, .f32⟩ : BufTy).Contents (Elt F)),
    binary main_v124 main_v126 main_v127 (addf : (⟨S20000x128, .f32⟩ : BufTy).Contents (Elt F) → (⟨S20000x128, .f32⟩ : BufTy).Contents (Elt F) → (⟨S20000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S20000x128, .f32⟩) main_call2_v0) (broadcastInDim S20000x128 ![] bcast_S_S20000x128),
    TRef.binary (TRef.of (T := ⟨S20000x128, .f32⟩) main_v127) (TRef.of (T := ⟨S20000x128, .f32⟩) main_call2_v0) (TRef.of (T := ⟨S20000x128, .f32⟩) main_v128) maximumf ]

abbrev opsC5 : List (HloOp τ sig (Elt F)) :=
  [ nullary main_cst_25 (constant S_ .f32 0x00000000#32),
    unary main_cst_25 main_v129 (broadcastInDim S160000x128 ![] bcast_S_S160000x128 : (⟨S_, .f32⟩ : BufTy).Contents (Elt F) → (⟨S160000x128, .f32⟩ : BufTy).Contents (Elt F)),
    unary main_v4 main_v130 (broadcastInDim S320000x1 ![0] bcast_S320000_S320000x1_0 : (⟨S320000, .i32⟩ : BufTy).Contents (Elt F) → (⟨S320000x1, .i32⟩ : BufTy).Contents (Elt F)),
    ternary main_v129 main_v130 main_arg1 main_v131 ((fun x i u => Host.scatterAdd scatter_S160000x128_S320000x1_S320000x128_1_0_0_1 x i u) : (⟨S160000x128, .f32⟩ : BufTy).Contents (Elt F) → (⟨S320000x1, .i32⟩ : BufTy).Contents (Elt F) → (⟨S320000x128, .f32⟩ : BufTy).Contents (Elt F) → (⟨S160000x128, .f32⟩ : BufTy).Contents (Elt F)),
    nullary main_cst_26 (constant S_ .f32 0x3F000000#32),
    unary main_cst_26 main_v132 (broadcastInDim S160000x128 ![] bcast_S_S160000x128 : (⟨S_, .f32⟩ : BufTy).Contents (Elt F) → (⟨S160000x128, .f32⟩ : BufTy).Contents (Elt F)),
    binary main_v131 main_v132 main_v133 (mulf : (⟨S160000x128, .f32⟩ : BufTy).Contents (Elt F) → (⟨S160000x128, .f32⟩ : BufTy).Contents (Elt F) → (⟨S160000x128, .f32⟩ : BufTy).Contents (Elt F)),
    nullary main_c_27 (constantI S_ 32 0#32),
    unary main_c_27 main_v134 (broadcastInDim S320000 ![] bcast_S_S320000 : (⟨S_, .i32⟩ : BufTy).Contents (Elt F) → (⟨S320000, .i32⟩ : BufTy).Contents (Elt F)),
    binary main_v4 main_v134 main_v135 (cmpi .slt : (⟨S320000, .i32⟩ : BufTy).Contents (Elt F) → (⟨S320000, .i32⟩ : BufTy).Contents (Elt F) → (⟨S320000, .i1⟩ : BufTy).Contents (Elt F)),
    nullary main_c_28 (constantI S_ 32 160000#32),
    unary main_c_28 main_v136 (broadcastInDim S320000 ![] bcast_S_S320000 : (⟨S_, .i32⟩ : BufTy).Contents (Elt F) → (⟨S320000, .i32⟩ : BufTy).Contents (Elt F)),
    binary main_v4 main_v136 main_v137 (addi : (⟨S320000, .i32⟩ : BufTy).Contents (Elt F) → (⟨S320000, .i32⟩ : BufTy).Contents (Elt F) → (⟨S320000, .i32⟩ : BufTy).Contents (Elt F)),
    ternary main_v135 main_v137 main_v4 main_v138 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v138 main_v139 (broadcastInDim S320000x1 ![0] bcast_S320000_S320000x1_0 : (⟨S320000, .i32⟩ : BufTy).Contents (Elt F) → (⟨S320000x1, .i32⟩ : BufTy).Contents (Elt F)),
    binary main_v133 main_v139 main_v140 ((fun x i => Host.gather gather_S160000x128_S320000x1_S320000x128_1_0_n_n_0_1_1128 x i) : (⟨S160000x128, .f32⟩ : BufTy).Contents (Elt F) → (⟨S320000x1, .i32⟩ : BufTy).Contents (Elt F) → (⟨S320000x128, .f32⟩ : BufTy).Contents (Elt F)),
    binary main_v140 main_arg1 main_v141 ((fun a b => concatenate S320000x256 1 [⟨S320000x128, a⟩, ⟨S320000x128, b⟩] concatenates_S320000x128_S320000x128_S320000x256_d1) : (⟨S320000x128, .f32⟩ : BufTy).Contents (Elt F) → (⟨S320000x128, .f32⟩ : BufTy).Contents (Elt F) → (⟨S320000x256, .f32⟩ : BufTy).Contents (Elt F)),
    nullary main_cst_29 (constant S_ .f32 0x3F800000#32),
    binary main_cst_29 main_arg20 main_v142 (addf : (⟨S_, .f32⟩ : BufTy).Contents (Elt F) → (⟨S_, .f32⟩ : BufTy).Contents (Elt F) → (⟨S_, .f32⟩ : BufTy).Contents (Elt F)),
    unary main_v142 main_v143 (broadcastInDim S320000x256 ![] bcast_S_S320000x256 : (⟨S_, .f32⟩ : BufTy).Contents (Elt F) → (⟨S320000x256, .f32⟩ : BufTy).Contents (Elt F)),
    binary main_v143 main_v141 main_v144 (mulf : (⟨S320000x256, .f32⟩ : BufTy).Contents (Elt F) → (⟨S320000x256, .f32⟩ : BufTy).Contents (Elt F) → (⟨S320000x256, .f32⟩ : BufTy).Contents (Elt F)),
    binary main_v144 main_v22 main_v145 (addf : (⟨S320000x256, .f32⟩ : BufTy).Contents (Elt F) → (⟨S320000x256, .f32⟩ : BufTy).Contents (Elt F) → (⟨S320000x256, .f32⟩ : BufTy).Contents (Elt F)) ]

abbrev opsC6 : List (HloOp τ sig (Elt F)) :=
  [ binary main_v145 main_arg3 main_v146 ((fun l r => Host.dotGeneral dot_S320000x256_S256x256_S320000x256_1_0_0_1_n_n none l r) : (⟨S320000x256, .f32⟩ : BufTy).Contents (Elt F) → (⟨S256x256, .f32⟩ : BufTy).Contents (Elt F) → (⟨S320000x256, .f32⟩ : BufTy).Contents (Elt F)),
    nullary main_cst_30 (constant S_ .f32 0x00000000#32),
    binary main_v146 main_cst_30 main_v147 ((fun x v => Host.reduceAdd x v reducesTo_S320000x256_S256_d0 h_S_) : (⟨S320000x256, .f32⟩ : BufTy).Contents (Elt F) → (⟨S_, .f32⟩ : BufTy).Contents (Elt F) → (⟨S256, .f32⟩ : BufTy).Contents (Elt F)),
    nullary main_cst_31 (constant S_ .f32 0x489C4000#32),
    unary main_cst_31 main_v148 (broadcastInDim S256 ![] bcast_S_S256 : (⟨S_, .f32⟩ : BufTy).Contents (Elt F) → (⟨S256, .f32⟩ : BufTy).Contents (Elt F)),
    binary main_v147 main_v148 main_v149 (Host.divf : (⟨S256, .f32⟩ : BufTy).Contents (Elt F) → (⟨S256, .f32⟩ : BufTy).Contents (Elt F) → (⟨S256, .f32⟩ : BufTy).Contents (Elt F)),
    unary main_v149 main_v150 (broadcastInDim S1x256 ![1] bcast_S256_S1x256_1 : (⟨S256, .f32⟩ : BufTy).Contents (Elt F) → (⟨S1x256, .f32⟩ : BufTy).Contents (Elt F)),
    unary main_v150 main_v151 (broadcastInDim S320000x256 ![0, 1] bcast_S1x256_S320000x256_0_1 : (⟨S1x256, .f32⟩ : BufTy).Contents (Elt F) → (⟨S320000x256, .f32⟩ : BufTy).Contents (Elt F)),
    binary main_v146 main_v151 main_v152 (subf : (⟨S320000x256, .f32⟩ : BufTy).Contents (Elt F) → (⟨S320000x256, .f32⟩ : BufTy).Contents (Elt F) → (⟨S320000x256, .f32⟩ : BufTy).Contents (Elt F)),
    binary main_v152 main_v152 main_v153 (mulf : (⟨S320000x256, .f32⟩ : BufTy).Contents (Elt F) → (⟨S320000x256, .f32⟩ : BufTy).Contents (Elt F) → (⟨S320000x256, .f32⟩ : BufTy).Contents (Elt F)),
    nullary main_cst_32 (constant S_ .f32 0x00000000#32),
    binary main_v153 main_cst_32 main_v154 ((fun x v => Host.reduceAdd x v reducesTo_S320000x256_S256_d0 h_S_) : (⟨S320000x256, .f32⟩ : BufTy).Contents (Elt F) → (⟨S_, .f32⟩ : BufTy).Contents (Elt F) → (⟨S256, .f32⟩ : BufTy).Contents (Elt F)),
    nullary main_cst_33 (constant S_ .f32 0x489C4000#32),
    unary main_cst_33 main_v155 (broadcastInDim S256 ![] bcast_S_S256 : (⟨S_, .f32⟩ : BufTy).Contents (Elt F) → (⟨S256, .f32⟩ : BufTy).Contents (Elt F)),
    binary main_v154 main_v155 main_v156 (Host.divf : (⟨S256, .f32⟩ : BufTy).Contents (Elt F) → (⟨S256, .f32⟩ : BufTy).Contents (Elt F) → (⟨S256, .f32⟩ : BufTy).Contents (Elt F)),
    unary main_v149 main_v157 (broadcastInDim S1x256 ![1] bcast_S256_S1x256_1 : (⟨S256, .f32⟩ : BufTy).Contents (Elt F) → (⟨S1x256, .f32⟩ : BufTy).Contents (Elt F)),
    unary main_v157 main_v158 (broadcastInDim S320000x256 ![0, 1] bcast_S1x256_S320000x256_0_1 : (⟨S1x256, .f32⟩ : BufTy).Contents (Elt F) → (⟨S320000x256, .f32⟩ : BufTy).Contents (Elt F)),
    binary main_v146 main_v158 main_v159 (subf : (⟨S320000x256, .f32⟩ : BufTy).Contents (Elt F) → (⟨S320000x256, .f32⟩ : BufTy).Contents (Elt F) → (⟨S320000x256, .f32⟩ : BufTy).Contents (Elt F)),
    nullary main_cst_34 (constant S_ .f32 0x3727C5AC#32),
    unary main_cst_34 main_v160 (broadcastInDim S256 ![] bcast_S_S256 : (⟨S_, .f32⟩ : BufTy).Contents (Elt F) → (⟨S256, .f32⟩ : BufTy).Contents (Elt F)),
    binary main_v156 main_v160 main_v161 (addf : (⟨S256, .f32⟩ : BufTy).Contents (Elt F) → (⟨S256, .f32⟩ : BufTy).Contents (Elt F) → (⟨S256, .f32⟩ : BufTy).Contents (Elt F)),
    unary main_v161 main_v162 (Host.rsqrt : (⟨S256, .f32⟩ : BufTy).Contents (Elt F) → (⟨S256, .f32⟩ : BufTy).Contents (Elt F)),
    unary main_v162 main_v163 (broadcastInDim S1x256 ![1] bcast_S256_S1x256_1 : (⟨S256, .f32⟩ : BufTy).Contents (Elt F) → (⟨S1x256, .f32⟩ : BufTy).Contents (Elt F)),
    unary main_v163 main_v164 (broadcastInDim S320000x256 ![0, 1] bcast_S1x256_S320000x256_0_1 : (⟨S1x256, .f32⟩ : BufTy).Contents (Elt F) → (⟨S320000x256, .f32⟩ : BufTy).Contents (Elt F)),
    binary main_v159 main_v164 main_v165 (mulf : (⟨S320000x256, .f32⟩ : BufTy).Contents (Elt F) → (⟨S320000x256, .f32⟩ : BufTy).Contents (Elt F) → (⟨S320000x256, .f32⟩ : BufTy).Contents (Elt F)),
    unary main_arg4 main_v166 (broadcastInDim S1x256 ![1] bcast_S256_S1x256_1 : (⟨S256, .f32⟩ : BufTy).Contents (Elt F) → (⟨S1x256, .f32⟩ : BufTy).Contents (Elt F)),
    unary main_v166 main_v167 (broadcastInDim S320000x256 ![0, 1] bcast_S1x256_S320000x256_0_1 : (⟨S1x256, .f32⟩ : BufTy).Contents (Elt F) → (⟨S320000x256, .f32⟩ : BufTy).Contents (Elt F)),
    binary main_v165 main_v167 main_v168 (mulf : (⟨S320000x256, .f32⟩ : BufTy).Contents (Elt F) → (⟨S320000x256, .f32⟩ : BufTy).Contents (Elt F) → (⟨S320000x256, .f32⟩ : BufTy).Contents (Elt F)),
    unary main_arg5 main_v169 (broadcastInDim S1x256 ![1] bcast_S256_S1x256_1 : (⟨S256, .f32⟩ : BufTy).Contents (Elt F) → (⟨S1x256, .f32⟩ : BufTy).Contents (Elt F)),
    unary main_v169 main_v170 (broadcastInDim S320000x256 ![0, 1] bcast_S1x256_S320000x256_0_1 : (⟨S1x256, .f32⟩ : BufTy).Contents (Elt F) → (⟨S320000x256, .f32⟩ : BufTy).Contents (Elt F)),
    binary main_v168 main_v170 main_v171 (addf : (⟨S320000x256, .f32⟩ : BufTy).Contents (Elt F) → (⟨S320000x256, .f32⟩ : BufTy).Contents (Elt F) → (⟨S320000x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S320000x256, .f32⟩) main_call3_v0) (broadcastInDim S320000x256 ![] bcast_S_S320000x256),
    TRef.binary (TRef.of (T := ⟨S320000x256, .f32⟩) main_v171) (TRef.of (T := ⟨S320000x256, .f32⟩) main_call3_v0) (TRef.of (T := ⟨S320000x256, .f32⟩) main_v172) maximumf ]

abbrev opsC7 : List (HloOp τ sig (Elt F)) :=
  [ binary main_v172 main_arg6 main_v173 ((fun l r => Host.dotGeneral dot_S320000x256_S256x128_S320000x128_1_0_0_1_n_n none l r) : (⟨S320000x256, .f32⟩ : BufTy).Contents (Elt F) → (⟨S256x128, .f32⟩ : BufTy).Contents (Elt F) → (⟨S320000x128, .f32⟩ : BufTy).Contents (Elt F)),
    nullary main_cst_35 (constant S_ .f32 0x00000000#32),
    binary main_v173 main_cst_35 main_v174 ((fun x v => Host.reduceAdd x v reducesTo_S320000x128_S128_d0 h_S_) : (⟨S320000x128, .f32⟩ : BufTy).Contents (Elt F) → (⟨S_, .f32⟩ : BufTy).Contents (Elt F) → (⟨S128, .f32⟩ : BufTy).Contents (Elt F)),
    nullary main_cst_36 (constant S_ .f32 0x489C4000#32),
    unary main_cst_36 main_v175 (broadcastInDim S128 ![] bcast_S_S128 : (⟨S_, .f32⟩ : BufTy).Contents (Elt F) → (⟨S128, .f32⟩ : BufTy).Contents (Elt F)),
    binary main_v174 main_v175 main_v176 (Host.divf : (⟨S128, .f32⟩ : BufTy).Contents (Elt F) → (⟨S128, .f32⟩ : BufTy).Contents (Elt F) → (⟨S128, .f32⟩ : BufTy).Contents (Elt F)),
    unary main_v176 main_v177 (broadcastInDim S1x128 ![1] bcast_S128_S1x128_1 : (⟨S128, .f32⟩ : BufTy).Contents (Elt F) → (⟨S1x128, .f32⟩ : BufTy).Contents (Elt F)),
    unary main_v177 main_v178 (broadcastInDim S320000x128 ![0, 1] bcast_S1x128_S320000x128_0_1 : (⟨S1x128, .f32⟩ : BufTy).Contents (Elt F) → (⟨S320000x128, .f32⟩ : BufTy).Contents (Elt F)),
    binary main_v173 main_v178 main_v179 (subf : (⟨S320000x128, .f32⟩ : BufTy).Contents (Elt F) → (⟨S320000x128, .f32⟩ : BufTy).Contents (Elt F) → (⟨S320000x128, .f32⟩ : BufTy).Contents (Elt F)),
    binary main_v179 main_v179 main_v180 (mulf : (⟨S320000x128, .f32⟩ : BufTy).Contents (Elt F) → (⟨S320000x128, .f32⟩ : BufTy).Contents (Elt F) → (⟨S320000x128, .f32⟩ : BufTy).Contents (Elt F)),
    nullary main_cst_37 (constant S_ .f32 0x00000000#32),
    binary main_v180 main_cst_37 main_v181 ((fun x v => Host.reduceAdd x v reducesTo_S320000x128_S128_d0 h_S_) : (⟨S320000x128, .f32⟩ : BufTy).Contents (Elt F) → (⟨S_, .f32⟩ : BufTy).Contents (Elt F) → (⟨S128, .f32⟩ : BufTy).Contents (Elt F)),
    nullary main_cst_38 (constant S_ .f32 0x489C4000#32),
    unary main_cst_38 main_v182 (broadcastInDim S128 ![] bcast_S_S128 : (⟨S_, .f32⟩ : BufTy).Contents (Elt F) → (⟨S128, .f32⟩ : BufTy).Contents (Elt F)),
    binary main_v181 main_v182 main_v183 (Host.divf : (⟨S128, .f32⟩ : BufTy).Contents (Elt F) → (⟨S128, .f32⟩ : BufTy).Contents (Elt F) → (⟨S128, .f32⟩ : BufTy).Contents (Elt F)),
    unary main_v176 main_v184 (broadcastInDim S1x128 ![1] bcast_S128_S1x128_1 : (⟨S128, .f32⟩ : BufTy).Contents (Elt F) → (⟨S1x128, .f32⟩ : BufTy).Contents (Elt F)),
    unary main_v184 main_v185 (broadcastInDim S320000x128 ![0, 1] bcast_S1x128_S320000x128_0_1 : (⟨S1x128, .f32⟩ : BufTy).Contents (Elt F) → (⟨S320000x128, .f32⟩ : BufTy).Contents (Elt F)),
    binary main_v173 main_v185 main_v186 (subf : (⟨S320000x128, .f32⟩ : BufTy).Contents (Elt F) → (⟨S320000x128, .f32⟩ : BufTy).Contents (Elt F) → (⟨S320000x128, .f32⟩ : BufTy).Contents (Elt F)),
    nullary main_cst_39 (constant S_ .f32 0x3727C5AC#32),
    unary main_cst_39 main_v187 (broadcastInDim S128 ![] bcast_S_S128 : (⟨S_, .f32⟩ : BufTy).Contents (Elt F) → (⟨S128, .f32⟩ : BufTy).Contents (Elt F)),
    binary main_v183 main_v187 main_v188 (addf : (⟨S128, .f32⟩ : BufTy).Contents (Elt F) → (⟨S128, .f32⟩ : BufTy).Contents (Elt F) → (⟨S128, .f32⟩ : BufTy).Contents (Elt F)),
    unary main_v188 main_v189 (Host.rsqrt : (⟨S128, .f32⟩ : BufTy).Contents (Elt F) → (⟨S128, .f32⟩ : BufTy).Contents (Elt F)),
    unary main_v189 main_v190 (broadcastInDim S1x128 ![1] bcast_S128_S1x128_1 : (⟨S128, .f32⟩ : BufTy).Contents (Elt F) → (⟨S1x128, .f32⟩ : BufTy).Contents (Elt F)),
    unary main_v190 main_v191 (broadcastInDim S320000x128 ![0, 1] bcast_S1x128_S320000x128_0_1 : (⟨S1x128, .f32⟩ : BufTy).Contents (Elt F) → (⟨S320000x128, .f32⟩ : BufTy).Contents (Elt F)),
    binary main_v186 main_v191 main_v192 (mulf : (⟨S320000x128, .f32⟩ : BufTy).Contents (Elt F) → (⟨S320000x128, .f32⟩ : BufTy).Contents (Elt F) → (⟨S320000x128, .f32⟩ : BufTy).Contents (Elt F)),
    unary main_arg7 main_v193 (broadcastInDim S1x128 ![1] bcast_S128_S1x128_1 : (⟨S128, .f32⟩ : BufTy).Contents (Elt F) → (⟨S1x128, .f32⟩ : BufTy).Contents (Elt F)),
    unary main_v193 main_v194 (broadcastInDim S320000x128 ![0, 1] bcast_S1x128_S320000x128_0_1 : (⟨S1x128, .f32⟩ : BufTy).Contents (Elt F) → (⟨S320000x128, .f32⟩ : BufTy).Contents (Elt F)),
    binary main_v192 main_v194 main_v195 (mulf : (⟨S320000x128, .f32⟩ : BufTy).Contents (Elt F) → (⟨S320000x128, .f32⟩ : BufTy).Contents (Elt F) → (⟨S320000x128, .f32⟩ : BufTy).Contents (Elt F)),
    unary main_arg8 main_v196 (broadcastInDim S1x128 ![1] bcast_S128_S1x128_1 : (⟨S128, .f32⟩ : BufTy).Contents (Elt F) → (⟨S1x128, .f32⟩ : BufTy).Contents (Elt F)),
    unary main_v196 main_v197 (broadcastInDim S320000x128 ![0, 1] bcast_S1x128_S320000x128_0_1 : (⟨S1x128, .f32⟩ : BufTy).Contents (Elt F) → (⟨S320000x128, .f32⟩ : BufTy).Contents (Elt F)),
    binary main_v195 main_v197 main_v198 (addf : (⟨S320000x128, .f32⟩ : BufTy).Contents (Elt F) → (⟨S320000x128, .f32⟩ : BufTy).Contents (Elt F) → (⟨S320000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S320000x128, .f32⟩) main_call4_v0) (broadcastInDim S320000x128 ![] bcast_S_S320000x128),
    TRef.binary (TRef.of (T := ⟨S320000x128, .f32⟩) main_v198) (TRef.of (T := ⟨S320000x128, .f32⟩) main_call4_v0) (TRef.of (T := ⟨S320000x128, .f32⟩) main_v199) maximumf ]

abbrev ops : List (HloOp τ sig (Elt F)) := opsC0 ++ opsC1 ++ opsC2 ++ opsC3 ++ opsC4 ++ opsC5 ++ opsC6 ++ opsC7

theorem ops_split : (ops : List (HloOp τ sig (Elt F))) = opsC0 ++ opsC1 ++ opsC2 ++ opsC3 ++ opsC4 ++ opsC5 ++ opsC6 ++ opsC7 := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., nullary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., binary_bufs_sub .., unary_bufs_sub .., binary_bufs_sub .., nullary_bufs_sub .., binary_bufs_sub .., unary_bufs_sub .., binary_bufs_sub .., binary_bufs_sub .., binary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., binary_bufs_sub .., binary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Cert.ReferenceIdeal.ValueP

end
-- ==== Proof.ReadP.lean ====
-- The reference's operations read at an index: one lemma for each operation the proof uses.
import proofs.«160401_j10462540333326_1_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

section

variable (x0 : (⟨S20000x128, .f32⟩ : BufTy).Contents (Elt F))
  (x1 : (⟨S320000x128, .f32⟩ : BufTy).Contents (Elt F))
  (x2 : (⟨S2x160000, .i32⟩ : BufTy).Contents (Elt F))
  (x3 : (⟨S256x256, .f32⟩ : BufTy).Contents (Elt F))
  (x4 x5 : (⟨S256, .f32⟩ : BufTy).Contents (Elt F))
  (x6 : (⟨S256x128, .f32⟩ : BufTy).Contents (Elt F))
  (x7 x8 : (⟨S128, .f32⟩ : BufTy).Contents (Elt F))
  (x9 : (⟨S384x128, .f32⟩ : BufTy).Contents (Elt F))
  (x10 x11 : (⟨S128, .f32⟩ : BufTy).Contents (Elt F))
  (x12 : (⟨S128x256, .f32⟩ : BufTy).Contents (Elt F))
  (x13 x14 : (⟨S256, .f32⟩ : BufTy).Contents (Elt F))
  (x15 : (⟨S256x128, .f32⟩ : BufTy).Contents (Elt F))
  (x16 x17 : (⟨S128, .f32⟩ : BufTy).Contents (Elt F))
  (x18 x19 x20 : (⟨S_, .f32⟩ : BufTy).Contents (Elt F))

def val_main_v0 : (⟨S160000x2, .i32⟩ : BufTy).Contents (Elt F) :=
  transpose S160000x2 [1, 0] (x2) transposes_S2x160000_S160000x2_1_0
abbrev idx_main_v0 (i : S160000x2.Idx) : S2x160000.Idx := fun a => match a with
  | ⟨0, _⟩ => ⟨(i 1).val, (i 1).isLt⟩
  | ⟨1, _⟩ => ⟨(i 0).val, (i 0).isLt⟩
theorem val_main_v0_apply (i : S160000x2.Idx) :
    val_main_v0 x2 i = x2 (idx_main_v0 i) := by
  unfold val_main_v0
  exact transpose_apply [1, 0] x2 transposes_S2x160000_S160000x2_1_0 i (idx_main_v0 i) (fun b => match b with
    | ⟨0, _⟩ => rfl
    | ⟨1, _⟩ => rfl)

def val_main_v1 : (⟨S320000, .i32⟩ : BufTy).Contents (Elt F) :=
  shapeCast _ (val_main_v0 x2) shapeCasts_S160000x2_S320000
abbrev idx_main_v1 (i : S320000.Idx) : S160000x2.Idx := fun a => match a with
  | ⟨0, _⟩ => ⟨((i 0).val) / 2, by have h0 : (i 0).val < 320000 := (i 0).isLt; show ((i 0).val) / 2 < 160000; omega⟩
  | ⟨1, _⟩ => ⟨((i 0).val) % 2, by have h0 : (i 0).val < 320000 := (i 0).isLt; show ((i 0).val) % 2 < 2; omega⟩
theorem val_main_v1_apply (i : S320000.Idx) :
    val_main_v1 x2 i = val_main_v0 x2 (idx_main_v1 i) := by
  unfold val_main_v1
  generalize val_main_v0 x2 = y
  exact shapeCast_apply y shapeCasts_S160000x2_S320000 i (idx_main_v1 i)
    (by rewrite [Shape.rowMajor_val_two, Shape.rowMajor_val_one]; have h0 : (i 0).val < 320000 := (i 0).isLt; show ((i 0).val) / 2 * 2 + ((i 0).val) % 2 = (i 0).val; omega)

def val_main_v2 : (⟨S160000, .i32⟩ : BufTy).Contents (Elt F) :=
  iotaInDim S160000 32 0
theorem val_main_v2_apply (i : S160000.Idx) :
    val_main_v2 (F := F) i = BitVec.ofNat 32 (i 0).val := rfl

def val_main_v3 : (⟨S160000x2, .i32⟩ : BufTy).Contents (Elt F) :=
  broadcastInDim S160000x2 ![0] bcast_S160000_S160000x2_0 (val_main_v2 (F := F))
abbrev idx_main_v3 (i : S160000x2.Idx) : S160000.Idx := fun a => match a with
  | ⟨0, _⟩ => ⟨(i 0).val, (i 0).isLt⟩
theorem val_main_v3_apply (i : S160000x2.Idx) :
    val_main_v3 (F := F) i = val_main_v2 (F := F) (idx_main_v3 i) := by
  unfold val_main_v3
  generalize val_main_v2 (F := F) = y
  exact broadcastInDim_apply _ bcast_S160000_S160000x2_0 y i (idx_main_v3 i) (fun a => match a with
    | ⟨0, _⟩ => by show (i 0).val = if (160000 : Nat) = 1 then 0 else (i 0).val; rw [if_neg (by decide)])

def val_main_v4 : (⟨S320000, .i32⟩ : BufTy).Contents (Elt F) :=
  shapeCast _ (val_main_v3 (F := F)) shapeCasts_S160000x2_S320000
abbrev idx_main_v4 (i : S320000.Idx) : S160000x2.Idx := fun a => match a with
  | ⟨0, _⟩ => ⟨((i 0).val) / 2, by have h0 : (i 0).val < 320000 := (i 0).isLt; show ((i 0).val) / 2 < 160000; omega⟩
  | ⟨1, _⟩ => ⟨((i 0).val) % 2, by have h0 : (i 0).val < 320000 := (i 0).isLt; show ((i 0).val) % 2 < 2; omega⟩
theorem val_main_v4_apply (i : S320000.Idx) :
    val_main_v4 (F := F) i = val_main_v3 (F := F) (idx_main_v4 i) := by
  unfold val_main_v4
  generalize val_main_v3 (F := F) = y
  exact shapeCast_apply y shapeCasts_S160000x2_S320000 i (idx_main_v4 i)
    (by rewrite [Shape.rowMajor_val_two, Shape.rowMajor_val_one]; have h0 : (i 0).val < 320000 := (i 0).isLt; show ((i 0).val) / 2 * 2 + ((i 0).val) % 2 = (i 0).val; omega)

def val_main_c : (⟨S_, .i32⟩ : BufTy).Contents (Elt F) :=
  constantI S_ 32 0#32
theorem val_main_c_apply (i : S_.Idx) :
    val_main_c (F := F) i = 0#32 := rfl

def val_main_v5 : (⟨S320000, .i32⟩ : BufTy).Contents (Elt F) :=
  broadcastInDim S320000 ![] bcast_S_S320000 (val_main_c (F := F))
abbrev idx_main_v5 (i : S320000.Idx) : S_.Idx := fun a => a.elim0
theorem val_main_v5_apply (i : S320000.Idx) :
    val_main_v5 (F := F) i = val_main_c (F := F) (idx_main_v5 i) := by
  unfold val_main_v5
  generalize val_main_c (F := F) = y
  exact broadcastInDim_apply _ bcast_S_S320000 y i (idx_main_v5 i) (fun a => a.elim0)

def val_main_v6 : (⟨S320000, .i1⟩ : BufTy).Contents (Elt F) :=
  cmpi .slt (val_main_v1 x2) (val_main_v5 (F := F))
theorem val_main_v6_apply (i : S320000.Idx) :
    val_main_v6 x2 i = IntOp.cmpi .slt (val_main_v1 x2 i) (val_main_v5 (F := F) i) := rfl

def val_main_c_0 : (⟨S_, .i32⟩ : BufTy).Contents (Elt F) :=
  constantI S_ 32 20000#32
theorem val_main_c_0_apply (i : S_.Idx) :
    val_main_c_0 (F := F) i = 20000#32 := rfl

def val_main_v7 : (⟨S320000, .i32⟩ : BufTy).Contents (Elt F) :=
  broadcastInDim S320000 ![] bcast_S_S320000 (val_main_c_0 (F := F))
abbrev idx_main_v7 (i : S320000.Idx) : S_.Idx := fun a => a.elim0
theorem val_main_v7_apply (i : S320000.Idx) :
    val_main_v7 (F := F) i = val_main_c_0 (F := F) (idx_main_v7 i) := by
  unfold val_main_v7
  generalize val_main_c_0 (F := F) = y
  exact broadcastInDim_apply _ bcast_S_S320000 y i (idx_main_v7 i) (fun a => a.elim0)

def val_main_v8 : (⟨S320000, .i32⟩ : BufTy).Contents (Elt F) :=
  addi (val_main_v1 x2) (val_main_v7 (F := F))
theorem val_main_v8_apply (i : S320000.Idx) :
    val_main_v8 x2 i = IntOp.addi (val_main_v1 x2 i) (val_main_v7 (F := F) i) := rfl

def val_main_v9 : (⟨S320000, .i32⟩ : BufTy).Contents (Elt F) :=
  select (val_main_v6 x2) (val_main_v8 x2) (val_main_v1 x2)
theorem val_main_v9_apply (i : S320000.Idx) :
    val_main_v9 x2 i = Scalar.select (val_main_v6 x2 i) (val_main_v8 x2 i) (val_main_v1 x2 i) := rfl

def val_main_v10 : (⟨S320000x1, .i32⟩ : BufTy).Contents (Elt F) :=
  broadcastInDim S320000x1 ![0] bcast_S320000_S320000x1_0 (val_main_v9 x2)
abbrev idx_main_v10 (i : S320000x1.Idx) : S320000.Idx := fun a => match a with
  | ⟨0, _⟩ => ⟨(i 0).val, (i 0).isLt⟩
theorem val_main_v10_apply (i : S320000x1.Idx) :
    val_main_v10 x2 i = val_main_v9 x2 (idx_main_v10 i) := by
  unfold val_main_v10
  generalize val_main_v9 x2 = y
  exact broadcastInDim_apply _ bcast_S320000_S320000x1_0 y i (idx_main_v10 i) (fun a => match a with
    | ⟨0, _⟩ => by show (i 0).val = if (320000 : Nat) = 1 then 0 else (i 0).val; rw [if_neg (by decide)])

def val_main_v11 : (⟨S320000x128, .f32⟩ : BufTy).Contents (Elt F) :=
  Host.gather gather_S20000x128_S320000x1_S320000x128_1_0_n_n_0_1_1128 (x0) (val_main_v10 x2)

def val_main_cst : (⟨S_, .f32⟩ : BufTy).Contents (Elt F) :=
  constant S_ .f32 0x00000000#32
theorem val_main_cst_apply (i : S_.Idx) :
    val_main_cst (F := F) i = FloatOps.ofBits .f32 0x00000000#32 := rfl

def val_main_v12 : (⟨S160000x128, .f32⟩ : BufTy).Contents (Elt F) :=
  broadcastInDim S160000x128 ![] bcast_S_S160000x128 (val_main_cst (F := F))
abbrev idx_main_v12 (i : S160000x128.Idx) : S_.Idx := fun a => a.elim0
theorem val_main_v12_apply (i : S160000x128.Idx) :
    val_main_v12 (F := F) i = val_main_cst (F := F) (idx_main_v12 i) := by
  unfold val_main_v12
  generalize val_main_cst (F := F) = y
  exact broadcastInDim_apply _ bcast_S_S160000x128 y i (idx_main_v12 i) (fun a => a.elim0)

def val_main_v13 : (⟨S320000x1, .i32⟩ : BufTy).Contents (Elt F) :=
  broadcastInDim S320000x1 ![0] bcast_S320000_S320000x1_0 (val_main_v4 (F := F))
abbrev idx_main_v13 (i : S320000x1.Idx) : S320000.Idx := fun a => match a with
  | ⟨0, _⟩ => ⟨(i 0).val, (i 0).isLt⟩
theorem val_main_v13_apply (i : S320000x1.Idx) :
    val_main_v13 (F := F) i = val_main_v4 (F := F) (idx_main_v13 i) := by
  unfold val_main_v13
  generalize val_main_v4 (F := F) = y
  exact broadcastInDim_apply _ bcast_S320000_S320000x1_0 y i (idx_main_v13 i) (fun a => match a with
    | ⟨0, _⟩ => by show (i 0).val = if (320000 : Nat) = 1 then 0 else (i 0).val; rw [if_neg (by decide)])

def val_main_v14 : (⟨S160000x128, .f32⟩ : BufTy).Contents (Elt F) :=
  Host.scatterAdd scatter_S160000x128_S320000x1_S320000x128_1_0_0_1 (val_main_v12 (F := F)) (val_main_v13 (F := F)) (val_main_v11 x0 x2)

def val_main_c_1 : (⟨S_, .i32⟩ : BufTy).Contents (Elt F) :=
  constantI S_ 32 0#32
theorem val_main_c_1_apply (i : S_.Idx) :
    val_main_c_1 (F := F) i = 0#32 := rfl

def val_main_v15 : (⟨S320000, .i32⟩ : BufTy).Contents (Elt F) :=
  broadcastInDim S320000 ![] bcast_S_S320000 (val_main_c_1 (F := F))
abbrev idx_main_v15 (i : S320000.Idx) : S_.Idx := fun a => a.elim0
theorem val_main_v15_apply (i : S320000.Idx) :
    val_main_v15 (F := F) i = val_main_c_1 (F := F) (idx_main_v15 i) := by
  unfold val_main_v15
  generalize val_main_c_1 (F := F) = y
  exact broadcastInDim_apply _ bcast_S_S320000 y i (idx_main_v15 i) (fun a => a.elim0)

def val_main_v16 : (⟨S320000, .i1⟩ : BufTy).Contents (Elt F) :=
  cmpi .slt (val_main_v4 (F := F)) (val_main_v15 (F := F))
theorem val_main_v16_apply (i : S320000.Idx) :
    val_main_v16 (F := F) i = IntOp.cmpi .slt (val_main_v4 (F := F) i) (val_main_v15 (F := F) i) := rfl

def val_main_c_2 : (⟨S_, .i32⟩ : BufTy).Contents (Elt F) :=
  constantI S_ 32 160000#32
theorem val_main_c_2_apply (i : S_.Idx) :
    val_main_c_2 (F := F) i = 160000#32 := rfl

def val_main_v17 : (⟨S320000, .i32⟩ : BufTy).Contents (Elt F) :=
  broadcastInDim S320000 ![] bcast_S_S320000 (val_main_c_2 (F := F))
abbrev idx_main_v17 (i : S320000.Idx) : S_.Idx := fun a => a.elim0
theorem val_main_v17_apply (i : S320000.Idx) :
    val_main_v17 (F := F) i = val_main_c_2 (F := F) (idx_main_v17 i) := by
  unfold val_main_v17
  generalize val_main_c_2 (F := F) = y
  exact broadcastInDim_apply _ bcast_S_S320000 y i (idx_main_v17 i) (fun a => a.elim0)

def val_main_v18 : (⟨S320000, .i32⟩ : BufTy).Contents (Elt F) :=
  addi (val_main_v4 (F := F)) (val_main_v17 (F := F))
theorem val_main_v18_apply (i : S320000.Idx) :
    val_main_v18 (F := F) i = IntOp.addi (val_main_v4 (F := F) i) (val_main_v17 (F := F) i) := rfl

def val_main_v19 : (⟨S320000, .i32⟩ : BufTy).Contents (Elt F) :=
  select (val_main_v16 (F := F)) (val_main_v18 (F := F)) (val_main_v4 (F := F))
theorem val_main_v19_apply (i : S320000.Idx) :
    val_main_v19 (F := F) i = Scalar.select (val_main_v16 (F := F) i) (val_main_v18 (F := F) i) (val_main_v4 (F := F) i) := rfl

def val_main_v20 : (⟨S320000x1, .i32⟩ : BufTy).Contents (Elt F) :=
  broadcastInDim S320000x1 ![0] bcast_S320000_S320000x1_0 (val_main_v19 (F := F))
abbrev idx_main_v20 (i : S320000x1.Idx) : S320000.Idx := fun a => match a with
  | ⟨0, _⟩ => ⟨(i 0).val, (i 0).isLt⟩
theorem val_main_v20_apply (i : S320000x1.Idx) :
    val_main_v20 (F := F) i = val_main_v19 (F := F) (idx_main_v20 i) := by
  unfold val_main_v20
  generalize val_main_v19 (F := F) = y
  exact broadcastInDim_apply _ bcast_S320000_S320000x1_0 y i (idx_main_v20 i) (fun a => match a with
    | ⟨0, _⟩ => by show (i 0).val = if (320000 : Nat) = 1 then 0 else (i 0).val; rw [if_neg (by decide)])

def val_main_v21 : (⟨S320000x128, .f32⟩ : BufTy).Contents (Elt F) :=
  Host.gather gather_S160000x128_S320000x1_S320000x128_1_0_n_n_0_1_1128 (val_main_v14 x0 x2) (val_main_v20 (F := F))

def val_main_v22 : (⟨S320000x256, .f32⟩ : BufTy).Contents (Elt F) :=
  concatenate S320000x256 1 [⟨S320000x128, (val_main_v21 x0 x2)⟩, ⟨S320000x128, (val_main_v11 x0 x2)⟩] concatenates_S320000x128_S320000x128_S320000x256_d1

def val_main_v23 : (⟨S320000x384, .f32⟩ : BufTy).Contents (Elt F) :=
  concatenate S320000x384 1 [⟨S320000x256, (val_main_v22 x0 x2)⟩, ⟨S320000x128, (x1)⟩] concatenates_S320000x256_S320000x128_S320000x384_d1

def val_main_v24 : (⟨S320000x128, .f32⟩ : BufTy).Contents (Elt F) :=
  Host.dotGeneral dot_S320000x384_S384x128_S320000x128_1_0_0_1_n_n none (val_main_v23 x0 x1 x2) (x9)
theorem lhs_main_v24_0 (i : S320000x128.Idx) (q : dot_S320000x384_S384x128_S320000x128_1_0_0_1_n_n.contr.Idx) :
    (dot_S320000x384_S384x128_S320000x128_1_0_0_1_n_n.lhsIdx i q 0).val = (i 0).val := by
  unfold DotDims.lhsIdx
  rw [dif_neg (show ¬(0 : Fin S320000x384.rank) ∈ dot_S320000x384_S384x128_S320000x128_1_0_0_1_n_n.lhsBatch by decide), dif_pos (show (0 : Fin S320000x384.rank) ∈ dot_S320000x384_S384x128_S320000x128_1_0_0_1_n_n.lhsNonContracting by decide)]
  rfl
theorem lhs_main_v24_1 (i : S320000x128.Idx) (q : dot_S320000x384_S384x128_S320000x128_1_0_0_1_n_n.contr.Idx) :
    (dot_S320000x384_S384x128_S320000x128_1_0_0_1_n_n.lhsIdx i q 1).val = (q ⟨0, by decide⟩).val :=
  dot_S320000x384_S384x128_S320000x128_1_0_0_1_n_n.lhsIdx_val_of_single rfl i q
theorem rhs_main_v24_0 (i : S320000x128.Idx) (q : dot_S320000x384_S384x128_S320000x128_1_0_0_1_n_n.contr.Idx) :
    (dot_S320000x384_S384x128_S320000x128_1_0_0_1_n_n.rhsIdx i q 0).val = (q ⟨0, by decide⟩).val :=
  dot_S320000x384_S384x128_S320000x128_1_0_0_1_n_n.rhsIdx_val_of_single rfl i q
theorem rhs_main_v24_1 (i : S320000x128.Idx) (q : dot_S320000x384_S384x128_S320000x128_1_0_0_1_n_n.contr.Idx) :
    (dot_S320000x384_S384x128_S320000x128_1_0_0_1_n_n.rhsIdx i q 1).val = (i 1).val := by
  unfold DotDims.rhsIdx
  rw [dif_neg (show ¬(1 : Fin S384x128.rank) ∈ dot_S320000x384_S384x128_S320000x128_1_0_0_1_n_n.rhsBatch by decide), dif_pos (show (1 : Fin S384x128.rank) ∈ dot_S320000x384_S384x128_S320000x128_1_0_0_1_n_n.rhsNonContracting by decide)]
  rfl
abbrev lidx_main_v24 (i : S320000x128.Idx) (k : Fin 384) : S320000x384.Idx := fun a => match a with
  | ⟨0, _⟩ => ⟨(i 0).val, (i 0).isLt⟩
  | ⟨1, _⟩ => ⟨k.val, k.isLt⟩
abbrev ridx_main_v24 (i : S320000x128.Idx) (k : Fin 384) : S384x128.Idx := fun a => match a with
  | ⟨0, _⟩ => ⟨k.val, k.isLt⟩
  | ⟨1, _⟩ => ⟨(i 1).val, (i 1).isLt⟩

def val_main_cst_3 : (⟨S_, .f32⟩ : BufTy).Contents (Elt F) :=
  constant S_ .f32 0x00000000#32
theorem val_main_cst_3_apply (i : S_.Idx) :
    val_main_cst_3 (F := F) i = FloatOps.ofBits .f32 0x00000000#32 := rfl

def val_main_v25 : (⟨S128, .f32⟩ : BufTy).Contents (Elt F) :=
  Host.reduceAdd (val_main_v24 x0 x1 x2 x9) (val_main_cst_3 (F := F)) reducesTo_S320000x128_S128_d0 h_S_
abbrev idx_main_v25 (i : S128.Idx) (k : Fin 320000) : S320000x128.Idx := fun a => match a with
  | ⟨0, _⟩ => ⟨k.val, k.isLt⟩
  | ⟨1, _⟩ => ⟨(i 0).val, (i 0).isLt⟩

def val_main_cst_4 : (⟨S_, .f32⟩ : BufTy).Contents (Elt F) :=
  constant S_ .f32 0x489C4000#32
theorem val_main_cst_4_apply (i : S_.Idx) :
    val_main_cst_4 (F := F) i = FloatOps.ofBits .f32 0x489C4000#32 := rfl

def val_main_v26 : (⟨S128, .f32⟩ : BufTy).Contents (Elt F) :=
  broadcastInDim S128 ![] bcast_S_S128 (val_main_cst_4 (F := F))
abbrev idx_main_v26 (i : S128.Idx) : S_.Idx := fun a => a.elim0
theorem val_main_v26_apply (i : S128.Idx) :
    val_main_v26 (F := F) i = val_main_cst_4 (F := F) (idx_main_v26 i) := by
  unfold val_main_v26
  generalize val_main_cst_4 (F := F) = y
  exact broadcastInDim_apply _ bcast_S_S128 y i (idx_main_v26 i) (fun a => a.elim0)

def val_main_v27 : (⟨S128, .f32⟩ : BufTy).Contents (Elt F) :=
  Host.divf (val_main_v25 x0 x1 x2 x9) (val_main_v26 (F := F))
theorem val_main_v27_apply (i : S128.Idx) :
    val_main_v27 x0 x1 x2 x9 i = FloatOps.hostDivf (val_main_v25 x0 x1 x2 x9 i) (val_main_v26 (F := F) i) := rfl

def val_main_v28 : (⟨S1x128, .f32⟩ : BufTy).Contents (Elt F) :=
  broadcastInDim S1x128 ![1] bcast_S128_S1x128_1 (val_main_v27 x0 x1 x2 x9)
abbrev idx_main_v28 (i : S1x128.Idx) : S128.Idx := fun a => match a with
  | ⟨0, _⟩ => ⟨(i 1).val, (i 1).isLt⟩
theorem val_main_v28_apply (i : S1x128.Idx) :
    val_main_v28 x0 x1 x2 x9 i = val_main_v27 x0 x1 x2 x9 (idx_main_v28 i) := by
  unfold val_main_v28
  generalize val_main_v27 x0 x1 x2 x9 = y
  exact broadcastInDim_apply _ bcast_S128_S1x128_1 y i (idx_main_v28 i) (fun a => match a with
    | ⟨0, _⟩ => by show (i 1).val = if (128 : Nat) = 1 then 0 else (i 1).val; rw [if_neg (by decide)])

def val_main_v29 : (⟨S320000x128, .f32⟩ : BufTy).Contents (Elt F) :=
  broadcastInDim S320000x128 ![0, 1] bcast_S1x128_S320000x128_0_1 (val_main_v28 x0 x1 x2 x9)
abbrev idx_main_v29 (i : S320000x128.Idx) : S1x128.Idx := fun a => match a with
  | ⟨0, _⟩ => ⟨0, Nat.one_pos⟩
  | ⟨1, _⟩ => ⟨(i 1).val, (i 1).isLt⟩
theorem val_main_v29_apply (i : S320000x128.Idx) :
    val_main_v29 x0 x1 x2 x9 i = val_main_v28 x0 x1 x2 x9 (idx_main_v29 i) := by
  unfold val_main_v29
  generalize val_main_v28 x0 x1 x2 x9 = y
  exact broadcastInDim_apply _ bcast_S1x128_S320000x128_0_1 y i (idx_main_v29 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v30 : (⟨S320000x128, .f32⟩ : BufTy).Contents (Elt F) :=
  subf (val_main_v24 x0 x1 x2 x9) (val_main_v29 x0 x1 x2 x9)
theorem val_main_v30_apply (i : S320000x128.Idx) :
    val_main_v30 x0 x1 x2 x9 i = FloatOps.subf (val_main_v24 x0 x1 x2 x9 i) (val_main_v29 x0 x1 x2 x9 i) := rfl

def val_main_v31 : (⟨S320000x128, .f32⟩ : BufTy).Contents (Elt F) :=
  mulf (val_main_v30 x0 x1 x2 x9) (val_main_v30 x0 x1 x2 x9)
theorem val_main_v31_apply (i : S320000x128.Idx) :
    val_main_v31 x0 x1 x2 x9 i = FloatOps.mulf (val_main_v30 x0 x1 x2 x9 i) (val_main_v30 x0 x1 x2 x9 i) := rfl

def val_main_cst_5 : (⟨S_, .f32⟩ : BufTy).Contents (Elt F) :=
  constant S_ .f32 0x00000000#32
theorem val_main_cst_5_apply (i : S_.Idx) :
    val_main_cst_5 (F := F) i = FloatOps.ofBits .f32 0x00000000#32 := rfl

def val_main_v32 : (⟨S128, .f32⟩ : BufTy).Contents (Elt F) :=
  Host.reduceAdd (val_main_v31 x0 x1 x2 x9) (val_main_cst_5 (F := F)) reducesTo_S320000x128_S128_d0 h_S_
abbrev idx_main_v32 (i : S128.Idx) (k : Fin 320000) : S320000x128.Idx := fun a => match a with
  | ⟨0, _⟩ => ⟨k.val, k.isLt⟩
  | ⟨1, _⟩ => ⟨(i 0).val, (i 0).isLt⟩

def val_main_cst_6 : (⟨S_, .f32⟩ : BufTy).Contents (Elt F) :=
  constant S_ .f32 0x489C4000#32
theorem val_main_cst_6_apply (i : S_.Idx) :
    val_main_cst_6 (F := F) i = FloatOps.ofBits .f32 0x489C4000#32 := rfl

def val_main_v33 : (⟨S128, .f32⟩ : BufTy).Contents (Elt F) :=
  broadcastInDim S128 ![] bcast_S_S128 (val_main_cst_6 (F := F))
abbrev idx_main_v33 (i : S128.Idx) : S_.Idx := fun a => a.elim0
theorem val_main_v33_apply (i : S128.Idx) :
    val_main_v33 (F := F) i = val_main_cst_6 (F := F) (idx_main_v33 i) := by
  unfold val_main_v33
  generalize val_main_cst_6 (F := F) = y
  exact broadcastInDim_apply _ bcast_S_S128 y i (idx_main_v33 i) (fun a => a.elim0)

def val_main_v34 : (⟨S128, .f32⟩ : BufTy).Contents (Elt F) :=
  Host.divf (val_main_v32 x0 x1 x2 x9) (val_main_v33 (F := F))
theorem val_main_v34_apply (i : S128.Idx) :
    val_main_v34 x0 x1 x2 x9 i = FloatOps.hostDivf (val_main_v32 x0 x1 x2 x9 i) (val_main_v33 (F := F) i) := rfl

def val_main_v35 : (⟨S1x128, .f32⟩ : BufTy).Contents (Elt F) :=
  broadcastInDim S1x128 ![1] bcast_S128_S1x128_1 (val_main_v27 x0 x1 x2 x9)
abbrev idx_main_v35 (i : S1x128.Idx) : S128.Idx := fun a => match a with
  | ⟨0, _⟩ => ⟨(i 1).val, (i 1).isLt⟩
theorem val_main_v35_apply (i : S1x128.Idx) :
    val_main_v35 x0 x1 x2 x9 i = val_main_v27 x0 x1 x2 x9 (idx_main_v35 i) := by
  unfold val_main_v35
  generalize val_main_v27 x0 x1 x2 x9 = y
  exact broadcastInDim_apply _ bcast_S128_S1x128_1 y i (idx_main_v35 i) (fun a => match a with
    | ⟨0, _⟩ => by show (i 1).val = if (128 : Nat) = 1 then 0 else (i 1).val; rw [if_neg (by decide)])

def val_main_v36 : (⟨S320000x128, .f32⟩ : BufTy).Contents (Elt F) :=
  broadcastInDim S320000x128 ![0, 1] bcast_S1x128_S320000x128_0_1 (val_main_v35 x0 x1 x2 x9)
abbrev idx_main_v36 (i : S320000x128.Idx) : S1x128.Idx := fun a => match a with
  | ⟨0, _⟩ => ⟨0, Nat.one_pos⟩
  | ⟨1, _⟩ => ⟨(i 1).val, (i 1).isLt⟩
theorem val_main_v36_apply (i : S320000x128.Idx) :
    val_main_v36 x0 x1 x2 x9 i = val_main_v35 x0 x1 x2 x9 (idx_main_v36 i) := by
  unfold val_main_v36
  generalize val_main_v35 x0 x1 x2 x9 = y
  exact broadcastInDim_apply _ bcast_S1x128_S320000x128_0_1 y i (idx_main_v36 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v37 : (⟨S320000x128, .f32⟩ : BufTy).Contents (Elt F) :=
  subf (val_main_v24 x0 x1 x2 x9) (val_main_v36 x0 x1 x2 x9)
theorem val_main_v37_apply (i : S320000x128.Idx) :
    val_main_v37 x0 x1 x2 x9 i = FloatOps.subf (val_main_v24 x0 x1 x2 x9 i) (val_main_v36 x0 x1 x2 x9 i) := rfl

def val_main_cst_7 : (⟨S_, .f32⟩ : BufTy).Contents (Elt F) :=
  constant S_ .f32 0x3727C5AC#32
theorem val_main_cst_7_apply (i : S_.Idx) :
    val_main_cst_7 (F := F) i = FloatOps.ofBits .f32 0x3727C5AC#32 := rfl

def val_main_v38 : (⟨S128, .f32⟩ : BufTy).Contents (Elt F) :=
  broadcastInDim S128 ![] bcast_S_S128 (val_main_cst_7 (F := F))
abbrev idx_main_v38 (i : S128.Idx) : S_.Idx := fun a => a.elim0
theorem val_main_v38_apply (i : S128.Idx) :
    val_main_v38 (F := F) i = val_main_cst_7 (F := F) (idx_main_v38 i) := by
  unfold val_main_v38
  generalize val_main_cst_7 (F := F) = y
  exact broadcastInDim_apply _ bcast_S_S128 y i (idx_main_v38 i) (fun a => a.elim0)

def val_main_v39 : (⟨S128, .f32⟩ : BufTy).Contents (Elt F) :=
  addf (val_main_v34 x0 x1 x2 x9) (val_main_v38 (F := F))
theorem val_main_v39_apply (i : S128.Idx) :
    val_main_v39 x0 x1 x2 x9 i = FloatOps.addf (val_main_v34 x0 x1 x2 x9 i) (val_main_v38 (F := F) i) := rfl

def val_main_v40 : (⟨S128, .f32⟩ : BufTy).Contents (Elt F) :=
  Host.rsqrt (val_main_v39 x0 x1 x2 x9)
theorem val_main_v40_apply (i : S128.Idx) :
    val_main_v40 x0 x1 x2 x9 i = FloatOps.hostUnary .rsqrt (val_main_v39 x0 x1 x2 x9 i) := rfl

def val_main_v41 : (⟨S1x128, .f32⟩ : BufTy).Contents (Elt F) :=
  broadcastInDim S1x128 ![1] bcast_S128_S1x128_1 (val_main_v40 x0 x1 x2 x9)
abbrev idx_main_v41 (i : S1x128.Idx) : S128.Idx := fun a => match a with
  | ⟨0, _⟩ => ⟨(i 1).val, (i 1).isLt⟩
theorem val_main_v41_apply (i : S1x128.Idx) :
    val_main_v41 x0 x1 x2 x9 i = val_main_v40 x0 x1 x2 x9 (idx_main_v41 i) := by
  unfold val_main_v41
  generalize val_main_v40 x0 x1 x2 x9 = y
  exact broadcastInDim_apply _ bcast_S128_S1x128_1 y i (idx_main_v41 i) (fun a => match a with
    | ⟨0, _⟩ => by show (i 1).val = if (128 : Nat) = 1 then 0 else (i 1).val; rw [if_neg (by decide)])

def val_main_v42 : (⟨S320000x128, .f32⟩ : BufTy).Contents (Elt F) :=
  broadcastInDim S320000x128 ![0, 1] bcast_S1x128_S320000x128_0_1 (val_main_v41 x0 x1 x2 x9)
abbrev idx_main_v42 (i : S320000x128.Idx) : S1x128.Idx := fun a => match a with
  | ⟨0, _⟩ => ⟨0, Nat.one_pos⟩
  | ⟨1, _⟩ => ⟨(i 1).val, (i 1).isLt⟩
theorem val_main_v42_apply (i : S320000x128.Idx) :
    val_main_v42 x0 x1 x2 x9 i = val_main_v41 x0 x1 x2 x9 (idx_main_v42 i) := by
  unfold val_main_v42
  generalize val_main_v41 x0 x1 x2 x9 = y
  exact broadcastInDim_apply _ bcast_S1x128_S320000x128_0_1 y i (idx_main_v42 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v43 : (⟨S320000x128, .f32⟩ : BufTy).Contents (Elt F) :=
  mulf (val_main_v37 x0 x1 x2 x9) (val_main_v42 x0 x1 x2 x9)
theorem val_main_v43_apply (i : S320000x128.Idx) :
    val_main_v43 x0 x1 x2 x9 i = FloatOps.mulf (val_main_v37 x0 x1 x2 x9 i) (val_main_v42 x0 x1 x2 x9 i) := rfl

def val_main_v44 : (⟨S1x128, .f32⟩ : BufTy).Contents (Elt F) :=
  broadcastInDim S1x128 ![1] bcast_S128_S1x128_1 (x10)
abbrev idx_main_v44 (i : S1x128.Idx) : S128.Idx := fun a => match a with
  | ⟨0, _⟩ => ⟨(i 1).val, (i 1).isLt⟩
theorem val_main_v44_apply (i : S1x128.Idx) :
    val_main_v44 x10 i = x10 (idx_main_v44 i) := by
  unfold val_main_v44
  exact broadcastInDim_apply _ bcast_S128_S1x128_1 x10 i (idx_main_v44 i) (fun a => match a with
    | ⟨0, _⟩ => by show (i 1).val = if (128 : Nat) = 1 then 0 else (i 1).val; rw [if_neg (by decide)])

def val_main_v45 : (⟨S320000x128, .f32⟩ : BufTy).Contents (Elt F) :=
  broadcastInDim S320000x128 ![0, 1] bcast_S1x128_S320000x128_0_1 (val_main_v44 x10)
abbrev idx_main_v45 (i : S320000x128.Idx) : S1x128.Idx := fun a => match a with
  | ⟨0, _⟩ => ⟨0, Nat.one_pos⟩
  | ⟨1, _⟩ => ⟨(i 1).val, (i 1).isLt⟩
theorem val_main_v45_apply (i : S320000x128.Idx) :
    val_main_v45 x10 i = val_main_v44 x10 (idx_main_v45 i) := by
  unfold val_main_v45
  generalize val_main_v44 x10 = y
  exact broadcastInDim_apply _ bcast_S1x128_S320000x128_0_1 y i (idx_main_v45 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v46 : (⟨S320000x128, .f32⟩ : BufTy).Contents (Elt F) :=
  mulf (val_main_v43 x0 x1 x2 x9) (val_main_v45 x10)
theorem val_main_v46_apply (i : S320000x128.Idx) :
    val_main_v46 x0 x1 x2 x9 x10 i = FloatOps.mulf (val_main_v43 x0 x1 x2 x9 i) (val_main_v45 x10 i) := rfl

def val_main_v47 : (⟨S1x128, .f32⟩ : BufTy).Contents (Elt F) :=
  broadcastInDim S1x128 ![1] bcast_S128_S1x128_1 (x11)
abbrev idx_main_v47 (i : S1x128.Idx) : S128.Idx := fun a => match a with
  | ⟨0, _⟩ => ⟨(i 1).val, (i 1).isLt⟩
theorem val_main_v47_apply (i : S1x128.Idx) :
    val_main_v47 x11 i = x11 (idx_main_v47 i) := by
  unfold val_main_v47
  exact broadcastInDim_apply _ bcast_S128_S1x128_1 x11 i (idx_main_v47 i) (fun a => match a with
    | ⟨0, _⟩ => by show (i 1).val = if (128 : Nat) = 1 then 0 else (i 1).val; rw [if_neg (by decide)])

def val_main_v48 : (⟨S320000x128, .f32⟩ : BufTy).Contents (Elt F) :=
  broadcastInDim S320000x128 ![0, 1] bcast_S1x128_S320000x128_0_1 (val_main_v47 x11)
abbrev idx_main_v48 (i : S320000x128.Idx) : S1x128.Idx := fun a => match a with
  | ⟨0, _⟩ => ⟨0, Nat.one_pos⟩
  | ⟨1, _⟩ => ⟨(i 1).val, (i 1).isLt⟩
theorem val_main_v48_apply (i : S320000x128.Idx) :
    val_main_v48 x11 i = val_main_v47 x11 (idx_main_v48 i) := by
  unfold val_main_v48
  generalize val_main_v47 x11 = y
  exact broadcastInDim_apply _ bcast_S1x128_S320000x128_0_1 y i (idx_main_v48 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v49 : (⟨S320000x128, .f32⟩ : BufTy).Contents (Elt F) :=
  addf (val_main_v46 x0 x1 x2 x9 x10) (val_main_v48 x11)
theorem val_main_v49_apply (i : S320000x128.Idx) :
    val_main_v49 x0 x1 x2 x9 x10 x11 i = FloatOps.addf (val_main_v46 x0 x1 x2 x9 x10 i) (val_main_v48 x11 i) := rfl

def val_main_call0_cst : (⟨S_, .f32⟩ : BufTy).Contents (Elt F) :=
  constant S_ .f32 0x00000000#32
theorem val_main_call0_cst_apply (i : S_.Idx) :
    val_main_call0_cst (F := F) i = FloatOps.ofBits .f32 0x00000000#32 := rfl

def val_main_call0_v0 : (⟨S320000x128, .f32⟩ : BufTy).Contents (Elt F) :=
  broadcastInDim S320000x128 ![] bcast_S_S320000x128 (val_main_call0_cst (F := F))
abbrev idx_main_call0_v0 (i : S320000x128.Idx) : S_.Idx := fun a => a.elim0
theorem val_main_call0_v0_apply (i : S320000x128.Idx) :
    val_main_call0_v0 (F := F) i = val_main_call0_cst (F := F) (idx_main_call0_v0 i) := by
  unfold val_main_call0_v0
  generalize val_main_call0_cst (F := F) = y
  exact broadcastInDim_apply _ bcast_S_S320000x128 y i (idx_main_call0_v0 i) (fun a => a.elim0)

def val_main_v50 : (⟨S320000x128, .f32⟩ : BufTy).Contents (Elt F) :=
  maximumf (val_main_v49 x0 x1 x2 x9 x10 x11) (val_main_call0_v0 (F := F))
theorem val_main_v50_apply (i : S320000x128.Idx) :
    val_main_v50 x0 x1 x2 x9 x10 x11 i = FloatOps.maximumf (val_main_v49 x0 x1 x2 x9 x10 x11 i) (val_main_call0_v0 (F := F) i) := rfl

def val_main_cst_8 : (⟨S_, .f32⟩ : BufTy).Contents (Elt F) :=
  constant S_ .f32 0x00000000#32
theorem val_main_cst_8_apply (i : S_.Idx) :
    val_main_cst_8 (F := F) i = FloatOps.ofBits .f32 0x00000000#32 := rfl

def val_main_v51 : (⟨S20000x128, .f32⟩ : BufTy).Contents (Elt F) :=
  broadcastInDim S20000x128 ![] bcast_S_S20000x128 (val_main_cst_8 (F := F))
abbrev idx_main_v51 (i : S20000x128.Idx) : S_.Idx := fun a => a.elim0
theorem val_main_v51_apply (i : S20000x128.Idx) :
    val_main_v51 (F := F) i = val_main_cst_8 (F := F) (idx_main_v51 i) := by
  unfold val_main_v51
  generalize val_main_cst_8 (F := F) = y
  exact broadcastInDim_apply _ bcast_S_S20000x128 y i (idx_main_v51 i) (fun a => a.elim0)

def val_main_v52 : (⟨S320000x1, .i32⟩ : BufTy).Contents (Elt F) :=
  broadcastInDim S320000x1 ![0] bcast_S320000_S320000x1_0 (val_main_v1 x2)
abbrev idx_main_v52 (i : S320000x1.Idx) : S320000.Idx := fun a => match a with
  | ⟨0, _⟩ => ⟨(i 0).val, (i 0).isLt⟩
theorem val_main_v52_apply (i : S320000x1.Idx) :
    val_main_v52 x2 i = val_main_v1 x2 (idx_main_v52 i) := by
  unfold val_main_v52
  generalize val_main_v1 x2 = y
  exact broadcastInDim_apply _ bcast_S320000_S320000x1_0 y i (idx_main_v52 i) (fun a => match a with
    | ⟨0, _⟩ => by show (i 0).val = if (320000 : Nat) = 1 then 0 else (i 0).val; rw [if_neg (by decide)])

def val_main_v53 : (⟨S20000x128, .f32⟩ : BufTy).Contents (Elt F) :=
  Host.scatterAdd scatter_S20000x128_S320000x1_S320000x128_1_0_0_1 (val_main_v51 (F := F)) (val_main_v52 x2) (val_main_v50 x0 x1 x2 x9 x10 x11)

def val_main_cst_9 : (⟨S_, .f32⟩ : BufTy).Contents (Elt F) :=
  constant S_ .f32 0x00000000#32
theorem val_main_cst_9_apply (i : S_.Idx) :
    val_main_cst_9 (F := F) i = FloatOps.ofBits .f32 0x00000000#32 := rfl

def val_main_v54 : (⟨S160000x128, .f32⟩ : BufTy).Contents (Elt F) :=
  broadcastInDim S160000x128 ![] bcast_S_S160000x128 (val_main_cst_9 (F := F))
abbrev idx_main_v54 (i : S160000x128.Idx) : S_.Idx := fun a => a.elim0
theorem val_main_v54_apply (i : S160000x128.Idx) :
    val_main_v54 (F := F) i = val_main_cst_9 (F := F) (idx_main_v54 i) := by
  unfold val_main_v54
  generalize val_main_cst_9 (F := F) = y
  exact broadcastInDim_apply _ bcast_S_S160000x128 y i (idx_main_v54 i) (fun a => a.elim0)

def val_main_v55 : (⟨S320000x1, .i32⟩ : BufTy).Contents (Elt F) :=
  broadcastInDim S320000x1 ![0] bcast_S320000_S320000x1_0 (val_main_v4 (F := F))
abbrev idx_main_v55 (i : S320000x1.Idx) : S320000.Idx := fun a => match a with
  | ⟨0, _⟩ => ⟨(i 0).val, (i 0).isLt⟩
theorem val_main_v55_apply (i : S320000x1.Idx) :
    val_main_v55 (F := F) i = val_main_v4 (F := F) (idx_main_v55 i) := by
  unfold val_main_v55
  generalize val_main_v4 (F := F) = y
  exact broadcastInDim_apply _ bcast_S320000_S320000x1_0 y i (idx_main_v55 i) (fun a => match a with
    | ⟨0, _⟩ => by show (i 0).val = if (320000 : Nat) = 1 then 0 else (i 0).val; rw [if_neg (by decide)])

def val_main_v56 : (⟨S160000x128, .f32⟩ : BufTy).Contents (Elt F) :=
  Host.scatterAdd scatter_S160000x128_S320000x1_S320000x128_1_0_0_1 (val_main_v54 (F := F)) (val_main_v55 (F := F)) (val_main_v50 x0 x1 x2 x9 x10 x11)

def val_main_c_10 : (⟨S_, .i32⟩ : BufTy).Contents (Elt F) :=
  constantI S_ 32 0#32
theorem val_main_c_10_apply (i : S_.Idx) :
    val_main_c_10 (F := F) i = 0#32 := rfl

def val_main_v57 : (⟨S320000, .i32⟩ : BufTy).Contents (Elt F) :=
  broadcastInDim S320000 ![] bcast_S_S320000 (val_main_c_10 (F := F))
abbrev idx_main_v57 (i : S320000.Idx) : S_.Idx := fun a => a.elim0
theorem val_main_v57_apply (i : S320000.Idx) :
    val_main_v57 (F := F) i = val_main_c_10 (F := F) (idx_main_v57 i) := by
  unfold val_main_v57
  generalize val_main_c_10 (F := F) = y
  exact broadcastInDim_apply _ bcast_S_S320000 y i (idx_main_v57 i) (fun a => a.elim0)

def val_main_v58 : (⟨S320000, .i1⟩ : BufTy).Contents (Elt F) :=
  cmpi .slt (val_main_v4 (F := F)) (val_main_v57 (F := F))
theorem val_main_v58_apply (i : S320000.Idx) :
    val_main_v58 (F := F) i = IntOp.cmpi .slt (val_main_v4 (F := F) i) (val_main_v57 (F := F) i) := rfl

def val_main_c_11 : (⟨S_, .i32⟩ : BufTy).Contents (Elt F) :=
  constantI S_ 32 160000#32
theorem val_main_c_11_apply (i : S_.Idx) :
    val_main_c_11 (F := F) i = 160000#32 := rfl

def val_main_v59 : (⟨S320000, .i32⟩ : BufTy).Contents (Elt F) :=
  broadcastInDim S320000 ![] bcast_S_S320000 (val_main_c_11 (F := F))
abbrev idx_main_v59 (i : S320000.Idx) : S_.Idx := fun a => a.elim0
theorem val_main_v59_apply (i : S320000.Idx) :
    val_main_v59 (F := F) i = val_main_c_11 (F := F) (idx_main_v59 i) := by
  unfold val_main_v59
  generalize val_main_c_11 (F := F) = y
  exact broadcastInDim_apply _ bcast_S_S320000 y i (idx_main_v59 i) (fun a => a.elim0)

def val_main_v60 : (⟨S320000, .i32⟩ : BufTy).Contents (Elt F) :=
  addi (val_main_v4 (F := F)) (val_main_v59 (F := F))
theorem val_main_v60_apply (i : S320000.Idx) :
    val_main_v60 (F := F) i = IntOp.addi (val_main_v4 (F := F) i) (val_main_v59 (F := F) i) := rfl

def val_main_v61 : (⟨S320000, .i32⟩ : BufTy).Contents (Elt F) :=
  select (val_main_v58 (F := F)) (val_main_v60 (F := F)) (val_main_v4 (F := F))
theorem val_main_v61_apply (i : S320000.Idx) :
    val_main_v61 (F := F) i = Scalar.select (val_main_v58 (F := F) i) (val_main_v60 (F := F) i) (val_main_v4 (F := F) i) := rfl

def val_main_v62 : (⟨S320000x1, .i32⟩ : BufTy).Contents (Elt F) :=
  broadcastInDim S320000x1 ![0] bcast_S320000_S320000x1_0 (val_main_v61 (F := F))
abbrev idx_main_v62 (i : S320000x1.Idx) : S320000.Idx := fun a => match a with
  | ⟨0, _⟩ => ⟨(i 0).val, (i 0).isLt⟩
theorem val_main_v62_apply (i : S320000x1.Idx) :
    val_main_v62 (F := F) i = val_main_v61 (F := F) (idx_main_v62 i) := by
  unfold val_main_v62
  generalize val_main_v61 (F := F) = y
  exact broadcastInDim_apply _ bcast_S320000_S320000x1_0 y i (idx_main_v62 i) (fun a => match a with
    | ⟨0, _⟩ => by show (i 0).val = if (320000 : Nat) = 1 then 0 else (i 0).val; rw [if_neg (by decide)])

def val_main_v63 : (⟨S320000x128, .f32⟩ : BufTy).Contents (Elt F) :=
  Host.gather gather_S160000x128_S320000x1_S320000x128_1_0_n_n_0_1_1128 (val_main_v56 x0 x1 x2 x9 x10 x11) (val_main_v62 (F := F))

def val_main_cst_12 : (⟨S_, .f32⟩ : BufTy).Contents (Elt F) :=
  constant S_ .f32 0x00000000#32
theorem val_main_cst_12_apply (i : S_.Idx) :
    val_main_cst_12 (F := F) i = FloatOps.ofBits .f32 0x00000000#32 := rfl

def val_main_v64 : (⟨S20000x128, .f32⟩ : BufTy).Contents (Elt F) :=
  broadcastInDim S20000x128 ![] bcast_S_S20000x128 (val_main_cst_12 (F := F))
abbrev idx_main_v64 (i : S20000x128.Idx) : S_.Idx := fun a => a.elim0
theorem val_main_v64_apply (i : S20000x128.Idx) :
    val_main_v64 (F := F) i = val_main_cst_12 (F := F) (idx_main_v64 i) := by
  unfold val_main_v64
  generalize val_main_cst_12 (F := F) = y
  exact broadcastInDim_apply _ bcast_S_S20000x128 y i (idx_main_v64 i) (fun a => a.elim0)

def val_main_v65 : (⟨S320000x1, .i32⟩ : BufTy).Contents (Elt F) :=
  broadcastInDim S320000x1 ![0] bcast_S320000_S320000x1_0 (val_main_v1 x2)
abbrev idx_main_v65 (i : S320000x1.Idx) : S320000.Idx := fun a => match a with
  | ⟨0, _⟩ => ⟨(i 0).val, (i 0).isLt⟩
theorem val_main_v65_apply (i : S320000x1.Idx) :
    val_main_v65 x2 i = val_main_v1 x2 (idx_main_v65 i) := by
  unfold val_main_v65
  generalize val_main_v1 x2 = y
  exact broadcastInDim_apply _ bcast_S320000_S320000x1_0 y i (idx_main_v65 i) (fun a => match a with
    | ⟨0, _⟩ => by show (i 0).val = if (320000 : Nat) = 1 then 0 else (i 0).val; rw [if_neg (by decide)])

def val_main_v66 : (⟨S20000x128, .f32⟩ : BufTy).Contents (Elt F) :=
  Host.scatterAdd scatter_S20000x128_S320000x1_S320000x128_1_0_0_1 (val_main_v64 (F := F)) (val_main_v65 x2) (val_main_v63 x0 x1 x2 x9 x10 x11)

def val_main_cst_13 : (⟨S_, .f32⟩ : BufTy).Contents (Elt F) :=
  constant S_ .f32 0x3F800000#32
theorem val_main_cst_13_apply (i : S_.Idx) :
    val_main_cst_13 (F := F) i = FloatOps.ofBits .f32 0x3F800000#32 := rfl

def val_main_v67 : (⟨S_, .f32⟩ : BufTy).Contents (Elt F) :=
  addf (val_main_cst_13 (F := F)) (x18)
theorem val_main_v67_apply (i : S_.Idx) :
    val_main_v67 x18 i = FloatOps.addf (val_main_cst_13 (F := F) i) (x18 i) := rfl

def val_main_v68 : (⟨S20000x128, .f32⟩ : BufTy).Contents (Elt F) :=
  broadcastInDim S20000x128 ![] bcast_S_S20000x128 (val_main_v67 x18)
abbrev idx_main_v68 (i : S20000x128.Idx) : S_.Idx := fun a => a.elim0
theorem val_main_v68_apply (i : S20000x128.Idx) :
    val_main_v68 x18 i = val_main_v67 x18 (idx_main_v68 i) := by
  unfold val_main_v68
  generalize val_main_v67 x18 = y
  exact broadcastInDim_apply _ bcast_S_S20000x128 y i (idx_main_v68 i) (fun a => a.elim0)

def val_main_v69 : (⟨S20000x128, .f32⟩ : BufTy).Contents (Elt F) :=
  mulf (val_main_v68 x18) (x0)
theorem val_main_v69_apply (i : S20000x128.Idx) :
    val_main_v69 x0 x18 i = FloatOps.mulf (val_main_v68 x18 i) (x0 i) := rfl

def val_main_cst_14 : (⟨S_, .f32⟩ : BufTy).Contents (Elt F) :=
  constant S_ .f32 0x3F800000#32
theorem val_main_cst_14_apply (i : S_.Idx) :
    val_main_cst_14 (F := F) i = FloatOps.ofBits .f32 0x3F800000#32 := rfl

def val_main_v70 : (⟨S_, .f32⟩ : BufTy).Contents (Elt F) :=
  addf (val_main_cst_14 (F := F)) (x19)
theorem val_main_v70_apply (i : S_.Idx) :
    val_main_v70 x19 i = FloatOps.addf (val_main_cst_14 (F := F) i) (x19 i) := rfl

def val_main_v71 : (⟨S20000x128, .f32⟩ : BufTy).Contents (Elt F) :=
  broadcastInDim S20000x128 ![] bcast_S_S20000x128 (val_main_v70 x19)
abbrev idx_main_v71 (i : S20000x128.Idx) : S_.Idx := fun a => a.elim0
theorem val_main_v71_apply (i : S20000x128.Idx) :
    val_main_v71 x19 i = val_main_v70 x19 (idx_main_v71 i) := by
  unfold val_main_v71
  generalize val_main_v70 x19 = y
  exact broadcastInDim_apply _ bcast_S_S20000x128 y i (idx_main_v71 i) (fun a => a.elim0)

def val_main_v72 : (⟨S20000x128, .f32⟩ : BufTy).Contents (Elt F) :=
  mulf (val_main_v71 x19) (val_main_v53 x0 x1 x2 x9 x10 x11)
theorem val_main_v72_apply (i : S20000x128.Idx) :
    val_main_v72 x0 x1 x2 x9 x10 x11 x19 i = FloatOps.mulf (val_main_v71 x19 i) (val_main_v53 x0 x1 x2 x9 x10 x11 i) := rfl

def val_main_v73 : (⟨S20000x128, .f32⟩ : BufTy).Contents (Elt F) :=
  addf (val_main_v69 x0 x18) (val_main_v72 x0 x1 x2 x9 x10 x11 x19)
theorem val_main_v73_apply (i : S20000x128.Idx) :
    val_main_v73 x0 x1 x2 x9 x10 x11 x18 x19 i = FloatOps.addf (val_main_v69 x0 x18 i) (val_main_v72 x0 x1 x2 x9 x10 x11 x19 i) := rfl

def val_main_v74 : (⟨S20000x128, .f32⟩ : BufTy).Contents (Elt F) :=
  addf (val_main_v73 x0 x1 x2 x9 x10 x11 x18 x19) (val_main_v66 x0 x1 x2 x9 x10 x11)
theorem val_main_v74_apply (i : S20000x128.Idx) :
    val_main_v74 x0 x1 x2 x9 x10 x11 x18 x19 i = FloatOps.addf (val_main_v73 x0 x1 x2 x9 x10 x11 x18 x19 i) (val_main_v66 x0 x1 x2 x9 x10 x11 i) := rfl

def val_main_v75 : (⟨S20000x256, .f32⟩ : BufTy).Contents (Elt F) :=
  Host.dotGeneral dot_S20000x128_S128x256_S20000x256_1_0_0_1_n_n none (val_main_v74 x0 x1 x2 x9 x10 x11 x18 x19) (x12)
theorem lhs_main_v75_0 (i : S20000x256.Idx) (q : dot_S20000x128_S128x256_S20000x256_1_0_0_1_n_n.contr.Idx) :
    (dot_S20000x128_S128x256_S20000x256_1_0_0_1_n_n.lhsIdx i q 0).val = (i 0).val := by
  unfold DotDims.lhsIdx
  rw [dif_neg (show ¬(0 : Fin S20000x128.rank) ∈ dot_S20000x128_S128x256_S20000x256_1_0_0_1_n_n.lhsBatch by decide), dif_pos (show (0 : Fin S20000x128.rank) ∈ dot_S20000x128_S128x256_S20000x256_1_0_0_1_n_n.lhsNonContracting by decide)]
  rfl
theorem lhs_main_v75_1 (i : S20000x256.Idx) (q : dot_S20000x128_S128x256_S20000x256_1_0_0_1_n_n.contr.Idx) :
    (dot_S20000x128_S128x256_S20000x256_1_0_0_1_n_n.lhsIdx i q 1).val = (q ⟨0, by decide⟩).val :=
  dot_S20000x128_S128x256_S20000x256_1_0_0_1_n_n.lhsIdx_val_of_single rfl i q
theorem rhs_main_v75_0 (i : S20000x256.Idx) (q : dot_S20000x128_S128x256_S20000x256_1_0_0_1_n_n.contr.Idx) :
    (dot_S20000x128_S128x256_S20000x256_1_0_0_1_n_n.rhsIdx i q 0).val = (q ⟨0, by decide⟩).val :=
  dot_S20000x128_S128x256_S20000x256_1_0_0_1_n_n.rhsIdx_val_of_single rfl i q
theorem rhs_main_v75_1 (i : S20000x256.Idx) (q : dot_S20000x128_S128x256_S20000x256_1_0_0_1_n_n.contr.Idx) :
    (dot_S20000x128_S128x256_S20000x256_1_0_0_1_n_n.rhsIdx i q 1).val = (i 1).val := by
  unfold DotDims.rhsIdx
  rw [dif_neg (show ¬(1 : Fin S128x256.rank) ∈ dot_S20000x128_S128x256_S20000x256_1_0_0_1_n_n.rhsBatch by decide), dif_pos (show (1 : Fin S128x256.rank) ∈ dot_S20000x128_S128x256_S20000x256_1_0_0_1_n_n.rhsNonContracting by decide)]
  rfl
abbrev lidx_main_v75 (i : S20000x256.Idx) (k : Fin 128) : S20000x128.Idx := fun a => match a with
  | ⟨0, _⟩ => ⟨(i 0).val, (i 0).isLt⟩
  | ⟨1, _⟩ => ⟨k.val, k.isLt⟩
abbrev ridx_main_v75 (i : S20000x256.Idx) (k : Fin 128) : S128x256.Idx := fun a => match a with
  | ⟨0, _⟩ => ⟨k.val, k.isLt⟩
  | ⟨1, _⟩ => ⟨(i 1).val, (i 1).isLt⟩

def val_main_cst_15 : (⟨S_, .f32⟩ : BufTy).Contents (Elt F) :=
  constant S_ .f32 0x00000000#32
theorem val_main_cst_15_apply (i : S_.Idx) :
    val_main_cst_15 (F := F) i = FloatOps.ofBits .f32 0x00000000#32 := rfl

def val_main_v76 : (⟨S256, .f32⟩ : BufTy).Contents (Elt F) :=
  Host.reduceAdd (val_main_v75 x0 x1 x2 x9 x10 x11 x12 x18 x19) (val_main_cst_15 (F := F)) reducesTo_S20000x256_S256_d0 h_S_
abbrev idx_main_v76 (i : S256.Idx) (k : Fin 20000) : S20000x256.Idx := fun a => match a with
  | ⟨0, _⟩ => ⟨k.val, k.isLt⟩
  | ⟨1, _⟩ => ⟨(i 0).val, (i 0).isLt⟩

def val_main_cst_16 : (⟨S_, .f32⟩ : BufTy).Contents (Elt F) :=
  constant S_ .f32 0x469C4000#32
theorem val_main_cst_16_apply (i : S_.Idx) :
    val_main_cst_16 (F := F) i = FloatOps.ofBits .f32 0x469C4000#32 := rfl

def val_main_v77 : (⟨S256, .f32⟩ : BufTy).Contents (Elt F) :=
  broadcastInDim S256 ![] bcast_S_S256 (val_main_cst_16 (F := F))
abbrev idx_main_v77 (i : S256.Idx) : S_.Idx := fun a => a.elim0
theorem val_main_v77_apply (i : S256.Idx) :
    val_main_v77 (F := F) i = val_main_cst_16 (F := F) (idx_main_v77 i) := by
  unfold val_main_v77
  generalize val_main_cst_16 (F := F) = y
  exact broadcastInDim_apply _ bcast_S_S256 y i (idx_main_v77 i) (fun a => a.elim0)

def val_main_v78 : (⟨S256, .f32⟩ : BufTy).Contents (Elt F) :=
  Host.divf (val_main_v76 x0 x1 x2 x9 x10 x11 x12 x18 x19) (val_main_v77 (F := F))
theorem val_main_v78_apply (i : S256.Idx) :
    val_main_v78 x0 x1 x2 x9 x10 x11 x12 x18 x19 i = FloatOps.hostDivf (val_main_v76 x0 x1 x2 x9 x10 x11 x12 x18 x19 i) (val_main_v77 (F := F) i) := rfl

def val_main_v79 : (⟨S1x256, .f32⟩ : BufTy).Contents (Elt F) :=
  broadcastInDim S1x256 ![1] bcast_S256_S1x256_1 (val_main_v78 x0 x1 x2 x9 x10 x11 x12 x18 x19)
abbrev idx_main_v79 (i : S1x256.Idx) : S256.Idx := fun a => match a with
  | ⟨0, _⟩ => ⟨(i 1).val, (i 1).isLt⟩
theorem val_main_v79_apply (i : S1x256.Idx) :
    val_main_v79 x0 x1 x2 x9 x10 x11 x12 x18 x19 i = val_main_v78 x0 x1 x2 x9 x10 x11 x12 x18 x19 (idx_main_v79 i) := by
  unfold val_main_v79
  generalize val_main_v78 x0 x1 x2 x9 x10 x11 x12 x18 x19 = y
  exact broadcastInDim_apply _ bcast_S256_S1x256_1 y i (idx_main_v79 i) (fun a => match a with
    | ⟨0, _⟩ => by show (i 1).val = if (256 : Nat) = 1 then 0 else (i 1).val; rw [if_neg (by decide)])

def val_main_v80 : (⟨S20000x256, .f32⟩ : BufTy).Contents (Elt F) :=
  broadcastInDim S20000x256 ![0, 1] bcast_S1x256_S20000x256_0_1 (val_main_v79 x0 x1 x2 x9 x10 x11 x12 x18 x19)
abbrev idx_main_v80 (i : S20000x256.Idx) : S1x256.Idx := fun a => match a with
  | ⟨0, _⟩ => ⟨0, Nat.one_pos⟩
  | ⟨1, _⟩ => ⟨(i 1).val, (i 1).isLt⟩
theorem val_main_v80_apply (i : S20000x256.Idx) :
    val_main_v80 x0 x1 x2 x9 x10 x11 x12 x18 x19 i = val_main_v79 x0 x1 x2 x9 x10 x11 x12 x18 x19 (idx_main_v80 i) := by
  unfold val_main_v80
  generalize val_main_v79 x0 x1 x2 x9 x10 x11 x12 x18 x19 = y
  exact broadcastInDim_apply _ bcast_S1x256_S20000x256_0_1 y i (idx_main_v80 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v81 : (⟨S20000x256, .f32⟩ : BufTy).Contents (Elt F) :=
  subf (val_main_v75 x0 x1 x2 x9 x10 x11 x12 x18 x19) (val_main_v80 x0 x1 x2 x9 x10 x11 x12 x18 x19)
theorem val_main_v81_apply (i : S20000x256.Idx) :
    val_main_v81 x0 x1 x2 x9 x10 x11 x12 x18 x19 i = FloatOps.subf (val_main_v75 x0 x1 x2 x9 x10 x11 x12 x18 x19 i) (val_main_v80 x0 x1 x2 x9 x10 x11 x12 x18 x19 i) := rfl

def val_main_v82 : (⟨S20000x256, .f32⟩ : BufTy).Contents (Elt F) :=
  mulf (val_main_v81 x0 x1 x2 x9 x10 x11 x12 x18 x19) (val_main_v81 x0 x1 x2 x9 x10 x11 x12 x18 x19)
theorem val_main_v82_apply (i : S20000x256.Idx) :
    val_main_v82 x0 x1 x2 x9 x10 x11 x12 x18 x19 i = FloatOps.mulf (val_main_v81 x0 x1 x2 x9 x10 x11 x12 x18 x19 i) (val_main_v81 x0 x1 x2 x9 x10 x11 x12 x18 x19 i) := rfl

def val_main_cst_17 : (⟨S_, .f32⟩ : BufTy).Contents (Elt F) :=
  constant S_ .f32 0x00000000#32
theorem val_main_cst_17_apply (i : S_.Idx) :
    val_main_cst_17 (F := F) i = FloatOps.ofBits .f32 0x00000000#32 := rfl

def val_main_v83 : (⟨S256, .f32⟩ : BufTy).Contents (Elt F) :=
  Host.reduceAdd (val_main_v82 x0 x1 x2 x9 x10 x11 x12 x18 x19) (val_main_cst_17 (F := F)) reducesTo_S20000x256_S256_d0 h_S_
abbrev idx_main_v83 (i : S256.Idx) (k : Fin 20000) : S20000x256.Idx := fun a => match a with
  | ⟨0, _⟩ => ⟨k.val, k.isLt⟩
  | ⟨1, _⟩ => ⟨(i 0).val, (i 0).isLt⟩

def val_main_cst_18 : (⟨S_, .f32⟩ : BufTy).Contents (Elt F) :=
  constant S_ .f32 0x469C4000#32
theorem val_main_cst_18_apply (i : S_.Idx) :
    val_main_cst_18 (F := F) i = FloatOps.ofBits .f32 0x469C4000#32 := rfl

def val_main_v84 : (⟨S256, .f32⟩ : BufTy).Contents (Elt F) :=
  broadcastInDim S256 ![] bcast_S_S256 (val_main_cst_18 (F := F))
abbrev idx_main_v84 (i : S256.Idx) : S_.Idx := fun a => a.elim0
theorem val_main_v84_apply (i : S256.Idx) :
    val_main_v84 (F := F) i = val_main_cst_18 (F := F) (idx_main_v84 i) := by
  unfold val_main_v84
  generalize val_main_cst_18 (F := F) = y
  exact broadcastInDim_apply _ bcast_S_S256 y i (idx_main_v84 i) (fun a => a.elim0)

def val_main_v85 : (⟨S256, .f32⟩ : BufTy).Contents (Elt F) :=
  Host.divf (val_main_v83 x0 x1 x2 x9 x10 x11 x12 x18 x19) (val_main_v84 (F := F))
theorem val_main_v85_apply (i : S256.Idx) :
    val_main_v85 x0 x1 x2 x9 x10 x11 x12 x18 x19 i = FloatOps.hostDivf (val_main_v83 x0 x1 x2 x9 x10 x11 x12 x18 x19 i) (val_main_v84 (F := F) i) := rfl

def val_main_v86 : (⟨S1x256, .f32⟩ : BufTy).Contents (Elt F) :=
  broadcastInDim S1x256 ![1] bcast_S256_S1x256_1 (val_main_v78 x0 x1 x2 x9 x10 x11 x12 x18 x19)
abbrev idx_main_v86 (i : S1x256.Idx) : S256.Idx := fun a => match a with
  | ⟨0, _⟩ => ⟨(i 1).val, (i 1).isLt⟩
theorem val_main_v86_apply (i : S1x256.Idx) :
    val_main_v86 x0 x1 x2 x9 x10 x11 x12 x18 x19 i = val_main_v78 x0 x1 x2 x9 x10 x11 x12 x18 x19 (idx_main_v86 i) := by
  unfold val_main_v86
  generalize val_main_v78 x0 x1 x2 x9 x10 x11 x12 x18 x19 = y
  exact broadcastInDim_apply _ bcast_S256_S1x256_1 y i (idx_main_v86 i) (fun a => match a with
    | ⟨0, _⟩ => by show (i 1).val = if (256 : Nat) = 1 then 0 else (i 1).val; rw [if_neg (by decide)])

def val_main_v87 : (⟨S20000x256, .f32⟩ : BufTy).Contents (Elt F) :=
  broadcastInDim S20000x256 ![0, 1] bcast_S1x256_S20000x256_0_1 (val_main_v86 x0 x1 x2 x9 x10 x11 x12 x18 x19)
abbrev idx_main_v87 (i : S20000x256.Idx) : S1x256.Idx := fun a => match a with
  | ⟨0, _⟩ => ⟨0, Nat.one_pos⟩
  | ⟨1, _⟩ => ⟨(i 1).val, (i 1).isLt⟩
theorem val_main_v87_apply (i : S20000x256.Idx) :
    val_main_v87 x0 x1 x2 x9 x10 x11 x12 x18 x19 i = val_main_v86 x0 x1 x2 x9 x10 x11 x12 x18 x19 (idx_main_v87 i) := by
  unfold val_main_v87
  generalize val_main_v86 x0 x1 x2 x9 x10 x11 x12 x18 x19 = y
  exact broadcastInDim_apply _ bcast_S1x256_S20000x256_0_1 y i (idx_main_v87 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v88 : (⟨S20000x256, .f32⟩ : BufTy).Contents (Elt F) :=
  subf (val_main_v75 x0 x1 x2 x9 x10 x11 x12 x18 x19) (val_main_v87 x0 x1 x2 x9 x10 x11 x12 x18 x19)
theorem val_main_v88_apply (i : S20000x256.Idx) :
    val_main_v88 x0 x1 x2 x9 x10 x11 x12 x18 x19 i = FloatOps.subf (val_main_v75 x0 x1 x2 x9 x10 x11 x12 x18 x19 i) (val_main_v87 x0 x1 x2 x9 x10 x11 x12 x18 x19 i) := rfl

def val_main_cst_19 : (⟨S_, .f32⟩ : BufTy).Contents (Elt F) :=
  constant S_ .f32 0x3727C5AC#32
theorem val_main_cst_19_apply (i : S_.Idx) :
    val_main_cst_19 (F := F) i = FloatOps.ofBits .f32 0x3727C5AC#32 := rfl

def val_main_v89 : (⟨S256, .f32⟩ : BufTy).Contents (Elt F) :=
  broadcastInDim S256 ![] bcast_S_S256 (val_main_cst_19 (F := F))
abbrev idx_main_v89 (i : S256.Idx) : S_.Idx := fun a => a.elim0
theorem val_main_v89_apply (i : S256.Idx) :
    val_main_v89 (F := F) i = val_main_cst_19 (F := F) (idx_main_v89 i) := by
  unfold val_main_v89
  generalize val_main_cst_19 (F := F) = y
  exact broadcastInDim_apply _ bcast_S_S256 y i (idx_main_v89 i) (fun a => a.elim0)

def val_main_v90 : (⟨S256, .f32⟩ : BufTy).Contents (Elt F) :=
  addf (val_main_v85 x0 x1 x2 x9 x10 x11 x12 x18 x19) (val_main_v89 (F := F))
theorem val_main_v90_apply (i : S256.Idx) :
    val_main_v90 x0 x1 x2 x9 x10 x11 x12 x18 x19 i = FloatOps.addf (val_main_v85 x0 x1 x2 x9 x10 x11 x12 x18 x19 i) (val_main_v89 (F := F) i) := rfl

def val_main_v91 : (⟨S256, .f32⟩ : BufTy).Contents (Elt F) :=
  Host.rsqrt (val_main_v90 x0 x1 x2 x9 x10 x11 x12 x18 x19)
theorem val_main_v91_apply (i : S256.Idx) :
    val_main_v91 x0 x1 x2 x9 x10 x11 x12 x18 x19 i = FloatOps.hostUnary .rsqrt (val_main_v90 x0 x1 x2 x9 x10 x11 x12 x18 x19 i) := rfl

def val_main_v92 : (⟨S1x256, .f32⟩ : BufTy).Contents (Elt F) :=
  broadcastInDim S1x256 ![1] bcast_S256_S1x256_1 (val_main_v91 x0 x1 x2 x9 x10 x11 x12 x18 x19)
abbrev idx_main_v92 (i : S1x256.Idx) : S256.Idx := fun a => match a with
  | ⟨0, _⟩ => ⟨(i 1).val, (i 1).isLt⟩
theorem val_main_v92_apply (i : S1x256.Idx) :
    val_main_v92 x0 x1 x2 x9 x10 x11 x12 x18 x19 i = val_main_v91 x0 x1 x2 x9 x10 x11 x12 x18 x19 (idx_main_v92 i) := by
  unfold val_main_v92
  generalize val_main_v91 x0 x1 x2 x9 x10 x11 x12 x18 x19 = y
  exact broadcastInDim_apply _ bcast_S256_S1x256_1 y i (idx_main_v92 i) (fun a => match a with
    | ⟨0, _⟩ => by show (i 1).val = if (256 : Nat) = 1 then 0 else (i 1).val; rw [if_neg (by decide)])

def val_main_v93 : (⟨S20000x256, .f32⟩ : BufTy).Contents (Elt F) :=
  broadcastInDim S20000x256 ![0, 1] bcast_S1x256_S20000x256_0_1 (val_main_v92 x0 x1 x2 x9 x10 x11 x12 x18 x19)
abbrev idx_main_v93 (i : S20000x256.Idx) : S1x256.Idx := fun a => match a with
  | ⟨0, _⟩ => ⟨0, Nat.one_pos⟩
  | ⟨1, _⟩ => ⟨(i 1).val, (i 1).isLt⟩
theorem val_main_v93_apply (i : S20000x256.Idx) :
    val_main_v93 x0 x1 x2 x9 x10 x11 x12 x18 x19 i = val_main_v92 x0 x1 x2 x9 x10 x11 x12 x18 x19 (idx_main_v93 i) := by
  unfold val_main_v93
  generalize val_main_v92 x0 x1 x2 x9 x10 x11 x12 x18 x19 = y
  exact broadcastInDim_apply _ bcast_S1x256_S20000x256_0_1 y i (idx_main_v93 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v94 : (⟨S20000x256, .f32⟩ : BufTy).Contents (Elt F) :=
  mulf (val_main_v88 x0 x1 x2 x9 x10 x11 x12 x18 x19) (val_main_v93 x0 x1 x2 x9 x10 x11 x12 x18 x19)
theorem val_main_v94_apply (i : S20000x256.Idx) :
    val_main_v94 x0 x1 x2 x9 x10 x11 x12 x18 x19 i = FloatOps.mulf (val_main_v88 x0 x1 x2 x9 x10 x11 x12 x18 x19 i) (val_main_v93 x0 x1 x2 x9 x10 x11 x12 x18 x19 i) := rfl

def val_main_v95 : (⟨S1x256, .f32⟩ : BufTy).Contents (Elt F) :=
  broadcastInDim S1x256 ![1] bcast_S256_S1x256_1 (x13)
abbrev idx_main_v95 (i : S1x256.Idx) : S256.Idx := fun a => match a with
  | ⟨0, _⟩ => ⟨(i 1).val, (i 1).isLt⟩
theorem val_main_v95_apply (i : S1x256.Idx) :
    val_main_v95 x13 i = x13 (idx_main_v95 i) := by
  unfold val_main_v95
  exact broadcastInDim_apply _ bcast_S256_S1x256_1 x13 i (idx_main_v95 i) (fun a => match a with
    | ⟨0, _⟩ => by show (i 1).val = if (256 : Nat) = 1 then 0 else (i 1).val; rw [if_neg (by decide)])

def val_main_v96 : (⟨S20000x256, .f32⟩ : BufTy).Contents (Elt F) :=
  broadcastInDim S20000x256 ![0, 1] bcast_S1x256_S20000x256_0_1 (val_main_v95 x13)
abbrev idx_main_v96 (i : S20000x256.Idx) : S1x256.Idx := fun a => match a with
  | ⟨0, _⟩ => ⟨0, Nat.one_pos⟩
  | ⟨1, _⟩ => ⟨(i 1).val, (i 1).isLt⟩
theorem val_main_v96_apply (i : S20000x256.Idx) :
    val_main_v96 x13 i = val_main_v95 x13 (idx_main_v96 i) := by
  unfold val_main_v96
  generalize val_main_v95 x13 = y
  exact broadcastInDim_apply _ bcast_S1x256_S20000x256_0_1 y i (idx_main_v96 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v97 : (⟨S20000x256, .f32⟩ : BufTy).Contents (Elt F) :=
  mulf (val_main_v94 x0 x1 x2 x9 x10 x11 x12 x18 x19) (val_main_v96 x13)
theorem val_main_v97_apply (i : S20000x256.Idx) :
    val_main_v97 x0 x1 x2 x9 x10 x11 x12 x13 x18 x19 i = FloatOps.mulf (val_main_v94 x0 x1 x2 x9 x10 x11 x12 x18 x19 i) (val_main_v96 x13 i) := rfl

def val_main_v98 : (⟨S1x256, .f32⟩ : BufTy).Contents (Elt F) :=
  broadcastInDim S1x256 ![1] bcast_S256_S1x256_1 (x14)
abbrev idx_main_v98 (i : S1x256.Idx) : S256.Idx := fun a => match a with
  | ⟨0, _⟩ => ⟨(i 1).val, (i 1).isLt⟩
theorem val_main_v98_apply (i : S1x256.Idx) :
    val_main_v98 x14 i = x14 (idx_main_v98 i) := by
  unfold val_main_v98
  exact broadcastInDim_apply _ bcast_S256_S1x256_1 x14 i (idx_main_v98 i) (fun a => match a with
    | ⟨0, _⟩ => by show (i 1).val = if (256 : Nat) = 1 then 0 else (i 1).val; rw [if_neg (by decide)])

def val_main_v99 : (⟨S20000x256, .f32⟩ : BufTy).Contents (Elt F) :=
  broadcastInDim S20000x256 ![0, 1] bcast_S1x256_S20000x256_0_1 (val_main_v98 x14)
abbrev idx_main_v99 (i : S20000x256.Idx) : S1x256.Idx := fun a => match a with
  | ⟨0, _⟩ => ⟨0, Nat.one_pos⟩
  | ⟨1, _⟩ => ⟨(i 1).val, (i 1).isLt⟩
theorem val_main_v99_apply (i : S20000x256.Idx) :
    val_main_v99 x14 i = val_main_v98 x14 (idx_main_v99 i) := by
  unfold val_main_v99
  generalize val_main_v98 x14 = y
  exact broadcastInDim_apply _ bcast_S1x256_S20000x256_0_1 y i (idx_main_v99 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v100 : (⟨S20000x256, .f32⟩ : BufTy).Contents (Elt F) :=
  addf (val_main_v97 x0 x1 x2 x9 x10 x11 x12 x13 x18 x19) (val_main_v99 x14)
theorem val_main_v100_apply (i : S20000x256.Idx) :
    val_main_v100 x0 x1 x2 x9 x10 x11 x12 x13 x14 x18 x19 i = FloatOps.addf (val_main_v97 x0 x1 x2 x9 x10 x11 x12 x13 x18 x19 i) (val_main_v99 x14 i) := rfl

def val_main_call1_cst : (⟨S_, .f32⟩ : BufTy).Contents (Elt F) :=
  constant S_ .f32 0x00000000#32
theorem val_main_call1_cst_apply (i : S_.Idx) :
    val_main_call1_cst (F := F) i = FloatOps.ofBits .f32 0x00000000#32 := rfl

def val_main_call1_v0 : (⟨S20000x256, .f32⟩ : BufTy).Contents (Elt F) :=
  broadcastInDim S20000x256 ![] bcast_S_S20000x256 (val_main_call1_cst (F := F))
abbrev idx_main_call1_v0 (i : S20000x256.Idx) : S_.Idx := fun a => a.elim0
theorem val_main_call1_v0_apply (i : S20000x256.Idx) :
    val_main_call1_v0 (F := F) i = val_main_call1_cst (F := F) (idx_main_call1_v0 i) := by
  unfold val_main_call1_v0
  generalize val_main_call1_cst (F := F) = y
  exact broadcastInDim_apply _ bcast_S_S20000x256 y i (idx_main_call1_v0 i) (fun a => a.elim0)

def val_main_v101 : (⟨S20000x256, .f32⟩ : BufTy).Contents (Elt F) :=
  maximumf (val_main_v100 x0 x1 x2 x9 x10 x11 x12 x13 x14 x18 x19) (val_main_call1_v0 (F := F))
theorem val_main_v101_apply (i : S20000x256.Idx) :
    val_main_v101 x0 x1 x2 x9 x10 x11 x12 x13 x14 x18 x19 i = FloatOps.maximumf (val_main_v100 x0 x1 x2 x9 x10 x11 x12 x13 x14 x18 x19 i) (val_main_call1_v0 (F := F) i) := rfl

def val_main_v102 : (⟨S20000x128, .f32⟩ : BufTy).Contents (Elt F) :=
  Host.dotGeneral dot_S20000x256_S256x128_S20000x128_1_0_0_1_n_n none (val_main_v101 x0 x1 x2 x9 x10 x11 x12 x13 x14 x18 x19) (x15)
theorem lhs_main_v102_0 (i : S20000x128.Idx) (q : dot_S20000x256_S256x128_S20000x128_1_0_0_1_n_n.contr.Idx) :
    (dot_S20000x256_S256x128_S20000x128_1_0_0_1_n_n.lhsIdx i q 0).val = (i 0).val := by
  unfold DotDims.lhsIdx
  rw [dif_neg (show ¬(0 : Fin S20000x256.rank) ∈ dot_S20000x256_S256x128_S20000x128_1_0_0_1_n_n.lhsBatch by decide), dif_pos (show (0 : Fin S20000x256.rank) ∈ dot_S20000x256_S256x128_S20000x128_1_0_0_1_n_n.lhsNonContracting by decide)]
  rfl
theorem lhs_main_v102_1 (i : S20000x128.Idx) (q : dot_S20000x256_S256x128_S20000x128_1_0_0_1_n_n.contr.Idx) :
    (dot_S20000x256_S256x128_S20000x128_1_0_0_1_n_n.lhsIdx i q 1).val = (q ⟨0, by decide⟩).val :=
  dot_S20000x256_S256x128_S20000x128_1_0_0_1_n_n.lhsIdx_val_of_single rfl i q
theorem rhs_main_v102_0 (i : S20000x128.Idx) (q : dot_S20000x256_S256x128_S20000x128_1_0_0_1_n_n.contr.Idx) :
    (dot_S20000x256_S256x128_S20000x128_1_0_0_1_n_n.rhsIdx i q 0).val = (q ⟨0, by decide⟩).val :=
  dot_S20000x256_S256x128_S20000x128_1_0_0_1_n_n.rhsIdx_val_of_single rfl i q
theorem rhs_main_v102_1 (i : S20000x128.Idx) (q : dot_S20000x256_S256x128_S20000x128_1_0_0_1_n_n.contr.Idx) :
    (dot_S20000x256_S256x128_S20000x128_1_0_0_1_n_n.rhsIdx i q 1).val = (i 1).val := by
  unfold DotDims.rhsIdx
  rw [dif_neg (show ¬(1 : Fin S256x128.rank) ∈ dot_S20000x256_S256x128_S20000x128_1_0_0_1_n_n.rhsBatch by decide), dif_pos (show (1 : Fin S256x128.rank) ∈ dot_S20000x256_S256x128_S20000x128_1_0_0_1_n_n.rhsNonContracting by decide)]
  rfl
abbrev lidx_main_v102 (i : S20000x128.Idx) (k : Fin 256) : S20000x256.Idx := fun a => match a with
  | ⟨0, _⟩ => ⟨(i 0).val, (i 0).isLt⟩
  | ⟨1, _⟩ => ⟨k.val, k.isLt⟩
abbrev ridx_main_v102 (i : S20000x128.Idx) (k : Fin 256) : S256x128.Idx := fun a => match a with
  | ⟨0, _⟩ => ⟨k.val, k.isLt⟩
  | ⟨1, _⟩ => ⟨(i 1).val, (i 1).isLt⟩

def val_main_cst_20 : (⟨S_, .f32⟩ : BufTy).Contents (Elt F) :=
  constant S_ .f32 0x00000000#32
theorem val_main_cst_20_apply (i : S_.Idx) :
    val_main_cst_20 (F := F) i = FloatOps.ofBits .f32 0x00000000#32 := rfl

def val_main_v103 : (⟨S128, .f32⟩ : BufTy).Contents (Elt F) :=
  Host.reduceAdd (val_main_v102 x0 x1 x2 x9 x10 x11 x12 x13 x14 x15 x18 x19) (val_main_cst_20 (F := F)) reducesTo_S20000x128_S128_d0 h_S_
abbrev idx_main_v103 (i : S128.Idx) (k : Fin 20000) : S20000x128.Idx := fun a => match a with
  | ⟨0, _⟩ => ⟨k.val, k.isLt⟩
  | ⟨1, _⟩ => ⟨(i 0).val, (i 0).isLt⟩

def val_main_cst_21 : (⟨S_, .f32⟩ : BufTy).Contents (Elt F) :=
  constant S_ .f32 0x469C4000#32
theorem val_main_cst_21_apply (i : S_.Idx) :
    val_main_cst_21 (F := F) i = FloatOps.ofBits .f32 0x469C4000#32 := rfl

def val_main_v104 : (⟨S128, .f32⟩ : BufTy).Contents (Elt F) :=
  broadcastInDim S128 ![] bcast_S_S128 (val_main_cst_21 (F := F))
abbrev idx_main_v104 (i : S128.Idx) : S_.Idx := fun a => a.elim0
theorem val_main_v104_apply (i : S128.Idx) :
    val_main_v104 (F := F) i = val_main_cst_21 (F := F) (idx_main_v104 i) := by
  unfold val_main_v104
  generalize val_main_cst_21 (F := F) = y
  exact broadcastInDim_apply _ bcast_S_S128 y i (idx_main_v104 i) (fun a => a.elim0)

def val_main_v105 : (⟨S128, .f32⟩ : BufTy).Contents (Elt F) :=
  Host.divf (val_main_v103 x0 x1 x2 x9 x10 x11 x12 x13 x14 x15 x18 x19) (val_main_v104 (F := F))
theorem val_main_v105_apply (i : S128.Idx) :
    val_main_v105 x0 x1 x2 x9 x10 x11 x12 x13 x14 x15 x18 x19 i = FloatOps.hostDivf (val_main_v103 x0 x1 x2 x9 x10 x11 x12 x13 x14 x15 x18 x19 i) (val_main_v104 (F := F) i) := rfl

def val_main_v106 : (⟨S1x128, .f32⟩ : BufTy).Contents (Elt F) :=
  broadcastInDim S1x128 ![1] bcast_S128_S1x128_1 (val_main_v105 x0 x1 x2 x9 x10 x11 x12 x13 x14 x15 x18 x19)
abbrev idx_main_v106 (i : S1x128.Idx) : S128.Idx := fun a => match a with
  | ⟨0, _⟩ => ⟨(i 1).val, (i 1).isLt⟩
theorem val_main_v106_apply (i : S1x128.Idx) :
    val_main_v106 x0 x1 x2 x9 x10 x11 x12 x13 x14 x15 x18 x19 i = val_main_v105 x0 x1 x2 x9 x10 x11 x12 x13 x14 x15 x18 x19 (idx_main_v106 i) := by
  unfold val_main_v106
  generalize val_main_v105 x0 x1 x2 x9 x10 x11 x12 x13 x14 x15 x18 x19 = y
  exact broadcastInDim_apply _ bcast_S128_S1x128_1 y i (idx_main_v106 i) (fun a => match a with
    | ⟨0, _⟩ => by show (i 1).val = if (128 : Nat) = 1 then 0 else (i 1).val; rw [if_neg (by decide)])

def val_main_v107 : (⟨S20000x128, .f32⟩ : BufTy).Contents (Elt F) :=
  broadcastInDim S20000x128 ![0, 1] bcast_S1x128_S20000x128_0_1 (val_main_v106 x0 x1 x2 x9 x10 x11 x12 x13 x14 x15 x18 x19)
abbrev idx_main_v107 (i : S20000x128.Idx) : S1x128.Idx := fun a => match a with
  | ⟨0, _⟩ => ⟨0, Nat.one_pos⟩
  | ⟨1, _⟩ => ⟨(i 1).val, (i 1).isLt⟩
theorem val_main_v107_apply (i : S20000x128.Idx) :
    val_main_v107 x0 x1 x2 x9 x10 x11 x12 x13 x14 x15 x18 x19 i = val_main_v106 x0 x1 x2 x9 x10 x11 x12 x13 x14 x15 x18 x19 (idx_main_v107 i) := by
  unfold val_main_v107
  generalize val_main_v106 x0 x1 x2 x9 x10 x11 x12 x13 x14 x15 x18 x19 = y
  exact broadcastInDim_apply _ bcast_S1x128_S20000x128_0_1 y i (idx_main_v107 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v108 : (⟨S20000x128, .f32⟩ : BufTy).Contents (Elt F) :=
  subf (val_main_v102 x0 x1 x2 x9 x10 x11 x12 x13 x14 x15 x18 x19) (val_main_v107 x0 x1 x2 x9 x10 x11 x12 x13 x14 x15 x18 x19)
theorem val_main_v108_apply (i : S20000x128.Idx) :
    val_main_v108 x0 x1 x2 x9 x10 x11 x12 x13 x14 x15 x18 x19 i = FloatOps.subf (val_main_v102 x0 x1 x2 x9 x10 x11 x12 x13 x14 x15 x18 x19 i) (val_main_v107 x0 x1 x2 x9 x10 x11 x12 x13 x14 x15 x18 x19 i) := rfl

def val_main_v109 : (⟨S20000x128, .f32⟩ : BufTy).Contents (Elt F) :=
  mulf (val_main_v108 x0 x1 x2 x9 x10 x11 x12 x13 x14 x15 x18 x19) (val_main_v108 x0 x1 x2 x9 x10 x11 x12 x13 x14 x15 x18 x19)
theorem val_main_v109_apply (i : S20000x128.Idx) :
    val_main_v109 x0 x1 x2 x9 x10 x11 x12 x13 x14 x15 x18 x19 i = FloatOps.mulf (val_main_v108 x0 x1 x2 x9 x10 x11 x12 x13 x14 x15 x18 x19 i) (val_main_v108 x0 x1 x2 x9 x10 x11 x12 x13 x14 x15 x18 x19 i) := rfl

def val_main_cst_22 : (⟨S_, .f32⟩ : BufTy).Contents (Elt F) :=
  constant S_ .f32 0x00000000#32
theorem val_main_cst_22_apply (i : S_.Idx) :
    val_main_cst_22 (F := F) i = FloatOps.ofBits .f32 0x00000000#32 := rfl

def val_main_v110 : (⟨S128, .f32⟩ : BufTy).Contents (Elt F) :=
  Host.reduceAdd (val_main_v109 x0 x1 x2 x9 x10 x11 x12 x13 x14 x15 x18 x19) (val_main_cst_22 (F := F)) reducesTo_S20000x128_S128_d0 h_S_
abbrev idx_main_v110 (i : S128.Idx) (k : Fin 20000) : S20000x128.Idx := fun a => match a with
  | ⟨0, _⟩ => ⟨k.val, k.isLt⟩
  | ⟨1, _⟩ => ⟨(i 0).val, (i 0).isLt⟩

def val_main_cst_23 : (⟨S_, .f32⟩ : BufTy).Contents (Elt F) :=
  constant S_ .f32 0x469C4000#32
theorem val_main_cst_23_apply (i : S_.Idx) :
    val_main_cst_23 (F := F) i = FloatOps.ofBits .f32 0x469C4000#32 := rfl

def val_main_v111 : (⟨S128, .f32⟩ : BufTy).Contents (Elt F) :=
  broadcastInDim S128 ![] bcast_S_S128 (val_main_cst_23 (F := F))
abbrev idx_main_v111 (i : S128.Idx) : S_.Idx := fun a => a.elim0
theorem val_main_v111_apply (i : S128.Idx) :
    val_main_v111 (F := F) i = val_main_cst_23 (F := F) (idx_main_v111 i) := by
  unfold val_main_v111
  generalize val_main_cst_23 (F := F) = y
  exact broadcastInDim_apply _ bcast_S_S128 y i (idx_main_v111 i) (fun a => a.elim0)

def val_main_v112 : (⟨S128, .f32⟩ : BufTy).Contents (Elt F) :=
  Host.divf (val_main_v110 x0 x1 x2 x9 x10 x11 x12 x13 x14 x15 x18 x19) (val_main_v111 (F := F))
theorem val_main_v112_apply (i : S128.Idx) :
    val_main_v112 x0 x1 x2 x9 x10 x11 x12 x13 x14 x15 x18 x19 i = FloatOps.hostDivf (val_main_v110 x0 x1 x2 x9 x10 x11 x12 x13 x14 x15 x18 x19 i) (val_main_v111 (F := F) i) := rfl

def val_main_v113 : (⟨S1x128, .f32⟩ : BufTy).Contents (Elt F) :=
  broadcastInDim S1x128 ![1] bcast_S128_S1x128_1 (val_main_v105 x0 x1 x2 x9 x10 x11 x12 x13 x14 x15 x18 x19)
abbrev idx_main_v113 (i : S1x128.Idx) : S128.Idx := fun a => match a with
  | ⟨0, _⟩ => ⟨(i 1).val, (i 1).isLt⟩
theorem val_main_v113_apply (i : S1x128.Idx) :
    val_main_v113 x0 x1 x2 x9 x10 x11 x12 x13 x14 x15 x18 x19 i = val_main_v105 x0 x1 x2 x9 x10 x11 x12 x13 x14 x15 x18 x19 (idx_main_v113 i) := by
  unfold val_main_v113
  generalize val_main_v105 x0 x1 x2 x9 x10 x11 x12 x13 x14 x15 x18 x19 = y
  exact broadcastInDim_apply _ bcast_S128_S1x128_1 y i (idx_main_v113 i) (fun a => match a with
    | ⟨0, _⟩ => by show (i 1).val = if (128 : Nat) = 1 then 0 else (i 1).val; rw [if_neg (by decide)])

def val_main_v114 : (⟨S20000x128, .f32⟩ : BufTy).Contents (Elt F) :=
  broadcastInDim S20000x128 ![0, 1] bcast_S1x128_S20000x128_0_1 (val_main_v113 x0 x1 x2 x9 x10 x11 x12 x13 x14 x15 x18 x19)
abbrev idx_main_v114 (i : S20000x128.Idx) : S1x128.Idx := fun a => match a with
  | ⟨0, _⟩ => ⟨0, Nat.one_pos⟩
  | ⟨1, _⟩ => ⟨(i 1).val, (i 1).isLt⟩
theorem val_main_v114_apply (i : S20000x128.Idx) :
    val_main_v114 x0 x1 x2 x9 x10 x11 x12 x13 x14 x15 x18 x19 i = val_main_v113 x0 x1 x2 x9 x10 x11 x12 x13 x14 x15 x18 x19 (idx_main_v114 i) := by
  unfold val_main_v114
  generalize val_main_v113 x0 x1 x2 x9 x10 x11 x12 x13 x14 x15 x18 x19 = y
  exact broadcastInDim_apply _ bcast_S1x128_S20000x128_0_1 y i (idx_main_v114 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v115 : (⟨S20000x128, .f32⟩ : BufTy).Contents (Elt F) :=
  subf (val_main_v102 x0 x1 x2 x9 x10 x11 x12 x13 x14 x15 x18 x19) (val_main_v114 x0 x1 x2 x9 x10 x11 x12 x13 x14 x15 x18 x19)
theorem val_main_v115_apply (i : S20000x128.Idx) :
    val_main_v115 x0 x1 x2 x9 x10 x11 x12 x13 x14 x15 x18 x19 i = FloatOps.subf (val_main_v102 x0 x1 x2 x9 x10 x11 x12 x13 x14 x15 x18 x19 i) (val_main_v114 x0 x1 x2 x9 x10 x11 x12 x13 x14 x15 x18 x19 i) := rfl

def val_main_cst_24 : (⟨S_, .f32⟩ : BufTy).Contents (Elt F) :=
  constant S_ .f32 0x3727C5AC#32
theorem val_main_cst_24_apply (i : S_.Idx) :
    val_main_cst_24 (F := F) i = FloatOps.ofBits .f32 0x3727C5AC#32 := rfl

def val_main_v116 : (⟨S128, .f32⟩ : BufTy).Contents (Elt F) :=
  broadcastInDim S128 ![] bcast_S_S128 (val_main_cst_24 (F := F))
abbrev idx_main_v116 (i : S128.Idx) : S_.Idx := fun a => a.elim0
theorem val_main_v116_apply (i : S128.Idx) :
    val_main_v116 (F := F) i = val_main_cst_24 (F := F) (idx_main_v116 i) := by
  unfold val_main_v116
  generalize val_main_cst_24 (F := F) = y
  exact broadcastInDim_apply _ bcast_S_S128 y i (idx_main_v116 i) (fun a => a.elim0)

def val_main_v117 : (⟨S128, .f32⟩ : BufTy).Contents (Elt F) :=
  addf (val_main_v112 x0 x1 x2 x9 x10 x11 x12 x13 x14 x15 x18 x19) (val_main_v116 (F := F))
theorem val_main_v117_apply (i : S128.Idx) :
    val_main_v117 x0 x1 x2 x9 x10 x11 x12 x13 x14 x15 x18 x19 i = FloatOps.addf (val_main_v112 x0 x1 x2 x9 x10 x11 x12 x13 x14 x15 x18 x19 i) (val_main_v116 (F := F) i) := rfl

def val_main_v118 : (⟨S128, .f32⟩ : BufTy).Contents (Elt F) :=
  Host.rsqrt (val_main_v117 x0 x1 x2 x9 x10 x11 x12 x13 x14 x15 x18 x19)
theorem val_main_v118_apply (i : S128.Idx) :
    val_main_v118 x0 x1 x2 x9 x10 x11 x12 x13 x14 x15 x18 x19 i = FloatOps.hostUnary .rsqrt (val_main_v117 x0 x1 x2 x9 x10 x11 x12 x13 x14 x15 x18 x19 i) := rfl

def val_main_v119 : (⟨S1x128, .f32⟩ : BufTy).Contents (Elt F) :=
  broadcastInDim S1x128 ![1] bcast_S128_S1x128_1 (val_main_v118 x0 x1 x2 x9 x10 x11 x12 x13 x14 x15 x18 x19)
abbrev idx_main_v119 (i : S1x128.Idx) : S128.Idx := fun a => match a with
  | ⟨0, _⟩ => ⟨(i 1).val, (i 1).isLt⟩
theorem val_main_v119_apply (i : S1x128.Idx) :
    val_main_v119 x0 x1 x2 x9 x10 x11 x12 x13 x14 x15 x18 x19 i = val_main_v118 x0 x1 x2 x9 x10 x11 x12 x13 x14 x15 x18 x19 (idx_main_v119 i) := by
  unfold val_main_v119
  generalize val_main_v118 x0 x1 x2 x9 x10 x11 x12 x13 x14 x15 x18 x19 = y
  exact broadcastInDim_apply _ bcast_S128_S1x128_1 y i (idx_main_v119 i) (fun a => match a with
    | ⟨0, _⟩ => by show (i 1).val = if (128 : Nat) = 1 then 0 else (i 1).val; rw [if_neg (by decide)])

def val_main_v120 : (⟨S20000x128, .f32⟩ : BufTy).Contents (Elt F) :=
  broadcastInDim S20000x128 ![0, 1] bcast_S1x128_S20000x128_0_1 (val_main_v119 x0 x1 x2 x9 x10 x11 x12 x13 x14 x15 x18 x19)
abbrev idx_main_v120 (i : S20000x128.Idx) : S1x128.Idx := fun a => match a with
  | ⟨0, _⟩ => ⟨0, Nat.one_pos⟩
  | ⟨1, _⟩ => ⟨(i 1).val, (i 1).isLt⟩
theorem val_main_v120_apply (i : S20000x128.Idx) :
    val_main_v120 x0 x1 x2 x9 x10 x11 x12 x13 x14 x15 x18 x19 i = val_main_v119 x0 x1 x2 x9 x10 x11 x12 x13 x14 x15 x18 x19 (idx_main_v120 i) := by
  unfold val_main_v120
  generalize val_main_v119 x0 x1 x2 x9 x10 x11 x12 x13 x14 x15 x18 x19 = y
  exact broadcastInDim_apply _ bcast_S1x128_S20000x128_0_1 y i (idx_main_v120 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v121 : (⟨S20000x128, .f32⟩ : BufTy).Contents (Elt F) :=
  mulf (val_main_v115 x0 x1 x2 x9 x10 x11 x12 x13 x14 x15 x18 x19) (val_main_v120 x0 x1 x2 x9 x10 x11 x12 x13 x14 x15 x18 x19)
theorem val_main_v121_apply (i : S20000x128.Idx) :
    val_main_v121 x0 x1 x2 x9 x10 x11 x12 x13 x14 x15 x18 x19 i = FloatOps.mulf (val_main_v115 x0 x1 x2 x9 x10 x11 x12 x13 x14 x15 x18 x19 i) (val_main_v120 x0 x1 x2 x9 x10 x11 x12 x13 x14 x15 x18 x19 i) := rfl

def val_main_v122 : (⟨S1x128, .f32⟩ : BufTy).Contents (Elt F) :=
  broadcastInDim S1x128 ![1] bcast_S128_S1x128_1 (x16)
abbrev idx_main_v122 (i : S1x128.Idx) : S128.Idx := fun a => match a with
  | ⟨0, _⟩ => ⟨(i 1).val, (i 1).isLt⟩
theorem val_main_v122_apply (i : S1x128.Idx) :
    val_main_v122 x16 i = x16 (idx_main_v122 i) := by
  unfold val_main_v122
  exact broadcastInDim_apply _ bcast_S128_S1x128_1 x16 i (idx_main_v122 i) (fun a => match a with
    | ⟨0, _⟩ => by show (i 1).val = if (128 : Nat) = 1 then 0 else (i 1).val; rw [if_neg (by decide)])

def val_main_v123 : (⟨S20000x128, .f32⟩ : BufTy).Contents (Elt F) :=
  broadcastInDim S20000x128 ![0, 1] bcast_S1x128_S20000x128_0_1 (val_main_v122 x16)
abbrev idx_main_v123 (i : S20000x128.Idx) : S1x128.Idx := fun a => match a with
  | ⟨0, _⟩ => ⟨0, Nat.one_pos⟩
  | ⟨1, _⟩ => ⟨(i 1).val, (i 1).isLt⟩
theorem val_main_v123_apply (i : S20000x128.Idx) :
    val_main_v123 x16 i = val_main_v122 x16 (idx_main_v123 i) := by
  unfold val_main_v123
  generalize val_main_v122 x16 = y
  exact broadcastInDim_apply _ bcast_S1x128_S20000x128_0_1 y i (idx_main_v123 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v124 : (⟨S20000x128, .f32⟩ : BufTy).Contents (Elt F) :=
  mulf (val_main_v121 x0 x1 x2 x9 x10 x11 x12 x13 x14 x15 x18 x19) (val_main_v123 x16)
theorem val_main_v124_apply (i : S20000x128.Idx) :
    val_main_v124 x0 x1 x2 x9 x10 x11 x12 x13 x14 x15 x16 x18 x19 i = FloatOps.mulf (val_main_v121 x0 x1 x2 x9 x10 x11 x12 x13 x14 x15 x18 x19 i) (val_main_v123 x16 i) := rfl

def val_main_v125 : (⟨S1x128, .f32⟩ : BufTy).Contents (Elt F) :=
  broadcastInDim S1x128 ![1] bcast_S128_S1x128_1 (x17)
abbrev idx_main_v125 (i : S1x128.Idx) : S128.Idx := fun a => match a with
  | ⟨0, _⟩ => ⟨(i 1).val, (i 1).isLt⟩
theorem val_main_v125_apply (i : S1x128.Idx) :
    val_main_v125 x17 i = x17 (idx_main_v125 i) := by
  unfold val_main_v125
  exact broadcastInDim_apply _ bcast_S128_S1x128_1 x17 i (idx_main_v125 i) (fun a => match a with
    | ⟨0, _⟩ => by show (i 1).val = if (128 : Nat) = 1 then 0 else (i 1).val; rw [if_neg (by decide)])

def val_main_v126 : (⟨S20000x128, .f32⟩ : BufTy).Contents (Elt F) :=
  broadcastInDim S20000x128 ![0, 1] bcast_S1x128_S20000x128_0_1 (val_main_v125 x17)
abbrev idx_main_v126 (i : S20000x128.Idx) : S1x128.Idx := fun a => match a with
  | ⟨0, _⟩ => ⟨0, Nat.one_pos⟩
  | ⟨1, _⟩ => ⟨(i 1).val, (i 1).isLt⟩
theorem val_main_v126_apply (i : S20000x128.Idx) :
    val_main_v126 x17 i = val_main_v125 x17 (idx_main_v126 i) := by
  unfold val_main_v126
  generalize val_main_v125 x17 = y
  exact broadcastInDim_apply _ bcast_S1x128_S20000x128_0_1 y i (idx_main_v126 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v127 : (⟨S20000x128, .f32⟩ : BufTy).Contents (Elt F) :=
  addf (val_main_v124 x0 x1 x2 x9 x10 x11 x12 x13 x14 x15 x16 x18 x19) (val_main_v126 x17)
theorem val_main_v127_apply (i : S20000x128.Idx) :
    val_main_v127 x0 x1 x2 x9 x10 x11 x12 x13 x14 x15 x16 x17 x18 x19 i = FloatOps.addf (val_main_v124 x0 x1 x2 x9 x10 x11 x12 x13 x14 x15 x16 x18 x19 i) (val_main_v126 x17 i) := rfl

def val_main_call2_cst : (⟨S_, .f32⟩ : BufTy).Contents (Elt F) :=
  constant S_ .f32 0x00000000#32
theorem val_main_call2_cst_apply (i : S_.Idx) :
    val_main_call2_cst (F := F) i = FloatOps.ofBits .f32 0x00000000#32 := rfl

def val_main_call2_v0 : (⟨S20000x128, .f32⟩ : BufTy).Contents (Elt F) :=
  broadcastInDim S20000x128 ![] bcast_S_S20000x128 (val_main_call2_cst (F := F))
abbrev idx_main_call2_v0 (i : S20000x128.Idx) : S_.Idx := fun a => a.elim0
theorem val_main_call2_v0_apply (i : S20000x128.Idx) :
    val_main_call2_v0 (F := F) i = val_main_call2_cst (F := F) (idx_main_call2_v0 i) := by
  unfold val_main_call2_v0
  generalize val_main_call2_cst (F := F) = y
  exact broadcastInDim_apply _ bcast_S_S20000x128 y i (idx_main_call2_v0 i) (fun a => a.elim0)

def val_main_v128 : (⟨S20000x128, .f32⟩ : BufTy).Contents (Elt F) :=
  maximumf (val_main_v127 x0 x1 x2 x9 x10 x11 x12 x13 x14 x15 x16 x17 x18 x19) (val_main_call2_v0 (F := F))
theorem val_main_v128_apply (i : S20000x128.Idx) :
    val_main_v128 x0 x1 x2 x9 x10 x11 x12 x13 x14 x15 x16 x17 x18 x19 i = FloatOps.maximumf (val_main_v127 x0 x1 x2 x9 x10 x11 x12 x13 x14 x15 x16 x17 x18 x19 i) (val_main_call2_v0 (F := F) i) := rfl

def val_main_cst_25 : (⟨S_, .f32⟩ : BufTy).Contents (Elt F) :=
  constant S_ .f32 0x00000000#32
theorem val_main_cst_25_apply (i : S_.Idx) :
    val_main_cst_25 (F := F) i = FloatOps.ofBits .f32 0x00000000#32 := rfl

def val_main_v129 : (⟨S160000x128, .f32⟩ : BufTy).Contents (Elt F) :=
  broadcastInDim S160000x128 ![] bcast_S_S160000x128 (val_main_cst_25 (F := F))
abbrev idx_main_v129 (i : S160000x128.Idx) : S_.Idx := fun a => a.elim0
theorem val_main_v129_apply (i : S160000x128.Idx) :
    val_main_v129 (F := F) i = val_main_cst_25 (F := F) (idx_main_v129 i) := by
  unfold val_main_v129
  generalize val_main_cst_25 (F := F) = y
  exact broadcastInDim_apply _ bcast_S_S160000x128 y i (idx_main_v129 i) (fun a => a.elim0)

def val_main_v130 : (⟨S320000x1, .i32⟩ : BufTy).Contents (Elt F) :=
  broadcastInDim S320000x1 ![0] bcast_S320000_S320000x1_0 (val_main_v4 (F := F))
abbrev idx_main_v130 (i : S320000x1.Idx) : S320000.Idx := fun a => match a with
  | ⟨0, _⟩ => ⟨(i 0).val, (i 0).isLt⟩
theorem val_main_v130_apply (i : S320000x1.Idx) :
    val_main_v130 (F := F) i = val_main_v4 (F := F) (idx_main_v130 i) := by
  unfold val_main_v130
  generalize val_main_v4 (F := F) = y
  exact broadcastInDim_apply _ bcast_S320000_S320000x1_0 y i (idx_main_v130 i) (fun a => match a with
    | ⟨0, _⟩ => by show (i 0).val = if (320000 : Nat) = 1 then 0 else (i 0).val; rw [if_neg (by decide)])

def val_main_v131 : (⟨S160000x128, .f32⟩ : BufTy).Contents (Elt F) :=
  Host.scatterAdd scatter_S160000x128_S320000x1_S320000x128_1_0_0_1 (val_main_v129 (F := F)) (val_main_v130 (F := F)) (x1)

def val_main_cst_26 : (⟨S_, .f32⟩ : BufTy).Contents (Elt F) :=
  constant S_ .f32 0x3F000000#32
theorem val_main_cst_26_apply (i : S_.Idx) :
    val_main_cst_26 (F := F) i = FloatOps.ofBits .f32 0x3F000000#32 := rfl

def val_main_v132 : (⟨S160000x128, .f32⟩ : BufTy).Contents (Elt F) :=
  broadcastInDim S160000x128 ![] bcast_S_S160000x128 (val_main_cst_26 (F := F))
abbrev idx_main_v132 (i : S160000x128.Idx) : S_.Idx := fun a => a.elim0
theorem val_main_v132_apply (i : S160000x128.Idx) :
    val_main_v132 (F := F) i = val_main_cst_26 (F := F) (idx_main_v132 i) := by
  unfold val_main_v132
  generalize val_main_cst_26 (F := F) = y
  exact broadcastInDim_apply _ bcast_S_S160000x128 y i (idx_main_v132 i) (fun a => a.elim0)

def val_main_v133 : (⟨S160000x128, .f32⟩ : BufTy).Contents (Elt F) :=
  mulf (val_main_v131 x1) (val_main_v132 (F := F))
theorem val_main_v133_apply (i : S160000x128.Idx) :
    val_main_v133 x1 i = FloatOps.mulf (val_main_v131 x1 i) (val_main_v132 (F := F) i) := rfl

def val_main_c_27 : (⟨S_, .i32⟩ : BufTy).Contents (Elt F) :=
  constantI S_ 32 0#32
theorem val_main_c_27_apply (i : S_.Idx) :
    val_main_c_27 (F := F) i = 0#32 := rfl

def val_main_v134 : (⟨S320000, .i32⟩ : BufTy).Contents (Elt F) :=
  broadcastInDim S320000 ![] bcast_S_S320000 (val_main_c_27 (F := F))
abbrev idx_main_v134 (i : S320000.Idx) : S_.Idx := fun a => a.elim0
theorem val_main_v134_apply (i : S320000.Idx) :
    val_main_v134 (F := F) i = val_main_c_27 (F := F) (idx_main_v134 i) := by
  unfold val_main_v134
  generalize val_main_c_27 (F := F) = y
  exact broadcastInDim_apply _ bcast_S_S320000 y i (idx_main_v134 i) (fun a => a.elim0)

def val_main_v135 : (⟨S320000, .i1⟩ : BufTy).Contents (Elt F) :=
  cmpi .slt (val_main_v4 (F := F)) (val_main_v134 (F := F))
theorem val_main_v135_apply (i : S320000.Idx) :
    val_main_v135 (F := F) i = IntOp.cmpi .slt (val_main_v4 (F := F) i) (val_main_v134 (F := F) i) := rfl

def val_main_c_28 : (⟨S_, .i32⟩ : BufTy).Contents (Elt F) :=
  constantI S_ 32 160000#32
theorem val_main_c_28_apply (i : S_.Idx) :
    val_main_c_28 (F := F) i = 160000#32 := rfl

def val_main_v136 : (⟨S320000, .i32⟩ : BufTy).Contents (Elt F) :=
  broadcastInDim S320000 ![] bcast_S_S320000 (val_main_c_28 (F := F))
abbrev idx_main_v136 (i : S320000.Idx) : S_.Idx := fun a => a.elim0
theorem val_main_v136_apply (i : S320000.Idx) :
    val_main_v136 (F := F) i = val_main_c_28 (F := F) (idx_main_v136 i) := by
  unfold val_main_v136
  generalize val_main_c_28 (F := F) = y
  exact broadcastInDim_apply _ bcast_S_S320000 y i (idx_main_v136 i) (fun a => a.elim0)

def val_main_v137 : (⟨S320000, .i32⟩ : BufTy).Contents (Elt F) :=
  addi (val_main_v4 (F := F)) (val_main_v136 (F := F))
theorem val_main_v137_apply (i : S320000.Idx) :
    val_main_v137 (F := F) i = IntOp.addi (val_main_v4 (F := F) i) (val_main_v136 (F := F) i) := rfl

def val_main_v138 : (⟨S320000, .i32⟩ : BufTy).Contents (Elt F) :=
  select (val_main_v135 (F := F)) (val_main_v137 (F := F)) (val_main_v4 (F := F))
theorem val_main_v138_apply (i : S320000.Idx) :
    val_main_v138 (F := F) i = Scalar.select (val_main_v135 (F := F) i) (val_main_v137 (F := F) i) (val_main_v4 (F := F) i) := rfl

def val_main_v139 : (⟨S320000x1, .i32⟩ : BufTy).Contents (Elt F) :=
  broadcastInDim S320000x1 ![0] bcast_S320000_S320000x1_0 (val_main_v138 (F := F))
abbrev idx_main_v139 (i : S320000x1.Idx) : S320000.Idx := fun a => match a with
  | ⟨0, _⟩ => ⟨(i 0).val, (i 0).isLt⟩
theorem val_main_v139_apply (i : S320000x1.Idx) :
    val_main_v139 (F := F) i = val_main_v138 (F := F) (idx_main_v139 i) := by
  unfold val_main_v139
  generalize val_main_v138 (F := F) = y
  exact broadcastInDim_apply _ bcast_S320000_S320000x1_0 y i (idx_main_v139 i) (fun a => match a with
    | ⟨0, _⟩ => by show (i 0).val = if (320000 : Nat) = 1 then 0 else (i 0).val; rw [if_neg (by decide)])

def val_main_v140 : (⟨S320000x128, .f32⟩ : BufTy).Contents (Elt F) :=
  Host.gather gather_S160000x128_S320000x1_S320000x128_1_0_n_n_0_1_1128 (val_main_v133 x1) (val_main_v139 (F := F))

def val_main_v141 : (⟨S320000x256, .f32⟩ : BufTy).Contents (Elt F) :=
  concatenate S320000x256 1 [⟨S320000x128, (val_main_v140 x1)⟩, ⟨S320000x128, (x1)⟩] concatenates_S320000x128_S320000x128_S320000x256_d1

def val_main_cst_29 : (⟨S_, .f32⟩ : BufTy).Contents (Elt F) :=
  constant S_ .f32 0x3F800000#32
theorem val_main_cst_29_apply (i : S_.Idx) :
    val_main_cst_29 (F := F) i = FloatOps.ofBits .f32 0x3F800000#32 := rfl

def val_main_v142 : (⟨S_, .f32⟩ : BufTy).Contents (Elt F) :=
  addf (val_main_cst_29 (F := F)) (x20)
theorem val_main_v142_apply (i : S_.Idx) :
    val_main_v142 x20 i = FloatOps.addf (val_main_cst_29 (F := F) i) (x20 i) := rfl

def val_main_v143 : (⟨S320000x256, .f32⟩ : BufTy).Contents (Elt F) :=
  broadcastInDim S320000x256 ![] bcast_S_S320000x256 (val_main_v142 x20)
abbrev idx_main_v143 (i : S320000x256.Idx) : S_.Idx := fun a => a.elim0
theorem val_main_v143_apply (i : S320000x256.Idx) :
    val_main_v143 x20 i = val_main_v142 x20 (idx_main_v143 i) := by
  unfold val_main_v143
  generalize val_main_v142 x20 = y
  exact broadcastInDim_apply _ bcast_S_S320000x256 y i (idx_main_v143 i) (fun a => a.elim0)

def val_main_v144 : (⟨S320000x256, .f32⟩ : BufTy).Contents (Elt F) :=
  mulf (val_main_v143 x20) (val_main_v141 x1)
theorem val_main_v144_apply (i : S320000x256.Idx) :
    val_main_v144 x1 x20 i = FloatOps.mulf (val_main_v143 x20 i) (val_main_v141 x1 i) := rfl

def val_main_v145 : (⟨S320000x256, .f32⟩ : BufTy).Contents (Elt F) :=
  addf (val_main_v144 x1 x20) (val_main_v22 x0 x2)
theorem val_main_v145_apply (i : S320000x256.Idx) :
    val_main_v145 x0 x1 x2 x20 i = FloatOps.addf (val_main_v144 x1 x20 i) (val_main_v22 x0 x2 i) := rfl

def val_main_v146 : (⟨S320000x256, .f32⟩ : BufTy).Contents (Elt F) :=
  Host.dotGeneral dot_S320000x256_S256x256_S320000x256_1_0_0_1_n_n none (val_main_v145 x0 x1 x2 x20) (x3)
theorem lhs_main_v146_0 (i : S320000x256.Idx) (q : dot_S320000x256_S256x256_S320000x256_1_0_0_1_n_n.contr.Idx) :
    (dot_S320000x256_S256x256_S320000x256_1_0_0_1_n_n.lhsIdx i q 0).val = (i 0).val := by
  unfold DotDims.lhsIdx
  rw [dif_neg (show ¬(0 : Fin S320000x256.rank) ∈ dot_S320000x256_S256x256_S320000x256_1_0_0_1_n_n.lhsBatch by decide), dif_pos (show (0 : Fin S320000x256.rank) ∈ dot_S320000x256_S256x256_S320000x256_1_0_0_1_n_n.lhsNonContracting by decide)]
  rfl
theorem lhs_main_v146_1 (i : S320000x256.Idx) (q : dot_S320000x256_S256x256_S320000x256_1_0_0_1_n_n.contr.Idx) :
    (dot_S320000x256_S256x256_S320000x256_1_0_0_1_n_n.lhsIdx i q 1).val = (q ⟨0, by decide⟩).val :=
  dot_S320000x256_S256x256_S320000x256_1_0_0_1_n_n.lhsIdx_val_of_single rfl i q
theorem rhs_main_v146_0 (i : S320000x256.Idx) (q : dot_S320000x256_S256x256_S320000x256_1_0_0_1_n_n.contr.Idx) :
    (dot_S320000x256_S256x256_S320000x256_1_0_0_1_n_n.rhsIdx i q 0).val = (q ⟨0, by decide⟩).val :=
  dot_S320000x256_S256x256_S320000x256_1_0_0_1_n_n.rhsIdx_val_of_single rfl i q
theorem rhs_main_v146_1 (i : S320000x256.Idx) (q : dot_S320000x256_S256x256_S320000x256_1_0_0_1_n_n.contr.Idx) :
    (dot_S320000x256_S256x256_S320000x256_1_0_0_1_n_n.rhsIdx i q 1).val = (i 1).val := by
  unfold DotDims.rhsIdx
  rw [dif_neg (show ¬(1 : Fin S256x256.rank) ∈ dot_S320000x256_S256x256_S320000x256_1_0_0_1_n_n.rhsBatch by decide), dif_pos (show (1 : Fin S256x256.rank) ∈ dot_S320000x256_S256x256_S320000x256_1_0_0_1_n_n.rhsNonContracting by decide)]
  rfl
abbrev lidx_main_v146 (i : S320000x256.Idx) (k : Fin 256) : S320000x256.Idx := fun a => match a with
  | ⟨0, _⟩ => ⟨(i 0).val, (i 0).isLt⟩
  | ⟨1, _⟩ => ⟨k.val, k.isLt⟩
abbrev ridx_main_v146 (i : S320000x256.Idx) (k : Fin 256) : S256x256.Idx := fun a => match a with
  | ⟨0, _⟩ => ⟨k.val, k.isLt⟩
  | ⟨1, _⟩ => ⟨(i 1).val, (i 1).isLt⟩

def val_main_cst_30 : (⟨S_, .f32⟩ : BufTy).Contents (Elt F) :=
  constant S_ .f32 0x00000000#32
theorem val_main_cst_30_apply (i : S_.Idx) :
    val_main_cst_30 (F := F) i = FloatOps.ofBits .f32 0x00000000#32 := rfl

def val_main_v147 : (⟨S256, .f32⟩ : BufTy).Contents (Elt F) :=
  Host.reduceAdd (val_main_v146 x0 x1 x2 x3 x20) (val_main_cst_30 (F := F)) reducesTo_S320000x256_S256_d0 h_S_
abbrev idx_main_v147 (i : S256.Idx) (k : Fin 320000) : S320000x256.Idx := fun a => match a with
  | ⟨0, _⟩ => ⟨k.val, k.isLt⟩
  | ⟨1, _⟩ => ⟨(i 0).val, (i 0).isLt⟩

def val_main_cst_31 : (⟨S_, .f32⟩ : BufTy).Contents (Elt F) :=
  constant S_ .f32 0x489C4000#32
theorem val_main_cst_31_apply (i : S_.Idx) :
    val_main_cst_31 (F := F) i = FloatOps.ofBits .f32 0x489C4000#32 := rfl

def val_main_v148 : (⟨S256, .f32⟩ : BufTy).Contents (Elt F) :=
  broadcastInDim S256 ![] bcast_S_S256 (val_main_cst_31 (F := F))
abbrev idx_main_v148 (i : S256.Idx) : S_.Idx := fun a => a.elim0
theorem val_main_v148_apply (i : S256.Idx) :
    val_main_v148 (F := F) i = val_main_cst_31 (F := F) (idx_main_v148 i) := by
  unfold val_main_v148
  generalize val_main_cst_31 (F := F) = y
  exact broadcastInDim_apply _ bcast_S_S256 y i (idx_main_v148 i) (fun a => a.elim0)

def val_main_v149 : (⟨S256, .f32⟩ : BufTy).Contents (Elt F) :=
  Host.divf (val_main_v147 x0 x1 x2 x3 x20) (val_main_v148 (F := F))
theorem val_main_v149_apply (i : S256.Idx) :
    val_main_v149 x0 x1 x2 x3 x20 i = FloatOps.hostDivf (val_main_v147 x0 x1 x2 x3 x20 i) (val_main_v148 (F := F) i) := rfl

def val_main_v150 : (⟨S1x256, .f32⟩ : BufTy).Contents (Elt F) :=
  broadcastInDim S1x256 ![1] bcast_S256_S1x256_1 (val_main_v149 x0 x1 x2 x3 x20)
abbrev idx_main_v150 (i : S1x256.Idx) : S256.Idx := fun a => match a with
  | ⟨0, _⟩ => ⟨(i 1).val, (i 1).isLt⟩
theorem val_main_v150_apply (i : S1x256.Idx) :
    val_main_v150 x0 x1 x2 x3 x20 i = val_main_v149 x0 x1 x2 x3 x20 (idx_main_v150 i) := by
  unfold val_main_v150
  generalize val_main_v149 x0 x1 x2 x3 x20 = y
  exact broadcastInDim_apply _ bcast_S256_S1x256_1 y i (idx_main_v150 i) (fun a => match a with
    | ⟨0, _⟩ => by show (i 1).val = if (256 : Nat) = 1 then 0 else (i 1).val; rw [if_neg (by decide)])

def val_main_v151 : (⟨S320000x256, .f32⟩ : BufTy).Contents (Elt F) :=
  broadcastInDim S320000x256 ![0, 1] bcast_S1x256_S320000x256_0_1 (val_main_v150 x0 x1 x2 x3 x20)
abbrev idx_main_v151 (i : S320000x256.Idx) : S1x256.Idx := fun a => match a with
  | ⟨0, _⟩ => ⟨0, Nat.one_pos⟩
  | ⟨1, _⟩ => ⟨(i 1).val, (i 1).isLt⟩
theorem val_main_v151_apply (i : S320000x256.Idx) :
    val_main_v151 x0 x1 x2 x3 x20 i = val_main_v150 x0 x1 x2 x3 x20 (idx_main_v151 i) := by
  unfold val_main_v151
  generalize val_main_v150 x0 x1 x2 x3 x20 = y
  exact broadcastInDim_apply _ bcast_S1x256_S320000x256_0_1 y i (idx_main_v151 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v152 : (⟨S320000x256, .f32⟩ : BufTy).Contents (Elt F) :=
  subf (val_main_v146 x0 x1 x2 x3 x20) (val_main_v151 x0 x1 x2 x3 x20)
theorem val_main_v152_apply (i : S320000x256.Idx) :
    val_main_v152 x0 x1 x2 x3 x20 i = FloatOps.subf (val_main_v146 x0 x1 x2 x3 x20 i) (val_main_v151 x0 x1 x2 x3 x20 i) := rfl

def val_main_v153 : (⟨S320000x256, .f32⟩ : BufTy).Contents (Elt F) :=
  mulf (val_main_v152 x0 x1 x2 x3 x20) (val_main_v152 x0 x1 x2 x3 x20)
theorem val_main_v153_apply (i : S320000x256.Idx) :
    val_main_v153 x0 x1 x2 x3 x20 i = FloatOps.mulf (val_main_v152 x0 x1 x2 x3 x20 i) (val_main_v152 x0 x1 x2 x3 x20 i) := rfl

def val_main_cst_32 : (⟨S_, .f32⟩ : BufTy).Contents (Elt F) :=
  constant S_ .f32 0x00000000#32
theorem val_main_cst_32_apply (i : S_.Idx) :
    val_main_cst_32 (F := F) i = FloatOps.ofBits .f32 0x00000000#32 := rfl

def val_main_v154 : (⟨S256, .f32⟩ : BufTy).Contents (Elt F) :=
  Host.reduceAdd (val_main_v153 x0 x1 x2 x3 x20) (val_main_cst_32 (F := F)) reducesTo_S320000x256_S256_d0 h_S_
abbrev idx_main_v154 (i : S256.Idx) (k : Fin 320000) : S320000x256.Idx := fun a => match a with
  | ⟨0, _⟩ => ⟨k.val, k.isLt⟩
  | ⟨1, _⟩ => ⟨(i 0).val, (i 0).isLt⟩

def val_main_cst_33 : (⟨S_, .f32⟩ : BufTy).Contents (Elt F) :=
  constant S_ .f32 0x489C4000#32
theorem val_main_cst_33_apply (i : S_.Idx) :
    val_main_cst_33 (F := F) i = FloatOps.ofBits .f32 0x489C4000#32 := rfl

def val_main_v155 : (⟨S256, .f32⟩ : BufTy).Contents (Elt F) :=
  broadcastInDim S256 ![] bcast_S_S256 (val_main_cst_33 (F := F))
abbrev idx_main_v155 (i : S256.Idx) : S_.Idx := fun a => a.elim0
theorem val_main_v155_apply (i : S256.Idx) :
    val_main_v155 (F := F) i = val_main_cst_33 (F := F) (idx_main_v155 i) := by
  unfold val_main_v155
  generalize val_main_cst_33 (F := F) = y
  exact broadcastInDim_apply _ bcast_S_S256 y i (idx_main_v155 i) (fun a => a.elim0)

def val_main_v156 : (⟨S256, .f32⟩ : BufTy).Contents (Elt F) :=
  Host.divf (val_main_v154 x0 x1 x2 x3 x20) (val_main_v155 (F := F))
theorem val_main_v156_apply (i : S256.Idx) :
    val_main_v156 x0 x1 x2 x3 x20 i = FloatOps.hostDivf (val_main_v154 x0 x1 x2 x3 x20 i) (val_main_v155 (F := F) i) := rfl

def val_main_v157 : (⟨S1x256, .f32⟩ : BufTy).Contents (Elt F) :=
  broadcastInDim S1x256 ![1] bcast_S256_S1x256_1 (val_main_v149 x0 x1 x2 x3 x20)
abbrev idx_main_v157 (i : S1x256.Idx) : S256.Idx := fun a => match a with
  | ⟨0, _⟩ => ⟨(i 1).val, (i 1).isLt⟩
theorem val_main_v157_apply (i : S1x256.Idx) :
    val_main_v157 x0 x1 x2 x3 x20 i = val_main_v149 x0 x1 x2 x3 x20 (idx_main_v157 i) := by
  unfold val_main_v157
  generalize val_main_v149 x0 x1 x2 x3 x20 = y
  exact broadcastInDim_apply _ bcast_S256_S1x256_1 y i (idx_main_v157 i) (fun a => match a with
    | ⟨0, _⟩ => by show (i 1).val = if (256 : Nat) = 1 then 0 else (i 1).val; rw [if_neg (by decide)])

def val_main_v158 : (⟨S320000x256, .f32⟩ : BufTy).Contents (Elt F) :=
  broadcastInDim S320000x256 ![0, 1] bcast_S1x256_S320000x256_0_1 (val_main_v157 x0 x1 x2 x3 x20)
abbrev idx_main_v158 (i : S320000x256.Idx) : S1x256.Idx := fun a => match a with
  | ⟨0, _⟩ => ⟨0, Nat.one_pos⟩
  | ⟨1, _⟩ => ⟨(i 1).val, (i 1).isLt⟩
theorem val_main_v158_apply (i : S320000x256.Idx) :
    val_main_v158 x0 x1 x2 x3 x20 i = val_main_v157 x0 x1 x2 x3 x20 (idx_main_v158 i) := by
  unfold val_main_v158
  generalize val_main_v157 x0 x1 x2 x3 x20 = y
  exact broadcastInDim_apply _ bcast_S1x256_S320000x256_0_1 y i (idx_main_v158 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v159 : (⟨S320000x256, .f32⟩ : BufTy).Contents (Elt F) :=
  subf (val_main_v146 x0 x1 x2 x3 x20) (val_main_v158 x0 x1 x2 x3 x20)
theorem val_main_v159_apply (i : S320000x256.Idx) :
    val_main_v159 x0 x1 x2 x3 x20 i = FloatOps.subf (val_main_v146 x0 x1 x2 x3 x20 i) (val_main_v158 x0 x1 x2 x3 x20 i) := rfl

def val_main_cst_34 : (⟨S_, .f32⟩ : BufTy).Contents (Elt F) :=
  constant S_ .f32 0x3727C5AC#32
theorem val_main_cst_34_apply (i : S_.Idx) :
    val_main_cst_34 (F := F) i = FloatOps.ofBits .f32 0x3727C5AC#32 := rfl

def val_main_v160 : (⟨S256, .f32⟩ : BufTy).Contents (Elt F) :=
  broadcastInDim S256 ![] bcast_S_S256 (val_main_cst_34 (F := F))
abbrev idx_main_v160 (i : S256.Idx) : S_.Idx := fun a => a.elim0
theorem val_main_v160_apply (i : S256.Idx) :
    val_main_v160 (F := F) i = val_main_cst_34 (F := F) (idx_main_v160 i) := by
  unfold val_main_v160
  generalize val_main_cst_34 (F := F) = y
  exact broadcastInDim_apply _ bcast_S_S256 y i (idx_main_v160 i) (fun a => a.elim0)

def val_main_v161 : (⟨S256, .f32⟩ : BufTy).Contents (Elt F) :=
  addf (val_main_v156 x0 x1 x2 x3 x20) (val_main_v160 (F := F))
theorem val_main_v161_apply (i : S256.Idx) :
    val_main_v161 x0 x1 x2 x3 x20 i = FloatOps.addf (val_main_v156 x0 x1 x2 x3 x20 i) (val_main_v160 (F := F) i) := rfl

def val_main_v162 : (⟨S256, .f32⟩ : BufTy).Contents (Elt F) :=
  Host.rsqrt (val_main_v161 x0 x1 x2 x3 x20)
theorem val_main_v162_apply (i : S256.Idx) :
    val_main_v162 x0 x1 x2 x3 x20 i = FloatOps.hostUnary .rsqrt (val_main_v161 x0 x1 x2 x3 x20 i) := rfl

def val_main_v163 : (⟨S1x256, .f32⟩ : BufTy).Contents (Elt F) :=
  broadcastInDim S1x256 ![1] bcast_S256_S1x256_1 (val_main_v162 x0 x1 x2 x3 x20)
abbrev idx_main_v163 (i : S1x256.Idx) : S256.Idx := fun a => match a with
  | ⟨0, _⟩ => ⟨(i 1).val, (i 1).isLt⟩
theorem val_main_v163_apply (i : S1x256.Idx) :
    val_main_v163 x0 x1 x2 x3 x20 i = val_main_v162 x0 x1 x2 x3 x20 (idx_main_v163 i) := by
  unfold val_main_v163
  generalize val_main_v162 x0 x1 x2 x3 x20 = y
  exact broadcastInDim_apply _ bcast_S256_S1x256_1 y i (idx_main_v163 i) (fun a => match a with
    | ⟨0, _⟩ => by show (i 1).val = if (256 : Nat) = 1 then 0 else (i 1).val; rw [if_neg (by decide)])

def val_main_v164 : (⟨S320000x256, .f32⟩ : BufTy).Contents (Elt F) :=
  broadcastInDim S320000x256 ![0, 1] bcast_S1x256_S320000x256_0_1 (val_main_v163 x0 x1 x2 x3 x20)
abbrev idx_main_v164 (i : S320000x256.Idx) : S1x256.Idx := fun a => match a with
  | ⟨0, _⟩ => ⟨0, Nat.one_pos⟩
  | ⟨1, _⟩ => ⟨(i 1).val, (i 1).isLt⟩
theorem val_main_v164_apply (i : S320000x256.Idx) :
    val_main_v164 x0 x1 x2 x3 x20 i = val_main_v163 x0 x1 x2 x3 x20 (idx_main_v164 i) := by
  unfold val_main_v164
  generalize val_main_v163 x0 x1 x2 x3 x20 = y
  exact broadcastInDim_apply _ bcast_S1x256_S320000x256_0_1 y i (idx_main_v164 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v165 : (⟨S320000x256, .f32⟩ : BufTy).Contents (Elt F) :=
  mulf (val_main_v159 x0 x1 x2 x3 x20) (val_main_v164 x0 x1 x2 x3 x20)
theorem val_main_v165_apply (i : S320000x256.Idx) :
    val_main_v165 x0 x1 x2 x3 x20 i = FloatOps.mulf (val_main_v159 x0 x1 x2 x3 x20 i) (val_main_v164 x0 x1 x2 x3 x20 i) := rfl

def val_main_v166 : (⟨S1x256, .f32⟩ : BufTy).Contents (Elt F) :=
  broadcastInDim S1x256 ![1] bcast_S256_S1x256_1 (x4)
abbrev idx_main_v166 (i : S1x256.Idx) : S256.Idx := fun a => match a with
  | ⟨0, _⟩ => ⟨(i 1).val, (i 1).isLt⟩
theorem val_main_v166_apply (i : S1x256.Idx) :
    val_main_v166 x4 i = x4 (idx_main_v166 i) := by
  unfold val_main_v166
  exact broadcastInDim_apply _ bcast_S256_S1x256_1 x4 i (idx_main_v166 i) (fun a => match a with
    | ⟨0, _⟩ => by show (i 1).val = if (256 : Nat) = 1 then 0 else (i 1).val; rw [if_neg (by decide)])

def val_main_v167 : (⟨S320000x256, .f32⟩ : BufTy).Contents (Elt F) :=
  broadcastInDim S320000x256 ![0, 1] bcast_S1x256_S320000x256_0_1 (val_main_v166 x4)
abbrev idx_main_v167 (i : S320000x256.Idx) : S1x256.Idx := fun a => match a with
  | ⟨0, _⟩ => ⟨0, Nat.one_pos⟩
  | ⟨1, _⟩ => ⟨(i 1).val, (i 1).isLt⟩
theorem val_main_v167_apply (i : S320000x256.Idx) :
    val_main_v167 x4 i = val_main_v166 x4 (idx_main_v167 i) := by
  unfold val_main_v167
  generalize val_main_v166 x4 = y
  exact broadcastInDim_apply _ bcast_S1x256_S320000x256_0_1 y i (idx_main_v167 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v168 : (⟨S320000x256, .f32⟩ : BufTy).Contents (Elt F) :=
  mulf (val_main_v165 x0 x1 x2 x3 x20) (val_main_v167 x4)
theorem val_main_v168_apply (i : S320000x256.Idx) :
    val_main_v168 x0 x1 x2 x3 x4 x20 i = FloatOps.mulf (val_main_v165 x0 x1 x2 x3 x20 i) (val_main_v167 x4 i) := rfl

def val_main_v169 : (⟨S1x256, .f32⟩ : BufTy).Contents (Elt F) :=
  broadcastInDim S1x256 ![1] bcast_S256_S1x256_1 (x5)
abbrev idx_main_v169 (i : S1x256.Idx) : S256.Idx := fun a => match a with
  | ⟨0, _⟩ => ⟨(i 1).val, (i 1).isLt⟩
theorem val_main_v169_apply (i : S1x256.Idx) :
    val_main_v169 x5 i = x5 (idx_main_v169 i) := by
  unfold val_main_v169
  exact broadcastInDim_apply _ bcast_S256_S1x256_1 x5 i (idx_main_v169 i) (fun a => match a with
    | ⟨0, _⟩ => by show (i 1).val = if (256 : Nat) = 1 then 0 else (i 1).val; rw [if_neg (by decide)])

def val_main_v170 : (⟨S320000x256, .f32⟩ : BufTy).Contents (Elt F) :=
  broadcastInDim S320000x256 ![0, 1] bcast_S1x256_S320000x256_0_1 (val_main_v169 x5)
abbrev idx_main_v170 (i : S320000x256.Idx) : S1x256.Idx := fun a => match a with
  | ⟨0, _⟩ => ⟨0, Nat.one_pos⟩
  | ⟨1, _⟩ => ⟨(i 1).val, (i 1).isLt⟩
theorem val_main_v170_apply (i : S320000x256.Idx) :
    val_main_v170 x5 i = val_main_v169 x5 (idx_main_v170 i) := by
  unfold val_main_v170
  generalize val_main_v169 x5 = y
  exact broadcastInDim_apply _ bcast_S1x256_S320000x256_0_1 y i (idx_main_v170 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v171 : (⟨S320000x256, .f32⟩ : BufTy).Contents (Elt F) :=
  addf (val_main_v168 x0 x1 x2 x3 x4 x20) (val_main_v170 x5)
theorem val_main_v171_apply (i : S320000x256.Idx) :
    val_main_v171 x0 x1 x2 x3 x4 x5 x20 i = FloatOps.addf (val_main_v168 x0 x1 x2 x3 x4 x20 i) (val_main_v170 x5 i) := rfl

def val_main_call3_cst : (⟨S_, .f32⟩ : BufTy).Contents (Elt F) :=
  constant S_ .f32 0x00000000#32
theorem val_main_call3_cst_apply (i : S_.Idx) :
    val_main_call3_cst (F := F) i = FloatOps.ofBits .f32 0x00000000#32 := rfl

def val_main_call3_v0 : (⟨S320000x256, .f32⟩ : BufTy).Contents (Elt F) :=
  broadcastInDim S320000x256 ![] bcast_S_S320000x256 (val_main_call3_cst (F := F))
abbrev idx_main_call3_v0 (i : S320000x256.Idx) : S_.Idx := fun a => a.elim0
theorem val_main_call3_v0_apply (i : S320000x256.Idx) :
    val_main_call3_v0 (F := F) i = val_main_call3_cst (F := F) (idx_main_call3_v0 i) := by
  unfold val_main_call3_v0
  generalize val_main_call3_cst (F := F) = y
  exact broadcastInDim_apply _ bcast_S_S320000x256 y i (idx_main_call3_v0 i) (fun a => a.elim0)

def val_main_v172 : (⟨S320000x256, .f32⟩ : BufTy).Contents (Elt F) :=
  maximumf (val_main_v171 x0 x1 x2 x3 x4 x5 x20) (val_main_call3_v0 (F := F))
theorem val_main_v172_apply (i : S320000x256.Idx) :
    val_main_v172 x0 x1 x2 x3 x4 x5 x20 i = FloatOps.maximumf (val_main_v171 x0 x1 x2 x3 x4 x5 x20 i) (val_main_call3_v0 (F := F) i) := rfl

def val_main_v173 : (⟨S320000x128, .f32⟩ : BufTy).Contents (Elt F) :=
  Host.dotGeneral dot_S320000x256_S256x128_S320000x128_1_0_0_1_n_n none (val_main_v172 x0 x1 x2 x3 x4 x5 x20) (x6)
theorem lhs_main_v173_0 (i : S320000x128.Idx) (q : dot_S320000x256_S256x128_S320000x128_1_0_0_1_n_n.contr.Idx) :
    (dot_S320000x256_S256x128_S320000x128_1_0_0_1_n_n.lhsIdx i q 0).val = (i 0).val := by
  unfold DotDims.lhsIdx
  rw [dif_neg (show ¬(0 : Fin S320000x256.rank) ∈ dot_S320000x256_S256x128_S320000x128_1_0_0_1_n_n.lhsBatch by decide), dif_pos (show (0 : Fin S320000x256.rank) ∈ dot_S320000x256_S256x128_S320000x128_1_0_0_1_n_n.lhsNonContracting by decide)]
  rfl
theorem lhs_main_v173_1 (i : S320000x128.Idx) (q : dot_S320000x256_S256x128_S320000x128_1_0_0_1_n_n.contr.Idx) :
    (dot_S320000x256_S256x128_S320000x128_1_0_0_1_n_n.lhsIdx i q 1).val = (q ⟨0, by decide⟩).val :=
  dot_S320000x256_S256x128_S320000x128_1_0_0_1_n_n.lhsIdx_val_of_single rfl i q
theorem rhs_main_v173_0 (i : S320000x128.Idx) (q : dot_S320000x256_S256x128_S320000x128_1_0_0_1_n_n.contr.Idx) :
    (dot_S320000x256_S256x128_S320000x128_1_0_0_1_n_n.rhsIdx i q 0).val = (q ⟨0, by decide⟩).val :=
  dot_S320000x256_S256x128_S320000x128_1_0_0_1_n_n.rhsIdx_val_of_single rfl i q
theorem rhs_main_v173_1 (i : S320000x128.Idx) (q : dot_S320000x256_S256x128_S320000x128_1_0_0_1_n_n.contr.Idx) :
    (dot_S320000x256_S256x128_S320000x128_1_0_0_1_n_n.rhsIdx i q 1).val = (i 1).val := by
  unfold DotDims.rhsIdx
  rw [dif_neg (show ¬(1 : Fin S256x128.rank) ∈ dot_S320000x256_S256x128_S320000x128_1_0_0_1_n_n.rhsBatch by decide), dif_pos (show (1 : Fin S256x128.rank) ∈ dot_S320000x256_S256x128_S320000x128_1_0_0_1_n_n.rhsNonContracting by decide)]
  rfl
abbrev lidx_main_v173 (i : S320000x128.Idx) (k : Fin 256) : S320000x256.Idx := fun a => match a with
  | ⟨0, _⟩ => ⟨(i 0).val, (i 0).isLt⟩
  | ⟨1, _⟩ => ⟨k.val, k.isLt⟩
abbrev ridx_main_v173 (i : S320000x128.Idx) (k : Fin 256) : S256x128.Idx := fun a => match a with
  | ⟨0, _⟩ => ⟨k.val, k.isLt⟩
  | ⟨1, _⟩ => ⟨(i 1).val, (i 1).isLt⟩

def val_main_cst_35 : (⟨S_, .f32⟩ : BufTy).Contents (Elt F) :=
  constant S_ .f32 0x00000000#32
theorem val_main_cst_35_apply (i : S_.Idx) :
    val_main_cst_35 (F := F) i = FloatOps.ofBits .f32 0x00000000#32 := rfl

def val_main_v174 : (⟨S128, .f32⟩ : BufTy).Contents (Elt F) :=
  Host.reduceAdd (val_main_v173 x0 x1 x2 x3 x4 x5 x6 x20) (val_main_cst_35 (F := F)) reducesTo_S320000x128_S128_d0 h_S_
abbrev idx_main_v174 (i : S128.Idx) (k : Fin 320000) : S320000x128.Idx := fun a => match a with
  | ⟨0, _⟩ => ⟨k.val, k.isLt⟩
  | ⟨1, _⟩ => ⟨(i 0).val, (i 0).isLt⟩

def val_main_cst_36 : (⟨S_, .f32⟩ : BufTy).Contents (Elt F) :=
  constant S_ .f32 0x489C4000#32
theorem val_main_cst_36_apply (i : S_.Idx) :
    val_main_cst_36 (F := F) i = FloatOps.ofBits .f32 0x489C4000#32 := rfl

def val_main_v175 : (⟨S128, .f32⟩ : BufTy).Contents (Elt F) :=
  broadcastInDim S128 ![] bcast_S_S128 (val_main_cst_36 (F := F))
abbrev idx_main_v175 (i : S128.Idx) : S_.Idx := fun a => a.elim0
theorem val_main_v175_apply (i : S128.Idx) :
    val_main_v175 (F := F) i = val_main_cst_36 (F := F) (idx_main_v175 i) := by
  unfold val_main_v175
  generalize val_main_cst_36 (F := F) = y
  exact broadcastInDim_apply _ bcast_S_S128 y i (idx_main_v175 i) (fun a => a.elim0)

def val_main_v176 : (⟨S128, .f32⟩ : BufTy).Contents (Elt F) :=
  Host.divf (val_main_v174 x0 x1 x2 x3 x4 x5 x6 x20) (val_main_v175 (F := F))
theorem val_main_v176_apply (i : S128.Idx) :
    val_main_v176 x0 x1 x2 x3 x4 x5 x6 x20 i = FloatOps.hostDivf (val_main_v174 x0 x1 x2 x3 x4 x5 x6 x20 i) (val_main_v175 (F := F) i) := rfl

def val_main_v177 : (⟨S1x128, .f32⟩ : BufTy).Contents (Elt F) :=
  broadcastInDim S1x128 ![1] bcast_S128_S1x128_1 (val_main_v176 x0 x1 x2 x3 x4 x5 x6 x20)
abbrev idx_main_v177 (i : S1x128.Idx) : S128.Idx := fun a => match a with
  | ⟨0, _⟩ => ⟨(i 1).val, (i 1).isLt⟩
theorem val_main_v177_apply (i : S1x128.Idx) :
    val_main_v177 x0 x1 x2 x3 x4 x5 x6 x20 i = val_main_v176 x0 x1 x2 x3 x4 x5 x6 x20 (idx_main_v177 i) := by
  unfold val_main_v177
  generalize val_main_v176 x0 x1 x2 x3 x4 x5 x6 x20 = y
  exact broadcastInDim_apply _ bcast_S128_S1x128_1 y i (idx_main_v177 i) (fun a => match a with
    | ⟨0, _⟩ => by show (i 1).val = if (128 : Nat) = 1 then 0 else (i 1).val; rw [if_neg (by decide)])

def val_main_v178 : (⟨S320000x128, .f32⟩ : BufTy).Contents (Elt F) :=
  broadcastInDim S320000x128 ![0, 1] bcast_S1x128_S320000x128_0_1 (val_main_v177 x0 x1 x2 x3 x4 x5 x6 x20)
abbrev idx_main_v178 (i : S320000x128.Idx) : S1x128.Idx := fun a => match a with
  | ⟨0, _⟩ => ⟨0, Nat.one_pos⟩
  | ⟨1, _⟩ => ⟨(i 1).val, (i 1).isLt⟩
theorem val_main_v178_apply (i : S320000x128.Idx) :
    val_main_v178 x0 x1 x2 x3 x4 x5 x6 x20 i = val_main_v177 x0 x1 x2 x3 x4 x5 x6 x20 (idx_main_v178 i) := by
  unfold val_main_v178
  generalize val_main_v177 x0 x1 x2 x3 x4 x5 x6 x20 = y
  exact broadcastInDim_apply _ bcast_S1x128_S320000x128_0_1 y i (idx_main_v178 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v179 : (⟨S320000x128, .f32⟩ : BufTy).Contents (Elt F) :=
  subf (val_main_v173 x0 x1 x2 x3 x4 x5 x6 x20) (val_main_v178 x0 x1 x2 x3 x4 x5 x6 x20)
theorem val_main_v179_apply (i : S320000x128.Idx) :
    val_main_v179 x0 x1 x2 x3 x4 x5 x6 x20 i = FloatOps.subf (val_main_v173 x0 x1 x2 x3 x4 x5 x6 x20 i) (val_main_v178 x0 x1 x2 x3 x4 x5 x6 x20 i) := rfl

def val_main_v180 : (⟨S320000x128, .f32⟩ : BufTy).Contents (Elt F) :=
  mulf (val_main_v179 x0 x1 x2 x3 x4 x5 x6 x20) (val_main_v179 x0 x1 x2 x3 x4 x5 x6 x20)
theorem val_main_v180_apply (i : S320000x128.Idx) :
    val_main_v180 x0 x1 x2 x3 x4 x5 x6 x20 i = FloatOps.mulf (val_main_v179 x0 x1 x2 x3 x4 x5 x6 x20 i) (val_main_v179 x0 x1 x2 x3 x4 x5 x6 x20 i) := rfl

def val_main_cst_37 : (⟨S_, .f32⟩ : BufTy).Contents (Elt F) :=
  constant S_ .f32 0x00000000#32
theorem val_main_cst_37_apply (i : S_.Idx) :
    val_main_cst_37 (F := F) i = FloatOps.ofBits .f32 0x00000000#32 := rfl

def val_main_v181 : (⟨S128, .f32⟩ : BufTy).Contents (Elt F) :=
  Host.reduceAdd (val_main_v180 x0 x1 x2 x3 x4 x5 x6 x20) (val_main_cst_37 (F := F)) reducesTo_S320000x128_S128_d0 h_S_
abbrev idx_main_v181 (i : S128.Idx) (k : Fin 320000) : S320000x128.Idx := fun a => match a with
  | ⟨0, _⟩ => ⟨k.val, k.isLt⟩
  | ⟨1, _⟩ => ⟨(i 0).val, (i 0).isLt⟩

def val_main_cst_38 : (⟨S_, .f32⟩ : BufTy).Contents (Elt F) :=
  constant S_ .f32 0x489C4000#32
theorem val_main_cst_38_apply (i : S_.Idx) :
    val_main_cst_38 (F := F) i = FloatOps.ofBits .f32 0x489C4000#32 := rfl

def val_main_v182 : (⟨S128, .f32⟩ : BufTy).Contents (Elt F) :=
  broadcastInDim S128 ![] bcast_S_S128 (val_main_cst_38 (F := F))
abbrev idx_main_v182 (i : S128.Idx) : S_.Idx := fun a => a.elim0
theorem val_main_v182_apply (i : S128.Idx) :
    val_main_v182 (F := F) i = val_main_cst_38 (F := F) (idx_main_v182 i) := by
  unfold val_main_v182
  generalize val_main_cst_38 (F := F) = y
  exact broadcastInDim_apply _ bcast_S_S128 y i (idx_main_v182 i) (fun a => a.elim0)

def val_main_v183 : (⟨S128, .f32⟩ : BufTy).Contents (Elt F) :=
  Host.divf (val_main_v181 x0 x1 x2 x3 x4 x5 x6 x20) (val_main_v182 (F := F))
theorem val_main_v183_apply (i : S128.Idx) :
    val_main_v183 x0 x1 x2 x3 x4 x5 x6 x20 i = FloatOps.hostDivf (val_main_v181 x0 x1 x2 x3 x4 x5 x6 x20 i) (val_main_v182 (F := F) i) := rfl

def val_main_v184 : (⟨S1x128, .f32⟩ : BufTy).Contents (Elt F) :=
  broadcastInDim S1x128 ![1] bcast_S128_S1x128_1 (val_main_v176 x0 x1 x2 x3 x4 x5 x6 x20)
abbrev idx_main_v184 (i : S1x128.Idx) : S128.Idx := fun a => match a with
  | ⟨0, _⟩ => ⟨(i 1).val, (i 1).isLt⟩
theorem val_main_v184_apply (i : S1x128.Idx) :
    val_main_v184 x0 x1 x2 x3 x4 x5 x6 x20 i = val_main_v176 x0 x1 x2 x3 x4 x5 x6 x20 (idx_main_v184 i) := by
  unfold val_main_v184
  generalize val_main_v176 x0 x1 x2 x3 x4 x5 x6 x20 = y
  exact broadcastInDim_apply _ bcast_S128_S1x128_1 y i (idx_main_v184 i) (fun a => match a with
    | ⟨0, _⟩ => by show (i 1).val = if (128 : Nat) = 1 then 0 else (i 1).val; rw [if_neg (by decide)])

def val_main_v185 : (⟨S320000x128, .f32⟩ : BufTy).Contents (Elt F) :=
  broadcastInDim S320000x128 ![0, 1] bcast_S1x128_S320000x128_0_1 (val_main_v184 x0 x1 x2 x3 x4 x5 x6 x20)
abbrev idx_main_v185 (i : S320000x128.Idx) : S1x128.Idx := fun a => match a with
  | ⟨0, _⟩ => ⟨0, Nat.one_pos⟩
  | ⟨1, _⟩ => ⟨(i 1).val, (i 1).isLt⟩
theorem val_main_v185_apply (i : S320000x128.Idx) :
    val_main_v185 x0 x1 x2 x3 x4 x5 x6 x20 i = val_main_v184 x0 x1 x2 x3 x4 x5 x6 x20 (idx_main_v185 i) := by
  unfold val_main_v185
  generalize val_main_v184 x0 x1 x2 x3 x4 x5 x6 x20 = y
  exact broadcastInDim_apply _ bcast_S1x128_S320000x128_0_1 y i (idx_main_v185 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v186 : (⟨S320000x128, .f32⟩ : BufTy).Contents (Elt F) :=
  subf (val_main_v173 x0 x1 x2 x3 x4 x5 x6 x20) (val_main_v185 x0 x1 x2 x3 x4 x5 x6 x20)
theorem val_main_v186_apply (i : S320000x128.Idx) :
    val_main_v186 x0 x1 x2 x3 x4 x5 x6 x20 i = FloatOps.subf (val_main_v173 x0 x1 x2 x3 x4 x5 x6 x20 i) (val_main_v185 x0 x1 x2 x3 x4 x5 x6 x20 i) := rfl

def val_main_cst_39 : (⟨S_, .f32⟩ : BufTy).Contents (Elt F) :=
  constant S_ .f32 0x3727C5AC#32
theorem val_main_cst_39_apply (i : S_.Idx) :
    val_main_cst_39 (F := F) i = FloatOps.ofBits .f32 0x3727C5AC#32 := rfl

def val_main_v187 : (⟨S128, .f32⟩ : BufTy).Contents (Elt F) :=
  broadcastInDim S128 ![] bcast_S_S128 (val_main_cst_39 (F := F))
abbrev idx_main_v187 (i : S128.Idx) : S_.Idx := fun a => a.elim0
theorem val_main_v187_apply (i : S128.Idx) :
    val_main_v187 (F := F) i = val_main_cst_39 (F := F) (idx_main_v187 i) := by
  unfold val_main_v187
  generalize val_main_cst_39 (F := F) = y
  exact broadcastInDim_apply _ bcast_S_S128 y i (idx_main_v187 i) (fun a => a.elim0)

def val_main_v188 : (⟨S128, .f32⟩ : BufTy).Contents (Elt F) :=
  addf (val_main_v183 x0 x1 x2 x3 x4 x5 x6 x20) (val_main_v187 (F := F))
theorem val_main_v188_apply (i : S128.Idx) :
    val_main_v188 x0 x1 x2 x3 x4 x5 x6 x20 i = FloatOps.addf (val_main_v183 x0 x1 x2 x3 x4 x5 x6 x20 i) (val_main_v187 (F := F) i) := rfl

def val_main_v189 : (⟨S128, .f32⟩ : BufTy).Contents (Elt F) :=
  Host.rsqrt (val_main_v188 x0 x1 x2 x3 x4 x5 x6 x20)
theorem val_main_v189_apply (i : S128.Idx) :
    val_main_v189 x0 x1 x2 x3 x4 x5 x6 x20 i = FloatOps.hostUnary .rsqrt (val_main_v188 x0 x1 x2 x3 x4 x5 x6 x20 i) := rfl

def val_main_v190 : (⟨S1x128, .f32⟩ : BufTy).Contents (Elt F) :=
  broadcastInDim S1x128 ![1] bcast_S128_S1x128_1 (val_main_v189 x0 x1 x2 x3 x4 x5 x6 x20)
abbrev idx_main_v190 (i : S1x128.Idx) : S128.Idx := fun a => match a with
  | ⟨0, _⟩ => ⟨(i 1).val, (i 1).isLt⟩
theorem val_main_v190_apply (i : S1x128.Idx) :
    val_main_v190 x0 x1 x2 x3 x4 x5 x6 x20 i = val_main_v189 x0 x1 x2 x3 x4 x5 x6 x20 (idx_main_v190 i) := by
  unfold val_main_v190
  generalize val_main_v189 x0 x1 x2 x3 x4 x5 x6 x20 = y
  exact broadcastInDim_apply _ bcast_S128_S1x128_1 y i (idx_main_v190 i) (fun a => match a with
    | ⟨0, _⟩ => by show (i 1).val = if (128 : Nat) = 1 then 0 else (i 1).val; rw [if_neg (by decide)])

def val_main_v191 : (⟨S320000x128, .f32⟩ : BufTy).Contents (Elt F) :=
  broadcastInDim S320000x128 ![0, 1] bcast_S1x128_S320000x128_0_1 (val_main_v190 x0 x1 x2 x3 x4 x5 x6 x20)
abbrev idx_main_v191 (i : S320000x128.Idx) : S1x128.Idx := fun a => match a with
  | ⟨0, _⟩ => ⟨0, Nat.one_pos⟩
  | ⟨1, _⟩ => ⟨(i 1).val, (i 1).isLt⟩
theorem val_main_v191_apply (i : S320000x128.Idx) :
    val_main_v191 x0 x1 x2 x3 x4 x5 x6 x20 i = val_main_v190 x0 x1 x2 x3 x4 x5 x6 x20 (idx_main_v191 i) := by
  unfold val_main_v191
  generalize val_main_v190 x0 x1 x2 x3 x4 x5 x6 x20 = y
  exact broadcastInDim_apply _ bcast_S1x128_S320000x128_0_1 y i (idx_main_v191 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v192 : (⟨S320000x128, .f32⟩ : BufTy).Contents (Elt F) :=
  mulf (val_main_v186 x0 x1 x2 x3 x4 x5 x6 x20) (val_main_v191 x0 x1 x2 x3 x4 x5 x6 x20)
theorem val_main_v192_apply (i : S320000x128.Idx) :
    val_main_v192 x0 x1 x2 x3 x4 x5 x6 x20 i = FloatOps.mulf (val_main_v186 x0 x1 x2 x3 x4 x5 x6 x20 i) (val_main_v191 x0 x1 x2 x3 x4 x5 x6 x20 i) := rfl

def val_main_v193 : (⟨S1x128, .f32⟩ : BufTy).Contents (Elt F) :=
  broadcastInDim S1x128 ![1] bcast_S128_S1x128_1 (x7)
abbrev idx_main_v193 (i : S1x128.Idx) : S128.Idx := fun a => match a with
  | ⟨0, _⟩ => ⟨(i 1).val, (i 1).isLt⟩
theorem val_main_v193_apply (i : S1x128.Idx) :
    val_main_v193 x7 i = x7 (idx_main_v193 i) := by
  unfold val_main_v193
  exact broadcastInDim_apply _ bcast_S128_S1x128_1 x7 i (idx_main_v193 i) (fun a => match a with
    | ⟨0, _⟩ => by show (i 1).val = if (128 : Nat) = 1 then 0 else (i 1).val; rw [if_neg (by decide)])

def val_main_v194 : (⟨S320000x128, .f32⟩ : BufTy).Contents (Elt F) :=
  broadcastInDim S320000x128 ![0, 1] bcast_S1x128_S320000x128_0_1 (val_main_v193 x7)
abbrev idx_main_v194 (i : S320000x128.Idx) : S1x128.Idx := fun a => match a with
  | ⟨0, _⟩ => ⟨0, Nat.one_pos⟩
  | ⟨1, _⟩ => ⟨(i 1).val, (i 1).isLt⟩
theorem val_main_v194_apply (i : S320000x128.Idx) :
    val_main_v194 x7 i = val_main_v193 x7 (idx_main_v194 i) := by
  unfold val_main_v194
  generalize val_main_v193 x7 = y
  exact broadcastInDim_apply _ bcast_S1x128_S320000x128_0_1 y i (idx_main_v194 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v195 : (⟨S320000x128, .f32⟩ : BufTy).Contents (Elt F) :=
  mulf (val_main_v192 x0 x1 x2 x3 x4 x5 x6 x20) (val_main_v194 x7)
theorem val_main_v195_apply (i : S320000x128.Idx) :
    val_main_v195 x0 x1 x2 x3 x4 x5 x6 x7 x20 i = FloatOps.mulf (val_main_v192 x0 x1 x2 x3 x4 x5 x6 x20 i) (val_main_v194 x7 i) := rfl

def val_main_v196 : (⟨S1x128, .f32⟩ : BufTy).Contents (Elt F) :=
  broadcastInDim S1x128 ![1] bcast_S128_S1x128_1 (x8)
abbrev idx_main_v196 (i : S1x128.Idx) : S128.Idx := fun a => match a with
  | ⟨0, _⟩ => ⟨(i 1).val, (i 1).isLt⟩
theorem val_main_v196_apply (i : S1x128.Idx) :
    val_main_v196 x8 i = x8 (idx_main_v196 i) := by
  unfold val_main_v196
  exact broadcastInDim_apply _ bcast_S128_S1x128_1 x8 i (idx_main_v196 i) (fun a => match a with
    | ⟨0, _⟩ => by show (i 1).val = if (128 : Nat) = 1 then 0 else (i 1).val; rw [if_neg (by decide)])

def val_main_v197 : (⟨S320000x128, .f32⟩ : BufTy).Contents (Elt F) :=
  broadcastInDim S320000x128 ![0, 1] bcast_S1x128_S320000x128_0_1 (val_main_v196 x8)
abbrev idx_main_v197 (i : S320000x128.Idx) : S1x128.Idx := fun a => match a with
  | ⟨0, _⟩ => ⟨0, Nat.one_pos⟩
  | ⟨1, _⟩ => ⟨(i 1).val, (i 1).isLt⟩
theorem val_main_v197_apply (i : S320000x128.Idx) :
    val_main_v197 x8 i = val_main_v196 x8 (idx_main_v197 i) := by
  unfold val_main_v197
  generalize val_main_v196 x8 = y
  exact broadcastInDim_apply _ bcast_S1x128_S320000x128_0_1 y i (idx_main_v197 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v198 : (⟨S320000x128, .f32⟩ : BufTy).Contents (Elt F) :=
  addf (val_main_v195 x0 x1 x2 x3 x4 x5 x6 x7 x20) (val_main_v197 x8)
theorem val_main_v198_apply (i : S320000x128.Idx) :
    val_main_v198 x0 x1 x2 x3 x4 x5 x6 x7 x8 x20 i = FloatOps.addf (val_main_v195 x0 x1 x2 x3 x4 x5 x6 x7 x20 i) (val_main_v197 x8 i) := rfl

def val_main_call4_cst : (⟨S_, .f32⟩ : BufTy).Contents (Elt F) :=
  constant S_ .f32 0x00000000#32
theorem val_main_call4_cst_apply (i : S_.Idx) :
    val_main_call4_cst (F := F) i = FloatOps.ofBits .f32 0x00000000#32 := rfl

def val_main_call4_v0 : (⟨S320000x128, .f32⟩ : BufTy).Contents (Elt F) :=
  broadcastInDim S320000x128 ![] bcast_S_S320000x128 (val_main_call4_cst (F := F))
abbrev idx_main_call4_v0 (i : S320000x128.Idx) : S_.Idx := fun a => a.elim0
theorem val_main_call4_v0_apply (i : S320000x128.Idx) :
    val_main_call4_v0 (F := F) i = val_main_call4_cst (F := F) (idx_main_call4_v0 i) := by
  unfold val_main_call4_v0
  generalize val_main_call4_cst (F := F) = y
  exact broadcastInDim_apply _ bcast_S_S320000x128 y i (idx_main_call4_v0 i) (fun a => a.elim0)

def val_main_v199 : (⟨S320000x128, .f32⟩ : BufTy).Contents (Elt F) :=
  maximumf (val_main_v198 x0 x1 x2 x3 x4 x5 x6 x7 x8 x20) (val_main_call4_v0 (F := F))
theorem val_main_v199_apply (i : S320000x128.Idx) :
    val_main_v199 x0 x1 x2 x3 x4 x5 x6 x7 x8 x20 i = FloatOps.maximumf (val_main_v198 x0 x1 x2 x3 x4 x5 x6 x7 x8 x20 i) (val_main_call4_v0 (F := F) i) := rfl

end

section

variable (x0 : (⟨S20000x128, .f32⟩ : BufTy).Contents (Elt Ideal))
  (x1 : (⟨S320000x128, .f32⟩ : BufTy).Contents (Elt Ideal))
  (x2 : (⟨S2x160000, .i32⟩ : BufTy).Contents (Elt Ideal))
  (x3 : (⟨S256x256, .f32⟩ : BufTy).Contents (Elt Ideal))
  (x4 x5 : (⟨S256, .f32⟩ : BufTy).Contents (Elt Ideal))
  (x6 : (⟨S256x128, .f32⟩ : BufTy).Contents (Elt Ideal))
  (x9 : (⟨S384x128, .f32⟩ : BufTy).Contents (Elt Ideal))
  (x10 x11 : (⟨S128, .f32⟩ : BufTy).Contents (Elt Ideal))
  (x12 : (⟨S128x256, .f32⟩ : BufTy).Contents (Elt Ideal))
  (x13 x14 : (⟨S256, .f32⟩ : BufTy).Contents (Elt Ideal))
  (x15 : (⟨S256x128, .f32⟩ : BufTy).Contents (Elt Ideal))
  (x18 x19 x20 : (⟨S_, .f32⟩ : BufTy).Contents (Elt Ideal))

theorem val_main_v24_apply (i : S320000x128.Idx) :
    val_main_v24 x0 x1 x2 x9 i = ∑ k : Fin 384, (val_main_v23 x0 x1 x2) (lidx_main_v24 i k) * x9 (ridx_main_v24 i k) := by
  unfold val_main_v24
  generalize val_main_v23 x0 x1 x2 = y0
  simp only [Host.dotGeneral]
  rw [Ideal.dotGeneral_apply, ← Equiv.sum_comp (ValueIdx.contrEquiv1 dot_S320000x384_S384x128_S320000x128_1_0_0_1_n_n 384 rfl rfl).symm]
  refine Finset.sum_congr rfl fun k _ => ?_
  have hk := ValueIdx.contrEquiv1_symm_val dot_S320000x384_S384x128_S320000x128_1_0_0_1_n_n 384 rfl rfl k
  have el : dot_S320000x384_S384x128_S320000x128_1_0_0_1_n_n.lhsIdx i ((ValueIdx.contrEquiv1 dot_S320000x384_S384x128_S320000x128_1_0_0_1_n_n 384 rfl rfl).symm k) = lidx_main_v24 i k := funext fun a => Fin.ext (by
    match a with
    | ⟨0, _⟩ => exact lhs_main_v24_0 _ _
    | ⟨1, _⟩ => exact (lhs_main_v24_1 _ _).trans hk)
  have er : dot_S320000x384_S384x128_S320000x128_1_0_0_1_n_n.rhsIdx i ((ValueIdx.contrEquiv1 dot_S320000x384_S384x128_S320000x128_1_0_0_1_n_n 384 rfl rfl).symm k) = ridx_main_v24 i k := funext fun a => Fin.ext (by
    match a with
    | ⟨0, _⟩ => exact (rhs_main_v24_0 _ _).trans hk
    | ⟨1, _⟩ => exact rhs_main_v24_1 _ _)
  rw [el, er]

theorem val_main_v25_apply (i : S128.Idx) :
    val_main_v25 x0 x1 x2 x9 i = (val_main_cst_3 (F := Ideal)) (Shape.Idx.first h_S_) + ∑ k : Fin 320000, (val_main_v24 x0 x1 x2 x9) (idx_main_v25 i k) := by
  unfold val_main_v25
  generalize val_main_v24 x0 x1 x2 x9 = y0
  simp only [Host.reduceAdd, Ideal.hostReduceAdd_def]
  rw [Ideal.hostReduceAdd_single reducesTo_S320000x128_S128_d0 (by decide)]
  refine congrArg (_ + ·) (Finset.sum_congr rfl fun k _ => ?_)
  exact congrArg y0 (funext fun a => Fin.ext (by match a with | ⟨0, _⟩ => rfl | ⟨1, _⟩ => rfl))

theorem val_main_v32_apply (i : S128.Idx) :
    val_main_v32 x0 x1 x2 x9 i = (val_main_cst_5 (F := Ideal)) (Shape.Idx.first h_S_) + ∑ k : Fin 320000, (val_main_v31 x0 x1 x2 x9) (idx_main_v32 i k) := by
  unfold val_main_v32
  generalize val_main_v31 x0 x1 x2 x9 = y0
  simp only [Host.reduceAdd, Ideal.hostReduceAdd_def]
  rw [Ideal.hostReduceAdd_single reducesTo_S320000x128_S128_d0 (by decide)]
  refine congrArg (_ + ·) (Finset.sum_congr rfl fun k _ => ?_)
  exact congrArg y0 (funext fun a => Fin.ext (by match a with | ⟨0, _⟩ => rfl | ⟨1, _⟩ => rfl))

theorem val_main_v75_apply (i : S20000x256.Idx) :
    val_main_v75 x0 x1 x2 x9 x10 x11 x12 x18 x19 i = ∑ k : Fin 128, (val_main_v74 x0 x1 x2 x9 x10 x11 x18 x19) (lidx_main_v75 i k) * x12 (ridx_main_v75 i k) := by
  unfold val_main_v75
  generalize val_main_v74 x0 x1 x2 x9 x10 x11 x18 x19 = y0
  simp only [Host.dotGeneral]
  rw [Ideal.dotGeneral_apply, ← Equiv.sum_comp (ValueIdx.contrEquiv1 dot_S20000x128_S128x256_S20000x256_1_0_0_1_n_n 128 rfl rfl).symm]
  refine Finset.sum_congr rfl fun k _ => ?_
  have hk := ValueIdx.contrEquiv1_symm_val dot_S20000x128_S128x256_S20000x256_1_0_0_1_n_n 128 rfl rfl k
  have el : dot_S20000x128_S128x256_S20000x256_1_0_0_1_n_n.lhsIdx i ((ValueIdx.contrEquiv1 dot_S20000x128_S128x256_S20000x256_1_0_0_1_n_n 128 rfl rfl).symm k) = lidx_main_v75 i k := funext fun a => Fin.ext (by
    match a with
    | ⟨0, _⟩ => exact lhs_main_v75_0 _ _
    | ⟨1, _⟩ => exact (lhs_main_v75_1 _ _).trans hk)
  have er : dot_S20000x128_S128x256_S20000x256_1_0_0_1_n_n.rhsIdx i ((ValueIdx.contrEquiv1 dot_S20000x128_S128x256_S20000x256_1_0_0_1_n_n 128 rfl rfl).symm k) = ridx_main_v75 i k := funext fun a => Fin.ext (by
    match a with
    | ⟨0, _⟩ => exact (rhs_main_v75_0 _ _).trans hk
    | ⟨1, _⟩ => exact rhs_main_v75_1 _ _)
  rw [el, er]

theorem val_main_v76_apply (i : S256.Idx) :
    val_main_v76 x0 x1 x2 x9 x10 x11 x12 x18 x19 i = (val_main_cst_15 (F := Ideal)) (Shape.Idx.first h_S_) + ∑ k : Fin 20000, (val_main_v75 x0 x1 x2 x9 x10 x11 x12 x18 x19) (idx_main_v76 i k) := by
  unfold val_main_v76
  generalize val_main_v75 x0 x1 x2 x9 x10 x11 x12 x18 x19 = y0
  simp only [Host.reduceAdd, Ideal.hostReduceAdd_def]
  rw [Ideal.hostReduceAdd_single reducesTo_S20000x256_S256_d0 (by decide)]
  refine congrArg (_ + ·) (Finset.sum_congr rfl fun k _ => ?_)
  exact congrArg y0 (funext fun a => Fin.ext (by match a with | ⟨0, _⟩ => rfl | ⟨1, _⟩ => rfl))

theorem val_main_v83_apply (i : S256.Idx) :
    val_main_v83 x0 x1 x2 x9 x10 x11 x12 x18 x19 i = (val_main_cst_17 (F := Ideal)) (Shape.Idx.first h_S_) + ∑ k : Fin 20000, (val_main_v82 x0 x1 x2 x9 x10 x11 x12 x18 x19) (idx_main_v83 i k) := by
  unfold val_main_v83
  generalize val_main_v82 x0 x1 x2 x9 x10 x11 x12 x18 x19 = y0
  simp only [Host.reduceAdd, Ideal.hostReduceAdd_def]
  rw [Ideal.hostReduceAdd_single reducesTo_S20000x256_S256_d0 (by decide)]
  refine congrArg (_ + ·) (Finset.sum_congr rfl fun k _ => ?_)
  exact congrArg y0 (funext fun a => Fin.ext (by match a with | ⟨0, _⟩ => rfl | ⟨1, _⟩ => rfl))

theorem val_main_v102_apply (i : S20000x128.Idx) :
    val_main_v102 x0 x1 x2 x9 x10 x11 x12 x13 x14 x15 x18 x19 i = ∑ k : Fin 256, (val_main_v101 x0 x1 x2 x9 x10 x11 x12 x13 x14 x18 x19) (lidx_main_v102 i k) * x15 (ridx_main_v102 i k) := by
  unfold val_main_v102
  generalize val_main_v101 x0 x1 x2 x9 x10 x11 x12 x13 x14 x18 x19 = y0
  simp only [Host.dotGeneral]
  rw [Ideal.dotGeneral_apply, ← Equiv.sum_comp (ValueIdx.contrEquiv1 dot_S20000x256_S256x128_S20000x128_1_0_0_1_n_n 256 rfl rfl).symm]
  refine Finset.sum_congr rfl fun k _ => ?_
  have hk := ValueIdx.contrEquiv1_symm_val dot_S20000x256_S256x128_S20000x128_1_0_0_1_n_n 256 rfl rfl k
  have el : dot_S20000x256_S256x128_S20000x128_1_0_0_1_n_n.lhsIdx i ((ValueIdx.contrEquiv1 dot_S20000x256_S256x128_S20000x128_1_0_0_1_n_n 256 rfl rfl).symm k) = lidx_main_v102 i k := funext fun a => Fin.ext (by
    match a with
    | ⟨0, _⟩ => exact lhs_main_v102_0 _ _
    | ⟨1, _⟩ => exact (lhs_main_v102_1 _ _).trans hk)
  have er : dot_S20000x256_S256x128_S20000x128_1_0_0_1_n_n.rhsIdx i ((ValueIdx.contrEquiv1 dot_S20000x256_S256x128_S20000x128_1_0_0_1_n_n 256 rfl rfl).symm k) = ridx_main_v102 i k := funext fun a => Fin.ext (by
    match a with
    | ⟨0, _⟩ => exact (rhs_main_v102_0 _ _).trans hk
    | ⟨1, _⟩ => exact rhs_main_v102_1 _ _)
  rw [el, er]

theorem val_main_v103_apply (i : S128.Idx) :
    val_main_v103 x0 x1 x2 x9 x10 x11 x12 x13 x14 x15 x18 x19 i = (val_main_cst_20 (F := Ideal)) (Shape.Idx.first h_S_) + ∑ k : Fin 20000, (val_main_v102 x0 x1 x2 x9 x10 x11 x12 x13 x14 x15 x18 x19) (idx_main_v103 i k) := by
  unfold val_main_v103
  generalize val_main_v102 x0 x1 x2 x9 x10 x11 x12 x13 x14 x15 x18 x19 = y0
  simp only [Host.reduceAdd, Ideal.hostReduceAdd_def]
  rw [Ideal.hostReduceAdd_single reducesTo_S20000x128_S128_d0 (by decide)]
  refine congrArg (_ + ·) (Finset.sum_congr rfl fun k _ => ?_)
  exact congrArg y0 (funext fun a => Fin.ext (by match a with | ⟨0, _⟩ => rfl | ⟨1, _⟩ => rfl))

theorem val_main_v110_apply (i : S128.Idx) :
    val_main_v110 x0 x1 x2 x9 x10 x11 x12 x13 x14 x15 x18 x19 i = (val_main_cst_22 (F := Ideal)) (Shape.Idx.first h_S_) + ∑ k : Fin 20000, (val_main_v109 x0 x1 x2 x9 x10 x11 x12 x13 x14 x15 x18 x19) (idx_main_v110 i k) := by
  unfold val_main_v110
  generalize val_main_v109 x0 x1 x2 x9 x10 x11 x12 x13 x14 x15 x18 x19 = y0
  simp only [Host.reduceAdd, Ideal.hostReduceAdd_def]
  rw [Ideal.hostReduceAdd_single reducesTo_S20000x128_S128_d0 (by decide)]
  refine congrArg (_ + ·) (Finset.sum_congr rfl fun k _ => ?_)
  exact congrArg y0 (funext fun a => Fin.ext (by match a with | ⟨0, _⟩ => rfl | ⟨1, _⟩ => rfl))

theorem val_main_v146_apply (i : S320000x256.Idx) :
    val_main_v146 x0 x1 x2 x3 x20 i = ∑ k : Fin 256, (val_main_v145 x0 x1 x2 x20) (lidx_main_v146 i k) * x3 (ridx_main_v146 i k) := by
  unfold val_main_v146
  generalize val_main_v145 x0 x1 x2 x20 = y0
  simp only [Host.dotGeneral]
  rw [Ideal.dotGeneral_apply, ← Equiv.sum_comp (ValueIdx.contrEquiv1 dot_S320000x256_S256x256_S320000x256_1_0_0_1_n_n 256 rfl rfl).symm]
  refine Finset.sum_congr rfl fun k _ => ?_
  have hk := ValueIdx.contrEquiv1_symm_val dot_S320000x256_S256x256_S320000x256_1_0_0_1_n_n 256 rfl rfl k
  have el : dot_S320000x256_S256x256_S320000x256_1_0_0_1_n_n.lhsIdx i ((ValueIdx.contrEquiv1 dot_S320000x256_S256x256_S320000x256_1_0_0_1_n_n 256 rfl rfl).symm k) = lidx_main_v146 i k := funext fun a => Fin.ext (by
    match a with
    | ⟨0, _⟩ => exact lhs_main_v146_0 _ _
    | ⟨1, _⟩ => exact (lhs_main_v146_1 _ _).trans hk)
  have er : dot_S320000x256_S256x256_S320000x256_1_0_0_1_n_n.rhsIdx i ((ValueIdx.contrEquiv1 dot_S320000x256_S256x256_S320000x256_1_0_0_1_n_n 256 rfl rfl).symm k) = ridx_main_v146 i k := funext fun a => Fin.ext (by
    match a with
    | ⟨0, _⟩ => exact (rhs_main_v146_0 _ _).trans hk
    | ⟨1, _⟩ => exact rhs_main_v146_1 _ _)
  rw [el, er]

theorem val_main_v147_apply (i : S256.Idx) :
    val_main_v147 x0 x1 x2 x3 x20 i = (val_main_cst_30 (F := Ideal)) (Shape.Idx.first h_S_) + ∑ k : Fin 320000, (val_main_v146 x0 x1 x2 x3 x20) (idx_main_v147 i k) := by
  unfold val_main_v147
  generalize val_main_v146 x0 x1 x2 x3 x20 = y0
  simp only [Host.reduceAdd, Ideal.hostReduceAdd_def]
  rw [Ideal.hostReduceAdd_single reducesTo_S320000x256_S256_d0 (by decide)]
  refine congrArg (_ + ·) (Finset.sum_congr rfl fun k _ => ?_)
  exact congrArg y0 (funext fun a => Fin.ext (by match a with | ⟨0, _⟩ => rfl | ⟨1, _⟩ => rfl))

theorem val_main_v154_apply (i : S256.Idx) :
    val_main_v154 x0 x1 x2 x3 x20 i = (val_main_cst_32 (F := Ideal)) (Shape.Idx.first h_S_) + ∑ k : Fin 320000, (val_main_v153 x0 x1 x2 x3 x20) (idx_main_v154 i k) := by
  unfold val_main_v154
  generalize val_main_v153 x0 x1 x2 x3 x20 = y0
  simp only [Host.reduceAdd, Ideal.hostReduceAdd_def]
  rw [Ideal.hostReduceAdd_single reducesTo_S320000x256_S256_d0 (by decide)]
  refine congrArg (_ + ·) (Finset.sum_congr rfl fun k _ => ?_)
  exact congrArg y0 (funext fun a => Fin.ext (by match a with | ⟨0, _⟩ => rfl | ⟨1, _⟩ => rfl))

theorem val_main_v173_apply (i : S320000x128.Idx) :
    val_main_v173 x0 x1 x2 x3 x4 x5 x6 x20 i = ∑ k : Fin 256, (val_main_v172 x0 x1 x2 x3 x4 x5 x20) (lidx_main_v173 i k) * x6 (ridx_main_v173 i k) := by
  unfold val_main_v173
  generalize val_main_v172 x0 x1 x2 x3 x4 x5 x20 = y0
  simp only [Host.dotGeneral]
  rw [Ideal.dotGeneral_apply, ← Equiv.sum_comp (ValueIdx.contrEquiv1 dot_S320000x256_S256x128_S320000x128_1_0_0_1_n_n 256 rfl rfl).symm]
  refine Finset.sum_congr rfl fun k _ => ?_
  have hk := ValueIdx.contrEquiv1_symm_val dot_S320000x256_S256x128_S320000x128_1_0_0_1_n_n 256 rfl rfl k
  have el : dot_S320000x256_S256x128_S320000x128_1_0_0_1_n_n.lhsIdx i ((ValueIdx.contrEquiv1 dot_S320000x256_S256x128_S320000x128_1_0_0_1_n_n 256 rfl rfl).symm k) = lidx_main_v173 i k := funext fun a => Fin.ext (by
    match a with
    | ⟨0, _⟩ => exact lhs_main_v173_0 _ _
    | ⟨1, _⟩ => exact (lhs_main_v173_1 _ _).trans hk)
  have er : dot_S320000x256_S256x128_S320000x128_1_0_0_1_n_n.rhsIdx i ((ValueIdx.contrEquiv1 dot_S320000x256_S256x128_S320000x128_1_0_0_1_n_n 256 rfl rfl).symm k) = ridx_main_v173 i k := funext fun a => Fin.ext (by
    match a with
    | ⟨0, _⟩ => exact (rhs_main_v173_0 _ _).trans hk
    | ⟨1, _⟩ => exact rhs_main_v173_1 _ _)
  rw [el, er]

theorem val_main_v174_apply (i : S128.Idx) :
    val_main_v174 x0 x1 x2 x3 x4 x5 x6 x20 i = (val_main_cst_35 (F := Ideal)) (Shape.Idx.first h_S_) + ∑ k : Fin 320000, (val_main_v173 x0 x1 x2 x3 x4 x5 x6 x20) (idx_main_v174 i k) := by
  unfold val_main_v174
  generalize val_main_v173 x0 x1 x2 x3 x4 x5 x6 x20 = y0
  simp only [Host.reduceAdd, Ideal.hostReduceAdd_def]
  rw [Ideal.hostReduceAdd_single reducesTo_S320000x128_S128_d0 (by decide)]
  refine congrArg (_ + ·) (Finset.sum_congr rfl fun k _ => ?_)
  exact congrArg y0 (funext fun a => Fin.ext (by match a with | ⟨0, _⟩ => rfl | ⟨1, _⟩ => rfl))

theorem val_main_v181_apply (i : S128.Idx) :
    val_main_v181 x0 x1 x2 x3 x4 x5 x6 x20 i = (val_main_cst_37 (F := Ideal)) (Shape.Idx.first h_S_) + ∑ k : Fin 320000, (val_main_v180 x0 x1 x2 x3 x4 x5 x6 x20) (idx_main_v181 i k) := by
  unfold val_main_v181
  generalize val_main_v180 x0 x1 x2 x3 x4 x5 x6 x20 = y0
  simp only [Host.reduceAdd, Ideal.hostReduceAdd_def]
  rw [Ideal.hostReduceAdd_single reducesTo_S320000x128_S128_d0 (by decide)]
  refine congrArg (_ + ·) (Finset.sum_congr rfl fun k _ => ?_)
  exact congrArg y0 (funext fun a => Fin.ext (by match a with | ⟨0, _⟩ => rfl | ⟨1, _⟩ => rfl))

end

end Cert.ReferenceIdeal.Read

end
-- ==== Proof.RefGen.lean ====
import proofs.«160401_j10462540333326_1_alg».proof.Proof.RunP
import proofs.«160401_j10462540333326_1_alg».proof.Proof.ReadP
-- ==== Proof.RArgs.lean ====
import proofs.«160401_j10462540333326_1_alg».proof.ReferenceIdeal
import proofs.«160401_j10462540333326_1_alg».proof.Proof.Spec

noncomputable section

namespace Cert.ReferenceIdeal

open Idealize.ShloMosaic Idealize.ShloMosaic.ValueIdx Idealize.SL.Sem

def args (m : (ℓ : Loc nD τ sig) → Buf (Elt Ideal) ℓ) (c : Dev nD) : Cert.Spec.Args where
  nr := fun p q => m ((c.tc : Thread nD τ).loc main_arg0) (ix2 p q)
  er := fun p q => m ((c.tc : Thread nD τ).loc main_arg1) (ix2 p q)
  ei := fun p q => m ((c.tc : Thread nD τ).loc main_arg2) (ix2 p q)
  lw1 := fun p q => m ((c.tc : Thread nD τ).loc main_arg3) (ix2 p q)
  lg1 := fun q => m ((c.tc : Thread nD τ).loc main_arg4) (ix1 q)
  lb1 := fun q => m ((c.tc : Thread nD τ).loc main_arg5) (ix1 q)
  lw2 := fun p q => m ((c.tc : Thread nD τ).loc main_arg6) (ix2 p q)
  lg2 := fun q => m ((c.tc : Thread nD τ).loc main_arg7) (ix1 q)
  lb2 := fun q => m ((c.tc : Thread nD τ).loc main_arg8) (ix1 q)
  w1 := fun p q => m ((c.tc : Thread nD τ).loc main_arg9) (ix2 p q)
  g1 := fun q => m ((c.tc : Thread nD τ).loc main_arg10) (ix1 q)
  b1 := fun q => m ((c.tc : Thread nD τ).loc main_arg11) (ix1 q)
  nw1 := fun p q => m ((c.tc : Thread nD τ).loc main_arg12) (ix2 p q)
  ng1 := fun q => m ((c.tc : Thread nD τ).loc main_arg13) (ix1 q)
  nb1 := fun q => m ((c.tc : Thread nD τ).loc main_arg14) (ix1 q)
  nw2 := fun p q => m ((c.tc : Thread nD τ).loc main_arg15) (ix2 p q)
  ng2 := fun q => m ((c.tc : Thread nD τ).loc main_arg16) (ix1 q)
  nb2 := fun q => m ((c.tc : Thread nD τ).loc main_arg17) (ix1 q)
  e11 := m ((c.tc : Thread nD τ).loc main_arg18) ix0
  e12 := m ((c.tc : Thread nD τ).loc main_arg19) ix0
  e2 := m ((c.tc : Thread nD τ).loc main_arg20) ix0

end Cert.ReferenceIdeal

end
-- ==== Proof.RX0.lean ====
import proofs.«160401_j10462540333326_1_alg».proof.Proof.RefGen
import proofs.«160401_j10462540333326_1_alg».proof.Proof.Spec
import proofs.«160401_j10462540333326_1_alg».proof.Proof.LibRowGatherScatter

set_option maxRecDepth 16384

noncomputable section

namespace Cert.ReferenceIdeal.RefRead

open Cert.ReferenceIdeal Cert.ReferenceIdeal.Gen Cert.ReferenceIdeal.Read Idealize.ShloMosaic Idealize.ShloMosaic.TcCoe
open Idealize.ShloMosaic.ValueIdx Idealize.SL.Sem
open Cert.Spec (ofMat ofVec ofRow ofScalar ofRowsK ofRowsR Side)

theorem toInt_ofNat_small (k : Nat) (h : k < 2147483648) : (BitVec.ofNat 32 k).toInt = (k : Int) := by
  have h1 : (BitVec.ofNat 32 k).toNat = k := by
    rw [BitVec.toNat_ofNat]
    exact Nat.mod_eq_of_lt (by omega)
  rw [BitVec.toInt_eq_toNat_of_lt (by rw [h1]; omega), h1]

theorem nrm_ofNat_small (n : BitVec 32) (k : Nat) (h : k < 2147483648) :
    Scalar.select (IntOp.cmpi .slt (BitVec.ofNat 32 k) 0#32) (IntOp.addi (BitVec.ofNat 32 k) n) (BitVec.ofNat 32 k)
      = BitVec.ofNat 32 k := by
  have hs : (BitVec.ofNat 32 k).slt 0#32 = false := by
    rw [BitVec.slt_eq_decide, toInt_ofNat_small k h, BitVec.toInt_zero]
    exact decide_eq_false (by omega)
  have hc : IntOp.cmpi .slt (BitVec.ofNat 32 k) 0#32 = 0#1 := by
    show BitVec.ofBool ((BitVec.ofNat 32 k).slt 0#32) = 0#1
    rw [hs]
    rfl
  rw [hc, select_zero]

theorem sum_pair {M : Type} [AddCommMonoid M] (F : Fin 320000 → M) (e : Fin 160000) :
    (∑ r : Fin 320000, if r.val / 2 = e.val then F r else 0)
      = F ⟨2 * e.val, by have := e.isLt; omega⟩ + F ⟨2 * e.val + 1, by have := e.isLt; omega⟩ := by
  have he := e.isLt
  rw [Finset.sum_eq_add (⟨2 * e.val, by omega⟩ : Fin 320000) ⟨2 * e.val + 1, by omega⟩]
  · rw [if_pos (show (2 * e.val) / 2 = e.val by omega), if_pos (show (2 * e.val + 1) / 2 = e.val by omega)]
  · intro h
    have := congrArg Fin.val h
    simp at this
  · intro c _ hc
    rw [if_neg]
    intro h
    rcases Nat.mod_two_eq_zero_or_one c.val with h0 | h1
    · exact hc.1 (Fin.ext (show c.val = 2 * e.val by omega))
    · exact hc.2 (Fin.ext (show c.val = 2 * e.val + 1 by omega))
  · intro h; exact absurd (Finset.mem_univ _) h
  · intro h; exact absurd (Finset.mem_univ _) h

theorem rSide_two_mul (e : Fin 160000) (h : 2 * e.val < 320000) : Cert.Spec.rSide ⟨2 * e.val, h⟩ = (0, e) := by
  apply Prod.ext
  · apply Fin.ext
    show (2 * e.val) % 2 = 0
    omega
  · apply Fin.ext
    show (2 * e.val) / 2 = e.val
    omega

theorem rSide_two_mul_succ (e : Fin 160000) (h : 2 * e.val + 1 < 320000) : Cert.Spec.rSide ⟨2 * e.val + 1, h⟩ = (1, e) := by
  apply Prod.ext
  · apply Fin.ext
    show (2 * e.val + 1) % 2 = 1
    omega
  · apply Fin.ext
    show (2 * e.val + 1) / 2 = e.val
    omega

theorem erRow_rSide (r : Fin 320000) : Cert.Spec.erRow (Cert.Spec.rSide r) = r := by
  apply Fin.ext
  show 2 * (r.val / 2) + r.val % 2 = r.val
  omega

theorem gather_node_read (H : S20000x128.Idx → EReal) (idx : IVec S320000x1 32) (r : Fin 320000) (q : Fin 128)
    (k : Fin 20000) (hk : min (idx (ix2 r 0)).toInt.toNat (20000 - 1) = k.val) :
    Host.gather gather_S20000x128_S320000x1_S320000x128_1_0_n_n_0_1_1128 H idx (ix2 r q) = H (ix2 k q) :=
  (Cert.Lib.RowPass.ga_apply gather_S20000x128_S320000x1_S320000x128_1_0_n_n_0_1_1128_wf (by decide) H idx r q).trans
    (congrArg (fun k => H (ix2 k q)) (Fin.ext hk))

theorem gather_edge_read (H : S160000x128.Idx → EReal) (idx : IVec S320000x1 32) (r : Fin 320000) (q : Fin 128)
    (k : Fin 160000) (hk : min (idx (ix2 r 0)).toInt.toNat (160000 - 1) = k.val) :
    Host.gather gather_S160000x128_S320000x1_S320000x128_1_0_n_n_0_1_1128 H idx (ix2 r q) = H (ix2 k q) :=
  (Cert.Lib.RowPass.ga_apply gather_S160000x128_S320000x1_S320000x128_1_0_n_n_0_1_1128_wf (by decide) H idx r q).trans
    (congrArg (fun k => H (ix2 k q)) (Fin.ext hk))

theorem scatter_edge_read (x : S160000x128.Idx → EReal) (idx : IVec S320000x1 32) (upd : S320000x128.Idx → EReal)
    (e : Fin 160000) (q : Fin 128) :
    Host.scatterAdd (F := Ideal) (φ := .f32) scatter_S160000x128_S320000x1_S320000x128_1_0_0_1 x idx upd (ix2 e q)
      = x (ix2 e q) + ∑ r : Fin 320000, if (idx (ix2 r 0)).toInt = (e.val : Int) then upd (ix2 r q) else 0 :=
  Cert.Lib.RowPass.sc_apply scatter_S160000x128_S320000x1_S320000x128_1_0_0_1_wf x idx upd e q

variable (a : Cert.Spec.Args)

theorem v10_at (r : Fin 320000) :
    val_main_v10 (F := Ideal) (ofMat a.ei) (ix2 r 0)
      = Cert.Spec.nrm 20000#32 (a.ei (Cert.Spec.rSide r).1 (Cert.Spec.rSide r).2) := by
  rw [val_main_v10_apply, val_main_v9_apply, val_main_v6_apply, val_main_v8_apply, val_main_v5_apply, val_main_v7_apply,
    val_main_c_apply, val_main_c_0_apply, val_main_v1_apply, val_main_v0_apply]
  rfl

theorem v11_at (r : Fin 320000) (q : Fin 128) :
    val_main_v11 (F := Ideal) (ofMat a.nr) (ofMat a.ei) (ix2 r q) = Cert.Spec.g a (Cert.Spec.rSide r) q := by
  unfold val_main_v11
  rw [gather_node_read (ofMat a.nr) _ r q (Cert.Spec.gNode (a.ei (Cert.Spec.rSide r).1 (Cert.Spec.rSide r).2))
    (by rw [v10_at]; rfl)]
  rfl

theorem v13_at (r : Fin 320000) : val_main_v13 (F := Ideal) (ix2 r 0) = BitVec.ofNat 32 (r.val / 2) := by
  rw [val_main_v13_apply, val_main_v4_apply, val_main_v3_apply, val_main_v2_apply]

theorem v20_at (r : Fin 320000) : val_main_v20 (F := Ideal) (ix2 r 0) = BitVec.ofNat 32 (r.val / 2) := by
  rw [val_main_v20_apply, val_main_v19_apply, val_main_v16_apply, val_main_v18_apply, val_main_v15_apply,
    val_main_v17_apply, val_main_c_1_apply, val_main_c_2_apply, val_main_v4_apply, val_main_v3_apply, val_main_v2_apply]
  exact nrm_ofNat_small 160000#32 (r.val / 2) (by have := r.isLt; omega)

theorem v14_at (e : Fin 160000) (q : Fin 128) :
    val_main_v14 (F := Ideal) (ofMat a.nr) (ofMat a.ei) (ix2 e q) = Cert.Spec.dom a e q := by
  have he := e.isLt
  unfold val_main_v14
  rw [scatter_edge_read, val_main_v12_apply, val_main_cst_apply, Ideal.ofBits_def, Ideal.ofBits_zero_f32, zero_add]
  have hs : (∑ r : Fin 320000, if (val_main_v13 (F := Ideal) (ix2 r 0)).toInt = (e.val : Int)
        then val_main_v11 (F := Ideal) (ofMat a.nr) (ofMat a.ei) (ix2 r q) else 0)
      = ∑ r : Fin 320000, if r.val / 2 = e.val then Cert.Spec.g a (Cert.Spec.rSide r) q else 0 := by
    refine Finset.sum_congr rfl fun r _ => ?_
    rw [v13_at r, v11_at a r q, toInt_ofNat_small _ (by have := r.isLt; omega)]
    exact if_congr Int.ofNat_inj rfl rfl
  rw [hs, sum_pair (fun r => Cert.Spec.g a (Cert.Spec.rSide r) q) e]
  show Cert.Spec.g a (Cert.Spec.rSide ⟨2 * e.val, _⟩) q + Cert.Spec.g a (Cert.Spec.rSide ⟨2 * e.val + 1, _⟩) q = _
  rw [rSide_two_mul, rSide_two_mul_succ]
  rfl

theorem v21_at (r : Fin 320000) (q : Fin 128) :
    val_main_v21 (F := Ideal) (ofMat a.nr) (ofMat a.ei) (ix2 r q) = Cert.Spec.dom a (Cert.Spec.rSide r).2 q := by
  unfold val_main_v21
  rw [gather_edge_read _ _ r q (Cert.Spec.rSide r).2
    (by rw [v20_at, toInt_ofNat_small _ (by have := r.isLt; omega), Int.toNat_natCast]
        show min (r.val / 2) (160000 - 1) = r.val / 2
        have := r.isLt
        omega)]
  exact v14_at a _ q

theorem v22_lo (x0 : S20000x128.Idx → EReal) (x2 : IVec S2x160000 32) (r : Fin 320000) (c : Fin 256) (h : c.val < 128) :
    val_main_v22 (F := Ideal) x0 x2 (ix2 r c) = val_main_v21 (F := Ideal) x0 x2 (ix2 r ⟨c.val, h⟩) := by
  unfold val_main_v22
  exact concatenate_pair_apply_left (t := S320000x256) (s₁ := S320000x128) (s₂ := S320000x128) 1 _ _ _ (ix2 r c) rfl (ix2 r ⟨c.val, h⟩) (fun b => by
    match b with
    | ⟨0, _⟩ => rfl
    | ⟨1, _⟩ => rfl)

theorem v22_hi (x0 : S20000x128.Idx → EReal) (x2 : IVec S2x160000 32) (r : Fin 320000) (c : Fin 256) (h : 128 ≤ c.val) :
    val_main_v22 (F := Ideal) x0 x2 (ix2 r c)
      = val_main_v11 (F := Ideal) x0 x2 (ix2 r ⟨c.val - 128, by have := c.isLt; omega⟩) := by
  unfold val_main_v22
  exact concatenate_pair_apply_right (t := S320000x256) (s₁ := S320000x128) (s₂ := S320000x128) 1 _ _ _ (ix2 r c) rfl rfl (ix2 r ⟨c.val - 128, by have := c.isLt; omega⟩)
    (fun b hb => by
      match b with
      | ⟨0, _⟩ => rfl
      | ⟨1, _⟩ => exact absurd rfl hb)
    (by show (c.val - 128) + 128 = c.val; omega)

theorem v23_lo (x0 : S20000x128.Idx → EReal) (x1 : S320000x128.Idx → EReal) (x2 : IVec S2x160000 32) (r : Fin 320000)
    (c : Fin 384) (h : c.val < 256) :
    val_main_v23 (F := Ideal) x0 x1 x2 (ix2 r c) = val_main_v22 (F := Ideal) x0 x2 (ix2 r ⟨c.val, h⟩) := by
  unfold val_main_v23
  exact concatenate_pair_apply_left (t := S320000x384) (s₁ := S320000x256) (s₂ := S320000x128) 1 _ _ _ (ix2 r c) rfl (ix2 r ⟨c.val, h⟩) (fun b => by
    match b with
    | ⟨0, _⟩ => rfl
    | ⟨1, _⟩ => rfl)

theorem v23_hi (x0 : S20000x128.Idx → EReal) (x1 : S320000x128.Idx → EReal) (x2 : IVec S2x160000 32) (r : Fin 320000)
    (c : Fin 384) (h : 256 ≤ c.val) :
    val_main_v23 (F := Ideal) x0 x1 x2 (ix2 r c) = x1 (ix2 r ⟨c.val - 256, by have := c.isLt; omega⟩) := by
  unfold val_main_v23
  exact concatenate_pair_apply_right (t := S320000x384) (s₁ := S320000x256) (s₂ := S320000x128) 1 _ _ _ (ix2 r c) rfl rfl (ix2 r ⟨c.val - 256, by have := c.isLt; omega⟩)
    (fun b hb => by
      match b with
      | ⟨0, _⟩ => rfl
      | ⟨1, _⟩ => exact absurd rfl hb)
    (by show (c.val - 256) + 256 = c.val; omega)

theorem la_read (a : Cert.Spec.Args) :
    val_main_v22 (F := Ideal) (ofMat a.nr) (ofMat a.ei) = ofRowsR (Cert.Spec.la a) := by
  funext i
  obtain ⟨r, c, rfl⟩ : ∃ (r : Fin 320000) (c : Fin 256), i = ix2 r c := ⟨i 0, i 1, eq_ix2 i⟩
  show _ = Cert.Spec.la a (Cert.Spec.rSide r) c
  unfold Cert.Spec.la
  by_cases h : c.val < 128
  · rw [dif_pos h, v22_lo _ _ r c h, v21_at]
  · rw [dif_neg h, v22_hi _ _ r c (by omega), v11_at]

theorem x0_read (a : Cert.Spec.Args) :
    val_main_v23 (F := Ideal) (ofMat a.nr) (ofMat a.er) (ofMat a.ei) = ofRowsR (Cert.Spec.x0 a) := by
  funext i
  obtain ⟨r, c, rfl⟩ : ∃ (r : Fin 320000) (c : Fin 384), i = ix2 r c := ⟨i 0, i 1, eq_ix2 i⟩
  show _ = Cert.Spec.x0 a (Cert.Spec.rSide r) c
  unfold Cert.Spec.x0
  by_cases h : c.val < 256
  · rw [dif_pos h, v23_lo _ _ _ r c h, la_read a]
    rfl
  · rw [dif_neg h, v23_hi _ _ _ r c (by omega), erRow_rSide]
    rfl

end Cert.ReferenceIdeal.RefRead

end
-- ==== Proof.RBN.lean ====
import proofs.«160401_j10462540333326_1_alg».proof.Proof.RefGen
import proofs.«160401_j10462540333326_1_alg».proof.Proof.Spec

set_option maxRecDepth 16384

noncomputable section

namespace Cert.ReferenceIdeal.RefRead

open Cert.ReferenceIdeal Cert.ReferenceIdeal.Gen Cert.ReferenceIdeal.Read Idealize.ShloMosaic Idealize.ShloMosaic.TcCoe
open Idealize.ShloMosaic.ValueIdx Idealize.SL.Sem
open Cert.Spec (ofMat ofVec ofRow ofScalar ofRowsK ofRowsR Side)

open Cert.Spec (bnR mm cRows cNodes)

/-- Each of the reference's five blocks, read stage by stage: the product, the column mean, the centred entries, their variance, its reciprocal root, then scale, shift and rectifier. -/
theorem block1 (x0 : (⟨S20000x128, .f32⟩ : BufTy).Contents (Elt Ideal)) (x1 : (⟨S320000x128, .f32⟩ : BufTy).Contents (Elt Ideal))
    (x2 : (⟨S2x160000, .i32⟩ : BufTy).Contents (Elt Ideal))
    (X : Fin 320000 → Fin 384 → EReal) (W : Fin 384 → Fin 128 → EReal) (g b : Fin 128 → EReal)
    (hX : val_main_v23 (F := Ideal) x0 x1 x2 = ofMat X) :
    val_main_v50 (F := Ideal) x0 x1 x2 (ofMat W) (ofVec g) (ofVec b) = ofMat (bnR cRows (mm X W) g b) := by

  have hy : val_main_v24 (F := Ideal) x0 x1 x2 (ofMat W) = ofMat (mm X W) := by
    funext i
    rw [val_main_v24_apply, hX]
    exact Finset.sum_congr rfl fun k _ => rfl

  have hm : val_main_v27 (F := Ideal) x0 x1 x2 (ofMat W) = ofVec (Cert.Spec.rMean cRows (mm X W)) := by
    funext i
    rw [val_main_v27_apply, val_main_v25_apply, val_main_v26_apply, val_main_cst_3_apply, val_main_cst_4_apply, hy]
    simp only [Ideal.hostDivf_def, Ideal.ofBits_def, Ideal.ofBits_zero_f32, zero_add]
    rfl

  have hc : val_main_v30 (F := Ideal) x0 x1 x2 (ofMat W)
      = ofMat (fun p q => mm X W p q - Cert.Spec.rMean cRows (mm X W) q) := by
    funext i
    rw [val_main_v30_apply, val_main_v29_apply, val_main_v28_apply, hy, hm]
    rfl

  have hv : val_main_v34 (F := Ideal) x0 x1 x2 (ofMat W) = ofVec (Cert.Spec.rVar cRows (mm X W)) := by
    funext i
    rw [val_main_v34_apply, val_main_v32_apply, val_main_v33_apply, val_main_cst_5_apply, val_main_cst_6_apply]
    simp only [val_main_v31_apply, hc, Ideal.hostDivf_def, Ideal.mulf_def, Ideal.ofBits_def, Ideal.ofBits_zero_f32, zero_add]
    rfl

  have hr : val_main_v40 (F := Ideal) x0 x1 x2 (ofMat W)
      = ofVec (fun q => Ideal.rsqrt (Cert.Spec.rVar cRows (mm X W) q + Cert.Spec.eps)) := by
    funext i
    rw [val_main_v40_apply, val_main_v39_apply, val_main_v38_apply, val_main_cst_7_apply, hv]
    rfl

  funext i
  rw [val_main_v50_apply, val_main_v49_apply, val_main_v46_apply, val_main_v43_apply, val_main_v37_apply,
    val_main_v36_apply, val_main_v35_apply, val_main_v42_apply, val_main_v41_apply, val_main_v45_apply,
    val_main_v44_apply, val_main_v48_apply, val_main_v47_apply, val_main_call0_v0_apply, val_main_call0_cst_apply,
    hy, hm, hr]
  rfl

theorem block2 (x0 : (⟨S20000x128, .f32⟩ : BufTy).Contents (Elt Ideal)) (x1 : (⟨S320000x128, .f32⟩ : BufTy).Contents (Elt Ideal))
    (x2 : (⟨S2x160000, .i32⟩ : BufTy).Contents (Elt Ideal)) (x9 : (⟨S384x128, .f32⟩ : BufTy).Contents (Elt Ideal))
    (x10 x11 : (⟨S128, .f32⟩ : BufTy).Contents (Elt Ideal)) (x18 x19 : (⟨S_, .f32⟩ : BufTy).Contents (Elt Ideal))
    (X : Fin 20000 → Fin 128 → EReal) (W : Fin 128 → Fin 256 → EReal) (g b : Fin 256 → EReal)
    (hX : val_main_v74 (F := Ideal) x0 x1 x2 x9 x10 x11 x18 x19 = ofMat X) :
    val_main_v101 (F := Ideal) x0 x1 x2 x9 x10 x11 (ofMat W) (ofVec g) (ofVec b) x18 x19 = ofMat (bnR cNodes (mm X W) g b) := by

  have hy : val_main_v75 (F := Ideal) x0 x1 x2 x9 x10 x11 (ofMat W) x18 x19 = ofMat (mm X W) := by
    funext i
    rw [val_main_v75_apply, hX]
    exact Finset.sum_congr rfl fun k _ => rfl

  have hm : val_main_v78 (F := Ideal) x0 x1 x2 x9 x10 x11 (ofMat W) x18 x19 = ofVec (Cert.Spec.rMean cNodes (mm X W)) := by
    funext i
    rw [val_main_v78_apply, val_main_v76_apply, val_main_v77_apply, val_main_cst_15_apply, val_main_cst_16_apply, hy]
    simp only [Ideal.hostDivf_def, Ideal.ofBits_def, Ideal.ofBits_zero_f32, zero_add]
    rfl

  have hc : val_main_v81 (F := Ideal) x0 x1 x2 x9 x10 x11 (ofMat W) x18 x19
      = ofMat (fun p q => mm X W p q - Cert.Spec.rMean cNodes (mm X W) q) := by
    funext i
    rw [val_main_v81_apply, val_main_v80_apply, val_main_v79_apply, hy, hm]
    rfl

  have hv : val_main_v85 (F := Ideal) x0 x1 x2 x9 x10 x11 (ofMat W) x18 x19 = ofVec (Cert.Spec.rVar cNodes (mm X W)) := by
    funext i
    rw [val_main_v85_apply, val_main_v83_apply, val_main_v84_apply, val_main_cst_17_apply, val_main_cst_18_apply]
    simp only [val_main_v82_apply, hc, Ideal.hostDivf_def, Ideal.mulf_def, Ideal.ofBits_def, Ideal.ofBits_zero_f32, zero_add]
    rfl

  have hr : val_main_v91 (F := Ideal) x0 x1 x2 x9 x10 x11 (ofMat W) x18 x19
      = ofVec (fun q => Ideal.rsqrt (Cert.Spec.rVar cNodes (mm X W) q + Cert.Spec.eps)) := by
    funext i
    rw [val_main_v91_apply, val_main_v90_apply, val_main_v89_apply, val_main_cst_19_apply, hv]
    rfl

  funext i
  rw [val_main_v101_apply, val_main_v100_apply, val_main_v97_apply, val_main_v94_apply, val_main_v88_apply,
    val_main_v87_apply, val_main_v86_apply, val_main_v93_apply, val_main_v92_apply, val_main_v96_apply,
    val_main_v95_apply, val_main_v99_apply, val_main_v98_apply, val_main_call1_v0_apply, val_main_call1_cst_apply,
    hy, hm, hr]
  rfl

theorem block3 (x0 : (⟨S20000x128, .f32⟩ : BufTy).Contents (Elt Ideal)) (x1 : (⟨S320000x128, .f32⟩ : BufTy).Contents (Elt Ideal))
    (x2 : (⟨S2x160000, .i32⟩ : BufTy).Contents (Elt Ideal)) (x9 : (⟨S384x128, .f32⟩ : BufTy).Contents (Elt Ideal))
    (x10 x11 : (⟨S128, .f32⟩ : BufTy).Contents (Elt Ideal)) (x12 : (⟨S128x256, .f32⟩ : BufTy).Contents (Elt Ideal))
    (x13 x14 : (⟨S256, .f32⟩ : BufTy).Contents (Elt Ideal)) (x18 x19 : (⟨S_, .f32⟩ : BufTy).Contents (Elt Ideal))
    (X : Fin 20000 → Fin 256 → EReal) (W : Fin 256 → Fin 128 → EReal) (g b : Fin 128 → EReal)
    (hX : val_main_v101 (F := Ideal) x0 x1 x2 x9 x10 x11 x12 x13 x14 x18 x19 = ofMat X) :
    val_main_v128 (F := Ideal) x0 x1 x2 x9 x10 x11 x12 x13 x14 (ofMat W) (ofVec g) (ofVec b) x18 x19
      = ofMat (bnR cNodes (mm X W) g b) := by

  have hy : val_main_v102 (F := Ideal) x0 x1 x2 x9 x10 x11 x12 x13 x14 (ofMat W) x18 x19 = ofMat (mm X W) := by
    funext i
    rw [val_main_v102_apply, hX]
    exact Finset.sum_congr rfl fun k _ => rfl

  have hm : val_main_v105 (F := Ideal) x0 x1 x2 x9 x10 x11 x12 x13 x14 (ofMat W) x18 x19 = ofVec (Cert.Spec.rMean cNodes (mm X W)) := by
    funext i
    rw [val_main_v105_apply, val_main_v103_apply, val_main_v104_apply, val_main_cst_20_apply, val_main_cst_21_apply, hy]
    simp only [Ideal.hostDivf_def, Ideal.ofBits_def, Ideal.ofBits_zero_f32, zero_add]
    rfl

  have hc : val_main_v108 (F := Ideal) x0 x1 x2 x9 x10 x11 x12 x13 x14 (ofMat W) x18 x19
      = ofMat (fun p q => mm X W p q - Cert.Spec.rMean cNodes (mm X W) q) := by
    funext i
    rw [val_main_v108_apply, val_main_v107_apply, val_main_v106_apply, hy, hm]
    rfl

  have hv : val_main_v112 (F := Ideal) x0 x1 x2 x9 x10 x11 x12 x13 x14 (ofMat W) x18 x19 = ofVec (Cert.Spec.rVar cNodes (mm X W)) := by
    funext i
    rw [val_main_v112_apply, val_main_v110_apply, val_main_v111_apply, val_main_cst_22_apply, val_main_cst_23_apply]
    simp only [val_main_v109_apply, hc, Ideal.hostDivf_def, Ideal.mulf_def, Ideal.ofBits_def, Ideal.ofBits_zero_f32, zero_add]
    rfl

  have hr : val_main_v118 (F := Ideal) x0 x1 x2 x9 x10 x11 x12 x13 x14 (ofMat W) x18 x19
      = ofVec (fun q => Ideal.rsqrt (Cert.Spec.rVar cNodes (mm X W) q + Cert.Spec.eps)) := by
    funext i
    rw [val_main_v118_apply, val_main_v117_apply, val_main_v116_apply, val_main_cst_24_apply, hv]
    rfl

  funext i
  rw [val_main_v128_apply, val_main_v127_apply, val_main_v124_apply, val_main_v121_apply, val_main_v115_apply,
    val_main_v114_apply, val_main_v113_apply, val_main_v120_apply, val_main_v119_apply, val_main_v123_apply,
    val_main_v122_apply, val_main_v126_apply, val_main_v125_apply, val_main_call2_v0_apply, val_main_call2_cst_apply,
    hy, hm, hr]
  rfl

theorem block4 (x0 : (⟨S20000x128, .f32⟩ : BufTy).Contents (Elt Ideal)) (x1 : (⟨S320000x128, .f32⟩ : BufTy).Contents (Elt Ideal))
    (x2 : (⟨S2x160000, .i32⟩ : BufTy).Contents (Elt Ideal)) (x20 : (⟨S_, .f32⟩ : BufTy).Contents (Elt Ideal))
    (X : Fin 320000 → Fin 256 → EReal) (W : Fin 256 → Fin 256 → EReal) (g b : Fin 256 → EReal)
    (hX : val_main_v145 (F := Ideal) x0 x1 x2 x20 = ofMat X) :
    val_main_v172 (F := Ideal) x0 x1 x2 (ofMat W) (ofVec g) (ofVec b) x20 = ofMat (bnR cRows (mm X W) g b) := by

  have hy : val_main_v146 (F := Ideal) x0 x1 x2 (ofMat W) x20 = ofMat (mm X W) := by
    funext i
    rw [val_main_v146_apply, hX]
    exact Finset.sum_congr rfl fun k _ => rfl

  have hm : val_main_v149 (F := Ideal) x0 x1 x2 (ofMat W) x20 = ofVec (Cert.Spec.rMean cRows (mm X W)) := by
    funext i
    rw [val_main_v149_apply, val_main_v147_apply, val_main_v148_apply, val_main_cst_30_apply, val_main_cst_31_apply, hy]
    simp only [Ideal.hostDivf_def, Ideal.ofBits_def, Ideal.ofBits_zero_f32, zero_add]
    rfl

  have hc : val_main_v152 (F := Ideal) x0 x1 x2 (ofMat W) x20
      = ofMat (fun p q => mm X W p q - Cert.Spec.rMean cRows (mm X W) q) := by
    funext i
    rw [val_main_v152_apply, val_main_v151_apply, val_main_v150_apply, hy, hm]
    rfl

  have hv : val_main_v156 (F := Ideal) x0 x1 x2 (ofMat W) x20 = ofVec (Cert.Spec.rVar cRows (mm X W)) := by
    funext i
    rw [val_main_v156_apply, val_main_v154_apply, val_main_v155_apply, val_main_cst_32_apply, val_main_cst_33_apply]
    simp only [val_main_v153_apply, hc, Ideal.hostDivf_def, Ideal.mulf_def, Ideal.ofBits_def, Ideal.ofBits_zero_f32, zero_add]
    rfl

  have hr : val_main_v162 (F := Ideal) x0 x1 x2 (ofMat W) x20
      = ofVec (fun q => Ideal.rsqrt (Cert.Spec.rVar cRows (mm X W) q + Cert.Spec.eps)) := by
    funext i
    rw [val_main_v162_apply, val_main_v161_apply, val_main_v160_apply, val_main_cst_34_apply, hv]
    rfl

  funext i
  rw [val_main_v172_apply, val_main_v171_apply, val_main_v168_apply, val_main_v165_apply, val_main_v159_apply,
    val_main_v158_apply, val_main_v157_apply, val_main_v164_apply, val_main_v163_apply, val_main_v167_apply,
    val_main_v166_apply, val_main_v170_apply, val_main_v169_apply, val_main_call3_v0_apply, val_main_call3_cst_apply,
    hy, hm, hr]
  rfl

theorem block5 (x0 : (⟨S20000x128, .f32⟩ : BufTy).Contents (Elt Ideal)) (x1 : (⟨S320000x128, .f32⟩ : BufTy).Contents (Elt Ideal))
    (x2 : (⟨S2x160000, .i32⟩ : BufTy).Contents (Elt Ideal)) (x3 : (⟨S256x256, .f32⟩ : BufTy).Contents (Elt Ideal))
    (x4 x5 : (⟨S256, .f32⟩ : BufTy).Contents (Elt Ideal)) (x20 : (⟨S_, .f32⟩ : BufTy).Contents (Elt Ideal))
    (X : Fin 320000 → Fin 256 → EReal) (W : Fin 256 → Fin 128 → EReal) (g b : Fin 128 → EReal)
    (hX : val_main_v172 (F := Ideal) x0 x1 x2 x3 x4 x5 x20 = ofMat X) :
    val_main_v199 (F := Ideal) x0 x1 x2 x3 x4 x5 (ofMat W) (ofVec g) (ofVec b) x20 = ofMat (bnR cRows (mm X W) g b) := by

  have hy : val_main_v173 (F := Ideal) x0 x1 x2 x3 x4 x5 (ofMat W) x20 = ofMat (mm X W) := by
    funext i
    rw [val_main_v173_apply, hX]
    exact Finset.sum_congr rfl fun k _ => rfl

  have hm : val_main_v176 (F := Ideal) x0 x1 x2 x3 x4 x5 (ofMat W) x20 = ofVec (Cert.Spec.rMean cRows (mm X W)) := by
    funext i
    rw [val_main_v176_apply, val_main_v174_apply, val_main_v175_apply, val_main_cst_35_apply, val_main_cst_36_apply, hy]
    simp only [Ideal.hostDivf_def, Ideal.ofBits_def, Ideal.ofBits_zero_f32, zero_add]
    rfl

  have hc : val_main_v179 (F := Ideal) x0 x1 x2 x3 x4 x5 (ofMat W) x20
      = ofMat (fun p q => mm X W p q - Cert.Spec.rMean cRows (mm X W) q) := by
    funext i
    rw [val_main_v179_apply, val_main_v178_apply, val_main_v177_apply, hy, hm]
    rfl

  have hv : val_main_v183 (F := Ideal) x0 x1 x2 x3 x4 x5 (ofMat W) x20 = ofVec (Cert.Spec.rVar cRows (mm X W)) := by
    funext i
    rw [val_main_v183_apply, val_main_v181_apply, val_main_v182_apply, val_main_cst_37_apply, val_main_cst_38_apply]
    simp only [val_main_v180_apply, hc, Ideal.hostDivf_def, Ideal.mulf_def, Ideal.ofBits_def, Ideal.ofBits_zero_f32, zero_add]
    rfl

  have hr : val_main_v189 (F := Ideal) x0 x1 x2 x3 x4 x5 (ofMat W) x20
      = ofVec (fun q => Ideal.rsqrt (Cert.Spec.rVar cRows (mm X W) q + Cert.Spec.eps)) := by
    funext i
    rw [val_main_v189_apply, val_main_v188_apply, val_main_v187_apply, val_main_cst_39_apply, hv]
    rfl

  funext i
  rw [val_main_v199_apply, val_main_v198_apply, val_main_v195_apply, val_main_v192_apply, val_main_v186_apply,
    val_main_v185_apply, val_main_v184_apply, val_main_v191_apply, val_main_v190_apply, val_main_v194_apply,
    val_main_v193_apply, val_main_v197_apply, val_main_v196_apply, val_main_call4_v0_apply, val_main_call4_cst_apply,
    hy, hm, hr]
  rfl

end Cert.ReferenceIdeal.RefRead

end
-- ==== Proof.RNode.lean ====
import proofs.«160401_j10462540333326_1_alg».proof.Proof.RefGen
import proofs.«160401_j10462540333326_1_alg».proof.Proof.Spec
import proofs.«160401_j10462540333326_1_alg».proof.Proof.SpecReindex
import proofs.«160401_j10462540333326_1_alg».proof.Proof.LibRowGatherScatter
import proofs.«160401_j10462540333326_1_alg».proof.Proof.RX0

set_option maxRecDepth 16384

noncomputable section

namespace Cert.ReferenceIdeal.RefRead

open Cert.ReferenceIdeal Cert.ReferenceIdeal.Gen Cert.ReferenceIdeal.Read Idealize.ShloMosaic Idealize.ShloMosaic.TcCoe
open Idealize.ShloMosaic.ValueIdx Idealize.SL.Sem
open Cert.Spec (ofMat ofVec ofRow ofScalar ofRowsK ofRowsR Side)

namespace RNode

theorem sum_edge_two {M : Type} [AddCommMonoid M] (F : Side → M) (e : Fin 160000) :
    (∑ je : Side, if ((je.2.val : Nat) : Int) = (e.val : Int) then F je else 0) = F (0, e) + F (1, e) := by
  rw [Fintype.sum_prod_type, Fin.sum_univ_two]
  have h : ∀ j : Fin 2, (∑ x : Fin 160000, if ((x.val : Nat) : Int) = (e.val : Int) then F (j, x) else 0) = F (j, e) := by
    intro j
    rw [Finset.sum_eq_single e]
    · rw [if_pos rfl]
    · intro b _ hb
      rw [if_neg]
      intro hh
      exact hb (Fin.ext (by omega))
    · intro hne
      exact absurd (Finset.mem_univ e) hne
  rw [h 0, h 1]

theorem atoms52 (a : Cert.Spec.Args) (r : Fin 320000) :
    val_main_v52 (F := Ideal) (ofMat a.ei) (ix2 r 0) = a.ei (Cert.Spec.rSide r).1 (Cert.Spec.rSide r).2 := by
  rewrite [val_main_v52_apply, val_main_v1_apply, val_main_v0_apply]
  rfl

theorem atoms65 (a : Cert.Spec.Args) (r : Fin 320000) :
    val_main_v65 (F := Ideal) (ofMat a.ei) (ix2 r 0) = a.ei (Cert.Spec.rSide r).1 (Cert.Spec.rSide r).2 := by
  rewrite [val_main_v65_apply, val_main_v1_apply, val_main_v0_apply]
  rfl

theorem edge55 (r : Fin 320000) : val_main_v55 (F := Ideal) (ix2 r 0) = BitVec.ofNat 32 (r.val / 2) := by
  rewrite [val_main_v55_apply, val_main_v4_apply, val_main_v3_apply, val_main_v2_apply]
  rfl

theorem edge62 (r : Fin 320000) : val_main_v62 (F := Ideal) (ix2 r 0) = BitVec.ofNat 32 (r.val / 2) := by
  rewrite [val_main_v62_apply, val_main_v61_apply, val_main_v58_apply, val_main_v60_apply, val_main_v57_apply,
    val_main_v59_apply, val_main_c_10_apply, val_main_c_11_apply, val_main_v4_apply, val_main_v3_apply, val_main_v2_apply]
  exact nrm_ofNat_small 160000#32 (r.val / 2) (by have := r.isLt; omega)

section Stages

variable (a : Cert.Spec.Args) (x9 : (⟨S384x128, .f32⟩ : BufTy).Contents (Elt Ideal))
  (x10 x11 : (⟨S128, .f32⟩ : BufTy).Contents (Elt Ideal)) (H : Side → Fin 128 → EReal)
  (hH : val_main_v50 (F := Ideal) (ofMat a.nr) (ofMat a.er) (ofMat a.ei) x9 x10 x11 = ofRowsR H)

include hH

theorem local_read (n : Fin 20000) (q : Fin 128) :
    val_main_v53 (F := Ideal) (ofMat a.nr) (ofMat a.er) (ofMat a.ei) x9 x10 x11 (ix2 n q)
      = ∑ je : Side, if Cert.Spec.hit (a.ei je.1 je.2) n then H je q else 0 := by
  unfold val_main_v53
  rewrite [hH]
  refine (Cert.Lib.RowPass.sc_apply Gen.scatter_S20000x128_S320000x1_S320000x128_1_0_0_1_wf (val_main_v51 (F := Ideal))
    (val_main_v52 (F := Ideal) (ofMat a.ei)) (ofRowsR H) n q).trans ?_
  rewrite [val_main_v51_apply, val_main_cst_8_apply, Ideal.ofBits_def, Ideal.ofBits_zero_f32, zero_add]
  refine (Finset.sum_congr rfl fun r _ => ?_).trans
    (Cert.Spec.sum_rSide (fun je : Side => if Cert.Spec.hit (a.ei je.1 je.2) n then H je q else 0))
  rewrite [atoms52]
  exact if_congr Iff.rfl rfl rfl

theorem ds_read (e : Fin 160000) (q : Fin 128) :
    val_main_v56 (F := Ideal) (ofMat a.nr) (ofMat a.er) (ofMat a.ei) x9 x10 x11 (ix2 e q) = H (0, e) q + H (1, e) q := by
  unfold val_main_v56
  rewrite [hH]
  refine (Cert.Lib.RowPass.sc_apply Gen.scatter_S160000x128_S320000x1_S320000x128_1_0_0_1_wf (val_main_v54 (F := Ideal))
    (val_main_v55 (F := Ideal)) (ofRowsR H) e q).trans ?_
  rewrite [val_main_v54_apply, val_main_cst_9_apply, Ideal.ofBits_def, Ideal.ofBits_zero_f32, zero_add]
  refine ((Finset.sum_congr rfl fun r _ => ?_).trans
    (Cert.Spec.sum_rSide (fun je : Side => if ((je.2.val : Nat) : Int) = (e.val : Int) then H je q else 0))).trans
    (sum_edge_two (fun je => H je q) e)
  rewrite [edge55, toInt_ofNat_small _ (by have := r.isLt; omega)]
  rfl

theorem dsRow_read (r : Fin 320000) (q : Fin 128) :
    val_main_v63 (F := Ideal) (ofMat a.nr) (ofMat a.er) (ofMat a.ei) x9 x10 x11 (ix2 r q)
      = H (0, (Cert.Spec.rSide r).2) q + H (1, (Cert.Spec.rSide r).2) q := by
  unfold val_main_v63
  refine (Cert.Lib.RowPass.ga_apply Gen.gather_S160000x128_S320000x1_S320000x128_1_0_n_n_0_1_1128_wf (by decide)
    (val_main_v56 (F := Ideal) (ofMat a.nr) (ofMat a.er) (ofMat a.ei) x9 x10 x11) (val_main_v62 (F := Ideal)) r q).trans ?_
  have hrow : ∀ (h : min (val_main_v62 (F := Ideal) (ix2 r 0)).toInt.toNat (160000 - 1) < 160000),
      (⟨min (val_main_v62 (F := Ideal) (ix2 r 0)).toInt.toNat (160000 - 1), h⟩ : Fin 160000) = (Cert.Spec.rSide r).2 := by
    intro h
    apply Fin.ext
    show min (val_main_v62 (F := Ideal) (ix2 r 0)).toInt.toNat (160000 - 1) = r.val / 2
    rewrite [edge62, toInt_ofNat_small _ (by have := r.isLt; omega)]
    have := r.isLt
    omega
  rewrite [hrow]
  exact ds_read a x9 x10 x11 H hH _ q

theorem dom_read (n : Fin 20000) (q : Fin 128) :
    val_main_v66 (F := Ideal) (ofMat a.nr) (ofMat a.er) (ofMat a.ei) x9 x10 x11 (ix2 n q)
      = ∑ je : Side, if Cert.Spec.hit (a.ei je.1 je.2) n then (H (0, je.2) q + H (1, je.2) q) else 0 := by
  unfold val_main_v66
  refine (Cert.Lib.RowPass.sc_apply Gen.scatter_S20000x128_S320000x1_S320000x128_1_0_0_1_wf (val_main_v64 (F := Ideal))
    (val_main_v65 (F := Ideal) (ofMat a.ei))
    (val_main_v63 (F := Ideal) (ofMat a.nr) (ofMat a.er) (ofMat a.ei) x9 x10 x11) n q).trans ?_
  rewrite [val_main_v64_apply, val_main_cst_12_apply, Ideal.ofBits_def, Ideal.ofBits_zero_f32, zero_add]
  refine (Finset.sum_congr rfl fun r _ => ?_).trans
    (Cert.Spec.sum_rSide (fun je : Side =>
      if Cert.Spec.hit (a.ei je.1 je.2) n then (H (0, je.2) q + H (1, je.2) q) else 0))
  rewrite [atoms65, dsRow_read a x9 x10 x11 H hH r q]
  exact if_congr Iff.rfl rfl rfl

end Stages

end RNode

theorem nodeIn_read (a : Cert.Spec.Args) (x9 : (⟨S384x128, .f32⟩ : BufTy).Contents (Elt Ideal))
    (x10 x11 : (⟨S128, .f32⟩ : BufTy).Contents (Elt Ideal)) (H : Side → Fin 128 → EReal)
    (hH : val_main_v50 (F := Ideal) (ofMat a.nr) (ofMat a.er) (ofMat a.ei) x9 x10 x11 = ofRowsR H) :
    val_main_v74 (F := Ideal) (ofMat a.nr) (ofMat a.er) (ofMat a.ei) x9 x10 x11 (ofScalar a.e11) (ofScalar a.e12)
      = ofMat (Cert.Spec.nodeInOf a H) := by
  funext i
  obtain ⟨n, q, rfl⟩ : ∃ (n : Fin 20000) (q : Fin 128), i = ix2 n q := ⟨i 0, i 1, eq_ix2 i⟩
  rewrite [val_main_v74_apply, val_main_v73_apply, val_main_v69_apply, val_main_v72_apply, val_main_v68_apply,
    val_main_v71_apply, val_main_v67_apply, val_main_v70_apply, val_main_cst_13_apply, val_main_cst_14_apply,
    RNode.local_read a x9 x10 x11 H hH n q, RNode.dom_read a x9 x10 x11 H hH n q]
  simp only [Ideal.addf_def, Ideal.mulf_def, Ideal.ofBits_def]
  rfl

end Cert.ReferenceIdeal.RefRead

end
-- ==== Proof.REdge.lean ====
import proofs.«160401_j10462540333326_1_alg».proof.Proof.RefGen
import proofs.«160401_j10462540333326_1_alg».proof.Proof.Spec
import proofs.«160401_j10462540333326_1_alg».proof.Proof.SpecReindex
import proofs.«160401_j10462540333326_1_alg».proof.Proof.LibRowGatherScatter
import proofs.«160401_j10462540333326_1_alg».proof.Proof.RX0
set_option maxRecDepth 16384

noncomputable section

namespace Cert.ReferenceIdeal.RefRead

open Cert.ReferenceIdeal Cert.ReferenceIdeal.Gen Cert.ReferenceIdeal.Read Idealize.ShloMosaic Idealize.ShloMosaic.TcCoe
open Idealize.ShloMosaic.ValueIdx Idealize.SL.Sem
open Cert.Spec (ofMat ofVec ofRow ofScalar ofRowsK ofRowsR Side)

theorem nrm_of_nonneg (m w : BitVec 32) (n : Nat) (h : w.toInt = (n : Int)) :
    Scalar.select (IntOp.cmpi .slt w 0#32) (IntOp.addi w m) w = w := by
  have hc : IntOp.cmpi .slt w 0#32 = 0#1 := by
    show BitVec.ofBool (w.slt 0#32) = 0#1
    have : w.slt 0#32 = false := by
      rw [BitVec.slt]
      simp only [decide_eq_false_iff_not, not_lt]
      rw [h]
      show (0 : Int) ≤ n
      omega
    rw [this]
    rfl
  rw [hc, select_zero]

theorem sum_rows_of_edge {M : Type} [AddCommMonoid M] (G : Fin 320000 → M) (e : Fin 160000) :
    (∑ r : Fin 320000, if r.val / 2 = e.val then G r else 0)
      = G (Cert.Spec.erRow (0, e)) + G (Cert.Spec.erRow (1, e)) := sum_pair G e

theorem v130_at (r : Fin 320000) :
    val_main_v130 (F := Ideal) (ix2 r (0 : Fin 1)) = BitVec.ofNat 32 (r.val / 2) := by
  rw [val_main_v130_apply, val_main_v4_apply, val_main_v3_apply, val_main_v2_apply]

theorem v139_at (r : Fin 320000) :
    val_main_v139 (F := Ideal) (ix2 r (0 : Fin 1)) = BitVec.ofNat 32 (r.val / 2) := by
  have hr := r.isLt
  rw [val_main_v139_apply, val_main_v138_apply, val_main_v135_apply, val_main_v137_apply, val_main_v134_apply,
    val_main_v136_apply, val_main_c_27_apply, val_main_c_28_apply, val_main_v4_apply, val_main_v3_apply,
    val_main_v2_apply]
  show Scalar.select (IntOp.cmpi .slt (BitVec.ofNat 32 (r.val / 2)) 0#32)
    (IntOp.addi (BitVec.ofNat 32 (r.val / 2)) 160000#32) (BitVec.ofNat 32 (r.val / 2)) = BitVec.ofNat 32 (r.val / 2)
  exact nrm_of_nonneg _ _ (r.val / 2) (toInt_ofNat_small _ (by omega))

theorem v131_at (x1 : (⟨S320000x128, .f32⟩ : BufTy).Contents (Elt Ideal)) (e : Fin 160000) (q : Fin 128) :
    val_main_v131 (F := Ideal) x1 (ix2 e q)
      = x1 (ix2 (Cert.Spec.erRow (0, e)) q) + x1 (ix2 (Cert.Spec.erRow (1, e)) q) := by
  have he := e.isLt
  have h0 : val_main_v131 (F := Ideal) x1
      = Ideal.hostScatterAdd (Cert.Lib.RowPass.scD 160000 320000 128
          Facts₀.scatter_S160000x128_S320000x1_S320000x128_1_0_0_1_wf) (val_main_v129 (F := Ideal))
          (val_main_v130 (F := Ideal)) x1 := rfl
  refine (congrFun h0 (ix2 e q)).trans ?_
  refine (Cert.Lib.RowPass.sc_apply (N := 160000) (E := 320000) (W := 128)
    Facts₀.scatter_S160000x128_S320000x1_S320000x128_1_0_0_1_wf (val_main_v129 (F := Ideal))
    (val_main_v130 (F := Ideal)) x1 e q).trans ?_
  rw [val_main_v129_apply, val_main_cst_25_apply, Ideal.ofBits_def, Ideal.ofBits_zero_f32, zero_add,
    ← sum_rows_of_edge (fun r => x1 (ix2 r q)) e]
  refine Finset.sum_congr rfl fun r _ => ?_
  have hr := r.isLt
  rw [v130_at, toInt_ofNat_small _ (by omega)]
  exact if_congr Nat.cast_inj rfl rfl

theorem v133_at (x1 : (⟨S320000x128, .f32⟩ : BufTy).Contents (Elt Ideal)) (e : Fin 160000) (q : Fin 128) :
    val_main_v133 (F := Ideal) x1 (ix2 e q)
      = (x1 (ix2 (Cert.Spec.erRow (0, e)) q) + x1 (ix2 (Cert.Spec.erRow (1, e)) q)) * Cert.Spec.half := by
  rw [val_main_v133_apply, v131_at, val_main_v132_apply, val_main_cst_26_apply]
  rfl

theorem v140_at (x1 : (⟨S320000x128, .f32⟩ : BufTy).Contents (Elt Ideal)) (r : Fin 320000) (q : Fin 128) :
    val_main_v140 (F := Ideal) x1 (ix2 r q)
      = val_main_v133 (F := Ideal) x1 (ix2 (Cert.Spec.rSide r).2 q) := by
  have hr := r.isLt
  have h0 : val_main_v140 (F := Ideal) x1
      = Host.gather (Cert.Lib.RowPass.gaD 160000 320000 128
          Facts₀.gather_S160000x128_S320000x1_S320000x128_1_0_n_n_0_1_1128_wf) (val_main_v133 (F := Ideal) x1)
          (val_main_v139 (F := Ideal)) := rfl
  refine (congrFun h0 (ix2 r q)).trans ?_
  refine (Cert.Lib.RowPass.ga_apply (N := 160000) (E := 320000) (W := 128)
    Facts₀.gather_S160000x128_S320000x1_S320000x128_1_0_n_n_0_1_1128_wf (by decide)
    (val_main_v133 (F := Ideal) x1) (val_main_v139 (F := Ideal)) r q).trans ?_
  have hrow : min (val_main_v139 (F := Ideal) (ix2 r (0 : Fin 1))).toInt.toNat (160000 - 1) = r.val / 2 := by
    rw [v139_at, toInt_ofNat_small _ (by omega)]
    omega
  exact congrArg (fun p : Fin 160000 => val_main_v133 (F := Ideal) x1 (ix2 p q)) (Fin.ext hrow)

theorem lm_read (a : Cert.Spec.Args) :
    val_main_v141 (F := Ideal) (ofMat a.er) = ofRowsR (Cert.Spec.lm a) := by
  funext i
  obtain ⟨r, q, rfl⟩ : ∃ (r : Fin 320000) (q : Fin 256), i = ix2 r q := ⟨i 0, i 1, eq_ix2 i⟩
  have hq256 := q.isLt
  show _ = Cert.Spec.lm a (Cert.Spec.rSide r) q
  unfold val_main_v141 Cert.Spec.lm
  by_cases hq : q.val < 128
  · rw [dif_pos hq]
    refine (concatenate_pair_apply_left (s₁ := S320000x128) (s₂ := S320000x128) 1 _ _ _ (ix2 r q) rfl
      (ix2 r (⟨q.val, hq⟩ : Fin 128))
      (fun b => match b with
        | ⟨0, _⟩ => rfl
        | ⟨1, _⟩ => rfl)).trans ?_
    rw [v140_at, v133_at]
    rfl
  · rw [dif_neg hq]
    refine (concatenate_pair_apply_right (s₁ := S320000x128) (s₂ := S320000x128) 1 _ _ _ (ix2 r q) rfl rfl
      (ix2 r (⟨q.val - 128, by omega⟩ : Fin 128))
      (fun b hb => match b with
        | ⟨0, _⟩ => rfl
        | ⟨1, _⟩ => absurd rfl hb)
      (by show q.val - 128 + 128 = q.val; omega)).trans ?_
    have hr : Cert.Spec.erRow (Cert.Spec.rSide r) = r := Cert.Spec.rSideEquiv.left_inv r
    rw [hr]
    rfl

theorem edgeIn_read (a : Cert.Spec.Args) :
    val_main_v145 (F := Ideal) (ofMat a.nr) (ofMat a.er) (ofMat a.ei) (ofScalar a.e2) = ofRowsR (Cert.Spec.edgeIn a) := by
  funext i
  rw [val_main_v145_apply, val_main_v144_apply, val_main_v143_apply, val_main_v142_apply, val_main_cst_29_apply,
    la_read, lm_read]
  rfl

end Cert.ReferenceIdeal.RefRead

end
-- ==== Proof.RRes.lean ====
import proofs.«160401_j10462540333326_1_alg».proof.Proof.RefGen
import proofs.«160401_j10462540333326_1_alg».proof.Proof.Spec
import proofs.«160401_j10462540333326_1_alg».proof.Proof.RArgs
import proofs.«160401_j10462540333326_1_alg».proof.Proof.SpecReindex
import proofs.«160401_j10462540333326_1_alg».proof.Proof.RX0
import proofs.«160401_j10462540333326_1_alg».proof.Proof.RBN
import proofs.«160401_j10462540333326_1_alg».proof.Proof.RNode
import proofs.«160401_j10462540333326_1_alg».proof.Proof.REdge
import proofs.«160401_j10462540333326_1_alg».proof.Proof.LibRegion
set_option maxRecDepth 16384

noncomputable section

namespace Cert.ReferenceIdeal.RefRead

open Cert.ReferenceIdeal Cert.ReferenceIdeal.Gen Cert.ReferenceIdeal.Read Idealize.ShloMosaic Idealize.ShloMosaic.TcCoe
open Idealize.ShloMosaic.ValueIdx Idealize.SL.Sem
open Cert.Spec (ofMat ofVec ofRow ofScalar ofRowsK ofRowsR Side)

variable (m : (ℓ : Loc nD τ sig) → Buf (Elt Ideal) ℓ)

section ArgArrays
variable (c : Dev nD)

theorem arg0_eq : m ((c.tc : Thread nD τ).loc main_arg0) = ofMat (args m c).nr := Cert.Lib.Region.eq_ofMat _
theorem arg1_eq : m ((c.tc : Thread nD τ).loc main_arg1) = ofMat (args m c).er := Cert.Lib.Region.eq_ofMat _
theorem arg2_eq : m ((c.tc : Thread nD τ).loc main_arg2) = ofMat (args m c).ei := Cert.Lib.Region.eq_ofMat _
theorem arg3_eq : m ((c.tc : Thread nD τ).loc main_arg3) = ofMat (args m c).lw1 := Cert.Lib.Region.eq_ofMat _
theorem arg4_eq : m ((c.tc : Thread nD τ).loc main_arg4) = ofVec (args m c).lg1 := Cert.Lib.Region.eq_ofVec _
theorem arg5_eq : m ((c.tc : Thread nD τ).loc main_arg5) = ofVec (args m c).lb1 := Cert.Lib.Region.eq_ofVec _
theorem arg6_eq : m ((c.tc : Thread nD τ).loc main_arg6) = ofMat (args m c).lw2 := Cert.Lib.Region.eq_ofMat _
theorem arg7_eq : m ((c.tc : Thread nD τ).loc main_arg7) = ofVec (args m c).lg2 := Cert.Lib.Region.eq_ofVec _
theorem arg8_eq : m ((c.tc : Thread nD τ).loc main_arg8) = ofVec (args m c).lb2 := Cert.Lib.Region.eq_ofVec _
theorem arg9_eq : m ((c.tc : Thread nD τ).loc main_arg9) = ofMat (args m c).w1 := Cert.Lib.Region.eq_ofMat _
theorem arg10_eq : m ((c.tc : Thread nD τ).loc main_arg10) = ofVec (args m c).g1 := Cert.Lib.Region.eq_ofVec _
theorem arg11_eq : m ((c.tc : Thread nD τ).loc main_arg11) = ofVec (args m c).b1 := Cert.Lib.Region.eq_ofVec _
theorem arg12_eq : m ((c.tc : Thread nD τ).loc main_arg12) = ofMat (args m c).nw1 := Cert.Lib.Region.eq_ofMat _
theorem arg13_eq : m ((c.tc : Thread nD τ).loc main_arg13) = ofVec (args m c).ng1 := Cert.Lib.Region.eq_ofVec _
theorem arg14_eq : m ((c.tc : Thread nD τ).loc main_arg14) = ofVec (args m c).nb1 := Cert.Lib.Region.eq_ofVec _
theorem arg15_eq : m ((c.tc : Thread nD τ).loc main_arg15) = ofMat (args m c).nw2 := Cert.Lib.Region.eq_ofMat _
theorem arg16_eq : m ((c.tc : Thread nD τ).loc main_arg16) = ofVec (args m c).ng2 := Cert.Lib.Region.eq_ofVec _
theorem arg17_eq : m ((c.tc : Thread nD τ).loc main_arg17) = ofVec (args m c).nb2 := Cert.Lib.Region.eq_ofVec _
theorem arg18_eq : m ((c.tc : Thread nD τ).loc main_arg18) = ofScalar (args m c).e11 := Cert.Lib.Region.eq_ofScalar _
theorem arg19_eq : m ((c.tc : Thread nD τ).loc main_arg19) = ofScalar (args m c).e12 := Cert.Lib.Region.eq_ofScalar _
theorem arg20_eq : m ((c.tc : Thread nD τ).loc main_arg20) = ofScalar (args m c).e2 := Cert.Lib.Region.eq_ofScalar _

end ArgArrays

theorem block_rows {K C : ℕ} (n : EReal) (X : Side → Fin K → EReal) (w : Fin K → Fin C → EReal) (g b : Fin C → EReal) :
    ofMat (Cert.Spec.bnR n (Cert.Spec.mm (fun (r : Fin 320000) q => X (Cert.Spec.rSide r) q) w) g b)
      = ofRowsR (Cert.Spec.bn .r n (Cert.Spec.mm X w) g b) := by
  have h := Cert.Spec.bnR_rSide n (Cert.Spec.mm X w) g b
  show ofMat (Cert.Spec.bnR n (fun r : Fin 320000 => Cert.Spec.mm X w (Cert.Spec.rSide r)) g b) = _
  rw [h]
  rfl

section Chains
variable (a : Cert.Spec.Args)

theorem h_read :
    val_main_v50 (F := Ideal) (ofMat a.nr) (ofMat a.er) (ofMat a.ei) (ofMat a.w1) (ofVec a.g1) (ofVec a.b1)
      = ofRowsR (Cert.Spec.h a .r) := by
  have h23 : val_main_v23 (F := Ideal) (ofMat a.nr) (ofMat a.er) (ofMat a.ei)
      = ofMat (fun (r : Fin 320000) q => Cert.Spec.x0 a (Cert.Spec.rSide r) q) := x0_read a
  exact (block1 (ofMat a.nr) (ofMat a.er) (ofMat a.ei) _ a.w1 a.g1 a.b1 h23).trans
    (block_rows Cert.Spec.cRows (Cert.Spec.x0 a) a.w1 a.g1 a.b1)

theorem nodeH_read :
    val_main_v101 (F := Ideal) (ofMat a.nr) (ofMat a.er) (ofMat a.ei) (ofMat a.w1) (ofVec a.g1) (ofVec a.b1)
        (ofMat a.nw1) (ofVec a.ng1) (ofVec a.nb1) (ofScalar a.e11) (ofScalar a.e12)
      = ofMat (Cert.Spec.nodeH a .r) := by
  have h74 : val_main_v74 (F := Ideal) (ofMat a.nr) (ofMat a.er) (ofMat a.ei) (ofMat a.w1) (ofVec a.g1) (ofVec a.b1)
      (ofScalar a.e11) (ofScalar a.e12) = ofMat (Cert.Spec.nodeIn a .r) :=
    nodeIn_read a (ofMat a.w1) (ofVec a.g1) (ofVec a.b1) (Cert.Spec.h a .r) (h_read a)
  exact block2 (ofMat a.nr) (ofMat a.er) (ofMat a.ei) (ofMat a.w1) (ofVec a.g1) (ofVec a.b1) (ofScalar a.e11)
    (ofScalar a.e12) (Cert.Spec.nodeIn a .r) a.nw1 a.ng1 a.nb1 h74

theorem nodeOut_read :
    val_main_v128 (F := Ideal) (ofMat a.nr) (ofMat a.er) (ofMat a.ei) (ofMat a.w1) (ofVec a.g1) (ofVec a.b1)
        (ofMat a.nw1) (ofVec a.ng1) (ofVec a.nb1) (ofMat a.nw2) (ofVec a.ng2) (ofVec a.nb2) (ofScalar a.e11) (ofScalar a.e12)
      = ofMat (Cert.Spec.nodeOut a .r) :=
  block3 (ofMat a.nr) (ofMat a.er) (ofMat a.ei) (ofMat a.w1) (ofVec a.g1) (ofVec a.b1) (ofMat a.nw1) (ofVec a.ng1)
    (ofVec a.nb1) (ofScalar a.e11) (ofScalar a.e12) (Cert.Spec.nodeH a .r) a.nw2 a.ng2 a.nb2 (nodeH_read a)

theorem edgeH_read :
    val_main_v172 (F := Ideal) (ofMat a.nr) (ofMat a.er) (ofMat a.ei) (ofMat a.lw1) (ofVec a.lg1) (ofVec a.lb1)
        (ofScalar a.e2)
      = ofRowsR (Cert.Spec.edgeH a .r) := by
  have h145 : val_main_v145 (F := Ideal) (ofMat a.nr) (ofMat a.er) (ofMat a.ei) (ofScalar a.e2)
      = ofMat (fun (r : Fin 320000) q => Cert.Spec.edgeIn a (Cert.Spec.rSide r) q) := edgeIn_read a
  exact (block4 (ofMat a.nr) (ofMat a.er) (ofMat a.ei) (ofScalar a.e2) _ a.lw1 a.lg1 a.lb1 h145).trans
    (block_rows Cert.Spec.cRows (Cert.Spec.edgeIn a) a.lw1 a.lg1 a.lb1)

theorem edgeOut_read :
    val_main_v199 (F := Ideal) (ofMat a.nr) (ofMat a.er) (ofMat a.ei) (ofMat a.lw1) (ofVec a.lg1) (ofVec a.lb1)
        (ofMat a.lw2) (ofVec a.lg2) (ofVec a.lb2) (ofScalar a.e2)
      = ofRowsR (Cert.Spec.edgeOut a .r) := by
  have h172 : val_main_v172 (F := Ideal) (ofMat a.nr) (ofMat a.er) (ofMat a.ei) (ofMat a.lw1) (ofVec a.lg1) (ofVec a.lb1)
      (ofScalar a.e2) = ofMat (fun (r : Fin 320000) q => Cert.Spec.edgeH a .r (Cert.Spec.rSide r) q) := edgeH_read a
  exact (block5 (ofMat a.nr) (ofMat a.er) (ofMat a.ei) (ofMat a.lw1) (ofVec a.lg1) (ofVec a.lb1) (ofScalar a.e2) _
    a.lw2 a.lg2 a.lb2 h172).trans (block_rows Cert.Spec.cRows (Cert.Spec.edgeH a .r) a.lw2 a.lg2 a.lb2)

end Chains

theorem res_v128 (c : Dev nD) :
    val_main_v128 (F := Ideal) (m ((c.tc : Thread nD τ).loc main_arg0)) (m ((c.tc : Thread nD τ).loc main_arg1)) (m ((c.tc : Thread nD τ).loc main_arg2)) (m ((c.tc : Thread nD τ).loc main_arg9))
        (m ((c.tc : Thread nD τ).loc main_arg10)) (m ((c.tc : Thread nD τ).loc main_arg11)) (m ((c.tc : Thread nD τ).loc main_arg12)) (m ((c.tc : Thread nD τ).loc main_arg13))
        (m ((c.tc : Thread nD τ).loc main_arg14)) (m ((c.tc : Thread nD τ).loc main_arg15)) (m ((c.tc : Thread nD τ).loc main_arg16)) (m ((c.tc : Thread nD τ).loc main_arg17))
        (m ((c.tc : Thread nD τ).loc main_arg18)) (m ((c.tc : Thread nD τ).loc main_arg19))
      = ofMat (Cert.Spec.nodeOut (Cert.ReferenceIdeal.args m c) .r) := by
  rw [arg0_eq m c, arg1_eq m c, arg2_eq m c, arg9_eq m c, arg10_eq m c, arg11_eq m c, arg12_eq m c,
    arg13_eq m c, arg14_eq m c, arg15_eq m c, arg16_eq m c, arg17_eq m c, arg18_eq m c, arg19_eq m c]
  exact nodeOut_read (args m c)

theorem res_v199 (c : Dev nD) :
    val_main_v199 (F := Ideal) (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg20))
      = ofRowsR (Cert.Spec.edgeOut (Cert.ReferenceIdeal.args m c) .r) := by
  rw [arg0_eq m c, arg1_eq m c, arg2_eq m c, arg3_eq m c, arg4_eq m c, arg5_eq m c, arg6_eq m c,
    arg7_eq m c, arg8_eq m c, arg20_eq m c]
  exact edgeOut_read (args m c)

end Cert.ReferenceIdeal.RefRead

end
-- ==== Proof.RChunkA.lean ====
import proofs.«160401_j10462540333326_1_alg».proof.Proof.RefGen

set_option maxRecDepth 16384

noncomputable section

namespace Cert.ReferenceIdeal.RefRead

open Cert.ReferenceIdeal Cert.ReferenceIdeal.Gen Cert.ReferenceIdeal.Read Cert.ReferenceIdeal.ValueP
open Idealize.ShloMosaic Idealize.ShloMosaic.TcCoe Idealize.SL.Sem Idealize.ShloMosaic.StableHlo

variable (Wp : Valuation τ sig (Elt Ideal))

set_option maxHeartbeats 4000000 in

theorem chunk0 (x0 : (⟨S20000x128, .f32⟩ : BufTy).Contents (Elt Ideal)) (x1 : (⟨S320000x128, .f32⟩ : BufTy).Contents (Elt Ideal)) (x2 : (⟨S2x160000, .i32⟩ : BufTy).Contents (Elt Ideal)) (h0 : Wp (Proc.devRef .tc main_arg0) = x0) (h1 : Wp (Proc.devRef .tc main_arg1) = x1) (h2 : Wp (Proc.devRef .tc main_arg2) = x2) :
    after (opsC0 (F := Ideal)) Wp (Proc.devRef .tc main_v23) = val_main_v23 (F := Ideal) x0 x1 x2
    ∧ after (opsC0 (F := Ideal)) Wp (Proc.devRef .tc main_v22) = val_main_v22 (F := Ideal) x0 x2
    ∧ after (opsC0 (F := Ideal)) Wp (Proc.devRef .tc main_v1) = val_main_v1 (F := Ideal) x2
    ∧ after (opsC0 (F := Ideal)) Wp (Proc.devRef .tc main_v4) = val_main_v4 (F := Ideal) := by
  refine ⟨?_, ?_, ?_, ?_⟩
  · show after opsC0 Wp (Proc.devRef .tc main_v23) = _
    after_results
    rw [h0, h1, h2]
    rfl
  · show after opsC0 Wp (Proc.devRef .tc main_v22) = _
    after_results
    rw [h0, h2]
    rfl
  · show after opsC0 Wp (Proc.devRef .tc main_v1) = _
    after_results_simp
    rw [h2]
    rfl
  · show after opsC0 Wp (Proc.devRef .tc main_v4) = _
    after_results_simp
    rfl

theorem chunk1 (x0 : (⟨S20000x128, .f32⟩ : BufTy).Contents (Elt Ideal)) (x1 : (⟨S320000x128, .f32⟩ : BufTy).Contents (Elt Ideal)) (x2 : (⟨S2x160000, .i32⟩ : BufTy).Contents (Elt Ideal)) (x9 : (⟨S384x128, .f32⟩ : BufTy).Contents (Elt Ideal)) (x10 : (⟨S128, .f32⟩ : BufTy).Contents (Elt Ideal)) (x11 : (⟨S128, .f32⟩ : BufTy).Contents (Elt Ideal)) (h23 : Wp (Proc.devRef .tc main_v23) = val_main_v23 (F := Ideal) x0 x1 x2) (h9 : Wp (Proc.devRef .tc main_arg9) = x9) (h10 : Wp (Proc.devRef .tc main_arg10) = x10) (h11 : Wp (Proc.devRef .tc main_arg11) = x11) :
    after (opsC1 (F := Ideal)) Wp (Proc.devRef .tc main_v50) = val_main_v50 (F := Ideal) x0 x1 x2 x9 x10 x11 := by
  show after opsC1 Wp (Proc.devRef .tc main_v50) = _
  after_results_simp
  rw [h23, h9, h10, h11]
  rfl

end Cert.ReferenceIdeal.RefRead

end
-- ==== Proof.RChunkB.lean ====
import proofs.«160401_j10462540333326_1_alg».proof.Proof.RefGen

set_option maxRecDepth 16384

noncomputable section

namespace Cert.ReferenceIdeal.RefRead

open Cert.ReferenceIdeal Cert.ReferenceIdeal.Gen Cert.ReferenceIdeal.Read Cert.ReferenceIdeal.ValueP
open Idealize.ShloMosaic Idealize.ShloMosaic.TcCoe Idealize.SL.Sem Idealize.ShloMosaic.StableHlo

variable (Wp : Valuation τ sig (Elt Ideal))

theorem chunk2 (x0 : (⟨S20000x128, .f32⟩ : BufTy).Contents (Elt Ideal)) (x1 : (⟨S320000x128, .f32⟩ : BufTy).Contents (Elt Ideal)) (x2 : (⟨S2x160000, .i32⟩ : BufTy).Contents (Elt Ideal)) (x9 : (⟨S384x128, .f32⟩ : BufTy).Contents (Elt Ideal)) (x10 : (⟨S128, .f32⟩ : BufTy).Contents (Elt Ideal)) (x11 : (⟨S128, .f32⟩ : BufTy).Contents (Elt Ideal)) (x18 : (⟨S_, .f32⟩ : BufTy).Contents (Elt Ideal)) (x19 : (⟨S_, .f32⟩ : BufTy).Contents (Elt Ideal)) (h50 : Wp (Proc.devRef .tc main_v50) = val_main_v50 (F := Ideal) x0 x1 x2 x9 x10 x11)
    (h1 : Wp (Proc.devRef .tc main_v1) = val_main_v1 (F := Ideal) x2) (h4 : Wp (Proc.devRef .tc main_v4) = val_main_v4 (F := Ideal))
    (ha0 : Wp (Proc.devRef .tc main_arg0) = x0) (ha18 : Wp (Proc.devRef .tc main_arg18) = x18) (ha19 : Wp (Proc.devRef .tc main_arg19) = x19) :
    after (opsC2 (F := Ideal)) Wp (Proc.devRef .tc main_v74) = val_main_v74 (F := Ideal) x0 x1 x2 x9 x10 x11 x18 x19 := by
  show after opsC2 Wp (Proc.devRef .tc main_v74) = _
  after_results_simp
  rw [h50, h1, h4, ha0, ha18, ha19]
  rfl

theorem chunk3 (x0 : (⟨S20000x128, .f32⟩ : BufTy).Contents (Elt Ideal)) (x1 : (⟨S320000x128, .f32⟩ : BufTy).Contents (Elt Ideal)) (x2 : (⟨S2x160000, .i32⟩ : BufTy).Contents (Elt Ideal)) (x9 : (⟨S384x128, .f32⟩ : BufTy).Contents (Elt Ideal)) (x10 : (⟨S128, .f32⟩ : BufTy).Contents (Elt Ideal)) (x11 : (⟨S128, .f32⟩ : BufTy).Contents (Elt Ideal)) (x12 : (⟨S128x256, .f32⟩ : BufTy).Contents (Elt Ideal)) (x13 : (⟨S256, .f32⟩ : BufTy).Contents (Elt Ideal)) (x14 : (⟨S256, .f32⟩ : BufTy).Contents (Elt Ideal)) (x18 : (⟨S_, .f32⟩ : BufTy).Contents (Elt Ideal)) (x19 : (⟨S_, .f32⟩ : BufTy).Contents (Elt Ideal)) (h74 : Wp (Proc.devRef .tc main_v74) = val_main_v74 (F := Ideal) x0 x1 x2 x9 x10 x11 x18 x19) (h12 : Wp (Proc.devRef .tc main_arg12) = x12) (h13 : Wp (Proc.devRef .tc main_arg13) = x13) (h14 : Wp (Proc.devRef .tc main_arg14) = x14) :
    after (opsC3 (F := Ideal)) Wp (Proc.devRef .tc main_v101) = val_main_v101 (F := Ideal) x0 x1 x2 x9 x10 x11 x12 x13 x14 x18 x19 := by
  show after opsC3 Wp (Proc.devRef .tc main_v101) = _
  after_results_simp
  rw [h74, h12, h13, h14]
  rfl

theorem chunk4 (x0 : (⟨S20000x128, .f32⟩ : BufTy).Contents (Elt Ideal)) (x1 : (⟨S320000x128, .f32⟩ : BufTy).Contents (Elt Ideal)) (x2 : (⟨S2x160000, .i32⟩ : BufTy).Contents (Elt Ideal)) (x9 : (⟨S384x128, .f32⟩ : BufTy).Contents (Elt Ideal)) (x10 : (⟨S128, .f32⟩ : BufTy).Contents (Elt Ideal)) (x11 : (⟨S128, .f32⟩ : BufTy).Contents (Elt Ideal)) (x12 : (⟨S128x256, .f32⟩ : BufTy).Contents (Elt Ideal)) (x13 : (⟨S256, .f32⟩ : BufTy).Contents (Elt Ideal)) (x14 : (⟨S256, .f32⟩ : BufTy).Contents (Elt Ideal)) (x15 : (⟨S256x128, .f32⟩ : BufTy).Contents (Elt Ideal)) (x16 : (⟨S128, .f32⟩ : BufTy).Contents (Elt Ideal)) (x17 : (⟨S128, .f32⟩ : BufTy).Contents (Elt Ideal)) (x18 : (⟨S_, .f32⟩ : BufTy).Contents (Elt Ideal)) (x19 : (⟨S_, .f32⟩ : BufTy).Contents (Elt Ideal)) (h101 : Wp (Proc.devRef .tc main_v101) = val_main_v101 (F := Ideal) x0 x1 x2 x9 x10 x11 x12 x13 x14 x18 x19) (h15 : Wp (Proc.devRef .tc main_arg15) = x15) (h16 : Wp (Proc.devRef .tc main_arg16) = x16) (h17 : Wp (Proc.devRef .tc main_arg17) = x17) :
    after (opsC4 (F := Ideal)) Wp (Proc.devRef .tc main_v128) = val_main_v128 (F := Ideal) x0 x1 x2 x9 x10 x11 x12 x13 x14 x15 x16 x17 x18 x19 := by
  show after opsC4 Wp (Proc.devRef .tc main_v128) = _
  after_results_simp
  rw [h101, h15, h16, h17]
  rfl

end Cert.ReferenceIdeal.RefRead

end
-- ==== Proof.RChunkC.lean ====
import proofs.«160401_j10462540333326_1_alg».proof.Proof.RefGen

set_option maxRecDepth 16384

noncomputable section

namespace Cert.ReferenceIdeal.RefRead

open Cert.ReferenceIdeal Cert.ReferenceIdeal.Gen Cert.ReferenceIdeal.Read Cert.ReferenceIdeal.ValueP
open Idealize.ShloMosaic Idealize.ShloMosaic.TcCoe Idealize.SL.Sem Idealize.ShloMosaic.StableHlo

variable (Wp : Valuation τ sig (Elt Ideal))

theorem chunkC_concat2_congr {α : Type} (t : Shape) (a : Fin t.rank) (s s' : Shape) {x x' : s.Idx → α} {y y' : s'.Idx → α}
    (h : Shape.Concatenates [s, s'] t a) (hx : x = x') (hy : y = y') :
    concatenate t a [⟨s, x⟩, ⟨s', y⟩] h = concatenate t a [⟨s, x'⟩, ⟨s', y'⟩] h := by
  subst hx; subst hy; rfl

theorem chunk5 (x0 : (⟨S20000x128, .f32⟩ : BufTy).Contents (Elt Ideal)) (x1 : (⟨S320000x128, .f32⟩ : BufTy).Contents (Elt Ideal)) (x2 : (⟨S2x160000, .i32⟩ : BufTy).Contents (Elt Ideal)) (x20 : (⟨S_, .f32⟩ : BufTy).Contents (Elt Ideal)) (h22 : Wp (Proc.devRef .tc main_v22) = val_main_v22 (F := Ideal) x0 x2) (h4 : Wp (Proc.devRef .tc main_v4) = val_main_v4 (F := Ideal))
    (ha1 : Wp (Proc.devRef .tc main_arg1) = x1) (ha20 : Wp (Proc.devRef .tc main_arg20) = x20) :
    after (opsC5 (F := Ideal)) Wp (Proc.devRef .tc main_v145) = val_main_v145 (F := Ideal) x0 x1 x2 x20 := by

  show after opsC5 Wp (Proc.devRef .tc main_v145) = _
  after_results_simp
  rw [h22, ha20]
  unfold val_main_v145 val_main_v144 val_main_v143 val_main_v142 val_main_cst_29 val_main_v141
  refine congrArg (fun z => addf (mulf _ z) _) (chunkC_concat2_congr _ _ _ _ _ ?_ ?_)
  · after_results_simp
    rw [h4, ha1]
    rfl
  · after_results_simp
    exact ha1

theorem chunk6 (x0 : (⟨S20000x128, .f32⟩ : BufTy).Contents (Elt Ideal)) (x1 : (⟨S320000x128, .f32⟩ : BufTy).Contents (Elt Ideal)) (x2 : (⟨S2x160000, .i32⟩ : BufTy).Contents (Elt Ideal)) (x3 : (⟨S256x256, .f32⟩ : BufTy).Contents (Elt Ideal)) (x4 : (⟨S256, .f32⟩ : BufTy).Contents (Elt Ideal)) (x5 : (⟨S256, .f32⟩ : BufTy).Contents (Elt Ideal)) (x20 : (⟨S_, .f32⟩ : BufTy).Contents (Elt Ideal)) (h145 : Wp (Proc.devRef .tc main_v145) = val_main_v145 (F := Ideal) x0 x1 x2 x20) (h3 : Wp (Proc.devRef .tc main_arg3) = x3) (h4 : Wp (Proc.devRef .tc main_arg4) = x4) (h5 : Wp (Proc.devRef .tc main_arg5) = x5) :
    after (opsC6 (F := Ideal)) Wp (Proc.devRef .tc main_v172) = val_main_v172 (F := Ideal) x0 x1 x2 x3 x4 x5 x20 := by
  show after opsC6 Wp (Proc.devRef .tc main_v172) = _
  after_results_simp
  rw [h145, h3, h4, h5]
  rfl

theorem chunk7 (x0 : (⟨S20000x128, .f32⟩ : BufTy).Contents (Elt Ideal)) (x1 : (⟨S320000x128, .f32⟩ : BufTy).Contents (Elt Ideal)) (x2 : (⟨S2x160000, .i32⟩ : BufTy).Contents (Elt Ideal)) (x3 : (⟨S256x256, .f32⟩ : BufTy).Contents (Elt Ideal)) (x4 : (⟨S256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal)) (x8 : (⟨S128, .f32⟩ : BufTy).Contents (Elt Ideal)) (x20 : (⟨S_, .f32⟩ : BufTy).Contents (Elt Ideal)) (h172 : Wp (Proc.devRef .tc main_v172) = val_main_v172 (F := Ideal) x0 x1 x2 x3 x4 x5 x20) (h6 : Wp (Proc.devRef .tc main_arg6) = x6) (h7 : Wp (Proc.devRef .tc main_arg7) = x7) (h8 : Wp (Proc.devRef .tc main_arg8) = x8) :
    after (opsC7 (F := Ideal)) Wp (Proc.devRef .tc main_v199) = val_main_v199 (F := Ideal) x0 x1 x2 x3 x4 x5 x6 x7 x8 x20 := by
  show after opsC7 Wp (Proc.devRef .tc main_v199) = _
  after_results_simp
  rw [h172, h6, h7, h8]
  rfl

end Cert.ReferenceIdeal.RefRead

end
-- ==== Proof.RRun.lean ====
import proofs.«160401_j10462540333326_1_alg».proof.Proof.RefGen
import proofs.«160401_j10462540333326_1_alg».proof.Proof.RChunkA
import proofs.«160401_j10462540333326_1_alg».proof.Proof.RChunkB
import proofs.«160401_j10462540333326_1_alg».proof.Proof.RChunkC

set_option maxRecDepth 16384

noncomputable section

namespace Cert.ReferenceIdeal.RefRead

open Cert.ReferenceIdeal Cert.ReferenceIdeal.Gen Cert.ReferenceIdeal.Read Cert.ReferenceIdeal.ValueP
open Idealize.ShloMosaic Idealize.ShloMosaic.TcCoe Idealize.SL.Sem Idealize.ShloMosaic.StableHlo

/-- What each of the eight pieces writes. Every operation writes one buffer, its result, so a buffer outside a piece's list is unchanged by it. -/
noncomputable def wC0 : List (Ref sig .tc) :=
  [
    main_v0, main_v1, main_v2, main_v3, main_v4, main_c, main_v5, main_v6, main_c_0, main_v7, main_v8,
    main_v9, main_v10, main_v11, main_cst, main_v12, main_v13, main_v14, main_c_1, main_v15, main_v16,
    main_c_2, main_v17, main_v18, main_v19, main_v20, main_v21, main_v22, main_v23 ]

theorem keepC0 (V : Valuation τ sig (Elt Ideal)) {r : Ref sig .tc} (hr : r ∉ wC0) :
    after (opsC0 (F := Ideal)) V (Proc.devRef .tc r) = V (Proc.devRef .tc r) :=
  after_of_writes_sub _ V (by
    simp only [List.Forall, nullary_writes, unary_writes, binary_writes, ternary_writes, reshape_writes,
      Finset.singleton_subset_iff, List.mem_toFinset]
    repeat' apply And.intro
    all_goals exact List.mem_map_of_mem (by decide)) hr

noncomputable def wC1 : List (Ref sig .tc) :=
  [
    main_v24, main_cst_3, main_v25, main_cst_4, main_v26, main_v27, main_v28, main_v29, main_v30, main_v31,
    main_cst_5, main_v32, main_cst_6, main_v33, main_v34, main_v35, main_v36, main_v37, main_cst_7, main_v38,
    main_v39, main_v40, main_v41, main_v42, main_v43, main_v44, main_v45, main_v46, main_v47, main_v48,
    main_v49, main_call0_cst, main_call0_v0, main_v50 ]

theorem keepC1 (V : Valuation τ sig (Elt Ideal)) {r : Ref sig .tc} (hr : r ∉ wC1) :
    after (opsC1 (F := Ideal)) V (Proc.devRef .tc r) = V (Proc.devRef .tc r) :=
  after_of_writes_sub _ V (by
    simp only [List.Forall, nullary_writes, unary_writes, binary_writes, ternary_writes, reshape_writes,
      Finset.singleton_subset_iff, List.mem_toFinset]
    repeat' apply And.intro
    all_goals exact List.mem_map_of_mem (by decide)) hr

noncomputable def wC2 : List (Ref sig .tc) :=
  [
    main_cst_8, main_v51, main_v52, main_v53, main_cst_9, main_v54, main_v55, main_v56, main_c_10, main_v57,
    main_v58, main_c_11, main_v59, main_v60, main_v61, main_v62, main_v63, main_cst_12, main_v64, main_v65,
    main_v66, main_cst_13, main_v67, main_v68, main_v69, main_cst_14, main_v70, main_v71, main_v72, main_v73,
    main_v74 ]

theorem keepC2 (V : Valuation τ sig (Elt Ideal)) {r : Ref sig .tc} (hr : r ∉ wC2) :
    after (opsC2 (F := Ideal)) V (Proc.devRef .tc r) = V (Proc.devRef .tc r) :=
  after_of_writes_sub _ V (by
    simp only [List.Forall, nullary_writes, unary_writes, binary_writes, ternary_writes, reshape_writes,
      Finset.singleton_subset_iff, List.mem_toFinset]
    repeat' apply And.intro
    all_goals exact List.mem_map_of_mem (by decide)) hr

noncomputable def wC3 : List (Ref sig .tc) :=
  [
    main_v75, main_cst_15, main_v76, main_cst_16, main_v77, main_v78, main_v79, main_v80, main_v81, main_v82,
    main_cst_17, main_v83, main_cst_18, main_v84, main_v85, main_v86, main_v87, main_v88, main_cst_19,
    main_v89, main_v90, main_v91, main_v92, main_v93, main_v94, main_v95, main_v96, main_v97, main_v98,
    main_v99, main_v100, main_call1_cst, main_call1_v0, main_v101 ]

theorem keepC3 (V : Valuation τ sig (Elt Ideal)) {r : Ref sig .tc} (hr : r ∉ wC3) :
    after (opsC3 (F := Ideal)) V (Proc.devRef .tc r) = V (Proc.devRef .tc r) :=
  after_of_writes_sub _ V (by
    simp only [List.Forall, nullary_writes, unary_writes, binary_writes, ternary_writes, reshape_writes,
      Finset.singleton_subset_iff, List.mem_toFinset]
    repeat' apply And.intro
    all_goals exact List.mem_map_of_mem (by decide)) hr

noncomputable def wC4 : List (Ref sig .tc) :=
  [
    main_v102, main_cst_20, main_v103, main_cst_21, main_v104, main_v105, main_v106, main_v107, main_v108,
    main_v109, main_cst_22, main_v110, main_cst_23, main_v111, main_v112, main_v113, main_v114, main_v115,
    main_cst_24, main_v116, main_v117, main_v118, main_v119, main_v120, main_v121, main_v122, main_v123,
    main_v124, main_v125, main_v126, main_v127, main_call2_cst, main_call2_v0, main_v128 ]

theorem keepC4 (V : Valuation τ sig (Elt Ideal)) {r : Ref sig .tc} (hr : r ∉ wC4) :
    after (opsC4 (F := Ideal)) V (Proc.devRef .tc r) = V (Proc.devRef .tc r) :=
  after_of_writes_sub _ V (by
    simp only [List.Forall, nullary_writes, unary_writes, binary_writes, ternary_writes, reshape_writes,
      Finset.singleton_subset_iff, List.mem_toFinset]
    repeat' apply And.intro
    all_goals exact List.mem_map_of_mem (by decide)) hr

noncomputable def wC5 : List (Ref sig .tc) :=
  [
    main_cst_25, main_v129, main_v130, main_v131, main_cst_26, main_v132, main_v133, main_c_27, main_v134,
    main_v135, main_c_28, main_v136, main_v137, main_v138, main_v139, main_v140, main_v141, main_cst_29,
    main_v142, main_v143, main_v144, main_v145 ]

theorem keepC5 (V : Valuation τ sig (Elt Ideal)) {r : Ref sig .tc} (hr : r ∉ wC5) :
    after (opsC5 (F := Ideal)) V (Proc.devRef .tc r) = V (Proc.devRef .tc r) :=
  after_of_writes_sub _ V (by
    simp only [List.Forall, nullary_writes, unary_writes, binary_writes, ternary_writes, reshape_writes,
      Finset.singleton_subset_iff, List.mem_toFinset]
    repeat' apply And.intro
    all_goals exact List.mem_map_of_mem (by decide)) hr

noncomputable def wC6 : List (Ref sig .tc) :=
  [
    main_v146, main_cst_30, main_v147, main_cst_31, main_v148, main_v149, main_v150, main_v151, main_v152,
    main_v153, main_cst_32, main_v154, main_cst_33, main_v155, main_v156, main_v157, main_v158, main_v159,
    main_cst_34, main_v160, main_v161, main_v162, main_v163, main_v164, main_v165, main_v166, main_v167,
    main_v168, main_v169, main_v170, main_v171, main_call3_cst, main_call3_v0, main_v172 ]

theorem keepC6 (V : Valuation τ sig (Elt Ideal)) {r : Ref sig .tc} (hr : r ∉ wC6) :
    after (opsC6 (F := Ideal)) V (Proc.devRef .tc r) = V (Proc.devRef .tc r) :=
  after_of_writes_sub _ V (by
    simp only [List.Forall, nullary_writes, unary_writes, binary_writes, ternary_writes, reshape_writes,
      Finset.singleton_subset_iff, List.mem_toFinset]
    repeat' apply And.intro
    all_goals exact List.mem_map_of_mem (by decide)) hr

noncomputable def wC7 : List (Ref sig .tc) :=
  [
    main_v173, main_cst_35, main_v174, main_cst_36, main_v175, main_v176, main_v177, main_v178, main_v179,
    main_v180, main_cst_37, main_v181, main_cst_38, main_v182, main_v183, main_v184, main_v185, main_v186,
    main_cst_39, main_v187, main_v188, main_v189, main_v190, main_v191, main_v192, main_v193, main_v194,
    main_v195, main_v196, main_v197, main_v198, main_call4_cst, main_call4_v0, main_v199 ]

theorem keepC7 (V : Valuation τ sig (Elt Ideal)) {r : Ref sig .tc} (hr : r ∉ wC7) :
    after (opsC7 (F := Ideal)) V (Proc.devRef .tc r) = V (Proc.devRef .tc r) :=
  after_of_writes_sub _ V (by
    simp only [List.Forall, nullary_writes, unary_writes, binary_writes, ternary_writes, reshape_writes,
      Finset.singleton_subset_iff, List.mem_toFinset]
    repeat' apply And.intro
    all_goals exact List.mem_map_of_mem (by decide)) hr

/-- Running a concatenation is running its parts in turn. -/
theorem after_app : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_app l₁ l₂]

theorem after_ops (V : Valuation τ sig (Elt Ideal)) :
    after (ops (F := Ideal)) V
      = after opsC7 (after opsC6 (after opsC5 (after opsC4 (after opsC3 (after opsC2 (after opsC1 (after opsC0 V))))))) :=
  (congrArg (fun l => after l V) (ops_split (F := Ideal))).trans <|
  (after_app _ opsC7 V).trans <| congrArg (after opsC7) <|
  (after_app _ opsC6 V).trans <| congrArg (after opsC6) <|
  (after_app _ opsC5 V).trans <| congrArg (after opsC5) <|
  (after_app _ opsC4 V).trans <| congrArg (after opsC4) <|
  (after_app _ opsC3 V).trans <| congrArg (after opsC3) <|
  (after_app _ opsC2 V).trans <| congrArg (after opsC2) <|
  after_app opsC0 opsC1 V

/-- A buffer none of the eight pieces writes: every argument is one. -/
abbrev Free (r : Ref sig .tc) : Prop :=
  r ∉ wC0 ∧ r ∉ wC1 ∧ r ∉ wC2 ∧ r ∉ wC3 ∧ r ∉ wC4 ∧ r ∉ wC5 ∧ r ∉ wC6 ∧ r ∉ wC7

theorem free_arg0 : Free main_arg0 := by decide
theorem free_arg1 : Free main_arg1 := by decide
theorem free_arg2 : Free main_arg2 := by decide
theorem free_arg3 : Free main_arg3 := by decide
theorem free_arg4 : Free main_arg4 := by decide
theorem free_arg5 : Free main_arg5 := by decide
theorem free_arg6 : Free main_arg6 := by decide
theorem free_arg7 : Free main_arg7 := by decide
theorem free_arg8 : Free main_arg8 := by decide
theorem free_arg9 : Free main_arg9 := by decide
theorem free_arg10 : Free main_arg10 := by decide
theorem free_arg11 : Free main_arg11 := by decide
theorem free_arg12 : Free main_arg12 := by decide
theorem free_arg13 : Free main_arg13 := by decide
theorem free_arg14 : Free main_arg14 := by decide
theorem free_arg15 : Free main_arg15 := by decide
theorem free_arg16 : Free main_arg16 := by decide
theorem free_arg17 : Free main_arg17 := by decide
theorem free_arg18 : Free main_arg18 := by decide
theorem free_arg19 : Free main_arg19 := by decide
theorem free_arg20 : Free main_arg20 := by decide

/-- W1 … W8 are the contents after each piece in turn, from V. -/
structure Chain (V W1 W2 W3 W4 W5 W6 W7 W8 : Valuation τ sig (Elt Ideal)) : Prop where
  e1 : W1 = after (opsC0 (F := Ideal)) V
  e2 : W2 = after (opsC1 (F := Ideal)) W1
  e3 : W3 = after (opsC2 (F := Ideal)) W2
  e4 : W4 = after (opsC3 (F := Ideal)) W3
  e5 : W5 = after (opsC4 (F := Ideal)) W4
  e6 : W6 = after (opsC5 (F := Ideal)) W5
  e7 : W7 = after (opsC6 (F := Ideal)) W6
  e8 : W8 = after (opsC7 (F := Ideal)) W7

namespace Chain

variable {V W1 W2 W3 W4 W5 W6 W7 W8 : Valuation τ sig (Elt Ideal)} (hc : Chain V W1 W2 W3 W4 W5 W6 W7 W8)
include hc

theorem at1 {r : Ref sig .tc} (hr : Free r) : W1 (Proc.devRef .tc r) = V (Proc.devRef .tc r) :=
  (congrFun hc.e1 _).trans (keepC0 V hr.1)
theorem at2 {r : Ref sig .tc} (hr : Free r) : W2 (Proc.devRef .tc r) = V (Proc.devRef .tc r) :=
  (congrFun hc.e2 _).trans ((keepC1 W1 hr.2.1).trans (hc.at1 hr))
theorem at3 {r : Ref sig .tc} (hr : Free r) : W3 (Proc.devRef .tc r) = V (Proc.devRef .tc r) :=
  (congrFun hc.e3 _).trans ((keepC2 W2 hr.2.2.1).trans (hc.at2 hr))
theorem at4 {r : Ref sig .tc} (hr : Free r) : W4 (Proc.devRef .tc r) = V (Proc.devRef .tc r) :=
  (congrFun hc.e4 _).trans ((keepC3 W3 hr.2.2.2.1).trans (hc.at3 hr))
theorem at5 {r : Ref sig .tc} (hr : Free r) : W5 (Proc.devRef .tc r) = V (Proc.devRef .tc r) :=
  (congrFun hc.e5 _).trans ((keepC4 W4 hr.2.2.2.2.1).trans (hc.at4 hr))
theorem at6 {r : Ref sig .tc} (hr : Free r) : W6 (Proc.devRef .tc r) = V (Proc.devRef .tc r) :=
  (congrFun hc.e6 _).trans ((keepC5 W5 hr.2.2.2.2.2.1).trans (hc.at5 hr))
theorem at7 {r : Ref sig .tc} (hr : Free r) : W7 (Proc.devRef .tc r) = V (Proc.devRef .tc r) :=
  (congrFun hc.e7 _).trans ((keepC6 W6 hr.2.2.2.2.2.2.1).trans (hc.at6 hr))
theorem at8 {r : Ref sig .tc} (hr : Free r) : W8 (Proc.devRef .tc r) = V (Proc.devRef .tc r) :=
  (congrFun hc.e8 _).trans ((keepC7 W7 hr.2.2.2.2.2.2.2).trans (hc.at7 hr))

/-- Both results are stages of V's arguments: a piece's result is the stage of the same name over the results before it, and is carried unchanged across the pieces that do not write it. -/
theorem stages :
    let x0 := V (Proc.devRef .tc main_arg0)
    let x1 := V (Proc.devRef .tc main_arg1)
    let x2 := V (Proc.devRef .tc main_arg2)
    let x3 := V (Proc.devRef .tc main_arg3)
    let x4 := V (Proc.devRef .tc main_arg4)
    let x5 := V (Proc.devRef .tc main_arg5)
    let x6 := V (Proc.devRef .tc main_arg6)
    let x7 := V (Proc.devRef .tc main_arg7)
    let x8 := V (Proc.devRef .tc main_arg8)
    let x9 := V (Proc.devRef .tc main_arg9)
    let x10 := V (Proc.devRef .tc main_arg10)
    let x11 := V (Proc.devRef .tc main_arg11)
    let x12 := V (Proc.devRef .tc main_arg12)
    let x13 := V (Proc.devRef .tc main_arg13)
    let x14 := V (Proc.devRef .tc main_arg14)
    let x15 := V (Proc.devRef .tc main_arg15)
    let x16 := V (Proc.devRef .tc main_arg16)
    let x17 := V (Proc.devRef .tc main_arg17)
    let x18 := V (Proc.devRef .tc main_arg18)
    let x19 := V (Proc.devRef .tc main_arg19)
    let x20 := V (Proc.devRef .tc main_arg20)
    W8 (Proc.devRef .tc main_v128) = val_main_v128 (F := Ideal) x0 x1 x2 x9 x10 x11 x12 x13 x14 x15 x16 x17 x18 x19
    ∧ W8 (Proc.devRef .tc main_v199) = val_main_v199 (F := Ideal) x0 x1 x2 x3 x4 x5 x6 x7 x8 x20 := by
  intro x0 x1 x2 x3 x4 x5 x6 x7 x8 x9 x10 x11 x12 x13 x14 x15 x16 x17 x18 x19 x20

  obtain ⟨c23, c22, c1, c4⟩ := chunk0 V x0 x1 x2 rfl rfl rfl
  have s23 : W1 (Proc.devRef .tc main_v23) = val_main_v23 (F := Ideal) x0 x1 x2 := (congrFun hc.e1 _).trans c23
  have s22 : W1 (Proc.devRef .tc main_v22) = val_main_v22 (F := Ideal) x0 x2 := (congrFun hc.e1 _).trans c22
  have s1 : W1 (Proc.devRef .tc main_v1) = val_main_v1 (F := Ideal) x2 := (congrFun hc.e1 _).trans c1
  have s4 : W1 (Proc.devRef .tc main_v4) = val_main_v4 (F := Ideal) := (congrFun hc.e1 _).trans c4

  have s50 : W2 (Proc.devRef .tc main_v50) = val_main_v50 (F := Ideal) x0 x1 x2 x9 x10 x11 :=
    (congrFun hc.e2 _).trans (chunk1 W1 x0 x1 x2 x9 x10 x11 s23 (hc.at1 free_arg9) (hc.at1 free_arg10)
      (hc.at1 free_arg11))
  have t1 : W2 (Proc.devRef .tc main_v1) = val_main_v1 (F := Ideal) x2 :=
    (congrFun hc.e2 _).trans ((keepC1 W1 (by decide)).trans s1)
  have t4 : W2 (Proc.devRef .tc main_v4) = val_main_v4 (F := Ideal) :=
    (congrFun hc.e2 _).trans ((keepC1 W1 (by decide)).trans s4)
  have t22 : W2 (Proc.devRef .tc main_v22) = val_main_v22 (F := Ideal) x0 x2 :=
    (congrFun hc.e2 _).trans ((keepC1 W1 (by decide)).trans s22)

  have s74 : W3 (Proc.devRef .tc main_v74) = val_main_v74 (F := Ideal) x0 x1 x2 x9 x10 x11 x18 x19 :=
    (congrFun hc.e3 _).trans (chunk2 W2 x0 x1 x2 x9 x10 x11 x18 x19 s50 t1 t4 (hc.at2 free_arg0)
      (hc.at2 free_arg18) (hc.at2 free_arg19))
  have u4 : W3 (Proc.devRef .tc main_v4) = val_main_v4 (F := Ideal) :=
    (congrFun hc.e3 _).trans ((keepC2 W2 (by decide)).trans t4)
  have u22 : W3 (Proc.devRef .tc main_v22) = val_main_v22 (F := Ideal) x0 x2 :=
    (congrFun hc.e3 _).trans ((keepC2 W2 (by decide)).trans t22)

  have s101 : W4 (Proc.devRef .tc main_v101) = val_main_v101 (F := Ideal) x0 x1 x2 x9 x10 x11 x12 x13 x14 x18 x19 :=
    (congrFun hc.e4 _).trans (chunk3 W3 x0 x1 x2 x9 x10 x11 x12 x13 x14 x18 x19 s74 (hc.at3 free_arg12)
      (hc.at3 free_arg13) (hc.at3 free_arg14))
  have v4 : W4 (Proc.devRef .tc main_v4) = val_main_v4 (F := Ideal) :=
    (congrFun hc.e4 _).trans ((keepC3 W3 (by decide)).trans u4)
  have v22 : W4 (Proc.devRef .tc main_v22) = val_main_v22 (F := Ideal) x0 x2 :=
    (congrFun hc.e4 _).trans ((keepC3 W3 (by decide)).trans u22)

  have s128 : W5 (Proc.devRef .tc main_v128) = val_main_v128 (F := Ideal) x0 x1 x2 x9 x10 x11 x12 x13 x14 x15 x16 x17 x18 x19 :=
    (congrFun hc.e5 _).trans (chunk4 W4 x0 x1 x2 x9 x10 x11 x12 x13 x14 x15 x16 x17 x18 x19 s101 (hc.at4 free_arg15)
      (hc.at4 free_arg16) (hc.at4 free_arg17))
  have w4 : W5 (Proc.devRef .tc main_v4) = val_main_v4 (F := Ideal) :=
    (congrFun hc.e5 _).trans ((keepC4 W4 (by decide)).trans v4)
  have w22 : W5 (Proc.devRef .tc main_v22) = val_main_v22 (F := Ideal) x0 x2 :=
    (congrFun hc.e5 _).trans ((keepC4 W4 (by decide)).trans v22)

  have s145 : W6 (Proc.devRef .tc main_v145) = val_main_v145 (F := Ideal) x0 x1 x2 x20 :=
    (congrFun hc.e6 _).trans (chunk5 W5 x0 x1 x2 x20 w22 w4 (hc.at5 free_arg1) (hc.at5 free_arg20))
  have p128 : W6 (Proc.devRef .tc main_v128) = val_main_v128 (F := Ideal) x0 x1 x2 x9 x10 x11 x12 x13 x14 x15 x16 x17 x18 x19 :=
    (congrFun hc.e6 _).trans ((keepC5 W5 (by decide)).trans s128)

  have s172 : W7 (Proc.devRef .tc main_v172) = val_main_v172 (F := Ideal) x0 x1 x2 x3 x4 x5 x20 :=
    (congrFun hc.e7 _).trans (chunk6 W6 x0 x1 x2 x3 x4 x5 x20 s145 (hc.at6 free_arg3) (hc.at6 free_arg4)
      (hc.at6 free_arg5))
  have q128 : W7 (Proc.devRef .tc main_v128) = val_main_v128 (F := Ideal) x0 x1 x2 x9 x10 x11 x12 x13 x14 x15 x16 x17 x18 x19 :=
    (congrFun hc.e7 _).trans ((keepC6 W6 (by decide)).trans p128)

  have s199 : W8 (Proc.devRef .tc main_v199) = val_main_v199 (F := Ideal) x0 x1 x2 x3 x4 x5 x6 x7 x8 x20 :=
    (congrFun hc.e8 _).trans (chunk7 W7 x0 x1 x2 x3 x4 x5 x6 x7 x8 x20 s172 (hc.at7 free_arg6) (hc.at7 free_arg7)
      (hc.at7 free_arg8))
  exact ⟨(congrFun hc.e8 _).trans ((keepC7 W7 (by decide)).trans q128), s199⟩

end Chain

theorem chain_ops (V : Valuation τ sig (Elt Ideal)) :
    Chain V (after opsC0 V) (after opsC1 (after opsC0 V)) (after opsC2 (after opsC1 (after opsC0 V)))
      (after opsC3 (after opsC2 (after opsC1 (after opsC0 V))))
      (after opsC4 (after opsC3 (after opsC2 (after opsC1 (after opsC0 V)))))
      (after opsC5 (after opsC4 (after opsC3 (after opsC2 (after opsC1 (after opsC0 V))))))
      (after opsC6 (after opsC5 (after opsC4 (after opsC3 (after opsC2 (after opsC1 (after opsC0 V)))))))
      (after (ops (F := Ideal)) V) :=
  ⟨rfl, rfl, rfl, rfl, rfl, rfl, rfl, after_ops V⟩

theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v128) = val_main_v128 (F := Ideal) (m ((c.tc : Thread nD τ).loc main_arg0)) (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_v199) = val_main_v199 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg20))
      ∧ ∀ {b : Ref sig .tc}, Free b → r.2.mem ((c.tc : Thread nD τ).loc b) = m ((c.tc : Thread nD τ).loc b) :=
  (θ_run defs _ _).mono (fun r h c =>
    have hc := chain_ops (launchContents m c)
    ⟨(h c main_v128).trans hc.stages.1, (h c main_v199).trans hc.stages.2, fun {b} hb => (h c b).trans (hc.at8 hb)⟩)
    (run_after (F := Ideal) m ρ)

end Cert.ReferenceIdeal.RefRead

end
-- ==== Proof.SpecBN.lean ====
import proofs.«160401_j10462540333326_1_alg».proof.Proof.Spec

noncomputable section

namespace Cert.Spec

open Idealize.ShloMosaic

def Reals2 {ι : Type} {C : ℕ} (y : ι → Fin C → EReal) : Prop := ∀ p q, ∃ r : ℝ, y p q = (r : EReal)

def Reals1 {C : ℕ} (g : Fin C → EReal) : Prop := ∀ q, ∃ r : ℝ, g q = (r : EReal)

theorem zero_eq : zero = 0 := by
  simp [zero, Ideal.ofBits, Ideal.ieee]

theorem one_eq : one = ((1 : ℝ) : EReal) := by
  simp [one, Ideal.ofBits, Ideal.ieee, -EReal.coe_mul]; norm_num

theorem half_eq : half = ((1 / 2 : ℝ) : EReal) := by
  simp [half, Ideal.ofBits, Ideal.ieee, -EReal.coe_mul]; norm_num

theorem eps_eq : eps = (((10995116 : ℝ) * (2 : ℝ) ^ (-40 : ℤ) : ℝ) : EReal) := by
  simp [eps, Ideal.ofBits, Ideal.ieee, -EReal.coe_mul]
theorem one_real : ∃ r : ℝ, one = (r : EReal) := ⟨_, one_eq⟩
theorem half_real : ∃ r : ℝ, half = (r : EReal) := ⟨_, half_eq⟩
theorem eps_pos : ∃ r : ℝ, 0 < r ∧ eps = (r : EReal) := ⟨_, by positivity, eps_eq⟩
theorem cRows_eq : cRows = (((320000 : ℕ) : ℝ) : EReal) := by
  simp [cRows, Ideal.ofBits, Ideal.ieee, -EReal.coe_mul]; norm_num
theorem cNodes_eq : cNodes = (((20000 : ℕ) : ℝ) : EReal) := by
  simp [cNodes, Ideal.ofBits, Ideal.ieee, -EReal.coe_mul]; norm_num

theorem coe_sum {α : Type} (s : Finset α) (f : α → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

theorem div_real (x : ℝ) {N : ℝ} (hN : N ≠ 0) :
    Ideal.div (x : EReal) (N : EReal) = ((x * (1 / N) : ℝ) : EReal) := by
  rw [Ideal.div_coe hN, ← EReal.coe_mul]

theorem rsqrt_real {r : ℝ} (hr : 0 < r) : Ideal.rsqrt (r : EReal) = (((Real.sqrt r)⁻¹ : ℝ) : EReal) := by
  rw [Ideal.rsqrt_coe, if_neg (not_lt.mpr hr.le), if_neg hr.ne']

theorem max_zero_real (r : ℝ) : max (r : EReal) zero = ((max r 0 : ℝ) : EReal) := by
  rw [zero_eq, ← EReal.coe_zero]
  exact (EReal.coe_strictMono.monotone.map_max).symm

section RealAlgebra
variable {ι : Type} [Fintype ι]

theorem real_sq_expand (Y : ι → ℝ) (m : ℝ) :
    (∑ p, (Y p - m) * (Y p - m))
      = (∑ p, Y p * Y p) - 2 * m * (∑ p, Y p) + (Fintype.card ι : ℝ) * (m * m) := by
  have h : ∀ p, (Y p - m) * (Y p - m) = Y p * Y p - 2 * m * Y p + m * m := fun p => by ring
  simp only [h, Finset.sum_add_distrib, Finset.sum_sub_distrib, ← Finset.mul_sum, Finset.sum_const,
    Finset.card_univ, nsmul_eq_mul]
  ring

theorem real_var_eq (Y : ι → ℝ) (N : ℝ) (hN : N ≠ 0) (hcard : (Fintype.card ι : ℝ) = N) :
    (∑ p, (Y p - (∑ p, Y p) * (1 / N)) * (Y p - (∑ p, Y p) * (1 / N))) * (1 / N)
      = (∑ p, Y p * Y p) * (1 / N) - (∑ p, Y p) * (1 / N) * ((∑ p, Y p) * (1 / N)) := by
  rw [real_sq_expand, hcard]
  field_simp
  ring

theorem real_var_nonneg (Y : ι → ℝ) (m N : ℝ) (hN : 0 < N) :
    0 ≤ (∑ p, (Y p - m) * (Y p - m)) * (1 / N) :=
  mul_nonneg (Finset.sum_nonneg fun p _ => mul_self_nonneg _) (by positivity)

theorem real_affine (y m r g b : ℝ) : y * (g * r) + (b - m * (g * r)) = ((y - m) * r) * g + b := by ring

end RealAlgebra

variable {ι : Type} [Fintype ι] {K C : ℕ}

def bnRe (N ε : ℝ) (Y : ι → Fin C → ℝ) (G B : Fin C → ℝ) (p : ι) (q : Fin C) : ℝ :=
  max ((((Y p q - (∑ p, Y p q) * (1 / N))
    * (Real.sqrt ((∑ p, (Y p q - (∑ p, Y p q) * (1 / N)) * (Y p q - (∑ p, Y p q) * (1 / N))) * (1 / N) + ε))⁻¹)
    * G q) + B q) 0

theorem colSum_coe (Y : ι → Fin C → ℝ) (q : Fin C) :
    colSum (fun p q => (Y p q : EReal)) q = ((∑ p, Y p q : ℝ) : EReal) := by
  unfold colSum; exact (coe_sum _ _).symm

theorem colSq_coe (Y : ι → Fin C → ℝ) (q : Fin C) :
    colSq (fun p q => (Y p q : EReal)) q = ((∑ p, Y p q * Y p q : ℝ) : EReal) := by
  unfold colSq; simp only [← EReal.coe_mul]; exact (coe_sum _ _).symm

theorem rMean_coe {N : ℝ} (hN : N ≠ 0) (Y : ι → Fin C → ℝ) (q : Fin C) :
    rMean (N : EReal) (fun p q => (Y p q : EReal)) q = (((∑ p, Y p q) * (1 / N) : ℝ) : EReal) := by
  unfold rMean; rw [← coe_sum, div_real _ hN]

theorem rVar_coe {N : ℝ} (hN : N ≠ 0) (Y : ι → Fin C → ℝ) (q : Fin C) :
    rVar (N : EReal) (fun p q => (Y p q : EReal)) q
      = (((∑ p, (Y p q - (∑ p, Y p q) * (1 / N)) * (Y p q - (∑ p, Y p q) * (1 / N))) * (1 / N) : ℝ) : EReal) := by
  unfold rVar; rw [rMean_coe hN]
  simp only [← EReal.coe_sub, ← EReal.coe_mul]
  rw [← coe_sum, div_real _ hN]

theorem bnR_coe {N ε : ℝ} (hN : 0 < N) (hε : 0 < ε) (heps : eps = (ε : EReal))
    (Y : ι → Fin C → ℝ) (G B : Fin C → ℝ) (p : ι) (q : Fin C) :
    bnR (N : EReal) (fun p q => (Y p q : EReal)) (fun q => (G q : EReal)) (fun q => (B q : EReal)) p q
      = ((bnRe N ε Y G B p q : ℝ) : EReal) := by
  have hpos : 0 < (∑ p, (Y p q - (∑ p, Y p q) * (1 / N)) * (Y p q - (∑ p, Y p q) * (1 / N))) * (1 / N) + ε :=
    add_pos_of_nonneg_of_pos (real_var_nonneg _ _ _ hN) hε
  unfold bnR bnRe
  rw [rMean_coe hN.ne', rVar_coe hN.ne', heps, ← EReal.coe_add, rsqrt_real hpos, ← EReal.coe_sub,
    ← EReal.coe_mul, ← EReal.coe_mul, ← EReal.coe_add, max_zero_real]

theorem bnK_coe {N ε : ℝ} (hN : 0 < N) (hcard : (Fintype.card ι : ℝ) = N) (hε : 0 < ε) (heps : eps = (ε : EReal))
    (Y : ι → Fin C → ℝ) (G B : Fin C → ℝ) (p : ι) (q : Fin C) :
    bnK (N : EReal) (fun p q => (Y p q : EReal)) (fun q => (G q : EReal)) (fun q => (B q : EReal)) p q
      = ((bnRe N ε Y G B p q : ℝ) : EReal) := by
  have hv := real_var_eq (fun p => Y p q) N hN.ne' hcard
  have hpos : 0 < (∑ p, Y p q * Y p q) * (1 / N) - (∑ p, Y p q) * (1 / N) * ((∑ p, Y p q) * (1 / N)) + ε := by
    rw [← hv]; exact add_pos_of_nonneg_of_pos (real_var_nonneg _ _ _ hN) hε
  unfold bnK affRelu kShift kScale bnRe
  rw [colSum_coe, colSq_coe, div_real _ hN.ne', div_real _ hN.ne', heps, ← EReal.coe_mul, ← EReal.coe_sub,
    ← EReal.coe_add, rsqrt_real hpos, ← EReal.coe_mul, ← EReal.coe_mul, ← EReal.coe_mul, ← EReal.coe_sub,
    ← EReal.coe_add, max_zero_real, real_affine, hv]

theorem Reals2.witness {κ : Type} {D : ℕ} {y : κ → Fin D → EReal} (hy : Reals2 y) :
    ∃ Y : κ → Fin D → ℝ, y = fun p q => (Y p q : EReal) := by
  choose Y hY using hy
  exact ⟨Y, funext fun p => funext fun q => hY p q⟩

theorem Reals1.witness {D : ℕ} {g : Fin D → EReal} (hg : Reals1 g) :
    ∃ G : Fin D → ℝ, g = fun q => (G q : EReal) := by
  choose G hG using hg
  exact ⟨G, funext fun q => hG q⟩

theorem mm_reals (x : ι → Fin K → EReal) (w : Fin K → Fin C → EReal) (hx : Reals2 x) (hw : Reals2 w) :
    Reals2 (mm x w) := by
  obtain ⟨X, rfl⟩ := hx.witness
  obtain ⟨W, rfl⟩ := hw.witness
  intro p q
  refine ⟨∑ k, X p k * W k q, ?_⟩
  unfold mm
  simp only [← EReal.coe_mul]
  exact (coe_sum _ _).symm

theorem bnR_reals (n : EReal) (N : ℕ) (hN : 0 < N) (hn : n = (((N : ℕ) : ℝ) : EReal))
    (y : ι → Fin C → EReal) (g b : Fin C → EReal) (hy : Reals2 y) (hg : Reals1 g) (hb : Reals1 b) :
    Reals2 (bnR n y g b) := by
  obtain ⟨Y, rfl⟩ := hy.witness
  obtain ⟨G, rfl⟩ := hg.witness
  obtain ⟨B, rfl⟩ := hb.witness
  obtain ⟨ε, hε, heps⟩ := eps_pos
  subst hn
  intro p q
  exact ⟨_, bnR_coe (Nat.cast_pos.mpr hN) hε heps Y G B p q⟩

theorem bnK_eq_bnR (n : EReal) (N : ℕ) (hN : 0 < N) (hn : n = (((N : ℕ) : ℝ) : EReal)) (hcard : Fintype.card ι = N)
    (y : ι → Fin C → EReal) (g b : Fin C → EReal) (hy : Reals2 y) (hg : Reals1 g) (hb : Reals1 b) :
    bnK n y g b = bnR n y g b := by
  obtain ⟨Y, rfl⟩ := hy.witness
  obtain ⟨G, rfl⟩ := hg.witness
  obtain ⟨B, rfl⟩ := hb.witness
  obtain ⟨ε, hε, heps⟩ := eps_pos
  subst hn
  have hN' : (0 : ℝ) < (N : ℝ) := Nat.cast_pos.mpr hN
  have hc : (Fintype.card ι : ℝ) = (N : ℝ) := by rw [hcard]
  funext p q
  rw [bnK_coe hN' hc hε heps, bnR_coe hN' hε heps]

end Cert.Spec

end
-- ==== Proof.SpecPipe.lean ====
import proofs.«160401_j10462540333326_1_alg».proof.Proof.Spec
import proofs.«160401_j10462540333326_1_alg».proof.Proof.SpecBN

noncomputable section

namespace Cert.Spec

open Idealize.ShloMosaic

theorem real_add {x y : EReal} (hx : ∃ r : ℝ, x = (r : EReal)) (hy : ∃ r : ℝ, y = (r : EReal)) :
    ∃ r : ℝ, x + y = (r : EReal) := by
  obtain ⟨r, rfl⟩ := hx
  obtain ⟨s, rfl⟩ := hy
  exact ⟨r + s, (EReal.coe_add r s).symm⟩

theorem real_mul {x y : EReal} (hx : ∃ r : ℝ, x = (r : EReal)) (hy : ∃ r : ℝ, y = (r : EReal)) :
    ∃ r : ℝ, x * y = (r : EReal) := by
  obtain ⟨r, rfl⟩ := hx
  obtain ⟨s, rfl⟩ := hy
  exact ⟨r * s, (EReal.coe_mul r s).symm⟩

theorem real_zero : ∃ r : ℝ, (0 : EReal) = (r : EReal) := ⟨0, EReal.coe_zero.symm⟩

theorem real_sum {κ : Type} (s : Finset κ) (F : κ → EReal) (hF : ∀ i ∈ s, ∃ r : ℝ, F i = (r : EReal)) :
    ∃ r : ℝ, ∑ i ∈ s, F i = (r : EReal) :=
  Finset.sum_induction F (fun x => ∃ r : ℝ, x = (r : EReal)) (fun _ _ => real_add) real_zero hF

theorem bn_block {ι : Type} [Fintype ι] {C : ℕ} (n : EReal) (N : ℕ) (hN : 0 < N)
    (hn : n = (((N : ℕ) : ℝ) : EReal)) (hcard : Fintype.card ι = N)
    (y : ι → Fin C → EReal) (gm bt : Fin C → EReal) (hy : Reals2 y) (hg : Reals1 gm) (hb : Reals1 bt) :
    bn .k n y gm bt = bn .r n y gm bt ∧ Reals2 (bn .r n y gm bt) :=
  ⟨bnK_eq_bnR n N hN hn hcard y gm bt hy hg hb, bnR_reals n N hN hn y gm bt hy hg hb⟩

theorem card_side : Fintype.card Side = 320000 := by
  simp [Fintype.card_prod, Fintype.card_fin]

theorem card_node : Fintype.card (Fin 20000) = 20000 := Fintype.card_fin 20000

section Inputs
variable (a : Args) (ha : a.Real)
include ha

theorem g_reals : Reals2 (g a) := fun _ q => ha.nr _ q

theorem dom_reals : Reals2 (dom a) := fun e q => real_add (g_reals a ha (0, e) q) (g_reals a ha (1, e) q)

theorem la_reals : Reals2 (la a) := by
  intro je q
  unfold la
  split_ifs
  · exact dom_reals a ha _ _
  · exact g_reals a ha _ _

theorem x0_reals : Reals2 (x0 a) := by
  intro je q
  unfold x0
  split_ifs
  · exact la_reals a ha _ _
  · exact ha.er _ _

theorem em_reals : Reals2 (em a) := fun _ _ => real_mul (real_add (ha.er _ _) (ha.er _ _)) half_real

theorem lm_reals : Reals2 (lm a) := by
  intro je q
  unfold lm
  split_ifs
  · exact em_reals a ha _ _
  · exact ha.er _ _

theorem edgeIn_reals : Reals2 (edgeIn a) := fun je q =>
  real_add (real_mul (real_add one_real ha.e2) (lm_reals a ha je q)) (la_reals a ha je q)

theorem nodeInOf_reals (H : Side → Fin 128 → EReal) (hH : Reals2 H) : Reals2 (nodeInOf a H) := by
  intro n q
  unfold nodeInOf
  refine real_add (real_add (real_mul (real_add one_real ha.e11) (ha.nr n q))
    (real_mul (real_add one_real ha.e12) (real_sum _ _ ?_))) (real_sum _ _ ?_)
  · intro je _
    split_ifs
    · exact hH _ _
    · exact real_zero
  · intro je _
    split_ifs
    · exact real_add (hH _ _) (hH _ _)
    · exact real_zero

theorem h_ok : h a .k = h a .r ∧ Reals2 (h a .r) := by
  unfold h
  exact bn_block cRows 320000 (by norm_num) cRows_eq card_side _ _ _
    (mm_reals _ _ (x0_reals a ha) ha.w1) ha.g1 ha.b1

theorem nodeIn_ok : nodeIn a .k = nodeIn a .r ∧ Reals2 (nodeIn a .r) := by
  unfold nodeIn
  rw [(h_ok a ha).1]
  exact ⟨rfl, nodeInOf_reals a ha _ (h_ok a ha).2⟩

theorem nodeH_ok : nodeH a .k = nodeH a .r ∧ Reals2 (nodeH a .r) := by
  unfold nodeH
  rw [(nodeIn_ok a ha).1]
  exact bn_block cNodes 20000 (by norm_num) cNodes_eq card_node _ _ _
    (mm_reals _ _ (nodeIn_ok a ha).2 ha.nw1) ha.ng1 ha.nb1

theorem nodeOut_ok : nodeOut a .k = nodeOut a .r ∧ Reals2 (nodeOut a .r) := by
  unfold nodeOut
  rw [(nodeH_ok a ha).1]
  exact bn_block cNodes 20000 (by norm_num) cNodes_eq card_node _ _ _
    (mm_reals _ _ (nodeH_ok a ha).2 ha.nw2) ha.ng2 ha.nb2

theorem edgeH_ok : edgeH a .k = edgeH a .r ∧ Reals2 (edgeH a .r) := by
  unfold edgeH
  exact bn_block cRows 320000 (by norm_num) cRows_eq card_side _ _ _
    (mm_reals _ _ (edgeIn_reals a ha) ha.lw1) ha.lg1 ha.lb1

theorem edgeOut_ok : edgeOut a .k = edgeOut a .r ∧ Reals2 (edgeOut a .r) := by
  unfold edgeOut
  rw [(edgeH_ok a ha).1]
  exact bn_block cRows 320000 (by norm_num) cRows_eq card_side _ _ _
    (mm_reals _ _ (edgeH_ok a ha).2 ha.lw2) ha.lg2 ha.lb2

end Inputs

theorem pipeline_eq (a : Args) (ha : a.Real) :
    nodeOut a .k = nodeOut a .r ∧ edgeOut a .k = edgeOut a .r :=
  ⟨(nodeOut_ok a ha).1, (edgeOut_ok a ha).1⟩

end Cert.Spec

end
-- ==== Proof.LibFiniteEntries.lean ====
import Idealize.ShloMosaic.Lib.ReduceAll
import Idealize.ShloMosaic.Lib.ValueIdx
import Idealize.ShloMosaic.PureOps.Ideal

noncomputable section

namespace Cert.Lib.FiniteEntries

open Idealize.ShloMosaic

theorem ofBits_inf_f32 : Ideal.ofBits .f32 0x7F800000#32 = ⊤ := by simp [Ideal.ofBits, Ideal.ieee]

theorem real_of_abs_lt (x : EReal) (h : Ideal.cmp .olt (max x (-x)) (Ideal.ofBits .f32 0x7F800000#32) = 1#1) :
    ∃ r : ℝ, x = (r : EReal) := by
  rw [ofBits_inf_f32] at h
  induction x using EReal.rec with
  | bot => simp [Ideal.cmp] at h
  | coe r => exact ⟨r, rfl⟩
  | top => simp [Ideal.cmp] at h

theorem reals_of_all_abs_lt {s u t : Shape} {axes : List (Fin s.rank)} [Subsingleton t.Idx] (a : FVec Ideal s .f32)
    (hb : (⟨0, ![]⟩ : Shape).BroadcastsInDim s (![] : Fin 0 → Fin s.rank)) (init : u.Idx → BitVec 1)
    (h : s.ReducesTo axes t) (hu : 0 < u.numel) (j : t.Idx)
    (e : Host.reduce IntOp.andi
        (cmpf .olt (Host.absf a) (broadcastInDim s ![] hb (constant (F := Ideal) ⟨0, ![]⟩ .f32 0x7F800000#32))) init h hu j = 1#1) :
    ∀ i, ∃ r : ℝ, a i = (r : EReal) :=
  fun i => real_of_abs_lt _ (Host.reduce_andi_all _ _ _ _ _ e i)

end Cert.Lib.FiniteEntries

end
-- ==== Proof.PreReal.lean ====
import proofs.«160401_j10462540333326_1_alg».proof.Defs
import proofs.«160401_j10462540333326_1_alg».proof.Proof.Gen.Pre_finite_inputs
import proofs.«160401_j10462540333326_1_alg».proof.Proof.KArgs
import proofs.«160401_j10462540333326_1_alg».proof.Proof.LibFiniteEntries

noncomputable section

namespace Cert.Proof

open Idealize.ShloMosaic Idealize.SL.Sem

theorem reals_of_all_abs_lt_const {s u t : Shape} {axes : List (Fin s.rank)} [Subsingleton t.Idx]
    (a : FVec Ideal s .f32) (init : u.Idx → BitVec 1) (h : s.ReducesTo axes t) (hu : 0 < u.numel) (j : t.Idx)
    (e : Host.reduce IntOp.andi
        (cmpf .olt (Host.absf a) (constant (F := Ideal) s .f32 0x7F800000#32)) init h hu j = 1#1) :
    ∀ i, ∃ r : ℝ, a i = (r : EReal) :=
  fun i => Cert.Lib.FiniteEntries.real_of_abs_lt _ (Host.reduce_andi_all _ _ _ _ _ e i)

instance subsingleton_scalarIdx : Subsingleton Cert.Pre_finite_inputs.S_.Idx :=
  ⟨fun _ _ => funext fun d => d.elim0⟩

open Cert.Pre_finite_inputs Cert.Lib.FiniteEntries in

theorem args_real (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    (Cert.KernelIdeal.args m c).Real := by

  have e := congrFun (h c) ValueIdx.ix0
  dsimp only [Cert.Pre_finite_inputs.fn, fn_part1, fn_part2, fn_part3, fn_part4, fn_part5, andi] at e
  simp only [IntOp.andi_eq_one] at e
  obtain ⟨⟨⟨⟨⟨⟨⟨⟨⟨⟨⟨⟨⟨⟨⟨⟨⟨⟨⟨e0, e1⟩, e3⟩, e4⟩, e5⟩, e6⟩, e7⟩, e8⟩, e9⟩, e10⟩, e11⟩, e12⟩, e13⟩, e14⟩, e15⟩, e16⟩,
    e17⟩, e18⟩, e19⟩, e20⟩ := e

  exact
    { nr := fun p q => reals_of_all_abs_lt _ _ _ _ _ _ e0 (ValueIdx.ix2 p q)
      er := fun p q => reals_of_all_abs_lt _ _ _ _ _ _ e1 (ValueIdx.ix2 p q)
      lw1 := fun p q => reals_of_all_abs_lt _ _ _ _ _ _ e3 (ValueIdx.ix2 p q)
      lg1 := fun q => reals_of_all_abs_lt _ _ _ _ _ _ e4 (ValueIdx.ix1 q)
      lb1 := fun q => reals_of_all_abs_lt _ _ _ _ _ _ e5 (ValueIdx.ix1 q)
      lw2 := fun p q => reals_of_all_abs_lt _ _ _ _ _ _ e6 (ValueIdx.ix2 p q)
      lg2 := fun q => reals_of_all_abs_lt _ _ _ _ _ _ e7 (ValueIdx.ix1 q)
      lb2 := fun q => reals_of_all_abs_lt _ _ _ _ _ _ e8 (ValueIdx.ix1 q)
      w1 := fun p q => reals_of_all_abs_lt _ _ _ _ _ _ e9 (ValueIdx.ix2 p q)
      g1 := fun q => reals_of_all_abs_lt _ _ _ _ _ _ e10 (ValueIdx.ix1 q)
      b1 := fun q => reals_of_all_abs_lt _ _ _ _ _ _ e11 (ValueIdx.ix1 q)
      nw1 := fun p q => reals_of_all_abs_lt _ _ _ _ _ _ e12 (ValueIdx.ix2 p q)
      ng1 := fun q => reals_of_all_abs_lt _ _ _ _ _ _ e13 (ValueIdx.ix1 q)
      nb1 := fun q => reals_of_all_abs_lt _ _ _ _ _ _ e14 (ValueIdx.ix1 q)
      nw2 := fun p q => reals_of_all_abs_lt _ _ _ _ _ _ e15 (ValueIdx.ix2 p q)
      ng2 := fun q => reals_of_all_abs_lt _ _ _ _ _ _ e16 (ValueIdx.ix1 q)
      nb2 := fun q => reals_of_all_abs_lt _ _ _ _ _ _ e17 (ValueIdx.ix1 q)
      e11 := reals_of_all_abs_lt_const _ _ _ _ _ e18 ValueIdx.ix0
      e12 := reals_of_all_abs_lt_const _ _ _ _ _ e19 ValueIdx.ix0
      e2 := reals_of_all_abs_lt_const _ _ _ _ _ e20 ValueIdx.ix0 }

end Cert.Proof

end
-- ==== Proof.lean ====
import proofs.«160401_j10462540333326_1_alg».proof.Defs
import proofs.«160401_j10462540333326_1_alg».proof.Proof.Gen.Kernel
import proofs.«160401_j10462540333326_1_alg».proof.Proof.Gen.Kernel.Skeleton
import proofs.«160401_j10462540333326_1_alg».proof.Proof.Gen.Kernel.Launch
import proofs.«160401_j10462540333326_1_alg».proof.Proof.Gen.Kernel.Points
import proofs.«160401_j10462540333326_1_alg».proof.Proof.Gen.Kernel.Frame
import proofs.«160401_j10462540333326_1_alg».proof.Proof.Gen.KernelIdeal
import proofs.«160401_j10462540333326_1_alg».proof.Proof.Gen.KernelIdeal.Skeleton
import proofs.«160401_j10462540333326_1_alg».proof.Proof.Gen.KernelIdeal.Launch
import proofs.«160401_j10462540333326_1_alg».proof.Proof.Gen.KernelIdeal.Points
import proofs.«160401_j10462540333326_1_alg».proof.Proof.Gen.KernelIdeal.Frame
import proofs.«160401_j10462540333326_1_alg».proof.Proof.Gen.ReferenceIdeal
import proofs.«160401_j10462540333326_1_alg».proof.Proof.Gen.Pre_finite_inputs
import proofs.«160401_j10462540333326_1_alg».proof.Proof.KRun
import proofs.«160401_j10462540333326_1_alg».proof.Proof.KFold
import proofs.«160401_j10462540333326_1_alg».proof.Proof.RRes
import proofs.«160401_j10462540333326_1_alg».proof.Proof.RRun
import proofs.«160401_j10462540333326_1_alg».proof.Proof.SpecPipe
import proofs.«160401_j10462540333326_1_alg».proof.Proof.PreReal
import Idealize.ShloMosaic.Adequacy
import Idealize.ShloMosaic.Init

noncomputable section

namespace Cert.Proof

open Idealize.ShloMosaic Idealize.SL.Sem Cert.ReferenceIdeal.RefRead

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference has no kernel: its frame is its run with the two results dropped. -/
theorem frame_ri : @Cert.frame_ReferenceIdeal Cert.ReferenceIdeal.Gen.facts Cert.Pre_finite_inputs.Gen.facts :=
  fun m ρ _ => (θ_run Cert.ReferenceIdeal.defs _ _).mono (fun _ h c => ⟨(h c).2.2 free_arg0, (h c).2.2 free_arg1, (h c).2.2 free_arg2, (h c).2.2 free_arg3, (h c).2.2 free_arg4, (h c).2.2 free_arg5, (h c).2.2 free_arg6, (h c).2.2 free_arg7, (h c).2.2 free_arg8, (h c).2.2 free_arg9, (h c).2.2 free_arg10, (h c).2.2 free_arg11, (h c).2.2 free_arg12, (h c).2.2 free_arg13, (h c).2.2 free_arg14, (h c).2.2 free_arg15, (h c).2.2 free_arg16, (h c).2.2 free_arg17, (h c).2.2 free_arg18, (h c).2.2 free_arg19, (h c).2.2 free_arg20⟩)
    (run_stages m ρ)

/-- Both runs end at the layer's two results, the kernel's with the normalisation folded into a scale and a shift, the reference's
    with the entries centred first; the two spellings agree on the real entries the precondition gives. -/
theorem algebraic : @Cert.algebraic_KernelIdeal_ReferenceIdeal Cert.KernelIdeal.Gen.facts Cert.ReferenceIdeal.Gen.facts Cert.Pre_finite_inputs.Gen.facts := by
  intro m ρ m' ρ' hpre hagree
  have hargs : ∀ c, Cert.ReferenceIdeal.args m' c = Cert.KernelIdeal.args m c := fun c => by
    obtain ⟨h0, h1, h2, h3, h4, h5, h6, h7, h8, h9, h10, h11, h12, h13, h14, h15, h16, h17, h18, h19, h20⟩ := hagree c
    unfold Cert.ReferenceIdeal.args Cert.KernelIdeal.args
    rw [h0, h1, h2, h3, h4, h5, h6, h7, h8, h9, h10, h11, h12, h13, h14, h15, h16, h17, h18, h19, h20]
  refine ⟨fun c => Cert.Spec.ofMat (Cert.Spec.nodeOut (Cert.KernelIdeal.args m c) .k),
    fun c => Cert.Spec.ofRowsR (Cert.Spec.edgeOut (Cert.KernelIdeal.args m c) .k), ?_, ?_⟩
  · exact (θ_run Cert.KernelIdeal.defs _ _).mono
      (fun r h c => ⟨(h c).1.trans (Cert.KernelIdeal.Gen.W19_v104 m ρ c),
        (h c).2.1.trans (Cert.KernelIdeal.Gen.W19_v158 m ρ c), (h c).2.2⟩)
      (Cert.KernelIdeal.Gen.run_values (F := Ideal) m ρ)
  · refine (θ_run Cert.ReferenceIdeal.defs _ _).mono (fun r h c => ⟨?_, ?_, ⟨(h c).2.2 free_arg0, (h c).2.2 free_arg1, (h c).2.2 free_arg2, (h c).2.2 free_arg3, (h c).2.2 free_arg4, (h c).2.2 free_arg5, (h c).2.2 free_arg6, (h c).2.2 free_arg7, (h c).2.2 free_arg8, (h c).2.2 free_arg9, (h c).2.2 free_arg10, (h c).2.2 free_arg11, (h c).2.2 free_arg12, (h c).2.2 free_arg13, (h c).2.2 free_arg14, (h c).2.2 free_arg15, (h c).2.2 free_arg16, (h c).2.2 free_arg17, (h c).2.2 free_arg18, (h c).2.2 free_arg19, (h c).2.2 free_arg20⟩⟩)
      (run_stages m' ρ')
    · rw [(h c).1, res_v128 m' c, hargs c,
        ← (Cert.Spec.pipeline_eq _ (args_real m hpre c)).1]
    · rw [(h c).2.1, res_v199 m' c, hargs c,
        ← (Cert.Spec.pipeline_eq _ (args_real m hpre c)).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
